-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024 : Shape := ⟨2, ![2, 1024]⟩
abbrev S2x216x256 : Shape := ⟨3, ![2, 216, 256]⟩
abbrev S2x216x65536 : Shape := ⟨3, ![2, 216, 65536]⟩
abbrev S_ : Shape := ⟨0, ![]⟩

class Facts : Prop where
  bcast_S_S2x216x256 : S_.BroadcastsInDim S2x216x256 (![] : Fin 0 → Fin S2x216x256.rank)
  reducesTo_S2x216x256_S_d0_1_2 : S2x216x256.ReducesTo [0, 1, 2] S_
  h_S_ : 0 < S_.numel
  bcast_S_S2x216x65536 : S_.BroadcastsInDim S2x216x65536 (![] : Fin 0 → Fin S2x216x65536.rank)
  reducesTo_S2x216x65536_S_d0_1_2 : S2x216x65536.ReducesTo [0, 1, 2] S_
  bcast_S_S2x1024 : S_.BroadcastsInDim S2x1024 (![] : Fin 0 → Fin S2x1024.rank)
  reducesTo_S2x1024_S_d0_1 : S2x1024.ReducesTo [0, 1] S_

variable [Facts]

def fn_part1 {F : FTy → Type} [FloatOps F] (main_v13 : IVec S_ 1) (main_v15 : IVec S2x1024 1) (main_c_5 : IVec S_ 1) : IVec S_ 1 :=
  let main_v16 : IVec S_ 1 := (fun x v => Host.reduce IntOp.andi x v reducesTo_S2x1024_S_d0_1 h_S_) main_v15 main_c_5
  let main_v17 : IVec S_ 1 := andi main_v13 main_v16
  main_v17

def fn {F : FTy → Type} [FloatOps F] (main_arg0 : IVec S2x1024 32) (main_arg1 : FVec F S2x216x256 .f32) (main_arg2 : FVec F S2x216x65536 .f32) (main_arg3 : FVec F S2x216x256 .f32) : IVec S_ 1 :=
  let main_v0 : FVec F S2x216x256 .f32 := Host.absf main_arg1
  let main_cst : FVec F S_ .f32 := constant S_ .f32 0x7F800000#32
  let main_v1 : FVec F S2x216x256 .f32 := broadcastInDim S2x216x256 ![] bcast_S_S2x216x256 main_cst
  let main_v2 : IVec S2x216x256 1 := cmpf .olt main_v0 main_v1
  let main_c : IVec S_ 1 := constantI S_ 1 1#1
  let main_v3 : IVec S_ 1 := (fun x v => Host.reduce IntOp.andi x v reducesTo_S2x216x256_S_d0_1_2 h_S_) main_v2 main_c
  let main_v4 : FVec F S2x216x65536 .f32 := Host.absf main_arg2
  let main_cst_0 : FVec F S_ .f32 := constant S_ .f32 0x7F800000#32
  let main_v5 : FVec F S2x216x65536 .f32 := broadcastInDim S2x216x65536 ![] bcast_S_S2x216x65536 main_cst_0
  let main_v6 : IVec S2x216x65536 1 := cmpf .olt main_v4 main_v5
  let main_c_1 : IVec S_ 1 := constantI S_ 1 1#1
  let main_v7 : IVec S_ 1 := (fun x v => Host.reduce IntOp.andi x v reducesTo_S2x216x65536_S_d0_1_2 h_S_) main_v6 main_c_1
  let main_v8 : IVec S_ 1 := andi main_v3 main_v7
  let main_v9 : FVec F S2x216x256 .f32 := Host.absf main_arg3
  let main_cst_2 : FVec F S_ .f32 := constant S_ .f32 0x7F800000#32
  let main_v10 : FVec F S2x216x256 .f32 := broadcastInDim S2x216x256 ![] bcast_S_S2x216x256 main_cst_2
  let main_v11 : IVec S2x216x256 1 := cmpf .olt main_v9 main_v10
  let main_c_3 : IVec S_ 1 := constantI S_ 1 1#1
  let main_v12 : IVec S_ 1 := (fun x v => Host.reduce IntOp.andi x v reducesTo_S2x216x256_S_d0_1_2 h_S_) main_v11 main_c_3
  let main_v13 : IVec S_ 1 := andi main_v8 main_v12
  let main_c_4 : IVec S_ 32 := constantI S_ 32 0#32
  let main_v14 : IVec S2x1024 32 := broadcastInDim S2x1024 ![] bcast_S_S2x1024 main_c_4
  let main_v15 : IVec S2x1024 1 := cmpi .sge main_arg0 main_v14
  let main_c_5 : IVec S_ 1 := constantI S_ 1 1#1
  fn_part1 (F := F) main_v13 main_v15 main_c_5
-- ==== Kernel.lean ====
abbrev S2x1024 : Shape := ⟨2, ![2, 1024]⟩
abbrev S2x216x256 : Shape := ⟨3, ![2, 216, 256]⟩
abbrev S2x216x65536 : Shape := ⟨3, ![2, 216, 65536]⟩
abbrev S_ : Shape := ⟨0, ![]⟩
abbrev S2x216x128x512 : Shape := ⟨4, ![2, 216, 128, 512]⟩
abbrev S2x1024x16 : Shape := ⟨3, ![2, 1024, 16]⟩
abbrev S1x216x256 : Shape := ⟨3, ![1, 216, 256]⟩
abbrev S1x64x16 : Shape := ⟨3, ![1, 64, 16]⟩
abbrev S64x128x512 : Shape := ⟨3, ![64, 128, 512]⟩
abbrev S64x216 : Shape := ⟨2, ![64, 216]⟩
abbrev S64 : Shape := ⟨1, ![64]⟩
abbrev S1x216 : Shape := ⟨2, ![1, 216]⟩
abbrev S216 : Shape := ⟨1, ![216]⟩
abbrev S1x1 : Shape := ⟨2, ![1, 1]⟩
abbrev S1 : Shape := ⟨1, ![1]⟩
abbrev S1x128x512 : Shape := ⟨3, ![1, 128, 512]⟩
abbrev S128x512 : Shape := ⟨2, ![128, 512]⟩
abbrev S1x1x128x512 : Shape := ⟨4, ![1, 1, 128, 512]⟩
abbrev S2x216 : Shape := ⟨2, ![2, 216]⟩
abbrev S216x256 : Shape := ⟨2, ![216, 256]⟩
abbrev S64x256 : Shape := ⟨2, ![64, 256]⟩
abbrev S64x2x128 : Shape := ⟨3, ![64, 2, 128]⟩
abbrev S64x128x2 : Shape := ⟨3, ![64, 128, 2]⟩
abbrev S64x2x512 : Shape := ⟨3, ![64, 2, 512]⟩
abbrev S64x8x128 : Shape := ⟨3, ![64, 8, 128]⟩
abbrev S64x8x2 : Shape := ⟨3, ![64, 8, 2]⟩

abbrev nBuf : Space → Nat
  | .hbm => 110
  | .vmem => 9
  | .smem => 3
  | _ => 0

abbrev bufTy : (tb : Table) → Fin (tcTables nBuf tb) → BufTy
  | .hbm, ⟨0, _⟩ => ⟨S2x1024, .i32⟩
  | .hbm, ⟨1, _⟩ => ⟨S2x216x256, .f32⟩
  | .hbm, ⟨2, _⟩ => ⟨S2x216x65536, .f32⟩
  | .hbm, ⟨3, _⟩ => ⟨S2x216x256, .f32⟩
  | .hbm, ⟨4, _⟩ => ⟨S_, .i32⟩
  | .hbm, ⟨5, _⟩ => ⟨S_, .i32⟩
  | .hbm, ⟨6, _⟩ => ⟨S2x1024, .i32⟩
  | .hbm, ⟨7, _⟩ => ⟨S2x1024, .i32⟩
  | .hbm, ⟨8, _⟩ => ⟨S2x1024, .i32⟩
  | .hbm, ⟨9, _⟩ => ⟨S_, .i32⟩
  | .hbm, ⟨10, _⟩ => ⟨S2x1024, .i32⟩
  | .hbm, ⟨11, _⟩ => ⟨S2x1024, .i1⟩
  | .hbm, ⟨12, _⟩ => ⟨S2x1024, .i32⟩
  | .hbm, ⟨13, _⟩ => ⟨S2x1024, .i32⟩
  | .hbm, ⟨14, _⟩ => ⟨S_, .i32⟩
  | .hbm, ⟨15, _⟩ => ⟨S2x1024, .i32⟩
  | .hbm, ⟨16, _⟩ => ⟨S2x1024, .i1⟩
  | .hbm, ⟨17, _⟩ => ⟨S2x1024, .i1⟩
  | .hbm, ⟨18, _⟩ => ⟨S_, .i32⟩
  | .hbm, ⟨19, _⟩ => ⟨S2x1024, .i32⟩
  | .hbm, ⟨20, _⟩ => ⟨S2x1024, .i32⟩
  | .hbm, ⟨21, _⟩ => ⟨S2x1024, .i32⟩
  | .hbm, ⟨22, _⟩ => ⟨S_, .i32⟩
  | .hbm, ⟨23, _⟩ => ⟨S_, .i32⟩
  | .hbm, ⟨24, _⟩ => ⟨S2x1024, .i32⟩
  | .hbm, ⟨25, _⟩ => ⟨S2x1024, .i32⟩
  | .hbm, ⟨26, _⟩ => ⟨S2x1024, .i32⟩
  | .hbm, ⟨27, _⟩ => ⟨S_, .i32⟩
  | .hbm, ⟨28, _⟩ => ⟨S2x1024, .i32⟩
  | .hbm, ⟨29, _⟩ => ⟨S2x1024, .i1⟩
  | .hbm, ⟨30, _⟩ => ⟨S2x1024, .i32⟩
  | .hbm, ⟨31, _⟩ => ⟨S2x1024, .i32⟩
  | .hbm, ⟨32, _⟩ => ⟨S_, .i32⟩
  | .hbm, ⟨33, _⟩ => ⟨S2x1024, .i32⟩
  | .hbm, ⟨34, _⟩ => ⟨S2x1024, .i1⟩
  | .hbm, ⟨35, _⟩ => ⟨S2x1024, .i1⟩
  | .hbm, ⟨36, _⟩ => ⟨S_, .i32⟩
  | .hbm, ⟨37, _⟩ => ⟨S2x1024, .i32⟩
  | .hbm, ⟨38, _⟩ => ⟨S2x1024, .i32⟩
  | .hbm, ⟨39, _⟩ => ⟨S2x1024, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S2x1024, .i32⟩
  | .hbm, ⟨47, _⟩ => ⟨S2x1024, .i32⟩
  | .hbm, ⟨48, _⟩ => ⟨S_, .i32⟩
  | .hbm, ⟨49, _⟩ => ⟨S2x1024, .i32⟩
  | .hbm, ⟨50, _⟩ => ⟨S2x1024, .i1⟩
  | .hbm, ⟨51, _⟩ => ⟨S_, .i32⟩
  | .hbm, ⟨52, _⟩ => ⟨S2x1024, .i32⟩
  | .hbm, ⟨53, _⟩ => ⟨S2x1024, .i1⟩
  | .hbm, ⟨54, _⟩ => ⟨S_, .i32⟩
  | .hbm, ⟨55, _⟩ => ⟨S_, .i1⟩
  | .hbm, ⟨56, _⟩ => ⟨S2x1024, .i1⟩
  | .hbm, ⟨57, _⟩ => ⟨S2x1024, .i1⟩
  | .hbm, ⟨58, _⟩ => ⟨S2x1024, .i1⟩
  | .hbm, ⟨59, _⟩ => ⟨S2x1024, .i32⟩
  | .hbm, ⟨60, _⟩ => ⟨S2x1024, .i32⟩
  | .hbm, ⟨61, _⟩ => ⟨S2x1024, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S2x1024, .i32⟩
  | .hbm, ⟨69, _⟩ => ⟨S2x1024, .i32⟩
  | .hbm, ⟨70, _⟩ => ⟨S_, .i32⟩
  | .hbm, ⟨71, _⟩ => ⟨S2x1024, .i32⟩
  | .hbm, ⟨72, _⟩ => ⟨S2x1024, .i1⟩
  | .hbm, ⟨73, _⟩ => ⟨S_, .i32⟩
  | .hbm, ⟨74, _⟩ => ⟨S2x1024, .i32⟩
  | .hbm, ⟨75, _⟩ => ⟨S2x1024, .i1⟩
  | .hbm, ⟨76, _⟩ => ⟨S_, .i32⟩
  | .hbm, ⟨77, _⟩ => ⟨S_, .i1⟩
  | .hbm, ⟨78, _⟩ => ⟨S2x1024, .i1⟩
  | .hbm, ⟨79, _⟩ => ⟨S2x1024, .i1⟩
  | .hbm, ⟨80, _⟩ => ⟨S2x1024, .i1⟩
  | .hbm, ⟨81, _⟩ => ⟨S2x1024, .i32⟩
  | .hbm, ⟨82, _⟩ => ⟨S2x1024, .i32⟩
  | .hbm, ⟨83, _⟩ => ⟨S2x1024, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S2x1024, .i32⟩
  | .hbm, ⟨88, _⟩ => ⟨S2x1024, .i32⟩
  | .hbm, ⟨89, _⟩ => ⟨S_, .i32⟩
  | .hbm, ⟨90, _⟩ => ⟨S2x1024, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S2x1024, .i32⟩
  | .hbm, ⟨95, _⟩ => ⟨S2x1024, .i32⟩
  | .hbm, ⟨96, _⟩ => ⟨S_, .i32⟩
  | .hbm, ⟨97, _⟩ => ⟨S2x1024, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S2x1024, .i32⟩
  | .hbm, ⟨102, _⟩ => ⟨S2x1024, .i32⟩
  | .hbm, ⟨103, _⟩ => ⟨S_, .i32⟩
  | .hbm, ⟨104, _⟩ => ⟨S2x1024, .i32⟩
  | .hbm, ⟨105, _⟩ => ⟨S2x216x256, .bf16⟩
  | .hbm, ⟨106, _⟩ => ⟨S2x216x65536, .bf16⟩
  | .hbm, ⟨107, _⟩ => ⟨S2x216x128x512, .bf16⟩
  | .hbm, ⟨108, _⟩ => ⟨S2x216x256, .bf16⟩
  | .hbm, ⟨109, _⟩ => ⟨S2x1024x16, .f32⟩
  | .local _ .vmem, ⟨0, _⟩ => ⟨S1x216x256, .bf16⟩
  | .local _ .vmem, ⟨1, _⟩ => ⟨S1x216x256, .bf16⟩
  | .local _ .vmem, ⟨2, _⟩ => ⟨S1x216x256, .bf16⟩
  | .local _ .vmem, ⟨3, _⟩ => ⟨S1x216x256, .bf16⟩
  | .local _ .vmem, ⟨4, _⟩ => ⟨S1x64x16, .f32⟩
  | .local _ .vmem, ⟨5, _⟩ => ⟨S1x64x16, .f32⟩
  | .local _ .vmem, ⟨6, _⟩ => ⟨S64x128x512, .bf16⟩
  | .local _ .vmem, ⟨7, _⟩ => ⟨S64x216, .bf16⟩
  | .local _ .vmem, ⟨8, _⟩ => ⟨S64x216, .bf16⟩
  | .local _ .smem, ⟨0, _⟩ => ⟨S2x1024, .i32⟩
  | .local _ .smem, ⟨1, _⟩ => ⟨S2x1024, .i32⟩
  | .local _ .smem, ⟨2, _⟩ => ⟨S2x1024, .i32⟩
  | _, _ => ⟨S2x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v1 : Ref sig .tc := ⟨.hbm, 39, rfl⟩
abbrev main_c_1 : Ref sig .tc := ⟨.hbm, 40, rfl⟩
abbrev main_call2_v0 : Ref sig .tc := ⟨.hbm, 41, rfl⟩
abbrev main_call2_c : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_c_1 : Ref sig .tc := ⟨.hbm, 48, rfl⟩
abbrev main_call2_v5 : Ref sig .tc := ⟨.hbm, 49, rfl⟩
abbrev main_call2_v6 : Ref sig .tc := ⟨.hbm, 50, rfl⟩
abbrev main_call2_c_2 : Ref sig .tc := ⟨.hbm, 51, rfl⟩
abbrev main_call2_v7 : Ref sig .tc := ⟨.hbm, 52, rfl⟩
abbrev main_call2_v8 : Ref sig .tc := ⟨.hbm, 53, rfl⟩
abbrev main_call2_c_3 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_v12 : Ref sig .tc := ⟨.hbm, 58, rfl⟩
abbrev main_call2_v13 : Ref sig .tc := ⟨.hbm, 59, rfl⟩
abbrev main_call2_v14 : Ref sig .tc := ⟨.hbm, 60, rfl⟩
abbrev main_v2 : Ref sig .tc := ⟨.hbm, 61, rfl⟩
abbrev main_c_2 : Ref sig .tc := ⟨.hbm, 62, rfl⟩
abbrev main_call3_v0 : Ref sig .tc := ⟨.hbm, 63, rfl⟩
abbrev main_call3_c : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_c_1 : Ref sig .tc := ⟨.hbm, 70, rfl⟩
abbrev main_call3_v5 : Ref sig .tc := ⟨.hbm, 71, rfl⟩
abbrev main_call3_v6 : Ref sig .tc := ⟨.hbm, 72, rfl⟩
abbrev main_call3_c_2 : Ref sig .tc := ⟨.hbm, 73, rfl⟩
abbrev main_call3_v7 : Ref sig .tc := ⟨.hbm, 74, rfl⟩
abbrev main_call3_v8 : Ref sig .tc := ⟨.hbm, 75, rfl⟩
abbrev main_call3_c_3 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_v3 : Ref sig .tc := ⟨.hbm, 83, rfl⟩
abbrev main_c_3 : Ref sig .tc := ⟨.hbm, 84, rfl⟩
abbrev main_c_4 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_c_5 : Ref sig .tc := ⟨.hbm, 91, rfl⟩
abbrev main_c_6 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_c_7 : Ref sig .tc := ⟨.hbm, 98, rfl⟩
abbrev main_c_8 : Ref sig .tc := ⟨.hbm, 99, rfl⟩
abbrev main_call6_v0 : Ref sig .tc := ⟨.hbm, 100, rfl⟩
abbrev main_call6_v1 : Ref sig .tc := ⟨.hbm, 101, rfl⟩
abbrev main_call6_v2 : Ref sig .tc := ⟨.hbm, 102, rfl⟩
abbrev main_call6_v3 : Ref sig .tc := ⟨.hbm, 103, rfl⟩
abbrev main_call6_v4 : Ref sig .tc := ⟨.hbm, 104, rfl⟩
abbrev main_v7 : Ref sig .tc := ⟨.hbm, 105, rfl⟩
abbrev main_v8 : Ref sig .tc := ⟨.hbm, 106, rfl⟩
abbrev main_v9 : Ref sig .tc := ⟨.hbm, 107, rfl⟩
abbrev main_v10 : Ref sig .tc := ⟨.hbm, 108, rfl⟩
abbrev main_v11 : Ref sig .tc := ⟨.hbm, 109, rfl⟩
abbrev main_v4 : Ref sig .tc := ⟨.smem, 0, rfl⟩
abbrev main_v5 : Ref sig .tc := ⟨.smem, 1, rfl⟩
abbrev main_v6 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

abbrev pre0 : Pipeline.Prefetch sig := ⟨3, ![main_v4.idx, main_v5.idx, main_v6.idx], fun | 0 => main_v4.names | 1 => main_v5.names | 2 => main_v6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 2 → Nat :=
  let arg0 : BitVec 32 := BitVec.ofNat 32 (i 0).val
  let v4 : Index := Scalar.indexCast arg0
  let arg1 : BitVec 32 := BitVec.ofNat 32 (i 1).val
  let c64_i32 : BitVec 32 := 64#32
  let v0 : BitVec 32 := Scalar.muli arg1 c64_i32
  let c0_i32 : BitVec 32 := 0#32
  let v3 : BitVec 32 := Scalar.addi v0 c0_i32
  let v5 : Index := Scalar.indexCast v3
  ![v4.toNat, v5.toNat]
def k0_off2 (i : grid0.Coords) (v10 : BitVec 32) : Fin 4 → Nat :=
  let arg0 : BitVec 32 := BitVec.ofNat 32 (i 0).val
  let c0_i32_6 : BitVec 32 := 0#32
  let c0_i32_7 : BitVec 32 := 0#32
  ![arg0.toNat, v10.toNat, 0, 0]

def k0_off3 (i : grid0.Coords) : Fin 2 → Nat :=
  let arg0 : BitVec 32 := BitVec.ofNat 32 (i 0).val
  let v38 : Index := Scalar.indexCast arg0
  let arg1 : BitVec 32 := BitVec.ofNat 32 (i 1).val
  let c64_i32 : BitVec 32 := 64#32
  let v0 : BitVec 32 := Scalar.muli arg1 c64_i32
  let c1_i32 : BitVec 32 := 1#32
  let v37 : BitVec 32 := Scalar.addi v0 c1_i32
  let v39 : Index := Scalar.indexCast v37
  ![v38.toNat, v39.toNat]
def k0_off4 (i : grid0.Coords) (v44 : BitVec 32) : Fin 4 → Nat :=
  let arg0 : BitVec 32 := BitVec.ofNat 32 (i 0).val
  let c0_i32_17 : BitVec 32 := 0#32
  let c0_i32_18 : BitVec 32 := 0#32
  ![arg0.toNat, v44.toNat, 0, 0]

def k0_off5 (i : grid0.Coords) : Fin 2 → Nat :=
  let arg0 : BitVec 32 := BitVec.ofNat 32 (i 0).val
  let v72 : Index := Scalar.indexCast arg0
  let arg1 : BitVec 32 := BitVec.ofNat 32 (i 1).val
  let c64_i32 : BitVec 32 := 64#32
  let v0 : BitVec 32 := Scalar.muli arg1 c64_i32
  let c2_i32 : BitVec 32 := 2#32
  let v71 : BitVec 32 := Scalar.addi v0 c2_i32
  let v73 : Index := Scalar.indexCast v71
  ![v72.toNat, v73.toNat]
def k0_off6 (i : grid0.Coords) (v78 : BitVec 32) : Fin 4 → Nat :=
  let arg0 : BitVec 32 := BitVec.ofNat 32 (i 0).val
  let c0_i32_28 : BitVec 32 := 0#32
  let c0_i32_29 : BitVec 32 := 0#32
  ![arg0.toNat, v78.toNat, 0, 0]

def k0_off7 (i : grid0.Coords) : Fin 2 → Nat :=
  let arg0 : BitVec 32 := BitVec.ofNat 32 (i 0).val
  let v106 : Index := Scalar.indexCast arg0
  let arg1 : BitVec 32 := BitVec.ofNat 32 (i 1).val
  let c64_i32 : BitVec 32 := 64#32
  let v0 : BitVec 32 := Scalar.muli arg1 c64_i32
  let c3_i32 : BitVec 32 := 3#32
  let v105 : BitVec 32 := Scalar.addi v0 c3_i32
  let v107 : Index := Scalar.indexCast v105
  ![v106.toNat, v107.toNat]
def k0_off8 (i : grid0.Coords) (v112 : BitVec 32) : Fin 4 → Nat :=
  let arg0 : BitVec 32 := BitVec.ofNat 32 (i 0).val
  let c0_i32_39 : BitVec 32 := 0#32
  let c0_i32_40 : BitVec 32 := 0#32
  ![arg0.toNat, v112.toNat, 0, 0]

def k0_off9 (i : grid0.Coords) : Fin 2 → Nat :=
  let arg0 : BitVec 32 := BitVec.ofNat 32 (i 0).val
  let v140 : Index := Scalar.indexCast arg0
  let arg1 : BitVec 32 := BitVec.ofNat 32 (i 1).val
  let c64_i32 : BitVec 32 := 64#32
  let v0 : BitVec 32 := Scalar.muli arg1 c64_i32
  let c4_i32 : BitVec 32 := 4#32
  let v139 : BitVec 32 := Scalar.addi v0 c4_i32
  let v141 : Index := Scalar.indexCast v139
  ![v140.toNat, v141.toNat]
def k0_off10 (i : grid0.Coords) (v146 : BitVec 32) : Fin 4 → Nat :=
  let arg0 : BitVec 32 := BitVec.ofNat 32 (i 0).val
  let c0_i32_50 : BitVec 32 := 0#32
  let c0_i32_51 : BitVec 32 := 0#32
  ![arg0.toNat, v146.toNat, 0, 0]

def k0_off11 (i : grid0.Coords) : Fin 2 → Nat :=
  let arg0 : BitVec 32 := BitVec.ofNat 32 (i 0).val
  let v174 : Index := Scalar.indexCast arg0
  let arg1 : BitVec 32 := BitVec.ofNat 32 (i 1).val
  let c64_i32 : BitVec 32 := 64#32
  let v0 : BitVec 32 := Scalar.muli arg1 c64_i32
  let c5_i32 : BitVec 32 := 5#32
  let v173 : BitVec 32 := Scalar.addi v0 c5_i32
  let v175 : Index := Scalar.indexCast v173
  ![v174.toNat, v175.toNat]
def k0_off12 (i : grid0.Coords) (v180 : BitVec 32) : Fin 4 → Nat :=
  let arg0 : BitVec 32 := BitVec.ofNat 32 (i 0).val
  let c0_i32_61 : BitVec 32 := 0#32
  let c0_i32_62 : BitVec 32 := 0#32
  ![arg0.toNat, v180.toNat, 0, 0]

def k0_off13 (i : grid0.Coords) : Fin 2 → Nat :=
  let arg0 : BitVec 32 := BitVec.ofNat 32 (i 0).val
  let v208 : Index := Scalar.indexCast arg0
  let arg1 : BitVec 32 := BitVec.ofNat 32 (i 1).val
  let c64_i32 : BitVec 32 := 64#32
  let v0 : BitVec 32 := Scalar.muli arg1 c64_i32
  let c6_i32 : BitVec 32 := 6#32
  let v207 : BitVec 32 := Scalar.addi v0 c6_i32
  let v209 : Index := Scalar.indexCast v207
  ![v208.toNat, v209.toNat]
def k0_off14 (i : grid0.Coords) (v214 : BitVec 32) : Fin 4 → Nat :=
  let arg0 : BitVec 32 := BitVec.ofNat 32 (i 0).val
  let c0_i32_72 : BitVec 32 := 0#32
  let c0_i32_73 : BitVec 32 := 0#32
  ![arg0.toNat, v214.toNat, 0, 0]

def k0_off15 (i : grid0.Coords) : Fin 2 → Nat :=
  let arg0 : BitVec 32 := BitVec.ofNat 32 (i 0).val
  let v242 : Index := Scalar.indexCast arg0
  let arg1 : BitVec 32 := BitVec.ofNat 32 (i 1).val
  let c64_i32 : BitVec 32 := 64#32
  let v0 : BitVec 32 := Scalar.muli arg1 c64_i32
  let c7_i32 : BitVec 32 := 7#32
  let v241 : BitVec 32 := Scalar.addi v0 c7_i32
  let v243 : Index := Scalar.indexCast v241
  ![v242.toNat, v243.toNat]
def k0_off16 (i : grid0.Coords) (v248 : BitVec 32) : Fin 4 → Nat :=
  let arg0 : BitVec 32 := BitVec.ofNat 32 (i 0).val
  let c0_i32_83 : BitVec 32 := 0#32
  let c0_i32_84 : BitVec 32 := 0#32
  ![arg0.toNat, v248.toNat, 0, 0]

def k0_off17 (i : grid0.Coords) : Fin 2 → Nat :=
  let arg0 : BitVec 32 := BitVec.ofNat 32 (i 0).val
  let v276 : Index := Scalar.indexCast arg0
  let arg1 : BitVec 32 := BitVec.ofNat 32 (i 1).val
  let c64_i32 : BitVec 32 := 64#32
  let v0 : BitVec 32 := Scalar.muli arg1 c64_i32
  let c8_i32 : BitVec 32 := 8#32
  let v275 : BitVec 32 := Scalar.addi v0 c8_i32
  let v277 : Index := Scalar.indexCast v275
  ![v276.toNat, v277.toNat]
def k0_off18 (i : grid0.Coords) (v282 : BitVec 32) : Fin 4 → Nat :=
  let arg0 : BitVec 32 := BitVec.ofNat 32 (i 0).val
  let c0_i32_94 : BitVec 32 := 0#32
  let c0_i32_95 : BitVec 32 := 0#32
  ![arg0.toNat, v282.toNat, 0, 0]

def k0_off19 (i : grid0.Coords) : Fin 2 → Nat :=
  let arg0 : BitVec 32 := BitVec.ofNat 32 (i 0).val
  let v310 : Index := Scalar.indexCast arg0
  let arg1 : BitVec 32 := BitVec.ofNat 32 (i 1).val
  let c64_i32 : BitVec 32 := 64#32
  let v0 : BitVec 32 := Scalar.muli arg1 c64_i32
  let c9_i32 : BitVec 32 := 9#32
  let v309 : BitVec 32 := Scalar.addi v0 c9_i32
  let v311 : Index := Scalar.indexCast v309
  ![v310.toNat, v311.toNat]
def k0_off20 (i : grid0.Coords) (v316 : BitVec 32) : Fin 4 → Nat :=
  let arg0 : BitVec 32 := BitVec.ofNat 32 (i 0).val
  let c0_i32_105 : BitVec 32 := 0#32
  let c0_i32_106 : BitVec 32 := 0#32
  ![arg0.toNat, v316.toNat, 0, 0]

def k0_off21 (i : grid0.Coords) : Fin 2 → Nat :=
  let arg0 : BitVec 32 := BitVec.ofNat 32 (i 0).val
  let v344 : Index := Scalar.indexCast arg0
  let arg1 : BitVec 32 := BitVec.ofNat 32 (i 1).val
  let c64_i32 : BitVec 32 := 64#32
  let v0 : BitVec 32 := Scalar.muli arg1 c64_i32
  let c10_i32 : BitVec 32 := 10#32
  let v343 : BitVec 32 := Scalar.addi v0 c10_i32
  let v345 : Index := Scalar.indexCast v343
  ![v344.toNat, v345.toNat]
def k0_off22 (i : grid0.Coords) (v350 : BitVec 32) : Fin 4 → Nat :=
  let arg0 : BitVec 32 := BitVec.ofNat 32 (i 0).val
  let c0_i32_116 : BitVec 32 := 0#32
  let c0_i32_117 : BitVec 32 := 0#32
  ![arg0.toNat, v350.toNat, 0, 0]

def k0_off23 (i : grid0.Coords) : Fin 2 → Nat :=
  let arg0 : BitVec 32 := BitVec.ofNat 32 (i 0).val
  let v378 : Index := Scalar.indexCast arg0
  let arg1 : BitVec 32 := BitVec.ofNat 32 (i 1).val
  let c64_i32 : BitVec 32 := 64#32
  let v0 : BitVec 32 := Scalar.muli arg1 c64_i32
  let c11_i32 : BitVec 32 := 11#32
  let v377 : BitVec 32 := Scalar.addi v0 c11_i32
  let v379 : Index := Scalar.indexCast v377
  ![v378.toNat, v379.toNat]
def k0_off24 (i : grid0.Coords) (v384 : BitVec 32) : Fin 4 → Nat :=
  let arg0 : BitVec 32 := BitVec.ofNat 32 (i 0).val
  let c0_i32_127 : BitVec 32 := 0#32
  let c0_i32_128 : BitVec 32 := 0#32
  ![arg0.toNat, v384.toNat, 0, 0]

def k0_off25 (i : grid0.Coords) : Fin 2 → Nat :=
  let arg0 : BitVec 32 := BitVec.ofNat 32 (i 0).val
  let v412 : Index := Scalar.indexCast arg0
  let arg1 : BitVec 32 := BitVec.ofNat 32 (i 1).val
  let c64_i32 : BitVec 32 := 64#32
  let v0 : BitVec 32 := Scalar.muli arg1 c64_i32
  let c12_i32 : BitVec 32 := 12#32
  let v411 : BitVec 32 := Scalar.addi v0 c12_i32
  let v413 : Index := Scalar.indexCast v411
  ![v412.toNat, v413.toNat]
def k0_off26 (i : grid0.Coords) (v418 : BitVec 32) : Fin 4 → Nat :=
  let arg0 : BitVec 32 := BitVec.ofNat 32 (i 0).val
  let c0_i32_138 : BitVec 32 := 0#32
  let c0_i32_139 : BitVec 32 := 0#32
  ![arg0.toNat, v418.toNat, 0, 0]

def k0_off27 (i : grid0.Coords) : Fin 2 → Nat :=
  let arg0 : BitVec 32 := BitVec.ofNat 32 (i 0).val
  let v446 : Index := Scalar.indexCast arg0
  let arg1 : BitVec 32 := BitVec.ofNat 32 (i 1).val
  let c64_i32 : BitVec 32 := 64#32
  let v0 : BitVec 32 := Scalar.muli arg1 c64_i32
  let c13_i32 : BitVec 32 := 13#32
  let v445 : BitVec 32 := Scalar.addi v0 c13_i32
  let v447 : Index := Scalar.indexCast v445
  ![v446.toNat, v447.toNat]
def k0_off28 (i : grid0.Coords) (v452 : BitVec 32) : Fin 4 → Nat :=
  let arg0 : BitVec 32 := BitVec.ofNat 32 (i 0).val
  let c0_i32_149 : BitVec 32 := 0#32
  let c0_i32_150 : BitVec 32 := 0#32
  ![arg0.toNat, v452.toNat, 0, 0]

def k0_off29 (i : grid0.Coords) : Fin 2 → Nat :=
  let arg0 : BitVec 32 := BitVec.ofNat 32 (i 0).val
  let v480 : Index := Scalar.indexCast arg0
  let arg1 : BitVec 32 := BitVec.ofNat 32 (i 1).val
  let c64_i32 : BitVec 32 := 64#32
  let v0 : BitVec 32 := Scalar.muli arg1 c64_i32
  let c14_i32 : BitVec 32 := 14#32
  let v479 : BitVec 32 := Scalar.addi v0 c14_i32
  let v481 : Index := Scalar.indexCast v479
  ![v480.toNat, v481.toNat]
def k0_off30 (i : grid0.Coords) (v486 : BitVec 32) : Fin 4 → Nat :=
  let arg0 : BitVec 32 := BitVec.ofNat 32 (i 0).val
  let c0_i32_160 : BitVec 32 := 0#32
  let c0_i32_161 : BitVec 32 := 0#32
  ![arg0.toNat, v486.toNat, 0, 0]

def k0_off31 (i : grid0.Coords) : Fin 2 → Nat :=
  let arg0 : BitVec 32 := BitVec.ofNat 32 (i 0).val
  let v514 : Index := Scalar.indexCast arg0
  let arg1 : BitVec 32 := BitVec.ofNat 32 (i 1).val
  let c64_i32 : BitVec 32 := 64#32
  let v0 : BitVec 32 := Scalar.muli arg1 c64_i32
  let c15_i32 : BitVec 32 := 15#32
  let v513 : BitVec 32 := Scalar.addi v0 c15_i32
  let v515 : Index := Scalar.indexCast v513
  ![v514.toNat, v515.toNat]
def k0_off32 (i : grid0.Coords) (v520 : BitVec 32) : Fin 4 → Nat :=
  let arg0 : BitVec 32 := BitVec.ofNat 32 (i 0).val
  let c0_i32_171 : BitVec 32 := 0#32
  let c0_i32_172 : BitVec 32 := 0#32
  ![arg0.toNat, v520.toNat, 0, 0]

def k0_off33 (i : grid0.Coords) : Fin 2 → Nat :=
  let arg0 : BitVec 32 := BitVec.ofNat 32 (i 0).val
  let v548 : Index := Scalar.indexCast arg0
  let arg1 : BitVec 32 := BitVec.ofNat 32 (i 1).val
  let c64_i32 : BitVec 32 := 64#32
  let v0 : BitVec 32 := Scalar.muli arg1 c64_i32
  let c16_i32 : BitVec 32 := 16#32
  let v547 : BitVec 32 := Scalar.addi v0 c16_i32
  let v549 : Index := Scalar.indexCast v547
  ![v548.toNat, v549.toNat]
def k0_off34 (i : grid0.Coords) (v554 : BitVec 32) : Fin 4 → Nat :=
  let arg0 : BitVec 32 := BitVec.ofNat 32 (i 0).val
  let c0_i32_182 : BitVec 32 := 0#32
  let c0_i32_183 : BitVec 32 := 0#32
  ![arg0.toNat, v554.toNat, 0, 0]

def k0_off35 (i : grid0.Coords) : Fin 2 → Nat :=
  let arg0 : BitVec 32 := BitVec.ofNat 32 (i 0).val
  let v582 : Index := Scalar.indexCast arg0
  let arg1 : BitVec 32 := BitVec.ofNat 32 (i 1).val
  let c64_i32 : BitVec 32 := 64#32
  let v0 : BitVec 32 := Scalar.muli arg1 c64_i32
  let c17_i32 : BitVec 32 := 17#32
  let v581 : BitVec 32 := Scalar.addi v0 c17_i32
  let v583 : Index := Scalar.indexCast v581
  ![v582.toNat, v583.toNat]
def k0_off36 (i : grid0.Coords) (v588 : BitVec 32) : Fin 4 → Nat :=
  let arg0 : BitVec 32 := BitVec.ofNat 32 (i 0).val
  let c0_i32_193 : BitVec 32 := 0#32
  let c0_i32_194 : BitVec 32 := 0#32
  ![arg0.toNat, v588.toNat, 0, 0]

def k0_off37 (i : grid0.Coords) : Fin 2 → Nat :=
  let arg0 : BitVec 32 := BitVec.ofNat 32 (i 0).val
  let v616 : Index := Scalar.indexCast arg0
  let arg1 : BitVec 32 := BitVec.ofNat 32 (i 1).val
  let c64_i32 : BitVec 32 := 64#32
  let v0 : BitVec 32 := Scalar.muli arg1 c64_i32
  let c18_i32 : BitVec 32 := 18#32
  let v615 : BitVec 32 := Scalar.addi v0 c18_i32
  let v617 : Index := Scalar.indexCast v615
  ![v616.toNat, v617.toNat]
def k0_off38 (i : grid0.Coords) (v622 : BitVec 32) : Fin 4 → Nat :=
  let arg0 : BitVec 32 := BitVec.ofNat 32 (i 0).val
  let c0_i32_204 : BitVec 32 := 0#32
  let c0_i32_205 : BitVec 32 := 0#32
  ![arg0.toNat, v622.toNat, 0, 0]

def k0_off39 (i : grid0.Coords) : Fin 2 → Nat :=
  let arg0 : BitVec 32 := BitVec.ofNat 32 (i 0).val
  let v650 : Index := Scalar.indexCast arg0
  let arg1 : BitVec 32 := BitVec.ofNat 32 (i 1).val
  let c64_i32 : BitVec 32 := 64#32
  let v0 : BitVec 32 := Scalar.muli arg1 c64_i32
  let c19_i32 : BitVec 32 := 19#32
  let v649 : BitVec 32 := Scalar.addi v0 c19_i32
  let v651 : Index := Scalar.indexCast v649
  ![v650.toNat, v651.toNat]
def k0_off40 (i : grid0.Coords) (v656 : BitVec 32) : Fin 4 → Nat :=
  let arg0 : BitVec 32 := BitVec.ofNat 32 (i 0).val
  let c0_i32_215 : BitVec 32 := 0#32
  let c0_i32_216 : BitVec 32 := 0#32
  ![arg0.toNat, v656.toNat, 0, 0]

def k0_off41 (i : grid0.Coords) : Fin 2 → Nat :=
  let arg0 : BitVec 32 := BitVec.ofNat 32 (i 0).val
  let v684 : Index := Scalar.indexCast arg0
  let arg1 : BitVec 32 := BitVec.ofNat 32 (i 1).val
  let c64_i32 : BitVec 32 := 64#32
  let v0 : BitVec 32 := Scalar.muli arg1 c64_i32
  let c20_i32 : BitVec 32 := 20#32
  let v683 : BitVec 32 := Scalar.addi v0 c20_i32
  let v685 : Index := Scalar.indexCast v683
  ![v684.toNat, v685.toNat]
def k0_off42 (i : grid0.Coords) (v690 : BitVec 32) : Fin 4 → Nat :=
  let arg0 : BitVec 32 := BitVec.ofNat 32 (i 0).val
  let c0_i32_226 : BitVec 32 := 0#32
  let c0_i32_227 : BitVec 32 := 0#32
  ![arg0.toNat, v690.toNat, 0, 0]

def k0_off43 (i : grid0.Coords) : Fin 2 → Nat :=
  let arg0 : BitVec 32 := BitVec.ofNat 32 (i 0).val
  let v718 : Index := Scalar.indexCast arg0
  let arg1 : BitVec 32 := BitVec.ofNat 32 (i 1).val
  let c64_i32 : BitVec 32 := 64#32
  let v0 : BitVec 32 := Scalar.muli arg1 c64_i32
  let c21_i32 : BitVec 32 := 21#32
  let v717 : BitVec 32 := Scalar.addi v0 c21_i32
  let v719 : Index := Scalar.indexCast v717
  ![v718.toNat, v719.toNat]
def k0_off44 (i : grid0.Coords) (v724 : BitVec 32) : Fin 4 → Nat :=
  let arg0 : BitVec 32 := BitVec.ofNat 32 (i 0).val
  let c0_i32_237 : BitVec 32 := 0#32
  let c0_i32_238 : BitVec 32 := 0#32
  ![arg0.toNat, v724.toNat, 0, 0]

def k0_off45 (i : grid0.Coords) : Fin 2 → Nat :=
  let arg0 : BitVec 32 := BitVec.ofNat 32 (i 0).val
  let v752 : Index := Scalar.indexCast arg0
  let arg1 : BitVec 32 := BitVec.ofNat 32 (i 1).val
  let c64_i32 : BitVec 32 := 64#32
  let v0 : BitVec 32 := Scalar.muli arg1 c64_i32
  let c22_i32 : BitVec 32 := 22#32
  let v751 : BitVec 32 := Scalar.addi v0 c22_i32
  let v753 : Index := Scalar.indexCast v751
  ![v752.toNat, v753.toNat]
def k0_off46 (i : grid0.Coords) (v758 : BitVec 32) : Fin 4 → Nat :=
  let arg0 : BitVec 32 := BitVec.ofNat 32 (i 0).val
  let c0_i32_248 : BitVec 32 := 0#32
  let c0_i32_249 : BitVec 32 := 0#32
  ![arg0.toNat, v758.toNat, 0, 0]

def k0_off47 (i : grid0.Coords) : Fin 2 → Nat :=
  let arg0 : BitVec 32 := BitVec.ofNat 32 (i 0).val
  let v786 : Index := Scalar.indexCast arg0
  let arg1 : BitVec 32 := BitVec.ofNat 32 (i 1).val
  let c64_i32 : BitVec 32 := 64#32
  let v0 : BitVec 32 := Scalar.muli arg1 c64_i32
  let c23_i32 : BitVec 32 := 23#32
  let v785 : BitVec 32 := Scalar.addi v0 c23_i32
  let v787 : Index := Scalar.indexCast v785
  ![v786.toNat, v787.toNat]
def k0_off48 (i : grid0.Coords) (v792 : BitVec 32) : Fin 4 → Nat :=
  let arg0 : BitVec 32 := BitVec.ofNat 32 (i 0).val
  let c0_i32_259 : BitVec 32 := 0#32
  let c0_i32_260 : BitVec 32 := 0#32
  ![arg0.toNat, v792.toNat, 0, 0]

def k0_off49 (i : grid0.Coords) : Fin 2 → Nat :=
  let arg0 : BitVec 32 := BitVec.ofNat 32 (i 0).val
  let v820 : Index := Scalar.indexCast arg0
  let arg1 : BitVec 32 := BitVec.ofNat 32 (i 1).val
  let c64_i32 : BitVec 32 := 64#32
  let v0 : BitVec 32 := Scalar.muli arg1 c64_i32
  let c24_i32 : BitVec 32 := 24#32
  let v819 : BitVec 32 := Scalar.addi v0 c24_i32
  let v821 : Index := Scalar.indexCast v819
  ![v820.toNat, v821.toNat]
def k0_off50 (i : grid0.Coords) (v826 : BitVec 32) : Fin 4 → Nat :=
  let arg0 : BitVec 32 := BitVec.ofNat 32 (i 0).val
  let c0_i32_270 : BitVec 32 := 0#32
  let c0_i32_271 : BitVec 32 := 0#32
  ![arg0.toNat, v826.toNat, 0, 0]

def k0_off51 (i : grid0.Coords) : Fin 2 → Nat :=
  let arg0 : BitVec 32 := BitVec.ofNat 32 (i 0).val
  let v854 : Index := Scalar.indexCast arg0
  let arg1 : BitVec 32 := BitVec.ofNat 32 (i 1).val
  let c64_i32 : BitVec 32 := 64#32
  let v0 : BitVec 32 := Scalar.muli arg1 c64_i32
  let c25_i32 : BitVec 32 := 25#32
  let v853 : BitVec 32 := Scalar.addi v0 c25_i32
  let v855 : Index := Scalar.indexCast v853
  ![v854.toNat, v855.toNat]
def k0_off52 (i : grid0.Coords) (v860 : BitVec 32) : Fin 4 → Nat :=
  let arg0 : BitVec 32 := BitVec.ofNat 32 (i 0).val
  let c0_i32_281 : BitVec 32 := 0#32
  let c0_i32_282 : BitVec 32 := 0#32
  ![arg0.toNat, v860.toNat, 0, 0]

def k0_off53 (i : grid0.Coords) : Fin 2 → Nat :=
  let arg0 : BitVec 32 := BitVec.ofNat 32 (i 0).val
  let v888 : Index := Scalar.indexCast arg0
  let arg1 : BitVec 32 := BitVec.ofNat 32 (i 1).val
  let c64_i32 : BitVec 32 := 64#32
  let v0 : BitVec 32 := Scalar.muli arg1 c64_i32
  let c26_i32 : BitVec 32 := 26#32
  let v887 : BitVec 32 := Scalar.addi v0 c26_i32
  let v889 : Index := Scalar.indexCast v887
  ![v888.toNat, v889.toNat]
def k0_off54 (i : grid0.Coords) (v894 : BitVec 32) : Fin 4 → Nat :=
  let arg0 : BitVec 32 := BitVec.ofNat 32 (i 0).val
  let c0_i32_292 : BitVec 32 := 0#32
  let c0_i32_293 : BitVec 32 := 0#32
  ![arg0.toNat, v894.toNat, 0, 0]

def k0_off55 (i : grid0.Coords) : Fin 2 → Nat :=
  let arg0 : BitVec 32 := BitVec.ofNat 32 (i 0).val
  let v922 : Index := Scalar.indexCast arg0
  let arg1 : BitVec 32 := BitVec.ofNat 32 (i 1).val
  let c64_i32 : BitVec 32 := 64#32
  let v0 : BitVec 32 := Scalar.muli arg1 c64_i32
  let c27_i32 : BitVec 32 := 27#32
  let v921 : BitVec 32 := Scalar.addi v0 c27_i32
  let v923 : Index := Scalar.indexCast v921
  ![v922.toNat, v923.toNat]
def k0_off56 (i : grid0.Coords) (v928 : BitVec 32) : Fin 4 → Nat :=
  let arg0 : BitVec 32 := BitVec.ofNat 32 (i 0).val
  let c0_i32_303 : BitVec 32 := 0#32
  let c0_i32_304 : BitVec 32 := 0#32
  ![arg0.toNat, v928.toNat, 0, 0]

def k0_off57 (i : grid0.Coords) : Fin 2 → Nat :=
  let arg0 : BitVec 32 := BitVec.ofNat 32 (i 0).val
  let v956 : Index := Scalar.indexCast arg0
  let arg1 : BitVec 32 := BitVec.ofNat 32 (i 1).val
  let c64_i32 : BitVec 32 := 64#32
  let v0 : BitVec 32 := Scalar.muli arg1 c64_i32
  let c28_i32 : BitVec 32 := 28#32
  let v955 : BitVec 32 := Scalar.addi v0 c28_i32
  let v957 : Index := Scalar.indexCast v955
  ![v956.toNat, v957.toNat]
def k0_off58 (i : grid0.Coords) (v962 : BitVec 32) : Fin 4 → Nat :=
  let arg0 : BitVec 32 := BitVec.ofNat 32 (i 0).val
  let c0_i32_314 : BitVec 32 := 0#32
  let c0_i32_315 : BitVec 32 := 0#32
  ![arg0.toNat, v962.toNat, 0, 0]

def k0_off59 (i : grid0.Coords) : Fin 2 → Nat :=
  let arg0 : BitVec 32 := BitVec.ofNat 32 (i 0).val
  let v990 : Index := Scalar.indexCast arg0
  let arg1 : BitVec 32 := BitVec.ofNat 32 (i 1).val
  let c64_i32 : BitVec 32 := 64#32
  let v0 : BitVec 32 := Scalar.muli arg1 c64_i32
  let c29_i32 : BitVec 32 := 29#32
  let v989 : BitVec 32 := Scalar.addi v0 c29_i32
  let v991 : Index := Scalar.indexCast v989
  ![v990.toNat, v991.toNat]
def k0_off60 (i : grid0.Coords) (v996 : BitVec 32) : Fin 4 → Nat :=
  let arg0 : BitVec 32 := BitVec.ofNat 32 (i 0).val
  let c0_i32_325 : BitVec 32 := 0#32
  let c0_i32_326 : BitVec 32 := 0#32
  ![arg0.toNat, v996.toNat, 0, 0]

def k0_off61 (i : grid0.Coords) : Fin 2 → Nat :=
  let arg0 : BitVec 32 := BitVec.ofNat 32 (i 0).val
  let v1024 : Index := Scalar.indexCast arg0
  let arg1 : BitVec 32 := BitVec.ofNat 32 (i 1).val
  let c64_i32 : BitVec 32 := 64#32
  let v0 : BitVec 32 := Scalar.muli arg1 c64_i32
  let c30_i32 : BitVec 32 := 30#32
  let v1023 : BitVec 32 := Scalar.addi v0 c30_i32
  let v1025 : Index := Scalar.indexCast v1023
  ![v1024.toNat, v1025.toNat]
def k0_off62 (i : grid0.Coords) (v1030 : BitVec 32) : Fin 4 → Nat :=
  let arg0 : BitVec 32 := BitVec.ofNat 32 (i 0).val
  let c0_i32_336 : BitVec 32 := 0#32
  let c0_i32_337 : BitVec 32 := 0#32
  ![arg0.toNat, v1030.toNat, 0, 0]

def k0_off63 (i : grid0.Coords) : Fin 2 → Nat :=
  let arg0 : BitVec 32 := BitVec.ofNat 32 (i 0).val
  let v1058 : Index := Scalar.indexCast arg0
  let arg1 : BitVec 32 := BitVec.ofNat 32 (i 1).val
  let c64_i32 : BitVec 32 := 64#32
  let v0 : BitVec 32 := Scalar.muli arg1 c64_i32
  let c31_i32 : BitVec 32 := 31#32
  let v1057 : BitVec 32 := Scalar.addi v0 c31_i32
  let v1059 : Index := Scalar.indexCast v1057
  ![v1058.toNat, v1059.toNat]
def k0_off64 (i : grid0.Coords) (v1064 : BitVec 32) : Fin 4 → Nat :=
  let arg0 : BitVec 32 := BitVec.ofNat 32 (i 0).val
  let c0_i32_347 : BitVec 32 := 0#32
  let c0_i32_348 : BitVec 32 := 0#32
  ![arg0.toNat, v1064.toNat, 0, 0]

def k0_off65 (i : grid0.Coords) : Fin 2 → Nat :=
  let arg0 : BitVec 32 := BitVec.ofNat 32 (i 0).val
  let v1092 : Index := Scalar.indexCast arg0
  let arg1 : BitVec 32 := BitVec.ofNat 32 (i 1).val
  let c64_i32 : BitVec 32 := 64#32
  let v0 : BitVec 32 := Scalar.muli arg1 c64_i32
  let c32_i32 : BitVec 32 := 32#32
  let v1091 : BitVec 32 := Scalar.addi v0 c32_i32
  let v1093 : Index := Scalar.indexCast v1091
  ![v1092.toNat, v1093.toNat]
def k0_off66 (i : grid0.Coords) (v1098 : BitVec 32) : Fin 4 → Nat :=
  let arg0 : BitVec 32 := BitVec.ofNat 32 (i 0).val
  let c0_i32_358 : BitVec 32 := 0#32
  let c0_i32_359 : BitVec 32 := 0#32
  ![arg0.toNat, v1098.toNat, 0, 0]

def k0_off67 (i : grid0.Coords) : Fin 2 → Nat :=
  let arg0 : BitVec 32 := BitVec.ofNat 32 (i 0).val
  let v1126 : Index := Scalar.indexCast arg0
  let arg1 : BitVec 32 := BitVec.ofNat 32 (i 1).val
  let c64_i32 : BitVec 32 := 64#32
  let v0 : BitVec 32 := Scalar.muli arg1 c64_i32
  let c33_i32 : BitVec 32 := 33#32
  let v1125 : BitVec 32 := Scalar.addi v0 c33_i32
  let v1127 : Index := Scalar.indexCast v1125
  ![v1126.toNat, v1127.toNat]
def k0_off68 (i : grid0.Coords) (v1132 : BitVec 32) : Fin 4 → Nat :=
  let arg0 : BitVec 32 := BitVec.ofNat 32 (i 0).val
  let c0_i32_369 : BitVec 32 := 0#32
  let c0_i32_370 : BitVec 32 := 0#32
  ![arg0.toNat, v1132.toNat, 0, 0]

def k0_off69 (i : grid0.Coords) : Fin 2 → Nat :=
  let arg0 : BitVec 32 := BitVec.ofNat 32 (i 0).val
  let v1160 : Index := Scalar.indexCast arg0
  let arg1 : BitVec 32 := BitVec.ofNat 32 (i 1).val
  let c64_i32 : BitVec 32 := 64#32
  let v0 : BitVec 32 := Scalar.muli arg1 c64_i32
  let c34_i32 : BitVec 32 := 34#32
  let v1159 : BitVec 32 := Scalar.addi v0 c34_i32
  let v1161 : Index := Scalar.indexCast v1159
  ![v1160.toNat, v1161.toNat]
def k0_off70 (i : grid0.Coords) (v1166 : BitVec 32) : Fin 4 → Nat :=
  let arg0 : BitVec 32 := BitVec.ofNat 32 (i 0).val
  let c0_i32_380 : BitVec 32 := 0#32
  let c0_i32_381 : BitVec 32 := 0#32
  ![arg0.toNat, v1166.toNat, 0, 0]

def k0_off71 (i : grid0.Coords) : Fin 2 → Nat :=
  let arg0 : BitVec 32 := BitVec.ofNat 32 (i 0).val
  let v1194 : Index := Scalar.indexCast arg0
  let arg1 : BitVec 32 := BitVec.ofNat 32 (i 1).val
  let c64_i32 : BitVec 32 := 64#32
  let v0 : BitVec 32 := Scalar.muli arg1 c64_i32
  let c35_i32 : BitVec 32 := 35#32
  let v1193 : BitVec 32 := Scalar.addi v0 c35_i32
  let v1195 : Index := Scalar.indexCast v1193
  ![v1194.toNat, v1195.toNat]
def k0_off72 (i : grid0.Coords) (v1200 : BitVec 32) : Fin 4 → Nat :=
  let arg0 : BitVec 32 := BitVec.ofNat 32 (i 0).val
  let c0_i32_391 : BitVec 32 := 0#32
  let c0_i32_392 : BitVec 32 := 0#32
  ![arg0.toNat, v1200.toNat, 0, 0]

def k0_off73 (i : grid0.Coords) : Fin 2 → Nat :=
  let arg0 : BitVec 32 := BitVec.ofNat 32 (i 0).val
  let v1228 : Index := Scalar.indexCast arg0
  let arg1 : BitVec 32 := BitVec.ofNat 32 (i 1).val
  let c64_i32 : BitVec 32 := 64#32
  let v0 : BitVec 32 := Scalar.muli arg1 c64_i32
  let c36_i32 : BitVec 32 := 36#32
  let v1227 : BitVec 32 := Scalar.addi v0 c36_i32
  let v1229 : Index := Scalar.indexCast v1227
  ![v1228.toNat, v1229.toNat]
def k0_off74 (i : grid0.Coords) (v1234 : BitVec 32) : Fin 4 → Nat :=
  let arg0 : BitVec 32 := BitVec.ofNat 32 (i 0).val
  let c0_i32_402 : BitVec 32 := 0#32
  let c0_i32_403 : BitVec 32 := 0#32
  ![arg0.toNat, v1234.toNat, 0, 0]

def k0_off75 (i : grid0.Coords) : Fin 2 → Nat :=
  let arg0 : BitVec 32 := BitVec.ofNat 32 (i 0).val
  let v1262 : Index := Scalar.indexCast arg0
  let arg1 : BitVec 32 := BitVec.ofNat 32 (i 1).val
  let c64_i32 : BitVec 32 := 64#32
  let v0 : BitVec 32 := Scalar.muli arg1 c64_i32
  let c37_i32 : BitVec 32 := 37#32
  let v1261 : BitVec 32 := Scalar.addi v0 c37_i32
  let v1263 : Index := Scalar.indexCast v1261
  ![v1262.toNat, v1263.toNat]
def k0_off76 (i : grid0.Coords) (v1268 : BitVec 32) : Fin 4 → Nat :=
  let arg0 : BitVec 32 := BitVec.ofNat 32 (i 0).val
  let c0_i32_413 : BitVec 32 := 0#32
  let c0_i32_414 : BitVec 32 := 0#32
  ![arg0.toNat, v1268.toNat, 0, 0]

def k0_off77 (i : grid0.Coords) : Fin 2 → Nat :=
  let arg0 : BitVec 32 := BitVec.ofNat 32 (i 0).val
  let v1296 : Index := Scalar.indexCast arg0
  let arg1 : BitVec 32 := BitVec.ofNat 32 (i 1).val
  let c64_i32 : BitVec 32 := 64#32
  let v0 : BitVec 32 := Scalar.muli arg1 c64_i32
  let c38_i32 : BitVec 32 := 38#32
  let v1295 : BitVec 32 := Scalar.addi v0 c38_i32
  let v1297 : Index := Scalar.indexCast v1295
  ![v1296.toNat, v1297.toNat]
def k0_off78 (i : grid0.Coords) (v1302 : BitVec 32) : Fin 4 → Nat :=
  let arg0 : BitVec 32 := BitVec.ofNat 32 (i 0).val
  let c0_i32_424 : BitVec 32 := 0#32
  let c0_i32_425 : BitVec 32 := 0#32
  ![arg0.toNat, v1302.toNat, 0, 0]

def k0_off79 (i : grid0.Coords) : Fin 2 → Nat :=
  let arg0 : BitVec 32 := BitVec.ofNat 32 (i 0).val
  let v1330 : Index := Scalar.indexCast arg0
  let arg1 : BitVec 32 := BitVec.ofNat 32 (i 1).val
  let c64_i32 : BitVec 32 := 64#32
  let v0 : BitVec 32 := Scalar.muli arg1 c64_i32
  let c39_i32 : BitVec 32 := 39#32
  let v1329 : BitVec 32 := Scalar.addi v0 c39_i32
  let v1331 : Index := Scalar.indexCast v1329
  ![v1330.toNat, v1331.toNat]
def k0_off80 (i : grid0.Coords) (v1336 : BitVec 32) : Fin 4 → Nat :=
  let arg0 : BitVec 32 := BitVec.ofNat 32 (i 0).val
  let c0_i32_435 : BitVec 32 := 0#32
  let c0_i32_436 : BitVec 32 := 0#32
  ![arg0.toNat, v1336.toNat, 0, 0]

def k0_off81 (i : grid0.Coords) : Fin 2 → Nat :=
  let arg0 : BitVec 32 := BitVec.ofNat 32 (i 0).val
  let v1364 : Index := Scalar.indexCast arg0
  let arg1 : BitVec 32 := BitVec.ofNat 32 (i 1).val
  let c64_i32 : BitVec 32 := 64#32
  let v0 : BitVec 32 := Scalar.muli arg1 c64_i32
  let c40_i32 : BitVec 32 := 40#32
  let v1363 : BitVec 32 := Scalar.addi v0 c40_i32
  let v1365 : Index := Scalar.indexCast v1363
  ![v1364.toNat, v1365.toNat]
def k0_off82 (i : grid0.Coords) (v1370 : BitVec 32) : Fin 4 → Nat :=
  let arg0 : BitVec 32 := BitVec.ofNat 32 (i 0).val
  let c0_i32_446 : BitVec 32 := 0#32
  let c0_i32_447 : BitVec 32 := 0#32
  ![arg0.toNat, v1370.toNat, 0, 0]

def k0_off83 (i : grid0.Coords) : Fin 2 → Nat :=
  let arg0 : BitVec 32 := BitVec.ofNat 32 (i 0).val
  let v1398 : Index := Scalar.indexCast arg0
  let arg1 : BitVec 32 := BitVec.ofNat 32 (i 1).val
  let c64_i32 : BitVec 32 := 64#32
  let v0 : BitVec 32 := Scalar.muli arg1 c64_i32
  let c41_i32 : BitVec 32 := 41#32
  let v1397 : BitVec 32 := Scalar.addi v0 c41_i32
  let v1399 : Index := Scalar.indexCast v1397
  ![v1398.toNat, v1399.toNat]
def k0_off84 (i : grid0.Coords) (v1404 : BitVec 32) : Fin 4 → Nat :=
  let arg0 : BitVec 32 := BitVec.ofNat 32 (i 0).val
  let c0_i32_457 : BitVec 32 := 0#32
  let c0_i32_458 : BitVec 32 := 0#32
  ![arg0.toNat, v1404.toNat, 0, 0]

def k0_off85 (i : grid0.Coords) : Fin 2 → Nat :=
  let arg0 : BitVec 32 := BitVec.ofNat 32 (i 0).val
  let v1432 : Index := Scalar.indexCast arg0
  let arg1 : BitVec 32 := BitVec.ofNat 32 (i 1).val
  let c64_i32 : BitVec 32 := 64#32
  let v0 : BitVec 32 := Scalar.muli arg1 c64_i32
  let c42_i32 : BitVec 32 := 42#32
  let v1431 : BitVec 32 := Scalar.addi v0 c42_i32
  let v1433 : Index := Scalar.indexCast v1431
  ![v1432.toNat, v1433.toNat]
def k0_off86 (i : grid0.Coords) (v1438 : BitVec 32) : Fin 4 → Nat :=
  let arg0 : BitVec 32 := BitVec.ofNat 32 (i 0).val
  let c0_i32_468 : BitVec 32 := 0#32
  let c0_i32_469 : BitVec 32 := 0#32
  ![arg0.toNat, v1438.toNat, 0, 0]

def k0_off87 (i : grid0.Coords) : Fin 2 → Nat :=
  let arg0 : BitVec 32 := BitVec.ofNat 32 (i 0).val
  let v1466 : Index := Scalar.indexCast arg0
  let arg1 : BitVec 32 := BitVec.ofNat 32 (i 1).val
  let c64_i32 : BitVec 32 := 64#32
  let v0 : BitVec 32 := Scalar.muli arg1 c64_i32
  let c43_i32 : BitVec 32 := 43#32
  let v1465 : BitVec 32 := Scalar.addi v0 c43_i32
  let v1467 : Index := Scalar.indexCast v1465
  ![v1466.toNat, v1467.toNat]
def k0_off88 (i : grid0.Coords) (v1472 : BitVec 32) : Fin 4 → Nat :=
  let arg0 : BitVec 32 := BitVec.ofNat 32 (i 0).val
  let c0_i32_479 : BitVec 32 := 0#32
  let c0_i32_480 : BitVec 32 := 0#32
  ![arg0.toNat, v1472.toNat, 0, 0]

def k0_off89 (i : grid0.Coords) : Fin 2 → Nat :=
  let arg0 : BitVec 32 := BitVec.ofNat 32 (i 0).val
  let v1500 : Index := Scalar.indexCast arg0
  let arg1 : BitVec 32 := BitVec.ofNat 32 (i 1).val
  let c64_i32 : BitVec 32 := 64#32
  let v0 : BitVec 32 := Scalar.muli arg1 c64_i32
  let c44_i32 : BitVec 32 := 44#32
  let v1499 : BitVec 32 := Scalar.addi v0 c44_i32
  let v1501 : Index := Scalar.indexCast v1499
  ![v1500.toNat, v1501.toNat]
def k0_off90 (i : grid0.Coords) (v1506 : BitVec 32) : Fin 4 → Nat :=
  let arg0 : BitVec 32 := BitVec.ofNat 32 (i 0).val
  let c0_i32_490 : BitVec 32 := 0#32
  let c0_i32_491 : BitVec 32 := 0#32
  ![arg0.toNat, v1506.toNat, 0, 0]

def k0_off91 (i : grid0.Coords) : Fin 2 → Nat :=
  let arg0 : BitVec 32 := BitVec.ofNat 32 (i 0).val
  let v1534 : Index := Scalar.indexCast arg0
  let arg1 : BitVec 32 := BitVec.ofNat 32 (i 1).val
  let c64_i32 : BitVec 32 := 64#32
  let v0 : BitVec 32 := Scalar.muli arg1 c64_i32
  let c45_i32 : BitVec 32 := 45#32
  let v1533 : BitVec 32 := Scalar.addi v0 c45_i32
  let v1535 : Index := Scalar.indexCast v1533
  ![v1534.toNat, v1535.toNat]
def k0_off92 (i : grid0.Coords) (v1540 : BitVec 32) : Fin 4 → Nat :=
  let arg0 : BitVec 32 := BitVec.ofNat 32 (i 0).val
  let c0_i32_501 : BitVec 32 := 0#32
  let c0_i32_502 : BitVec 32 := 0#32
  ![arg0.toNat, v1540.toNat, 0, 0]

def k0_off93 (i : grid0.Coords) : Fin 2 → Nat :=
  let arg0 : BitVec 32 := BitVec.ofNat 32 (i 0).val
  let v1568 : Index := Scalar.indexCast arg0
  let arg1 : BitVec 32 := BitVec.ofNat 32 (i 1).val
  let c64_i32 : BitVec 32 := 64#32
  let v0 : BitVec 32 := Scalar.muli arg1 c64_i32
  let c46_i32 : BitVec 32 := 46#32
  let v1567 : BitVec 32 := Scalar.addi v0 c46_i32
  let v1569 : Index := Scalar.indexCast v1567
  ![v1568.toNat, v1569.toNat]
def k0_off94 (i : grid0.Coords) (v1574 : BitVec 32) : Fin 4 → Nat :=
  let arg0 : BitVec 32 := BitVec.ofNat 32 (i 0).val
  let c0_i32_512 : BitVec 32 := 0#32
  let c0_i32_513 : BitVec 32 := 0#32
  ![arg0.toNat, v1574.toNat, 0, 0]

def k0_off95 (i : grid0.Coords) : Fin 2 → Nat :=
  let arg0 : BitVec 32 := BitVec.ofNat 32 (i 0).val
  let v1602 : Index := Scalar.indexCast arg0
  let arg1 : BitVec 32 := BitVec.ofNat 32 (i 1).val
  let c64_i32 : BitVec 32 := 64#32
  let v0 : BitVec 32 := Scalar.muli arg1 c64_i32
  let c47_i32 : BitVec 32 := 47#32
  let v1601 : BitVec 32 := Scalar.addi v0 c47_i32
  let v1603 : Index := Scalar.indexCast v1601
  ![v1602.toNat, v1603.toNat]
def k0_off96 (i : grid0.Coords) (v1608 : BitVec 32) : Fin 4 → Nat :=
  let arg0 : BitVec 32 := BitVec.ofNat 32 (i 0).val
  let c0_i32_523 : BitVec 32 := 0#32
  let c0_i32_524 : BitVec 32 := 0#32
  ![arg0.toNat, v1608.toNat, 0, 0]

def k0_off97 (i : grid0.Coords) : Fin 2 → Nat :=
  let arg0 : BitVec 32 := BitVec.ofNat 32 (i 0).val
  let v1636 : Index := Scalar.indexCast arg0
  let arg1 : BitVec 32 := BitVec.ofNat 32 (i 1).val
  let c64_i32 : BitVec 32 := 64#32
  let v0 : BitVec 32 := Scalar.muli arg1 c64_i32
  let c48_i32 : BitVec 32 := 48#32
  let v1635 : BitVec 32 := Scalar.addi v0 c48_i32
  let v1637 : Index := Scalar.indexCast v1635
  ![v1636.toNat, v1637.toNat]
def k0_off98 (i : grid0.Coords) (v1642 : BitVec 32) : Fin 4 → Nat :=
  let arg0 : BitVec 32 := BitVec.ofNat 32 (i 0).val
  let c0_i32_534 : BitVec 32 := 0#32
  let c0_i32_535 : BitVec 32 := 0#32
  ![arg0.toNat, v1642.toNat, 0, 0]

def k0_off99 (i : grid0.Coords) : Fin 2 → Nat :=
  let arg0 : BitVec 32 := BitVec.ofNat 32 (i 0).val
  let v1670 : Index := Scalar.indexCast arg0
  let arg1 : BitVec 32 := BitVec.ofNat 32 (i 1).val
  let c64_i32 : BitVec 32 := 64#32
  let v0 : BitVec 32 := Scalar.muli arg1 c64_i32
  let c49_i32 : BitVec 32 := 49#32
  let v1669 : BitVec 32 := Scalar.addi v0 c49_i32
  let v1671 : Index := Scalar.indexCast v1669
  ![v1670.toNat, v1671.toNat]
def k0_off100 (i : grid0.Coords) (v1676 : BitVec 32) : Fin 4 → Nat :=
  let arg0 : BitVec 32 := BitVec.ofNat 32 (i 0).val
  let c0_i32_545 : BitVec 32 := 0#32
  let c0_i32_546 : BitVec 32 := 0#32
  ![arg0.toNat, v1676.toNat, 0, 0]

def k0_off101 (i : grid0.Coords) : Fin 2 → Nat :=
  let arg0 : BitVec 32 := BitVec.ofNat 32 (i 0).val
  let v1704 : Index := Scalar.indexCast arg0
  let arg1 : BitVec 32 := BitVec.ofNat 32 (i 1).val
  let c64_i32 : BitVec 32 := 64#32
  let v0 : BitVec 32 := Scalar.muli arg1 c64_i32
  let c50_i32 : BitVec 32 := 50#32
  let v1703 : BitVec 32 := Scalar.addi v0 c50_i32
  let v1705 : Index := Scalar.indexCast v1703
  ![v1704.toNat, v1705.toNat]
def k0_off102 (i : grid0.Coords) (v1710 : BitVec 32) : Fin 4 → Nat :=
  let arg0 : BitVec 32 := BitVec.ofNat 32 (i 0).val
  let c0_i32_556 : BitVec 32 := 0#32
  let c0_i32_557 : BitVec 32 := 0#32
  ![arg0.toNat, v1710.toNat, 0, 0]

def k0_off103 (i : grid0.Coords) : Fin 2 → Nat :=
  let arg0 : BitVec 32 := BitVec.ofNat 32 (i 0).val
  let v1738 : Index := Scalar.indexCast arg0
  let arg1 : BitVec 32 := BitVec.ofNat 32 (i 1).val
  let c64_i32 : BitVec 32 := 64#32
  let v0 : BitVec 32 := Scalar.muli arg1 c64_i32
  let c51_i32 : BitVec 32 := 51#32
  let v1737 : BitVec 32 := Scalar.addi v0 c51_i32
  let v1739 : Index := Scalar.indexCast v1737
  ![v1738.toNat, v1739.toNat]
def k0_off104 (i : grid0.Coords) (v1744 : BitVec 32) : Fin 4 → Nat :=
  let arg0 : BitVec 32 := BitVec.ofNat 32 (i 0).val
  let c0_i32_567 : BitVec 32 := 0#32
  let c0_i32_568 : BitVec 32 := 0#32
  ![arg0.toNat, v1744.toNat, 0, 0]

def k0_off105 (i : grid0.Coords) : Fin 2 → Nat :=
  let arg0 : BitVec 32 := BitVec.ofNat 32 (i 0).val
  let v1772 : Index := Scalar.indexCast arg0
  let arg1 : BitVec 32 := BitVec.ofNat 32 (i 1).val
  let c64_i32 : BitVec 32 := 64#32
  let v0 : BitVec 32 := Scalar.muli arg1 c64_i32
  let c52_i32 : BitVec 32 := 52#32
  let v1771 : BitVec 32 := Scalar.addi v0 c52_i32
  let v1773 : Index := Scalar.indexCast v1771
  ![v1772.toNat, v1773.toNat]
def k0_off106 (i : grid0.Coords) (v1778 : BitVec 32) : Fin 4 → Nat :=
  let arg0 : BitVec 32 := BitVec.ofNat 32 (i 0).val
  let c0_i32_578 : BitVec 32 := 0#32
  let c0_i32_579 : BitVec 32 := 0#32
  ![arg0.toNat, v1778.toNat, 0, 0]

def k0_off107 (i : grid0.Coords) : Fin 2 → Nat :=
  let arg0 : BitVec 32 := BitVec.ofNat 32 (i 0).val
  let v1806 : Index := Scalar.indexCast arg0
  let arg1 : BitVec 32 := BitVec.ofNat 32 (i 1).val
  let c64_i32 : BitVec 32 := 64#32
  let v0 : BitVec 32 := Scalar.muli arg1 c64_i32
  let c53_i32 : BitVec 32 := 53#32
  let v1805 : BitVec 32 := Scalar.addi v0 c53_i32
  let v1807 : Index := Scalar.indexCast v1805
  ![v1806.toNat, v1807.toNat]
def k0_off108 (i : grid0.Coords) (v1812 : BitVec 32) : Fin 4 → Nat :=
  let arg0 : BitVec 32 := BitVec.ofNat 32 (i 0).val
  let c0_i32_589 : BitVec 32 := 0#32
  let c0_i32_590 : BitVec 32 := 0#32
  ![arg0.toNat, v1812.toNat, 0, 0]

def k0_off109 (i : grid0.Coords) : Fin 2 → Nat :=
  let arg0 : BitVec 32 := BitVec.ofNat 32 (i 0).val
  let v1840 : Index := Scalar.indexCast arg0
  let arg1 : BitVec 32 := BitVec.ofNat 32 (i 1).val
  let c64_i32 : BitVec 32 := 64#32
  let v0 : BitVec 32 := Scalar.muli arg1 c64_i32
  let c54_i32 : BitVec 32 := 54#32
  let v1839 : BitVec 32 := Scalar.addi v0 c54_i32
  let v1841 : Index := Scalar.indexCast v1839
  ![v1840.toNat, v1841.toNat]
def k0_off110 (i : grid0.Coords) (v1846 : BitVec 32) : Fin 4 → Nat :=
  let arg0 : BitVec 32 := BitVec.ofNat 32 (i 0).val
  let c0_i32_600 : BitVec 32 := 0#32
  let c0_i32_601 : BitVec 32 := 0#32
  ![arg0.toNat, v1846.toNat, 0, 0]

def k0_off111 (i : grid0.Coords) : Fin 2 → Nat :=
  let arg0 : BitVec 32 := BitVec.ofNat 32 (i 0).val
  let v1874 : Index := Scalar.indexCast arg0
  let arg1 : BitVec 32 := BitVec.ofNat 32 (i 1).val
  let c64_i32 : BitVec 32 := 64#32
  let v0 : BitVec 32 := Scalar.muli arg1 c64_i32
  let c55_i32 : BitVec 32 := 55#32
  let v1873 : BitVec 32 := Scalar.addi v0 c55_i32
  let v1875 : Index := Scalar.indexCast v1873
  ![v1874.toNat, v1875.toNat]
def k0_off112 (i : grid0.Coords) (v1880 : BitVec 32) : Fin 4 → Nat :=
  let arg0 : BitVec 32 := BitVec.ofNat 32 (i 0).val
  let c0_i32_611 : BitVec 32 := 0#32
  let c0_i32_612 : BitVec 32 := 0#32
  ![arg0.toNat, v1880.toNat, 0, 0]

def k0_off113 (i : grid0.Coords) : Fin 2 → Nat :=
  let arg0 : BitVec 32 := BitVec.ofNat 32 (i 0).val
  let v1908 : Index := Scalar.indexCast arg0
  let arg1 : BitVec 32 := BitVec.ofNat 32 (i 1).val
  let c64_i32 : BitVec 32 := 64#32
  let v0 : BitVec 32 := Scalar.muli arg1 c64_i32
  let c56_i32 : BitVec 32 := 56#32
  let v1907 : BitVec 32 := Scalar.addi v0 c56_i32
  let v1909 : Index := Scalar.indexCast v1907
  ![v1908.toNat, v1909.toNat]
def k0_off114 (i : grid0.Coords) (v1914 : BitVec 32) : Fin 4 → Nat :=
  let arg0 : BitVec 32 := BitVec.ofNat 32 (i 0).val
  let c0_i32_622 : BitVec 32 := 0#32
  let c0_i32_623 : BitVec 32 := 0#32
  ![arg0.toNat, v1914.toNat, 0, 0]

def k0_off115 (i : grid0.Coords) : Fin 2 → Nat :=
  let arg0 : BitVec 32 := BitVec.ofNat 32 (i 0).val
  let v1942 : Index := Scalar.indexCast arg0
  let arg1 : BitVec 32 := BitVec.ofNat 32 (i 1).val
  let c64_i32 : BitVec 32 := 64#32
  let v0 : BitVec 32 := Scalar.muli arg1 c64_i32
  let c57_i32 : BitVec 32 := 57#32
  let v1941 : BitVec 32 := Scalar.addi v0 c57_i32
  let v1943 : Index := Scalar.indexCast v1941
  ![v1942.toNat, v1943.toNat]
def k0_off116 (i : grid0.Coords) (v1948 : BitVec 32) : Fin 4 → Nat :=
  let arg0 : BitVec 32 := BitVec.ofNat 32 (i 0).val
  let c0_i32_633 : BitVec 32 := 0#32
  let c0_i32_634 : BitVec 32 := 0#32
  ![arg0.toNat, v1948.toNat, 0, 0]

def k0_off117 (i : grid0.Coords) : Fin 2 → Nat :=
  let arg0 : BitVec 32 := BitVec.ofNat 32 (i 0).val
  let v1976 : Index := Scalar.indexCast arg0
  let arg1 : BitVec 32 := BitVec.ofNat 32 (i 1).val
  let c64_i32 : BitVec 32 := 64#32
  let v0 : BitVec 32 := Scalar.muli arg1 c64_i32
  let c58_i32 : BitVec 32 := 58#32
  let v1975 : BitVec 32 := Scalar.addi v0 c58_i32
  let v1977 : Index := Scalar.indexCast v1975
  ![v1976.toNat, v1977.toNat]
def k0_off118 (i : grid0.Coords) (v1982 : BitVec 32) : Fin 4 → Nat :=
  let arg0 : BitVec 32 := BitVec.ofNat 32 (i 0).val
  let c0_i32_644 : BitVec 32 := 0#32
  let c0_i32_645 : BitVec 32 := 0#32
  ![arg0.toNat, v1982.toNat, 0, 0]

def k0_off119 (i : grid0.Coords) : Fin 2 → Nat :=
  let arg0 : BitVec 32 := BitVec.ofNat 32 (i 0).val
  let v2010 : Index := Scalar.indexCast arg0
  let arg1 : BitVec 32 := BitVec.ofNat 32 (i 1).val
  let c64_i32 : BitVec 32 := 64#32
  let v0 : BitVec 32 := Scalar.muli arg1 c64_i32
  let c59_i32 : BitVec 32 := 59#32
  let v2009 : BitVec 32 := Scalar.addi v0 c59_i32
  let v2011 : Index := Scalar.indexCast v2009
  ![v2010.toNat, v2011.toNat]
def k0_off120 (i : grid0.Coords) (v2016 : BitVec 32) : Fin 4 → Nat :=
  let arg0 : BitVec 32 := BitVec.ofNat 32 (i 0).val
  let c0_i32_655 : BitVec 32 := 0#32
  let c0_i32_656 : BitVec 32 := 0#32
  ![arg0.toNat, v2016.toNat, 0, 0]

def k0_off121 (i : grid0.Coords) : Fin 2 → Nat :=
  let arg0 : BitVec 32 := BitVec.ofNat 32 (i 0).val
  let v2044 : Index := Scalar.indexCast arg0
  let arg1 : BitVec 32 := BitVec.ofNat 32 (i 1).val
  let c64_i32 : BitVec 32 := 64#32
  let v0 : BitVec 32 := Scalar.muli arg1 c64_i32
  let c60_i32 : BitVec 32 := 60#32
  let v2043 : BitVec 32 := Scalar.addi v0 c60_i32
  let v2045 : Index := Scalar.indexCast v2043
  ![v2044.toNat, v2045.toNat]
def k0_off122 (i : grid0.Coords) (v2050 : BitVec 32) : Fin 4 → Nat :=
  let arg0 : BitVec 32 := BitVec.ofNat 32 (i 0).val
  let c0_i32_666 : BitVec 32 := 0#32
  let c0_i32_667 : BitVec 32 := 0#32
  ![arg0.toNat, v2050.toNat, 0, 0]

def k0_off123 (i : grid0.Coords) : Fin 2 → Nat :=
  let arg0 : BitVec 32 := BitVec.ofNat 32 (i 0).val
  let v2078 : Index := Scalar.indexCast arg0
  let arg1 : BitVec 32 := BitVec.ofNat 32 (i 1).val
  let c64_i32 : BitVec 32 := 64#32
  let v0 : BitVec 32 := Scalar.muli arg1 c64_i32
  let c61_i32 : BitVec 32 := 61#32
  let v2077 : BitVec 32 := Scalar.addi v0 c61_i32
  let v2079 : Index := Scalar.indexCast v2077
  ![v2078.toNat, v2079.toNat]
def k0_off124 (i : grid0.Coords) (v2084 : BitVec 32) : Fin 4 → Nat :=
  let arg0 : BitVec 32 := BitVec.ofNat 32 (i 0).val
  let c0_i32_677 : BitVec 32 := 0#32
  let c0_i32_678 : BitVec 32 := 0#32
  ![arg0.toNat, v2084.toNat, 0, 0]

def k0_off125 (i : grid0.Coords) : Fin 2 → Nat :=
  let arg0 : BitVec 32 := BitVec.ofNat 32 (i 0).val
  let v2112 : Index := Scalar.indexCast arg0
  let arg1 : BitVec 32 := BitVec.ofNat 32 (i 1).val
  let c64_i32 : BitVec 32 := 64#32
  let v0 : BitVec 32 := Scalar.muli arg1 c64_i32
  let c62_i32 : BitVec 32 := 62#32
  let v2111 : BitVec 32 := Scalar.addi v0 c62_i32
  let v2113 : Index := Scalar.indexCast v2111
  ![v2112.toNat, v2113.toNat]
def k0_off126 (i : grid0.Coords) (v2118 : BitVec 32) : Fin 4 → Nat :=
  let arg0 : BitVec 32 := BitVec.ofNat 32 (i 0).val
  let c0_i32_688 : BitVec 32 := 0#32
  let c0_i32_689 : BitVec 32 := 0#32
  ![arg0.toNat, v2118.toNat, 0, 0]

def k0_off127 (i : grid0.Coords) : Fin 2 → Nat :=
  let arg0 : BitVec 32 := BitVec.ofNat 32 (i 0).val
  let v2146 : Index := Scalar.indexCast arg0
  let arg1 : BitVec 32 := BitVec.ofNat 32 (i 1).val
  let c64_i32 : BitVec 32 := 64#32
  let v0 : BitVec 32 := Scalar.muli arg1 c64_i32
  let c63_i32 : BitVec 32 := 63#32
  let v2145 : BitVec 32 := Scalar.addi v0 c63_i32
  let v2147 : Index := Scalar.indexCast v2145
  ![v2146.toNat, v2147.toNat]
def k0_off128 (i : grid0.Coords) (v2152 : BitVec 32) : Fin 4 → Nat :=
  let arg0 : BitVec 32 := BitVec.ofNat 32 (i 0).val
  let c0_i32_699 : BitVec 32 := 0#32
  let c0_i32_700 : BitVec 32 := 0#32
  ![arg0.toNat, v2152.toNat, 0, 0]

def k0_chk64 (i : grid0.Coords) (v2152 : BitVec 32) : Prop :=
  (∀ a, (k0_off128 i v2152) a + S1x1x128x512.size a ≤ S2x216x128x512.size a) ∧
  (∀ (hinb : ∀ a, (k0_off128 i v2152) a + S1x1x128x512.size a ≤ S2x216x128x512.size a), (Rect.unit (s := S2x216x128x512) (k0_off128 i v2152) S1x1x128x512.size hinb).WholeWords (EltTy.packing .bf16))
instance k0_chk64.dec : ∀ (i : grid0.Coords) (v2152 : BitVec 32), Decidable (k0_chk64 i v2152) := fun i v2152 => decidable_of_iff' _ (Iff.of_eq (k0_chk64.eq_1 i v2152))
theorem k0_off128_inb : ∀ (i : grid0.Coords) (v2152 : BitVec 32) (k0_hw64 : k0_chk64 i v2152), ∀ a, (k0_off128 i v2152) a + S1x1x128x512.size a ≤ S2x216x128x512.size a := fun i v2152 k0_hw64 => k0_hw64.1
theorem k0_off128_wordsbf16 : ∀ (i : grid0.Coords) (v2152 : BitVec 32) (k0_hw64 : k0_chk64 i v2152), (Rect.unit (s := S2x216x128x512) (k0_off128 i v2152) S1x1x128x512.size (k0_off128_inb i v2152 k0_hw64)).WholeWords (EltTy.packing .bf16) := fun i v2152 k0_hw64 => k0_hw64.2 (k0_off128_inb i v2152 k0_hw64)

def k0_off129 (i : grid0.Coords) (v10 : BitVec 32) : Fin 4 → Nat :=
  let arg0 : BitVec 32 := BitVec.ofNat 32 (i 0).val
  let c0_i32_708 : BitVec 32 := 0#32
  let c0_i32_709 : BitVec 32 := 0#32
  ![arg0.toNat, v10.toNat, 0, 0]

def k0_chk1 (i : grid0.Coords) (v10 : BitVec 32) : Prop :=
  (∀ a, (k0_off2 i v10) a + S1x1x128x512.size a ≤ S2x216x128x512.size a) ∧
  (∀ (hinb : ∀ a, (k0_off2 i v10) a + S1x1x128x512.size a ≤ S2x216x128x512.size a), (Rect.unit (s := S2x216x128x512) (k0_off2 i v10) S1x1x128x512.size hinb).WholeWords (EltTy.packing .bf16)) ∧
  (∀ a, (k0_off129 i v10) a + S1x1x128x512.size a ≤ S2x216x128x512.size a) ∧
  (∀ (hinb : ∀ a, (k0_off129 i v10) a + S1x1x128x512.size a ≤ S2x216x128x512.size a), (Rect.unit (s := S2x216x128x512) (k0_off129 i v10) S1x1x128x512.size hinb).WholeWords (EltTy.packing .bf16))
instance k0_chk1.dec : ∀ (i : grid0.Coords) (v10 : BitVec 32), Decidable (k0_chk1 i v10) := fun i v10 => decidable_of_iff' _ (Iff.of_eq (k0_chk1.eq_1 i v10))
theorem k0_off2_inb : ∀ (i : grid0.Coords) (v10 : BitVec 32) (k0_hw1 : k0_chk1 i v10), ∀ a, (k0_off2 i v10) a + S1x1x128x512.size a ≤ S2x216x128x512.size a := fun i v10 k0_hw1 => k0_hw1.1
theorem k0_off2_wordsbf16 : ∀ (i : grid0.Coords) (v10 : BitVec 32) (k0_hw1 : k0_chk1 i v10), (Rect.unit (s := S2x216x128x512) (k0_off2 i v10) S1x1x128x512.size (k0_off2_inb i v10 k0_hw1)).WholeWords (EltTy.packing .bf16) := fun i v10 k0_hw1 => k0_hw1.2.1 (k0_off2_inb i v10 k0_hw1)
theorem k0_off129_inb : ∀ (i : grid0.Coords) (v10 : BitVec 32) (k0_hw1 : k0_chk1 i v10), ∀ a, (k0_off129 i v10) a + S1x1x128x512.size a ≤ S2x216x128x512.size a := fun i v10 k0_hw1 => k0_hw1.2.2.1
theorem k0_off129_wordsbf16 : ∀ (i : grid0.Coords) (v10 : BitVec 32) (k0_hw1 : k0_chk1 i v10), (Rect.unit (s := S2x216x128x512) (k0_off129 i v10) S1x1x128x512.size (k0_off129_inb i v10 k0_hw1)).WholeWords (EltTy.packing .bf16) := fun i v10 k0_hw1 => k0_hw1.2.2.2 (k0_off129_inb i v10 k0_hw1)

def k0_off130 (i : grid0.Coords) (v44 : BitVec 32) : Fin 4 → Nat :=
  let arg0 : BitVec 32 := BitVec.ofNat 32 (i 0).val
  let c0_i32_714 : BitVec 32 := 0#32
  let c0_i32_715 : BitVec 32 := 0#32
  ![arg0.toNat, v44.toNat, 0, 0]

def k0_chk2 (i : grid0.Coords) (v44 : BitVec 32) : Prop :=
  (∀ a, (k0_off4 i v44) a + S1x1x128x512.size a ≤ S2x216x128x512.size a) ∧
  (∀ (hinb : ∀ a, (k0_off4 i v44) a + S1x1x128x512.size a ≤ S2x216x128x512.size a), (Rect.unit (s := S2x216x128x512) (k0_off4 i v44) S1x1x128x512.size hinb).WholeWords (EltTy.packing .bf16)) ∧
  (∀ a, (k0_off130 i v44) a + S1x1x128x512.size a ≤ S2x216x128x512.size a) ∧
  (∀ (hinb : ∀ a, (k0_off130 i v44) a + S1x1x128x512.size a ≤ S2x216x128x512.size a), (Rect.unit (s := S2x216x128x512) (k0_off130 i v44) S1x1x128x512.size hinb).WholeWords (EltTy.packing .bf16))
instance k0_chk2.dec : ∀ (i : grid0.Coords) (v44 : BitVec 32), Decidable (k0_chk2 i v44) := fun i v44 => decidable_of_iff' _ (Iff.of_eq (k0_chk2.eq_1 i v44))
theorem k0_off4_inb : ∀ (i : grid0.Coords) (v44 : BitVec 32) (k0_hw2 : k0_chk2 i v44), ∀ a, (k0_off4 i v44) a + S1x1x128x512.size a ≤ S2x216x128x512.size a := fun i v44 k0_hw2 => k0_hw2.1
theorem k0_off4_wordsbf16 : ∀ (i : grid0.Coords) (v44 : BitVec 32) (k0_hw2 : k0_chk2 i v44), (Rect.unit (s := S2x216x128x512) (k0_off4 i v44) S1x1x128x512.size (k0_off4_inb i v44 k0_hw2)).WholeWords (EltTy.packing .bf16) := fun i v44 k0_hw2 => k0_hw2.2.1 (k0_off4_inb i v44 k0_hw2)
theorem k0_off130_inb : ∀ (i : grid0.Coords) (v44 : BitVec 32) (k0_hw2 : k0_chk2 i v44), ∀ a, (k0_off130 i v44) a + S1x1x128x512.size a ≤ S2x216x128x512.size a := fun i v44 k0_hw2 => k0_hw2.2.2.1
theorem k0_off130_wordsbf16 : ∀ (i : grid0.Coords) (v44 : BitVec 32) (k0_hw2 : k0_chk2 i v44), (Rect.unit (s := S2x216x128x512) (k0_off130 i v44) S1x1x128x512.size (k0_off130_inb i v44 k0_hw2)).WholeWords (EltTy.packing .bf16) := fun i v44 k0_hw2 => k0_hw2.2.2.2 (k0_off130_inb i v44 k0_hw2)

def k0_off131 (i : grid0.Coords) (v78 : BitVec 32) : Fin 4 → Nat :=
  let arg0 : BitVec 32 := BitVec.ofNat 32 (i 0).val
  let c0_i32_720 : BitVec 32 := 0#32
  let c0_i32_721 : BitVec 32 := 0#32
  ![arg0.toNat, v78.toNat, 0, 0]

def k0_chk3 (i : grid0.Coords) (v78 : BitVec 32) : Prop :=
  (∀ a, (k0_off6 i v78) a + S1x1x128x512.size a ≤ S2x216x128x512.size a) ∧
  (∀ (hinb : ∀ a, (k0_off6 i v78) a + S1x1x128x512.size a ≤ S2x216x128x512.size a), (Rect.unit (s := S2x216x128x512) (k0_off6 i v78) S1x1x128x512.size hinb).WholeWords (EltTy.packing .bf16)) ∧
  (∀ a, (k0_off131 i v78) a + S1x1x128x512.size a ≤ S2x216x128x512.size a) ∧
  (∀ (hinb : ∀ a, (k0_off131 i v78) a + S1x1x128x512.size a ≤ S2x216x128x512.size a), (Rect.unit (s := S2x216x128x512) (k0_off131 i v78) S1x1x128x512.size hinb).WholeWords (EltTy.packing .bf16))
instance k0_chk3.dec : ∀ (i : grid0.Coords) (v78 : BitVec 32), Decidable (k0_chk3 i v78) := fun i v78 => decidable_of_iff' _ (Iff.of_eq (k0_chk3.eq_1 i v78))
theorem k0_off6_inb : ∀ (i : grid0.Coords) (v78 : BitVec 32) (k0_hw3 : k0_chk3 i v78), ∀ a, (k0_off6 i v78) a + S1x1x128x512.size a ≤ S2x216x128x512.size a := fun i v78 k0_hw3 => k0_hw3.1
theorem k0_off6_wordsbf16 : ∀ (i : grid0.Coords) (v78 : BitVec 32) (k0_hw3 : k0_chk3 i v78), (Rect.unit (s := S2x216x128x512) (k0_off6 i v78) S1x1x128x512.size (k0_off6_inb i v78 k0_hw3)).WholeWords (EltTy.packing .bf16) := fun i v78 k0_hw3 => k0_hw3.2.1 (k0_off6_inb i v78 k0_hw3)
theorem k0_off131_inb : ∀ (i : grid0.Coords) (v78 : BitVec 32) (k0_hw3 : k0_chk3 i v78), ∀ a, (k0_off131 i v78) a + S1x1x128x512.size a ≤ S2x216x128x512.size a := fun i v78 k0_hw3 => k0_hw3.2.2.1
theorem k0_off131_wordsbf16 : ∀ (i : grid0.Coords) (v78 : BitVec 32) (k0_hw3 : k0_chk3 i v78), (Rect.unit (s := S2x216x128x512) (k0_off131 i v78) S1x1x128x512.size (k0_off131_inb i v78 k0_hw3)).WholeWords (EltTy.packing .bf16) := fun i v78 k0_hw3 => k0_hw3.2.2.2 (k0_off131_inb i v78 k0_hw3)

def k0_off132 (i : grid0.Coords) (v112 : BitVec 32) : Fin 4 → Nat :=
  let arg0 : BitVec 32 := BitVec.ofNat 32 (i 0).val
  let c0_i32_726 : BitVec 32 := 0#32
  let c0_i32_727 : BitVec 32 := 0#32
  ![arg0.toNat, v112.toNat, 0, 0]

def k0_chk4 (i : grid0.Coords) (v112 : BitVec 32) : Prop :=
  (∀ a, (k0_off8 i v112) a + S1x1x128x512.size a ≤ S2x216x128x512.size a) ∧
  (∀ (hinb : ∀ a, (k0_off8 i v112) a + S1x1x128x512.size a ≤ S2x216x128x512.size a), (Rect.unit (s := S2x216x128x512) (k0_off8 i v112) S1x1x128x512.size hinb).WholeWords (EltTy.packing .bf16)) ∧
  (∀ a, (k0_off132 i v112) a + S1x1x128x512.size a ≤ S2x216x128x512.size a) ∧
  (∀ (hinb : ∀ a, (k0_off132 i v112) a + S1x1x128x512.size a ≤ S2x216x128x512.size a), (Rect.unit (s := S2x216x128x512) (k0_off132 i v112) S1x1x128x512.size hinb).WholeWords (EltTy.packing .bf16))
instance k0_chk4.dec : ∀ (i : grid0.Coords) (v112 : BitVec 32), Decidable (k0_chk4 i v112) := fun i v112 => decidable_of_iff' _ (Iff.of_eq (k0_chk4.eq_1 i v112))
theorem k0_off8_inb : ∀ (i : grid0.Coords) (v112 : BitVec 32) (k0_hw4 : k0_chk4 i v112), ∀ a, (k0_off8 i v112) a + S1x1x128x512.size a ≤ S2x216x128x512.size a := fun i v112 k0_hw4 => k0_hw4.1
theorem k0_off8_wordsbf16 : ∀ (i : grid0.Coords) (v112 : BitVec 32) (k0_hw4 : k0_chk4 i v112), (Rect.unit (s := S2x216x128x512) (k0_off8 i v112) S1x1x128x512.size (k0_off8_inb i v112 k0_hw4)).WholeWords (EltTy.packing .bf16) := fun i v112 k0_hw4 => k0_hw4.2.1 (k0_off8_inb i v112 k0_hw4)
theorem k0_off132_inb : ∀ (i : grid0.Coords) (v112 : BitVec 32) (k0_hw4 : k0_chk4 i v112), ∀ a, (k0_off132 i v112) a + S1x1x128x512.size a ≤ S2x216x128x512.size a := fun i v112 k0_hw4 => k0_hw4.2.2.1
theorem k0_off132_wordsbf16 : ∀ (i : grid0.Coords) (v112 : BitVec 32) (k0_hw4 : k0_chk4 i v112), (Rect.unit (s := S2x216x128x512) (k0_off132 i v112) S1x1x128x512.size (k0_off132_inb i v112 k0_hw4)).WholeWords (EltTy.packing .bf16) := fun i v112 k0_hw4 => k0_hw4.2.2.2 (k0_off132_inb i v112 k0_hw4)

def k0_off133 (i : grid0.Coords) (v146 : BitVec 32) : Fin 4 → Nat :=
  let arg0 : BitVec 32 := BitVec.ofNat 32 (i 0).val
  let c0_i32_732 : BitVec 32 := 0#32
  let c0_i32_733 : BitVec 32 := 0#32
  ![arg0.toNat, v146.toNat, 0, 0]

def k0_chk5 (i : grid0.Coords) (v146 : BitVec 32) : Prop :=
  (∀ a, (k0_off10 i v146) a + S1x1x128x512.size a ≤ S2x216x128x512.size a) ∧
  (∀ (hinb : ∀ a, (k0_off10 i v146) a + S1x1x128x512.size a ≤ S2x216x128x512.size a), (Rect.unit (s := S2x216x128x512) (k0_off10 i v146) S1x1x128x512.size hinb).WholeWords (EltTy.packing .bf16)) ∧
  (∀ a, (k0_off133 i v146) a + S1x1x128x512.size a ≤ S2x216x128x512.size a) ∧
  (∀ (hinb : ∀ a, (k0_off133 i v146) a + S1x1x128x512.size a ≤ S2x216x128x512.size a), (Rect.unit (s := S2x216x128x512) (k0_off133 i v146) S1x1x128x512.size hinb).WholeWords (EltTy.packing .bf16))
instance k0_chk5.dec : ∀ (i : grid0.Coords) (v146 : BitVec 32), Decidable (k0_chk5 i v146) := fun i v146 => decidable_of_iff' _ (Iff.of_eq (k0_chk5.eq_1 i v146))
theorem k0_off10_inb : ∀ (i : grid0.Coords) (v146 : BitVec 32) (k0_hw5 : k0_chk5 i v146), ∀ a, (k0_off10 i v146) a + S1x1x128x512.size a ≤ S2x216x128x512.size a := fun i v146 k0_hw5 => k0_hw5.1
theorem k0_off10_wordsbf16 : ∀ (i : grid0.Coords) (v146 : BitVec 32) (k0_hw5 : k0_chk5 i v146), (Rect.unit (s := S2x216x128x512) (k0_off10 i v146) S1x1x128x512.size (k0_off10_inb i v146 k0_hw5)).WholeWords (EltTy.packing .bf16) := fun i v146 k0_hw5 => k0_hw5.2.1 (k0_off10_inb i v146 k0_hw5)
theorem k0_off133_inb : ∀ (i : grid0.Coords) (v146 : BitVec 32) (k0_hw5 : k0_chk5 i v146), ∀ a, (k0_off133 i v146) a + S1x1x128x512.size a ≤ S2x216x128x512.size a := fun i v146 k0_hw5 => k0_hw5.2.2.1
theorem k0_off133_wordsbf16 : ∀ (i : grid0.Coords) (v146 : BitVec 32) (k0_hw5 : k0_chk5 i v146), (Rect.unit (s := S2x216x128x512) (k0_off133 i v146) S1x1x128x512.size (k0_off133_inb i v146 k0_hw5)).WholeWords (EltTy.packing .bf16) := fun i v146 k0_hw5 => k0_hw5.2.2.2 (k0_off133_inb i v146 k0_hw5)

def k0_off134 (i : grid0.Coords) (v180 : BitVec 32) : Fin 4 → Nat :=
  let arg0 : BitVec 32 := BitVec.ofNat 32 (i 0).val
  let c0_i32_738 : BitVec 32 := 0#32
  let c0_i32_739 : BitVec 32 := 0#32
  ![arg0.toNat, v180.toNat, 0, 0]

def k0_chk6 (i : grid0.Coords) (v180 : BitVec 32) : Prop :=
  (∀ a, (k0_off12 i v180) a + S1x1x128x512.size a ≤ S2x216x128x512.size a) ∧
  (∀ (hinb : ∀ a, (k0_off12 i v180) a + S1x1x128x512.size a ≤ S2x216x128x512.size a), (Rect.unit (s := S2x216x128x512) (k0_off12 i v180) S1x1x128x512.size hinb).WholeWords (EltTy.packing .bf16)) ∧
  (∀ a, (k0_off134 i v180) a + S1x1x128x512.size a ≤ S2x216x128x512.size a) ∧
  (∀ (hinb : ∀ a, (k0_off134 i v180) a + S1x1x128x512.size a ≤ S2x216x128x512.size a), (Rect.unit (s := S2x216x128x512) (k0_off134 i v180) S1x1x128x512.size hinb).WholeWords (EltTy.packing .bf16))
instance k0_chk6.dec : ∀ (i : grid0.Coords) (v180 : BitVec 32), Decidable (k0_chk6 i v180) := fun i v180 => decidable_of_iff' _ (Iff.of_eq (k0_chk6.eq_1 i v180))
theorem k0_off12_inb : ∀ (i : grid0.Coords) (v180 : BitVec 32) (k0_hw6 : k0_chk6 i v180), ∀ a, (k0_off12 i v180) a + S1x1x128x512.size a ≤ S2x216x128x512.size a := fun i v180 k0_hw6 => k0_hw6.1
theorem k0_off12_wordsbf16 : ∀ (i : grid0.Coords) (v180 : BitVec 32) (k0_hw6 : k0_chk6 i v180), (Rect.unit (s := S2x216x128x512) (k0_off12 i v180) S1x1x128x512.size (k0_off12_inb i v180 k0_hw6)).WholeWords (EltTy.packing .bf16) := fun i v180 k0_hw6 => k0_hw6.2.1 (k0_off12_inb i v180 k0_hw6)
theorem k0_off134_inb : ∀ (i : grid0.Coords) (v180 : BitVec 32) (k0_hw6 : k0_chk6 i v180), ∀ a, (k0_off134 i v180) a + S1x1x128x512.size a ≤ S2x216x128x512.size a := fun i v180 k0_hw6 => k0_hw6.2.2.1
theorem k0_off134_wordsbf16 : ∀ (i : grid0.Coords) (v180 : BitVec 32) (k0_hw6 : k0_chk6 i v180), (Rect.unit (s := S2x216x128x512) (k0_off134 i v180) S1x1x128x512.size (k0_off134_inb i v180 k0_hw6)).WholeWords (EltTy.packing .bf16) := fun i v180 k0_hw6 => k0_hw6.2.2.2 (k0_off134_inb i v180 k0_hw6)

def k0_off135 (i : grid0.Coords) (v214 : BitVec 32) : Fin 4 → Nat :=
  let arg0 : BitVec 32 := BitVec.ofNat 32 (i 0).val
  let c0_i32_744 : BitVec 32 := 0#32
  let c0_i32_745 : BitVec 32 := 0#32
  ![arg0.toNat, v214.toNat, 0, 0]

def k0_chk7 (i : grid0.Coords) (v214 : BitVec 32) : Prop :=
  (∀ a, (k0_off14 i v214) a + S1x1x128x512.size a ≤ S2x216x128x512.size a) ∧
  (∀ (hinb : ∀ a, (k0_off14 i v214) a + S1x1x128x512.size a ≤ S2x216x128x512.size a), (Rect.unit (s := S2x216x128x512) (k0_off14 i v214) S1x1x128x512.size hinb).WholeWords (EltTy.packing .bf16)) ∧
  (∀ a, (k0_off135 i v214) a + S1x1x128x512.size a ≤ S2x216x128x512.size a) ∧
  (∀ (hinb : ∀ a, (k0_off135 i v214) a + S1x1x128x512.size a ≤ S2x216x128x512.size a), (Rect.unit (s := S2x216x128x512) (k0_off135 i v214) S1x1x128x512.size hinb).WholeWords (EltTy.packing .bf16))
instance k0_chk7.dec : ∀ (i : grid0.Coords) (v214 : BitVec 32), Decidable (k0_chk7 i v214) := fun i v214 => decidable_of_iff' _ (Iff.of_eq (k0_chk7.eq_1 i v214))
theorem k0_off14_inb : ∀ (i : grid0.Coords) (v214 : BitVec 32) (k0_hw7 : k0_chk7 i v214), ∀ a, (k0_off14 i v214) a + S1x1x128x512.size a ≤ S2x216x128x512.size a := fun i v214 k0_hw7 => k0_hw7.1
theorem k0_off14_wordsbf16 : ∀ (i : grid0.Coords) (v214 : BitVec 32) (k0_hw7 : k0_chk7 i v214), (Rect.unit (s := S2x216x128x512) (k0_off14 i v214) S1x1x128x512.size (k0_off14_inb i v214 k0_hw7)).WholeWords (EltTy.packing .bf16) := fun i v214 k0_hw7 => k0_hw7.2.1 (k0_off14_inb i v214 k0_hw7)
theorem k0_off135_inb : ∀ (i : grid0.Coords) (v214 : BitVec 32) (k0_hw7 : k0_chk7 i v214), ∀ a, (k0_off135 i v214) a + S1x1x128x512.size a ≤ S2x216x128x512.size a := fun i v214 k0_hw7 => k0_hw7.2.2.1
theorem k0_off135_wordsbf16 : ∀ (i : grid0.Coords) (v214 : BitVec 32) (k0_hw7 : k0_chk7 i v214), (Rect.unit (s := S2x216x128x512) (k0_off135 i v214) S1x1x128x512.size (k0_off135_inb i v214 k0_hw7)).WholeWords (EltTy.packing .bf16) := fun i v214 k0_hw7 => k0_hw7.2.2.2 (k0_off135_inb i v214 k0_hw7)

def k0_off136 (i : grid0.Coords) (v248 : BitVec 32) : Fin 4 → Nat :=
  let arg0 : BitVec 32 := BitVec.ofNat 32 (i 0).val
  let c0_i32_750 : BitVec 32 := 0#32
  let c0_i32_751 : BitVec 32 := 0#32
  ![arg0.toNat, v248.toNat, 0, 0]

def k0_chk8 (i : grid0.Coords) (v248 : BitVec 32) : Prop :=
  (∀ a, (k0_off16 i v248) a + S1x1x128x512.size a ≤ S2x216x128x512.size a) ∧
  (∀ (hinb : ∀ a, (k0_off16 i v248) a + S1x1x128x512.size a ≤ S2x216x128x512.size a), (Rect.unit (s := S2x216x128x512) (k0_off16 i v248) S1x1x128x512.size hinb).WholeWords (EltTy.packing .bf16)) ∧
  (∀ a, (k0_off136 i v248) a + S1x1x128x512.size a ≤ S2x216x128x512.size a) ∧
  (∀ (hinb : ∀ a, (k0_off136 i v248) a + S1x1x128x512.size a ≤ S2x216x128x512.size a), (Rect.unit (s := S2x216x128x512) (k0_off136 i v248) S1x1x128x512.size hinb).WholeWords (EltTy.packing .bf16))
instance k0_chk8.dec : ∀ (i : grid0.Coords) (v248 : BitVec 32), Decidable (k0_chk8 i v248) := fun i v248 => decidable_of_iff' _ (Iff.of_eq (k0_chk8.eq_1 i v248))
theorem k0_off16_inb : ∀ (i : grid0.Coords) (v248 : BitVec 32) (k0_hw8 : k0_chk8 i v248), ∀ a, (k0_off16 i v248) a + S1x1x128x512.size a ≤ S2x216x128x512.size a := fun i v248 k0_hw8 => k0_hw8.1
theorem k0_off16_wordsbf16 : ∀ (i : grid0.Coords) (v248 : BitVec 32) (k0_hw8 : k0_chk8 i v248), (Rect.unit (s := S2x216x128x512) (k0_off16 i v248) S1x1x128x512.size (k0_off16_inb i v248 k0_hw8)).WholeWords (EltTy.packing .bf16) := fun i v248 k0_hw8 => k0_hw8.2.1 (k0_off16_inb i v248 k0_hw8)
theorem k0_off136_inb : ∀ (i : grid0.Coords) (v248 : BitVec 32) (k0_hw8 : k0_chk8 i v248), ∀ a, (k0_off136 i v248) a + S1x1x128x512.size a ≤ S2x216x128x512.size a := fun i v248 k0_hw8 => k0_hw8.2.2.1
theorem k0_off136_wordsbf16 : ∀ (i : grid0.Coords) (v248 : BitVec 32) (k0_hw8 : k0_chk8 i v248), (Rect.unit (s := S2x216x128x512) (k0_off136 i v248) S1x1x128x512.size (k0_off136_inb i v248 k0_hw8)).WholeWords (EltTy.packing .bf16) := fun i v248 k0_hw8 => k0_hw8.2.2.2 (k0_off136_inb i v248 k0_hw8)

def k0_off137 (i : grid0.Coords) (v282 : BitVec 32) : Fin 4 → Nat :=
  let arg0 : BitVec 32 := BitVec.ofNat 32 (i 0).val
  let c0_i32_756 : BitVec 32 := 0#32
  let c0_i32_757 : BitVec 32 := 0#32
  ![arg0.toNat, v282.toNat, 0, 0]

def k0_chk9 (i : grid0.Coords) (v282 : BitVec 32) : Prop :=
  (∀ a, (k0_off18 i v282) a + S1x1x128x512.size a ≤ S2x216x128x512.size a) ∧
  (∀ (hinb : ∀ a, (k0_off18 i v282) a + S1x1x128x512.size a ≤ S2x216x128x512.size a), (Rect.unit (s := S2x216x128x512) (k0_off18 i v282) S1x1x128x512.size hinb).WholeWords (EltTy.packing .bf16)) ∧
  (∀ a, (k0_off137 i v282) a + S1x1x128x512.size a ≤ S2x216x128x512.size a) ∧
  (∀ (hinb : ∀ a, (k0_off137 i v282) a + S1x1x128x512.size a ≤ S2x216x128x512.size a), (Rect.unit (s := S2x216x128x512) (k0_off137 i v282) S1x1x128x512.size hinb).WholeWords (EltTy.packing .bf16))
instance k0_chk9.dec : ∀ (i : grid0.Coords) (v282 : BitVec 32), Decidable (k0_chk9 i v282) := fun i v282 => decidable_of_iff' _ (Iff.of_eq (k0_chk9.eq_1 i v282))
theorem k0_off18_inb : ∀ (i : grid0.Coords) (v282 : BitVec 32) (k0_hw9 : k0_chk9 i v282), ∀ a, (k0_off18 i v282) a + S1x1x128x512.size a ≤ S2x216x128x512.size a := fun i v282 k0_hw9 => k0_hw9.1
theorem k0_off18_wordsbf16 : ∀ (i : grid0.Coords) (v282 : BitVec 32) (k0_hw9 : k0_chk9 i v282), (Rect.unit (s := S2x216x128x512) (k0_off18 i v282) S1x1x128x512.size (k0_off18_inb i v282 k0_hw9)).WholeWords (EltTy.packing .bf16) := fun i v282 k0_hw9 => k0_hw9.2.1 (k0_off18_inb i v282 k0_hw9)
theorem k0_off137_inb : ∀ (i : grid0.Coords) (v282 : BitVec 32) (k0_hw9 : k0_chk9 i v282), ∀ a, (k0_off137 i v282) a + S1x1x128x512.size a ≤ S2x216x128x512.size a := fun i v282 k0_hw9 => k0_hw9.2.2.1
theorem k0_off137_wordsbf16 : ∀ (i : grid0.Coords) (v282 : BitVec 32) (k0_hw9 : k0_chk9 i v282), (Rect.unit (s := S2x216x128x512) (k0_off137 i v282) S1x1x128x512.size (k0_off137_inb i v282 k0_hw9)).WholeWords (EltTy.packing .bf16) := fun i v282 k0_hw9 => k0_hw9.2.2.2 (k0_off137_inb i v282 k0_hw9)

def k0_off138 (i : grid0.Coords) (v316 : BitVec 32) : Fin 4 → Nat :=
  let arg0 : BitVec 32 := BitVec.ofNat 32 (i 0).val
  let c0_i32_762 : BitVec 32 := 0#32
  let c0_i32_763 : BitVec 32 := 0#32
  ![arg0.toNat, v316.toNat, 0, 0]

def k0_chk10 (i : grid0.Coords) (v316 : BitVec 32) : Prop :=
  (∀ a, (k0_off20 i v316) a + S1x1x128x512.size a ≤ S2x216x128x512.size a) ∧
  (∀ (hinb : ∀ a, (k0_off20 i v316) a + S1x1x128x512.size a ≤ S2x216x128x512.size a), (Rect.unit (s := S2x216x128x512) (k0_off20 i v316) S1x1x128x512.size hinb).WholeWords (EltTy.packing .bf16)) ∧
  (∀ a, (k0_off138 i v316) a + S1x1x128x512.size a ≤ S2x216x128x512.size a) ∧
  (∀ (hinb : ∀ a, (k0_off138 i v316) a + S1x1x128x512.size a ≤ S2x216x128x512.size a), (Rect.unit (s := S2x216x128x512) (k0_off138 i v316) S1x1x128x512.size hinb).WholeWords (EltTy.packing .bf16))
instance k0_chk10.dec : ∀ (i : grid0.Coords) (v316 : BitVec 32), Decidable (k0_chk10 i v316) := fun i v316 => decidable_of_iff' _ (Iff.of_eq (k0_chk10.eq_1 i v316))
theorem k0_off20_inb : ∀ (i : grid0.Coords) (v316 : BitVec 32) (k0_hw10 : k0_chk10 i v316), ∀ a, (k0_off20 i v316) a + S1x1x128x512.size a ≤ S2x216x128x512.size a := fun i v316 k0_hw10 => k0_hw10.1
theorem k0_off20_wordsbf16 : ∀ (i : grid0.Coords) (v316 : BitVec 32) (k0_hw10 : k0_chk10 i v316), (Rect.unit (s := S2x216x128x512) (k0_off20 i v316) S1x1x128x512.size (k0_off20_inb i v316 k0_hw10)).WholeWords (EltTy.packing .bf16) := fun i v316 k0_hw10 => k0_hw10.2.1 (k0_off20_inb i v316 k0_hw10)
theorem k0_off138_inb : ∀ (i : grid0.Coords) (v316 : BitVec 32) (k0_hw10 : k0_chk10 i v316), ∀ a, (k0_off138 i v316) a + S1x1x128x512.size a ≤ S2x216x128x512.size a := fun i v316 k0_hw10 => k0_hw10.2.2.1
theorem k0_off138_wordsbf16 : ∀ (i : grid0.Coords) (v316 : BitVec 32) (k0_hw10 : k0_chk10 i v316), (Rect.unit (s := S2x216x128x512) (k0_off138 i v316) S1x1x128x512.size (k0_off138_inb i v316 k0_hw10)).WholeWords (EltTy.packing .bf16) := fun i v316 k0_hw10 => k0_hw10.2.2.2 (k0_off138_inb i v316 k0_hw10)

def k0_off139 (i : grid0.Coords) (v350 : BitVec 32) : Fin 4 → Nat :=
  let arg0 : BitVec 32 := BitVec.ofNat 32 (i 0).val
  let c0_i32_768 : BitVec 32 := 0#32
  let c0_i32_769 : BitVec 32 := 0#32
  ![arg0.toNat, v350.toNat, 0, 0]

def k0_chk11 (i : grid0.Coords) (v350 : BitVec 32) : Prop :=
  (∀ a, (k0_off22 i v350) a + S1x1x128x512.size a ≤ S2x216x128x512.size a) ∧
  (∀ (hinb : ∀ a, (k0_off22 i v350) a + S1x1x128x512.size a ≤ S2x216x128x512.size a), (Rect.unit (s := S2x216x128x512) (k0_off22 i v350) S1x1x128x512.size hinb).WholeWords (EltTy.packing .bf16)) ∧
  (∀ a, (k0_off139 i v350) a + S1x1x128x512.size a ≤ S2x216x128x512.size a) ∧
  (∀ (hinb : ∀ a, (k0_off139 i v350) a + S1x1x128x512.size a ≤ S2x216x128x512.size a), (Rect.unit (s := S2x216x128x512) (k0_off139 i v350) S1x1x128x512.size hinb).WholeWords (EltTy.packing .bf16))
instance k0_chk11.dec : ∀ (i : grid0.Coords) (v350 : BitVec 32), Decidable (k0_chk11 i v350) := fun i v350 => decidable_of_iff' _ (Iff.of_eq (k0_chk11.eq_1 i v350))
theorem k0_off22_inb : ∀ (i : grid0.Coords) (v350 : BitVec 32) (k0_hw11 : k0_chk11 i v350), ∀ a, (k0_off22 i v350) a + S1x1x128x512.size a ≤ S2x216x128x512.size a := fun i v350 k0_hw11 => k0_hw11.1
theorem k0_off22_wordsbf16 : ∀ (i : grid0.Coords) (v350 : BitVec 32) (k0_hw11 : k0_chk11 i v350), (Rect.unit (s := S2x216x128x512) (k0_off22 i v350) S1x1x128x512.size (k0_off22_inb i v350 k0_hw11)).WholeWords (EltTy.packing .bf16) := fun i v350 k0_hw11 => k0_hw11.2.1 (k0_off22_inb i v350 k0_hw11)
theorem k0_off139_inb : ∀ (i : grid0.Coords) (v350 : BitVec 32) (k0_hw11 : k0_chk11 i v350), ∀ a, (k0_off139 i v350) a + S1x1x128x512.size a ≤ S2x216x128x512.size a := fun i v350 k0_hw11 => k0_hw11.2.2.1
theorem k0_off139_wordsbf16 : ∀ (i : grid0.Coords) (v350 : BitVec 32) (k0_hw11 : k0_chk11 i v350), (Rect.unit (s := S2x216x128x512) (k0_off139 i v350) S1x1x128x512.size (k0_off139_inb i v350 k0_hw11)).WholeWords (EltTy.packing .bf16) := fun i v350 k0_hw11 => k0_hw11.2.2.2 (k0_off139_inb i v350 k0_hw11)

def k0_off140 (i : grid0.Coords) (v384 : BitVec 32) : Fin 4 → Nat :=
  let arg0 : BitVec 32 := BitVec.ofNat 32 (i 0).val
  let c0_i32_774 : BitVec 32 := 0#32
  let c0_i32_775 : BitVec 32 := 0#32
  ![arg0.toNat, v384.toNat, 0, 0]

def k0_chk12 (i : grid0.Coords) (v384 : BitVec 32) : Prop :=
  (∀ a, (k0_off24 i v384) a + S1x1x128x512.size a ≤ S2x216x128x512.size a) ∧
  (∀ (hinb : ∀ a, (k0_off24 i v384) a + S1x1x128x512.size a ≤ S2x216x128x512.size a), (Rect.unit (s := S2x216x128x512) (k0_off24 i v384) S1x1x128x512.size hinb).WholeWords (EltTy.packing .bf16)) ∧
  (∀ a, (k0_off140 i v384) a + S1x1x128x512.size a ≤ S2x216x128x512.size a) ∧
  (∀ (hinb : ∀ a, (k0_off140 i v384) a + S1x1x128x512.size a ≤ S2x216x128x512.size a), (Rect.unit (s := S2x216x128x512) (k0_off140 i v384) S1x1x128x512.size hinb).WholeWords (EltTy.packing .bf16))
instance k0_chk12.dec : ∀ (i : grid0.Coords) (v384 : BitVec 32), Decidable (k0_chk12 i v384) := fun i v384 => decidable_of_iff' _ (Iff.of_eq (k0_chk12.eq_1 i v384))
theorem k0_off24_inb : ∀ (i : grid0.Coords) (v384 : BitVec 32) (k0_hw12 : k0_chk12 i v384), ∀ a, (k0_off24 i v384) a + S1x1x128x512.size a ≤ S2x216x128x512.size a := fun i v384 k0_hw12 => k0_hw12.1
theorem k0_off24_wordsbf16 : ∀ (i : grid0.Coords) (v384 : BitVec 32) (k0_hw12 : k0_chk12 i v384), (Rect.unit (s := S2x216x128x512) (k0_off24 i v384) S1x1x128x512.size (k0_off24_inb i v384 k0_hw12)).WholeWords (EltTy.packing .bf16) := fun i v384 k0_hw12 => k0_hw12.2.1 (k0_off24_inb i v384 k0_hw12)
theorem k0_off140_inb : ∀ (i : grid0.Coords) (v384 : BitVec 32) (k0_hw12 : k0_chk12 i v384), ∀ a, (k0_off140 i v384) a + S1x1x128x512.size a ≤ S2x216x128x512.size a := fun i v384 k0_hw12 => k0_hw12.2.2.1
theorem k0_off140_wordsbf16 : ∀ (i : grid0.Coords) (v384 : BitVec 32) (k0_hw12 : k0_chk12 i v384), (Rect.unit (s := S2x216x128x512) (k0_off140 i v384) S1x1x128x512.size (k0_off140_inb i v384 k0_hw12)).WholeWords (EltTy.packing .bf16) := fun i v384 k0_hw12 => k0_hw12.2.2.2 (k0_off140_inb i v384 k0_hw12)

def k0_off141 (i : grid0.Coords) (v418 : BitVec 32) : Fin 4 → Nat :=
  let arg0 : BitVec 32 := BitVec.ofNat 32 (i 0).val
  let c0_i32_780 : BitVec 32 := 0#32
  let c0_i32_781 : BitVec 32 := 0#32
  ![arg0.toNat, v418.toNat, 0, 0]

def k0_chk13 (i : grid0.Coords) (v418 : BitVec 32) : Prop :=
  (∀ a, (k0_off26 i v418) a + S1x1x128x512.size a ≤ S2x216x128x512.size a) ∧
  (∀ (hinb : ∀ a, (k0_off26 i v418) a + S1x1x128x512.size a ≤ S2x216x128x512.size a), (Rect.unit (s := S2x216x128x512) (k0_off26 i v418) S1x1x128x512.size hinb).WholeWords (EltTy.packing .bf16)) ∧
  (∀ a, (k0_off141 i v418) a + S1x1x128x512.size a ≤ S2x216x128x512.size a) ∧
  (∀ (hinb : ∀ a, (k0_off141 i v418) a + S1x1x128x512.size a ≤ S2x216x128x512.size a), (Rect.unit (s := S2x216x128x512) (k0_off141 i v418) S1x1x128x512.size hinb).WholeWords (EltTy.packing .bf16))
instance k0_chk13.dec : ∀ (i : grid0.Coords) (v418 : BitVec 32), Decidable (k0_chk13 i v418) := fun i v418 => decidable_of_iff' _ (Iff.of_eq (k0_chk13.eq_1 i v418))
theorem k0_off26_inb : ∀ (i : grid0.Coords) (v418 : BitVec 32) (k0_hw13 : k0_chk13 i v418), ∀ a, (k0_off26 i v418) a + S1x1x128x512.size a ≤ S2x216x128x512.size a := fun i v418 k0_hw13 => k0_hw13.1
theorem k0_off26_wordsbf16 : ∀ (i : grid0.Coords) (v418 : BitVec 32) (k0_hw13 : k0_chk13 i v418), (Rect.unit (s := S2x216x128x512) (k0_off26 i v418) S1x1x128x512.size (k0_off26_inb i v418 k0_hw13)).WholeWords (EltTy.packing .bf16) := fun i v418 k0_hw13 => k0_hw13.2.1 (k0_off26_inb i v418 k0_hw13)
theorem k0_off141_inb : ∀ (i : grid0.Coords) (v418 : BitVec 32) (k0_hw13 : k0_chk13 i v418), ∀ a, (k0_off141 i v418) a + S1x1x128x512.size a ≤ S2x216x128x512.size a := fun i v418 k0_hw13 => k0_hw13.2.2.1
theorem k0_off141_wordsbf16 : ∀ (i : grid0.Coords) (v418 : BitVec 32) (k0_hw13 : k0_chk13 i v418), (Rect.unit (s := S2x216x128x512) (k0_off141 i v418) S1x1x128x512.size (k0_off141_inb i v418 k0_hw13)).WholeWords (EltTy.packing .bf16) := fun i v418 k0_hw13 => k0_hw13.2.2.2 (k0_off141_inb i v418 k0_hw13)

def k0_off142 (i : grid0.Coords) (v452 : BitVec 32) : Fin 4 → Nat :=
  let arg0 : BitVec 32 := BitVec.ofNat 32 (i 0).val
  let c0_i32_786 : BitVec 32 := 0#32
  let c0_i32_787 : BitVec 32 := 0#32
  ![arg0.toNat, v452.toNat, 0, 0]

def k0_chk14 (i : grid0.Coords) (v452 : BitVec 32) : Prop :=
  (∀ a, (k0_off28 i v452) a + S1x1x128x512.size a ≤ S2x216x128x512.size a) ∧
  (∀ (hinb : ∀ a, (k0_off28 i v452) a + S1x1x128x512.size a ≤ S2x216x128x512.size a), (Rect.unit (s := S2x216x128x512) (k0_off28 i v452) S1x1x128x512.size hinb).WholeWords (EltTy.packing .bf16)) ∧
  (∀ a, (k0_off142 i v452) a + S1x1x128x512.size a ≤ S2x216x128x512.size a) ∧
  (∀ (hinb : ∀ a, (k0_off142 i v452) a + S1x1x128x512.size a ≤ S2x216x128x512.size a), (Rect.unit (s := S2x216x128x512) (k0_off142 i v452) S1x1x128x512.size hinb).WholeWords (EltTy.packing .bf16))
instance k0_chk14.dec : ∀ (i : grid0.Coords) (v452 : BitVec 32), Decidable (k0_chk14 i v452) := fun i v452 => decidable_of_iff' _ (Iff.of_eq (k0_chk14.eq_1 i v452))
theorem k0_off28_inb : ∀ (i : grid0.Coords) (v452 : BitVec 32) (k0_hw14 : k0_chk14 i v452), ∀ a, (k0_off28 i v452) a + S1x1x128x512.size a ≤ S2x216x128x512.size a := fun i v452 k0_hw14 => k0_hw14.1
theorem k0_off28_wordsbf16 : ∀ (i : grid0.Coords) (v452 : BitVec 32) (k0_hw14 : k0_chk14 i v452), (Rect.unit (s := S2x216x128x512) (k0_off28 i v452) S1x1x128x512.size (k0_off28_inb i v452 k0_hw14)).WholeWords (EltTy.packing .bf16) := fun i v452 k0_hw14 => k0_hw14.2.1 (k0_off28_inb i v452 k0_hw14)
theorem k0_off142_inb : ∀ (i : grid0.Coords) (v452 : BitVec 32) (k0_hw14 : k0_chk14 i v452), ∀ a, (k0_off142 i v452) a + S1x1x128x512.size a ≤ S2x216x128x512.size a := fun i v452 k0_hw14 => k0_hw14.2.2.1
theorem k0_off142_wordsbf16 : ∀ (i : grid0.Coords) (v452 : BitVec 32) (k0_hw14 : k0_chk14 i v452), (Rect.unit (s := S2x216x128x512) (k0_off142 i v452) S1x1x128x512.size (k0_off142_inb i v452 k0_hw14)).WholeWords (EltTy.packing .bf16) := fun i v452 k0_hw14 => k0_hw14.2.2.2 (k0_off142_inb i v452 k0_hw14)

def k0_off143 (i : grid0.Coords) (v486 : BitVec 32) : Fin 4 → Nat :=
  let arg0 : BitVec 32 := BitVec.ofNat 32 (i 0).val
  let c0_i32_792 : BitVec 32 := 0#32
  let c0_i32_793 : BitVec 32 := 0#32
  ![arg0.toNat, v486.toNat, 0, 0]

def k0_chk15 (i : grid0.Coords) (v486 : BitVec 32) : Prop :=
  (∀ a, (k0_off30 i v486) a + S1x1x128x512.size a ≤ S2x216x128x512.size a) ∧
  (∀ (hinb : ∀ a, (k0_off30 i v486) a + S1x1x128x512.size a ≤ S2x216x128x512.size a), (Rect.unit (s := S2x216x128x512) (k0_off30 i v486) S1x1x128x512.size hinb).WholeWords (EltTy.packing .bf16)) ∧
  (∀ a, (k0_off143 i v486) a + S1x1x128x512.size a ≤ S2x216x128x512.size a) ∧
  (∀ (hinb : ∀ a, (k0_off143 i v486) a + S1x1x128x512.size a ≤ S2x216x128x512.size a), (Rect.unit (s := S2x216x128x512) (k0_off143 i v486) S1x1x128x512.size hinb).WholeWords (EltTy.packing .bf16))
instance k0_chk15.dec : ∀ (i : grid0.Coords) (v486 : BitVec 32), Decidable (k0_chk15 i v486) := fun i v486 => decidable_of_iff' _ (Iff.of_eq (k0_chk15.eq_1 i v486))
theorem k0_off30_inb : ∀ (i : grid0.Coords) (v486 : BitVec 32) (k0_hw15 : k0_chk15 i v486), ∀ a, (k0_off30 i v486) a + S1x1x128x512.size a ≤ S2x216x128x512.size a := fun i v486 k0_hw15 => k0_hw15.1
theorem k0_off30_wordsbf16 : ∀ (i : grid0.Coords) (v486 : BitVec 32) (k0_hw15 : k0_chk15 i v486), (Rect.unit (s := S2x216x128x512) (k0_off30 i v486) S1x1x128x512.size (k0_off30_inb i v486 k0_hw15)).WholeWords (EltTy.packing .bf16) := fun i v486 k0_hw15 => k0_hw15.2.1 (k0_off30_inb i v486 k0_hw15)
theorem k0_off143_inb : ∀ (i : grid0.Coords) (v486 : BitVec 32) (k0_hw15 : k0_chk15 i v486), ∀ a, (k0_off143 i v486) a + S1x1x128x512.size a ≤ S2x216x128x512.size a := fun i v486 k0_hw15 => k0_hw15.2.2.1
theorem k0_off143_wordsbf16 : ∀ (i : grid0.Coords) (v486 : BitVec 32) (k0_hw15 : k0_chk15 i v486), (Rect.unit (s := S2x216x128x512) (k0_off143 i v486) S1x1x128x512.size (k0_off143_inb i v486 k0_hw15)).WholeWords (EltTy.packing .bf16) := fun i v486 k0_hw15 => k0_hw15.2.2.2 (k0_off143_inb i v486 k0_hw15)

def k0_off144 (i : grid0.Coords) (v520 : BitVec 32) : Fin 4 → Nat :=
  let arg0 : BitVec 32 := BitVec.ofNat 32 (i 0).val
  let c0_i32_798 : BitVec 32 := 0#32
  let c0_i32_799 : BitVec 32 := 0#32
  ![arg0.toNat, v520.toNat, 0, 0]

def k0_chk16 (i : grid0.Coords) (v520 : BitVec 32) : Prop :=
  (∀ a, (k0_off32 i v520) a + S1x1x128x512.size a ≤ S2x216x128x512.size a) ∧
  (∀ (hinb : ∀ a, (k0_off32 i v520) a + S1x1x128x512.size a ≤ S2x216x128x512.size a), (Rect.unit (s := S2x216x128x512) (k0_off32 i v520) S1x1x128x512.size hinb).WholeWords (EltTy.packing .bf16)) ∧
  (∀ a, (k0_off144 i v520) a + S1x1x128x512.size a ≤ S2x216x128x512.size a) ∧
  (∀ (hinb : ∀ a, (k0_off144 i v520) a + S1x1x128x512.size a ≤ S2x216x128x512.size a), (Rect.unit (s := S2x216x128x512) (k0_off144 i v520) S1x1x128x512.size hinb).WholeWords (EltTy.packing .bf16))
instance k0_chk16.dec : ∀ (i : grid0.Coords) (v520 : BitVec 32), Decidable (k0_chk16 i v520) := fun i v520 => decidable_of_iff' _ (Iff.of_eq (k0_chk16.eq_1 i v520))
theorem k0_off32_inb : ∀ (i : grid0.Coords) (v520 : BitVec 32) (k0_hw16 : k0_chk16 i v520), ∀ a, (k0_off32 i v520) a + S1x1x128x512.size a ≤ S2x216x128x512.size a := fun i v520 k0_hw16 => k0_hw16.1
theorem k0_off32_wordsbf16 : ∀ (i : grid0.Coords) (v520 : BitVec 32) (k0_hw16 : k0_chk16 i v520), (Rect.unit (s := S2x216x128x512) (k0_off32 i v520) S1x1x128x512.size (k0_off32_inb i v520 k0_hw16)).WholeWords (EltTy.packing .bf16) := fun i v520 k0_hw16 => k0_hw16.2.1 (k0_off32_inb i v520 k0_hw16)
theorem k0_off144_inb : ∀ (i : grid0.Coords) (v520 : BitVec 32) (k0_hw16 : k0_chk16 i v520), ∀ a, (k0_off144 i v520) a + S1x1x128x512.size a ≤ S2x216x128x512.size a := fun i v520 k0_hw16 => k0_hw16.2.2.1
theorem k0_off144_wordsbf16 : ∀ (i : grid0.Coords) (v520 : BitVec 32) (k0_hw16 : k0_chk16 i v520), (Rect.unit (s := S2x216x128x512) (k0_off144 i v520) S1x1x128x512.size (k0_off144_inb i v520 k0_hw16)).WholeWords (EltTy.packing .bf16) := fun i v520 k0_hw16 => k0_hw16.2.2.2 (k0_off144_inb i v520 k0_hw16)

def k0_off145 (i : grid0.Coords) (v554 : BitVec 32) : Fin 4 → Nat :=
  let arg0 : BitVec 32 := BitVec.ofNat 32 (i 0).val
  let c0_i32_804 : BitVec 32 := 0#32
  let c0_i32_805 : BitVec 32 := 0#32
  ![arg0.toNat, v554.toNat, 0, 0]

def k0_chk17 (i : grid0.Coords) (v554 : BitVec 32) : Prop :=
  (∀ a, (k0_off34 i v554) a + S1x1x128x512.size a ≤ S2x216x128x512.size a) ∧
  (∀ (hinb : ∀ a, (k0_off34 i v554) a + S1x1x128x512.size a ≤ S2x216x128x512.size a), (Rect.unit (s := S2x216x128x512) (k0_off34 i v554) S1x1x128x512.size hinb).WholeWords (EltTy.packing .bf16)) ∧
  (∀ a, (k0_off145 i v554) a + S1x1x128x512.size a ≤ S2x216x128x512.size a) ∧
  (∀ (hinb : ∀ a, (k0_off145 i v554) a + S1x1x128x512.size a ≤ S2x216x128x512.size a), (Rect.unit (s := S2x216x128x512) (k0_off145 i v554) S1x1x128x512.size hinb).WholeWords (EltTy.packing .bf16))
instance k0_chk17.dec : ∀ (i : grid0.Coords) (v554 : BitVec 32), Decidable (k0_chk17 i v554) := fun i v554 => decidable_of_iff' _ (Iff.of_eq (k0_chk17.eq_1 i v554))
theorem k0_off34_inb : ∀ (i : grid0.Coords) (v554 : BitVec 32) (k0_hw17 : k0_chk17 i v554), ∀ a, (k0_off34 i v554) a + S1x1x128x512.size a ≤ S2x216x128x512.size a := fun i v554 k0_hw17 => k0_hw17.1
theorem k0_off34_wordsbf16 : ∀ (i : grid0.Coords) (v554 : BitVec 32) (k0_hw17 : k0_chk17 i v554), (Rect.unit (s := S2x216x128x512) (k0_off34 i v554) S1x1x128x512.size (k0_off34_inb i v554 k0_hw17)).WholeWords (EltTy.packing .bf16) := fun i v554 k0_hw17 => k0_hw17.2.1 (k0_off34_inb i v554 k0_hw17)
theorem k0_off145_inb : ∀ (i : grid0.Coords) (v554 : BitVec 32) (k0_hw17 : k0_chk17 i v554), ∀ a, (k0_off145 i v554) a + S1x1x128x512.size a ≤ S2x216x128x512.size a := fun i v554 k0_hw17 => k0_hw17.2.2.1
theorem k0_off145_wordsbf16 : ∀ (i : grid0.Coords) (v554 : BitVec 32) (k0_hw17 : k0_chk17 i v554), (Rect.unit (s := S2x216x128x512) (k0_off145 i v554) S1x1x128x512.size (k0_off145_inb i v554 k0_hw17)).WholeWords (EltTy.packing .bf16) := fun i v554 k0_hw17 => k0_hw17.2.2.2 (k0_off145_inb i v554 k0_hw17)

def k0_off146 (i : grid0.Coords) (v588 : BitVec 32) : Fin 4 → Nat :=
  let arg0 : BitVec 32 := BitVec.ofNat 32 (i 0).val
  let c0_i32_810 : BitVec 32 := 0#32
  let c0_i32_811 : BitVec 32 := 0#32
  ![arg0.toNat, v588.toNat, 0, 0]

def k0_chk18 (i : grid0.Coords) (v588 : BitVec 32) : Prop :=
  (∀ a, (k0_off36 i v588) a + S1x1x128x512.size a ≤ S2x216x128x512.size a) ∧
  (∀ (hinb : ∀ a, (k0_off36 i v588) a + S1x1x128x512.size a ≤ S2x216x128x512.size a), (Rect.unit (s := S2x216x128x512) (k0_off36 i v588) S1x1x128x512.size hinb).WholeWords (EltTy.packing .bf16)) ∧
  (∀ a, (k0_off146 i v588) a + S1x1x128x512.size a ≤ S2x216x128x512.size a) ∧
  (∀ (hinb : ∀ a, (k0_off146 i v588) a + S1x1x128x512.size a ≤ S2x216x128x512.size a), (Rect.unit (s := S2x216x128x512) (k0_off146 i v588) S1x1x128x512.size hinb).WholeWords (EltTy.packing .bf16))
instance k0_chk18.dec : ∀ (i : grid0.Coords) (v588 : BitVec 32), Decidable (k0_chk18 i v588) := fun i v588 => decidable_of_iff' _ (Iff.of_eq (k0_chk18.eq_1 i v588))
theorem k0_off36_inb : ∀ (i : grid0.Coords) (v588 : BitVec 32) (k0_hw18 : k0_chk18 i v588), ∀ a, (k0_off36 i v588) a + S1x1x128x512.size a ≤ S2x216x128x512.size a := fun i v588 k0_hw18 => k0_hw18.1
theorem k0_off36_wordsbf16 : ∀ (i : grid0.Coords) (v588 : BitVec 32) (k0_hw18 : k0_chk18 i v588), (Rect.unit (s := S2x216x128x512) (k0_off36 i v588) S1x1x128x512.size (k0_off36_inb i v588 k0_hw18)).WholeWords (EltTy.packing .bf16) := fun i v588 k0_hw18 => k0_hw18.2.1 (k0_off36_inb i v588 k0_hw18)
theorem k0_off146_inb : ∀ (i : grid0.Coords) (v588 : BitVec 32) (k0_hw18 : k0_chk18 i v588), ∀ a, (k0_off146 i v588) a + S1x1x128x512.size a ≤ S2x216x128x512.size a := fun i v588 k0_hw18 => k0_hw18.2.2.1
theorem k0_off146_wordsbf16 : ∀ (i : grid0.Coords) (v588 : BitVec 32) (k0_hw18 : k0_chk18 i v588), (Rect.unit (s := S2x216x128x512) (k0_off146 i v588) S1x1x128x512.size (k0_off146_inb i v588 k0_hw18)).WholeWords (EltTy.packing .bf16) := fun i v588 k0_hw18 => k0_hw18.2.2.2 (k0_off146_inb i v588 k0_hw18)

def k0_off147 (i : grid0.Coords) (v622 : BitVec 32) : Fin 4 → Nat :=
  let arg0 : BitVec 32 := BitVec.ofNat 32 (i 0).val
  let c0_i32_816 : BitVec 32 := 0#32
  let c0_i32_817 : BitVec 32 := 0#32
  ![arg0.toNat, v622.toNat, 0, 0]

def k0_chk19 (i : grid0.Coords) (v622 : BitVec 32) : Prop :=
  (∀ a, (k0_off38 i v622) a + S1x1x128x512.size a ≤ S2x216x128x512.size a) ∧
  (∀ (hinb : ∀ a, (k0_off38 i v622) a + S1x1x128x512.size a ≤ S2x216x128x512.size a), (Rect.unit (s := S2x216x128x512) (k0_off38 i v622) S1x1x128x512.size hinb).WholeWords (EltTy.packing .bf16)) ∧
  (∀ a, (k0_off147 i v622) a + S1x1x128x512.size a ≤ S2x216x128x512.size a) ∧
  (∀ (hinb : ∀ a, (k0_off147 i v622) a + S1x1x128x512.size a ≤ S2x216x128x512.size a), (Rect.unit (s := S2x216x128x512) (k0_off147 i v622) S1x1x128x512.size hinb).WholeWords (EltTy.packing .bf16))
instance k0_chk19.dec : ∀ (i : grid0.Coords) (v622 : BitVec 32), Decidable (k0_chk19 i v622) := fun i v622 => decidable_of_iff' _ (Iff.of_eq (k0_chk19.eq_1 i v622))
theorem k0_off38_inb : ∀ (i : grid0.Coords) (v622 : BitVec 32) (k0_hw19 : k0_chk19 i v622), ∀ a, (k0_off38 i v622) a + S1x1x128x512.size a ≤ S2x216x128x512.size a := fun i v622 k0_hw19 => k0_hw19.1
theorem k0_off38_wordsbf16 : ∀ (i : grid0.Coords) (v622 : BitVec 32) (k0_hw19 : k0_chk19 i v622), (Rect.unit (s := S2x216x128x512) (k0_off38 i v622) S1x1x128x512.size (k0_off38_inb i v622 k0_hw19)).WholeWords (EltTy.packing .bf16) := fun i v622 k0_hw19 => k0_hw19.2.1 (k0_off38_inb i v622 k0_hw19)
theorem k0_off147_inb : ∀ (i : grid0.Coords) (v622 : BitVec 32) (k0_hw19 : k0_chk19 i v622), ∀ a, (k0_off147 i v622) a + S1x1x128x512.size a ≤ S2x216x128x512.size a := fun i v622 k0_hw19 => k0_hw19.2.2.1
theorem k0_off147_wordsbf16 : ∀ (i : grid0.Coords) (v622 : BitVec 32) (k0_hw19 : k0_chk19 i v622), (Rect.unit (s := S2x216x128x512) (k0_off147 i v622) S1x1x128x512.size (k0_off147_inb i v622 k0_hw19)).WholeWords (EltTy.packing .bf16) := fun i v622 k0_hw19 => k0_hw19.2.2.2 (k0_off147_inb i v622 k0_hw19)

def k0_off148 (i : grid0.Coords) (v656 : BitVec 32) : Fin 4 → Nat :=
  let arg0 : BitVec 32 := BitVec.ofNat 32 (i 0).val
  let c0_i32_822 : BitVec 32 := 0#32
  let c0_i32_823 : BitVec 32 := 0#32
  ![arg0.toNat, v656.toNat, 0, 0]

def k0_chk20 (i : grid0.Coords) (v656 : BitVec 32) : Prop :=
  (∀ a, (k0_off40 i v656) a + S1x1x128x512.size a ≤ S2x216x128x512.size a) ∧
  (∀ (hinb : ∀ a, (k0_off40 i v656) a + S1x1x128x512.size a ≤ S2x216x128x512.size a), (Rect.unit (s := S2x216x128x512) (k0_off40 i v656) S1x1x128x512.size hinb).WholeWords (EltTy.packing .bf16)) ∧
  (∀ a, (k0_off148 i v656) a + S1x1x128x512.size a ≤ S2x216x128x512.size a) ∧
  (∀ (hinb : ∀ a, (k0_off148 i v656) a + S1x1x128x512.size a ≤ S2x216x128x512.size a), (Rect.unit (s := S2x216x128x512) (k0_off148 i v656) S1x1x128x512.size hinb).WholeWords (EltTy.packing .bf16))
instance k0_chk20.dec : ∀ (i : grid0.Coords) (v656 : BitVec 32), Decidable (k0_chk20 i v656) := fun i v656 => decidable_of_iff' _ (Iff.of_eq (k0_chk20.eq_1 i v656))
theorem k0_off40_inb : ∀ (i : grid0.Coords) (v656 : BitVec 32) (k0_hw20 : k0_chk20 i v656), ∀ a, (k0_off40 i v656) a + S1x1x128x512.size a ≤ S2x216x128x512.size a := fun i v656 k0_hw20 => k0_hw20.1
theorem k0_off40_wordsbf16 : ∀ (i : grid0.Coords) (v656 : BitVec 32) (k0_hw20 : k0_chk20 i v656), (Rect.unit (s := S2x216x128x512) (k0_off40 i v656) S1x1x128x512.size (k0_off40_inb i v656 k0_hw20)).WholeWords (EltTy.packing .bf16) := fun i v656 k0_hw20 => k0_hw20.2.1 (k0_off40_inb i v656 k0_hw20)
theorem k0_off148_inb : ∀ (i : grid0.Coords) (v656 : BitVec 32) (k0_hw20 : k0_chk20 i v656), ∀ a, (k0_off148 i v656) a + S1x1x128x512.size a ≤ S2x216x128x512.size a := fun i v656 k0_hw20 => k0_hw20.2.2.1
theorem k0_off148_wordsbf16 : ∀ (i : grid0.Coords) (v656 : BitVec 32) (k0_hw20 : k0_chk20 i v656), (Rect.unit (s := S2x216x128x512) (k0_off148 i v656) S1x1x128x512.size (k0_off148_inb i v656 k0_hw20)).WholeWords (EltTy.packing .bf16) := fun i v656 k0_hw20 => k0_hw20.2.2.2 (k0_off148_inb i v656 k0_hw20)

def k0_off149 (i : grid0.Coords) (v690 : BitVec 32) : Fin 4 → Nat :=
  let arg0 : BitVec 32 := BitVec.ofNat 32 (i 0).val
  let c0_i32_828 : BitVec 32 := 0#32
  let c0_i32_829 : BitVec 32 := 0#32
  ![arg0.toNat, v690.toNat, 0, 0]

def k0_chk21 (i : grid0.Coords) (v690 : BitVec 32) : Prop :=
  (∀ a, (k0_off42 i v690) a + S1x1x128x512.size a ≤ S2x216x128x512.size a) ∧
  (∀ (hinb : ∀ a, (k0_off42 i v690) a + S1x1x128x512.size a ≤ S2x216x128x512.size a), (Rect.unit (s := S2x216x128x512) (k0_off42 i v690) S1x1x128x512.size hinb).WholeWords (EltTy.packing .bf16)) ∧
  (∀ a, (k0_off149 i v690) a + S1x1x128x512.size a ≤ S2x216x128x512.size a) ∧
  (∀ (hinb : ∀ a, (k0_off149 i v690) a + S1x1x128x512.size a ≤ S2x216x128x512.size a), (Rect.unit (s := S2x216x128x512) (k0_off149 i v690) S1x1x128x512.size hinb).WholeWords (EltTy.packing .bf16))
instance k0_chk21.dec : ∀ (i : grid0.Coords) (v690 : BitVec 32), Decidable (k0_chk21 i v690) := fun i v690 => decidable_of_iff' _ (Iff.of_eq (k0_chk21.eq_1 i v690))
theorem k0_off42_inb : ∀ (i : grid0.Coords) (v690 : BitVec 32) (k0_hw21 : k0_chk21 i v690), ∀ a, (k0_off42 i v690) a + S1x1x128x512.size a ≤ S2x216x128x512.size a := fun i v690 k0_hw21 => k0_hw21.1
theorem k0_off42_wordsbf16 : ∀ (i : grid0.Coords) (v690 : BitVec 32) (k0_hw21 : k0_chk21 i v690), (Rect.unit (s := S2x216x128x512) (k0_off42 i v690) S1x1x128x512.size (k0_off42_inb i v690 k0_hw21)).WholeWords (EltTy.packing .bf16) := fun i v690 k0_hw21 => k0_hw21.2.1 (k0_off42_inb i v690 k0_hw21)
theorem k0_off149_inb : ∀ (i : grid0.Coords) (v690 : BitVec 32) (k0_hw21 : k0_chk21 i v690), ∀ a, (k0_off149 i v690) a + S1x1x128x512.size a ≤ S2x216x128x512.size a := fun i v690 k0_hw21 => k0_hw21.2.2.1
theorem k0_off149_wordsbf16 : ∀ (i : grid0.Coords) (v690 : BitVec 32) (k0_hw21 : k0_chk21 i v690), (Rect.unit (s := S2x216x128x512) (k0_off149 i v690) S1x1x128x512.size (k0_off149_inb i v690 k0_hw21)).WholeWords (EltTy.packing .bf16) := fun i v690 k0_hw21 => k0_hw21.2.2.2 (k0_off149_inb i v690 k0_hw21)

def k0_off150 (i : grid0.Coords) (v724 : BitVec 32) : Fin 4 → Nat :=
  let arg0 : BitVec 32 := BitVec.ofNat 32 (i 0).val
  let c0_i32_834 : BitVec 32 := 0#32
  let c0_i32_835 : BitVec 32 := 0#32
  ![arg0.toNat, v724.toNat, 0, 0]

def k0_chk22 (i : grid0.Coords) (v724 : BitVec 32) : Prop :=
  (∀ a, (k0_off44 i v724) a + S1x1x128x512.size a ≤ S2x216x128x512.size a) ∧
  (∀ (hinb : ∀ a, (k0_off44 i v724) a + S1x1x128x512.size a ≤ S2x216x128x512.size a), (Rect.unit (s := S2x216x128x512) (k0_off44 i v724) S1x1x128x512.size hinb).WholeWords (EltTy.packing .bf16)) ∧
  (∀ a, (k0_off150 i v724) a + S1x1x128x512.size a ≤ S2x216x128x512.size a) ∧
  (∀ (hinb : ∀ a, (k0_off150 i v724) a + S1x1x128x512.size a ≤ S2x216x128x512.size a), (Rect.unit (s := S2x216x128x512) (k0_off150 i v724) S1x1x128x512.size hinb).WholeWords (EltTy.packing .bf16))
instance k0_chk22.dec : ∀ (i : grid0.Coords) (v724 : BitVec 32), Decidable (k0_chk22 i v724) := fun i v724 => decidable_of_iff' _ (Iff.of_eq (k0_chk22.eq_1 i v724))
theorem k0_off44_inb : ∀ (i : grid0.Coords) (v724 : BitVec 32) (k0_hw22 : k0_chk22 i v724), ∀ a, (k0_off44 i v724) a + S1x1x128x512.size a ≤ S2x216x128x512.size a := fun i v724 k0_hw22 => k0_hw22.1
theorem k0_off44_wordsbf16 : ∀ (i : grid0.Coords) (v724 : BitVec 32) (k0_hw22 : k0_chk22 i v724), (Rect.unit (s := S2x216x128x512) (k0_off44 i v724) S1x1x128x512.size (k0_off44_inb i v724 k0_hw22)).WholeWords (EltTy.packing .bf16) := fun i v724 k0_hw22 => k0_hw22.2.1 (k0_off44_inb i v724 k0_hw22)
theorem k0_off150_inb : ∀ (i : grid0.Coords) (v724 : BitVec 32) (k0_hw22 : k0_chk22 i v724), ∀ a, (k0_off150 i v724) a + S1x1x128x512.size a ≤ S2x216x128x512.size a := fun i v724 k0_hw22 => k0_hw22.2.2.1
theorem k0_off150_wordsbf16 : ∀ (i : grid0.Coords) (v724 : BitVec 32) (k0_hw22 : k0_chk22 i v724), (Rect.unit (s := S2x216x128x512) (k0_off150 i v724) S1x1x128x512.size (k0_off150_inb i v724 k0_hw22)).WholeWords (EltTy.packing .bf16) := fun i v724 k0_hw22 => k0_hw22.2.2.2 (k0_off150_inb i v724 k0_hw22)

def k0_off151 (i : grid0.Coords) (v758 : BitVec 32) : Fin 4 → Nat :=
  let arg0 : BitVec 32 := BitVec.ofNat 32 (i 0).val
  let c0_i32_840 : BitVec 32 := 0#32
  let c0_i32_841 : BitVec 32 := 0#32
  ![arg0.toNat, v758.toNat, 0, 0]

def k0_chk23 (i : grid0.Coords) (v758 : BitVec 32) : Prop :=
  (∀ a, (k0_off46 i v758) a + S1x1x128x512.size a ≤ S2x216x128x512.size a) ∧
  (∀ (hinb : ∀ a, (k0_off46 i v758) a + S1x1x128x512.size a ≤ S2x216x128x512.size a), (Rect.unit (s := S2x216x128x512) (k0_off46 i v758) S1x1x128x512.size hinb).WholeWords (EltTy.packing .bf16)) ∧
  (∀ a, (k0_off151 i v758) a + S1x1x128x512.size a ≤ S2x216x128x512.size a) ∧
  (∀ (hinb : ∀ a, (k0_off151 i v758) a + S1x1x128x512.size a ≤ S2x216x128x512.size a), (Rect.unit (s := S2x216x128x512) (k0_off151 i v758) S1x1x128x512.size hinb).WholeWords (EltTy.packing .bf16))
instance k0_chk23.dec : ∀ (i : grid0.Coords) (v758 : BitVec 32), Decidable (k0_chk23 i v758) := fun i v758 => decidable_of_iff' _ (Iff.of_eq (k0_chk23.eq_1 i v758))
theorem k0_off46_inb : ∀ (i : grid0.Coords) (v758 : BitVec 32) (k0_hw23 : k0_chk23 i v758), ∀ a, (k0_off46 i v758) a + S1x1x128x512.size a ≤ S2x216x128x512.size a := fun i v758 k0_hw23 => k0_hw23.1
theorem k0_off46_wordsbf16 : ∀ (i : grid0.Coords) (v758 : BitVec 32) (k0_hw23 : k0_chk23 i v758), (Rect.unit (s := S2x216x128x512) (k0_off46 i v758) S1x1x128x512.size (k0_off46_inb i v758 k0_hw23)).WholeWords (EltTy.packing .bf16) := fun i v758 k0_hw23 => k0_hw23.2.1 (k0_off46_inb i v758 k0_hw23)
theorem k0_off151_inb : ∀ (i : grid0.Coords) (v758 : BitVec 32) (k0_hw23 : k0_chk23 i v758), ∀ a, (k0_off151 i v758) a + S1x1x128x512.size a ≤ S2x216x128x512.size a := fun i v758 k0_hw23 => k0_hw23.2.2.1
theorem k0_off151_wordsbf16 : ∀ (i : grid0.Coords) (v758 : BitVec 32) (k0_hw23 : k0_chk23 i v758), (Rect.unit (s := S2x216x128x512) (k0_off151 i v758) S1x1x128x512.size (k0_off151_inb i v758 k0_hw23)).WholeWords (EltTy.packing .bf16) := fun i v758 k0_hw23 => k0_hw23.2.2.2 (k0_off151_inb i v758 k0_hw23)

def k0_off152 (i : grid0.Coords) (v792 : BitVec 32) : Fin 4 → Nat :=
  let arg0 : BitVec 32 := BitVec.ofNat 32 (i 0).val
  let c0_i32_846 : BitVec 32 := 0#32
  let c0_i32_847 : BitVec 32 := 0#32
  ![arg0.toNat, v792.toNat, 0, 0]

def k0_chk24 (i : grid0.Coords) (v792 : BitVec 32) : Prop :=
  (∀ a, (k0_off48 i v792) a + S1x1x128x512.size a ≤ S2x216x128x512.size a) ∧
  (∀ (hinb : ∀ a, (k0_off48 i v792) a + S1x1x128x512.size a ≤ S2x216x128x512.size a), (Rect.unit (s := S2x216x128x512) (k0_off48 i v792) S1x1x128x512.size hinb).WholeWords (EltTy.packing .bf16)) ∧
  (∀ a, (k0_off152 i v792) a + S1x1x128x512.size a ≤ S2x216x128x512.size a) ∧
  (∀ (hinb : ∀ a, (k0_off152 i v792) a + S1x1x128x512.size a ≤ S2x216x128x512.size a), (Rect.unit (s := S2x216x128x512) (k0_off152 i v792) S1x1x128x512.size hinb).WholeWords (EltTy.packing .bf16))
instance k0_chk24.dec : ∀ (i : grid0.Coords) (v792 : BitVec 32), Decidable (k0_chk24 i v792) := fun i v792 => decidable_of_iff' _ (Iff.of_eq (k0_chk24.eq_1 i v792))
theorem k0_off48_inb : ∀ (i : grid0.Coords) (v792 : BitVec 32) (k0_hw24 : k0_chk24 i v792), ∀ a, (k0_off48 i v792) a + S1x1x128x512.size a ≤ S2x216x128x512.size a := fun i v792 k0_hw24 => k0_hw24.1
theorem k0_off48_wordsbf16 : ∀ (i : grid0.Coords) (v792 : BitVec 32) (k0_hw24 : k0_chk24 i v792), (Rect.unit (s := S2x216x128x512) (k0_off48 i v792) S1x1x128x512.size (k0_off48_inb i v792 k0_hw24)).WholeWords (EltTy.packing .bf16) := fun i v792 k0_hw24 => k0_hw24.2.1 (k0_off48_inb i v792 k0_hw24)
theorem k0_off152_inb : ∀ (i : grid0.Coords) (v792 : BitVec 32) (k0_hw24 : k0_chk24 i v792), ∀ a, (k0_off152 i v792) a + S1x1x128x512.size a ≤ S2x216x128x512.size a := fun i v792 k0_hw24 => k0_hw24.2.2.1
theorem k0_off152_wordsbf16 : ∀ (i : grid0.Coords) (v792 : BitVec 32) (k0_hw24 : k0_chk24 i v792), (Rect.unit (s := S2x216x128x512) (k0_off152 i v792) S1x1x128x512.size (k0_off152_inb i v792 k0_hw24)).WholeWords (EltTy.packing .bf16) := fun i v792 k0_hw24 => k0_hw24.2.2.2 (k0_off152_inb i v792 k0_hw24)

def k0_off153 (i : grid0.Coords) (v826 : BitVec 32) : Fin 4 → Nat :=
  let arg0 : BitVec 32 := BitVec.ofNat 32 (i 0).val
  let c0_i32_852 : BitVec 32 := 0#32
  let c0_i32_853 : BitVec 32 := 0#32
  ![arg0.toNat, v826.toNat, 0, 0]

def k0_chk25 (i : grid0.Coords) (v826 : BitVec 32) : Prop :=
  (∀ a, (k0_off50 i v826) a + S1x1x128x512.size a ≤ S2x216x128x512.size a) ∧
  (∀ (hinb : ∀ a, (k0_off50 i v826) a + S1x1x128x512.size a ≤ S2x216x128x512.size a), (Rect.unit (s := S2x216x128x512) (k0_off50 i v826) S1x1x128x512.size hinb).WholeWords (EltTy.packing .bf16)) ∧
  (∀ a, (k0_off153 i v826) a + S1x1x128x512.size a ≤ S2x216x128x512.size a) ∧
  (∀ (hinb : ∀ a, (k0_off153 i v826) a + S1x1x128x512.size a ≤ S2x216x128x512.size a), (Rect.unit (s := S2x216x128x512) (k0_off153 i v826) S1x1x128x512.size hinb).WholeWords (EltTy.packing .bf16))
instance k0_chk25.dec : ∀ (i : grid0.Coords) (v826 : BitVec 32), Decidable (k0_chk25 i v826) := fun i v826 => decidable_of_iff' _ (Iff.of_eq (k0_chk25.eq_1 i v826))
theorem k0_off50_inb : ∀ (i : grid0.Coords) (v826 : BitVec 32) (k0_hw25 : k0_chk25 i v826), ∀ a, (k0_off50 i v826) a + S1x1x128x512.size a ≤ S2x216x128x512.size a := fun i v826 k0_hw25 => k0_hw25.1
theorem k0_off50_wordsbf16 : ∀ (i : grid0.Coords) (v826 : BitVec 32) (k0_hw25 : k0_chk25 i v826), (Rect.unit (s := S2x216x128x512) (k0_off50 i v826) S1x1x128x512.size (k0_off50_inb i v826 k0_hw25)).WholeWords (EltTy.packing .bf16) := fun i v826 k0_hw25 => k0_hw25.2.1 (k0_off50_inb i v826 k0_hw25)
theorem k0_off153_inb : ∀ (i : grid0.Coords) (v826 : BitVec 32) (k0_hw25 : k0_chk25 i v826), ∀ a, (k0_off153 i v826) a + S1x1x128x512.size a ≤ S2x216x128x512.size a := fun i v826 k0_hw25 => k0_hw25.2.2.1
theorem k0_off153_wordsbf16 : ∀ (i : grid0.Coords) (v826 : BitVec 32) (k0_hw25 : k0_chk25 i v826), (Rect.unit (s := S2x216x128x512) (k0_off153 i v826) S1x1x128x512.size (k0_off153_inb i v826 k0_hw25)).WholeWords (EltTy.packing .bf16) := fun i v826 k0_hw25 => k0_hw25.2.2.2 (k0_off153_inb i v826 k0_hw25)

def k0_off154 (i : grid0.Coords) (v860 : BitVec 32) : Fin 4 → Nat :=
  let arg0 : BitVec 32 := BitVec.ofNat 32 (i 0).val
  let c0_i32_858 : BitVec 32 := 0#32
  let c0_i32_859 : BitVec 32 := 0#32
  ![arg0.toNat, v860.toNat, 0, 0]

def k0_chk26 (i : grid0.Coords) (v860 : BitVec 32) : Prop :=
  (∀ a, (k0_off52 i v860) a + S1x1x128x512.size a ≤ S2x216x128x512.size a) ∧
  (∀ (hinb : ∀ a, (k0_off52 i v860) a + S1x1x128x512.size a ≤ S2x216x128x512.size a), (Rect.unit (s := S2x216x128x512) (k0_off52 i v860) S1x1x128x512.size hinb).WholeWords (EltTy.packing .bf16)) ∧
  (∀ a, (k0_off154 i v860) a + S1x1x128x512.size a ≤ S2x216x128x512.size a) ∧
  (∀ (hinb : ∀ a, (k0_off154 i v860) a + S1x1x128x512.size a ≤ S2x216x128x512.size a), (Rect.unit (s := S2x216x128x512) (k0_off154 i v860) S1x1x128x512.size hinb).WholeWords (EltTy.packing .bf16))
instance k0_chk26.dec : ∀ (i : grid0.Coords) (v860 : BitVec 32), Decidable (k0_chk26 i v860) := fun i v860 => decidable_of_iff' _ (Iff.of_eq (k0_chk26.eq_1 i v860))
theorem k0_off52_inb : ∀ (i : grid0.Coords) (v860 : BitVec 32) (k0_hw26 : k0_chk26 i v860), ∀ a, (k0_off52 i v860) a + S1x1x128x512.size a ≤ S2x216x128x512.size a := fun i v860 k0_hw26 => k0_hw26.1
theorem k0_off52_wordsbf16 : ∀ (i : grid0.Coords) (v860 : BitVec 32) (k0_hw26 : k0_chk26 i v860), (Rect.unit (s := S2x216x128x512) (k0_off52 i v860) S1x1x128x512.size (k0_off52_inb i v860 k0_hw26)).WholeWords (EltTy.packing .bf16) := fun i v860 k0_hw26 => k0_hw26.2.1 (k0_off52_inb i v860 k0_hw26)
theorem k0_off154_inb : ∀ (i : grid0.Coords) (v860 : BitVec 32) (k0_hw26 : k0_chk26 i v860), ∀ a, (k0_off154 i v860) a + S1x1x128x512.size a ≤ S2x216x128x512.size a := fun i v860 k0_hw26 => k0_hw26.2.2.1
theorem k0_off154_wordsbf16 : ∀ (i : grid0.Coords) (v860 : BitVec 32) (k0_hw26 : k0_chk26 i v860), (Rect.unit (s := S2x216x128x512) (k0_off154 i v860) S1x1x128x512.size (k0_off154_inb i v860 k0_hw26)).WholeWords (EltTy.packing .bf16) := fun i v860 k0_hw26 => k0_hw26.2.2.2 (k0_off154_inb i v860 k0_hw26)

def k0_off155 (i : grid0.Coords) (v894 : BitVec 32) : Fin 4 → Nat :=
  let arg0 : BitVec 32 := BitVec.ofNat 32 (i 0).val
  let c0_i32_864 : BitVec 32 := 0#32
  let c0_i32_865 : BitVec 32 := 0#32
  ![arg0.toNat, v894.toNat, 0, 0]

def k0_chk27 (i : grid0.Coords) (v894 : BitVec 32) : Prop :=
  (∀ a, (k0_off54 i v894) a + S1x1x128x512.size a ≤ S2x216x128x512.size a) ∧
  (∀ (hinb : ∀ a, (k0_off54 i v894) a + S1x1x128x512.size a ≤ S2x216x128x512.size a), (Rect.unit (s := S2x216x128x512) (k0_off54 i v894) S1x1x128x512.size hinb).WholeWords (EltTy.packing .bf16)) ∧
  (∀ a, (k0_off155 i v894) a + S1x1x128x512.size a ≤ S2x216x128x512.size a) ∧
  (∀ (hinb : ∀ a, (k0_off155 i v894) a + S1x1x128x512.size a ≤ S2x216x128x512.size a), (Rect.unit (s := S2x216x128x512) (k0_off155 i v894) S1x1x128x512.size hinb).WholeWords (EltTy.packing .bf16))
instance k0_chk27.dec : ∀ (i : grid0.Coords) (v894 : BitVec 32), Decidable (k0_chk27 i v894) := fun i v894 => decidable_of_iff' _ (Iff.of_eq (k0_chk27.eq_1 i v894))
theorem k0_off54_inb : ∀ (i : grid0.Coords) (v894 : BitVec 32) (k0_hw27 : k0_chk27 i v894), ∀ a, (k0_off54 i v894) a + S1x1x128x512.size a ≤ S2x216x128x512.size a := fun i v894 k0_hw27 => k0_hw27.1
theorem k0_off54_wordsbf16 : ∀ (i : grid0.Coords) (v894 : BitVec 32) (k0_hw27 : k0_chk27 i v894), (Rect.unit (s := S2x216x128x512) (k0_off54 i v894) S1x1x128x512.size (k0_off54_inb i v894 k0_hw27)).WholeWords (EltTy.packing .bf16) := fun i v894 k0_hw27 => k0_hw27.2.1 (k0_off54_inb i v894 k0_hw27)
theorem k0_off155_inb : ∀ (i : grid0.Coords) (v894 : BitVec 32) (k0_hw27 : k0_chk27 i v894), ∀ a, (k0_off155 i v894) a + S1x1x128x512.size a ≤ S2x216x128x512.size a := fun i v894 k0_hw27 => k0_hw27.2.2.1
theorem k0_off155_wordsbf16 : ∀ (i : grid0.Coords) (v894 : BitVec 32) (k0_hw27 : k0_chk27 i v894), (Rect.unit (s := S2x216x128x512) (k0_off155 i v894) S1x1x128x512.size (k0_off155_inb i v894 k0_hw27)).WholeWords (EltTy.packing .bf16) := fun i v894 k0_hw27 => k0_hw27.2.2.2 (k0_off155_inb i v894 k0_hw27)

def k0_off156 (i : grid0.Coords) (v928 : BitVec 32) : Fin 4 → Nat :=
  let arg0 : BitVec 32 := BitVec.ofNat 32 (i 0).val
  let c0_i32_870 : BitVec 32 := 0#32
  let c0_i32_871 : BitVec 32 := 0#32
  ![arg0.toNat, v928.toNat, 0, 0]

def k0_chk28 (i : grid0.Coords) (v928 : BitVec 32) : Prop :=
  (∀ a, (k0_off56 i v928) a + S1x1x128x512.size a ≤ S2x216x128x512.size a) ∧
  (∀ (hinb : ∀ a, (k0_off56 i v928) a + S1x1x128x512.size a ≤ S2x216x128x512.size a), (Rect.unit (s := S2x216x128x512) (k0_off56 i v928) S1x1x128x512.size hinb).WholeWords (EltTy.packing .bf16)) ∧
  (∀ a, (k0_off156 i v928) a + S1x1x128x512.size a ≤ S2x216x128x512.size a) ∧
  (∀ (hinb : ∀ a, (k0_off156 i v928) a + S1x1x128x512.size a ≤ S2x216x128x512.size a), (Rect.unit (s := S2x216x128x512) (k0_off156 i v928) S1x1x128x512.size hinb).WholeWords (EltTy.packing .bf16))
instance k0_chk28.dec : ∀ (i : grid0.Coords) (v928 : BitVec 32), Decidable (k0_chk28 i v928) := fun i v928 => decidable_of_iff' _ (Iff.of_eq (k0_chk28.eq_1 i v928))
theorem k0_off56_inb : ∀ (i : grid0.Coords) (v928 : BitVec 32) (k0_hw28 : k0_chk28 i v928), ∀ a, (k0_off56 i v928) a + S1x1x128x512.size a ≤ S2x216x128x512.size a := fun i v928 k0_hw28 => k0_hw28.1
theorem k0_off56_wordsbf16 : ∀ (i : grid0.Coords) (v928 : BitVec 32) (k0_hw28 : k0_chk28 i v928), (Rect.unit (s := S2x216x128x512) (k0_off56 i v928) S1x1x128x512.size (k0_off56_inb i v928 k0_hw28)).WholeWords (EltTy.packing .bf16) := fun i v928 k0_hw28 => k0_hw28.2.1 (k0_off56_inb i v928 k0_hw28)
theorem k0_off156_inb : ∀ (i : grid0.Coords) (v928 : BitVec 32) (k0_hw28 : k0_chk28 i v928), ∀ a, (k0_off156 i v928) a + S1x1x128x512.size a ≤ S2x216x128x512.size a := fun i v928 k0_hw28 => k0_hw28.2.2.1
theorem k0_off156_wordsbf16 : ∀ (i : grid0.Coords) (v928 : BitVec 32) (k0_hw28 : k0_chk28 i v928), (Rect.unit (s := S2x216x128x512) (k0_off156 i v928) S1x1x128x512.size (k0_off156_inb i v928 k0_hw28)).WholeWords (EltTy.packing .bf16) := fun i v928 k0_hw28 => k0_hw28.2.2.2 (k0_off156_inb i v928 k0_hw28)

def k0_off157 (i : grid0.Coords) (v962 : BitVec 32) : Fin 4 → Nat :=
  let arg0 : BitVec 32 := BitVec.ofNat 32 (i 0).val
  let c0_i32_876 : BitVec 32 := 0#32
  let c0_i32_877 : BitVec 32 := 0#32
  ![arg0.toNat, v962.toNat, 0, 0]

def k0_chk29 (i : grid0.Coords) (v962 : BitVec 32) : Prop :=
  (∀ a, (k0_off58 i v962) a + S1x1x128x512.size a ≤ S2x216x128x512.size a) ∧
  (∀ (hinb : ∀ a, (k0_off58 i v962) a + S1x1x128x512.size a ≤ S2x216x128x512.size a), (Rect.unit (s := S2x216x128x512) (k0_off58 i v962) S1x1x128x512.size hinb).WholeWords (EltTy.packing .bf16)) ∧
  (∀ a, (k0_off157 i v962) a + S1x1x128x512.size a ≤ S2x216x128x512.size a) ∧
  (∀ (hinb : ∀ a, (k0_off157 i v962) a + S1x1x128x512.size a ≤ S2x216x128x512.size a), (Rect.unit (s := S2x216x128x512) (k0_off157 i v962) S1x1x128x512.size hinb).WholeWords (EltTy.packing .bf16))
instance k0_chk29.dec : ∀ (i : grid0.Coords) (v962 : BitVec 32), Decidable (k0_chk29 i v962) := fun i v962 => decidable_of_iff' _ (Iff.of_eq (k0_chk29.eq_1 i v962))
theorem k0_off58_inb : ∀ (i : grid0.Coords) (v962 : BitVec 32) (k0_hw29 : k0_chk29 i v962), ∀ a, (k0_off58 i v962) a + S1x1x128x512.size a ≤ S2x216x128x512.size a := fun i v962 k0_hw29 => k0_hw29.1
theorem k0_off58_wordsbf16 : ∀ (i : grid0.Coords) (v962 : BitVec 32) (k0_hw29 : k0_chk29 i v962), (Rect.unit (s := S2x216x128x512) (k0_off58 i v962) S1x1x128x512.size (k0_off58_inb i v962 k0_hw29)).WholeWords (EltTy.packing .bf16) := fun i v962 k0_hw29 => k0_hw29.2.1 (k0_off58_inb i v962 k0_hw29)
theorem k0_off157_inb : ∀ (i : grid0.Coords) (v962 : BitVec 32) (k0_hw29 : k0_chk29 i v962), ∀ a, (k0_off157 i v962) a + S1x1x128x512.size a ≤ S2x216x128x512.size a := fun i v962 k0_hw29 => k0_hw29.2.2.1
theorem k0_off157_wordsbf16 : ∀ (i : grid0.Coords) (v962 : BitVec 32) (k0_hw29 : k0_chk29 i v962), (Rect.unit (s := S2x216x128x512) (k0_off157 i v962) S1x1x128x512.size (k0_off157_inb i v962 k0_hw29)).WholeWords (EltTy.packing .bf16) := fun i v962 k0_hw29 => k0_hw29.2.2.2 (k0_off157_inb i v962 k0_hw29)

def k0_off158 (i : grid0.Coords) (v996 : BitVec 32) : Fin 4 → Nat :=
  let arg0 : BitVec 32 := BitVec.ofNat 32 (i 0).val
  let c0_i32_882 : BitVec 32 := 0#32
  let c0_i32_883 : BitVec 32 := 0#32
  ![arg0.toNat, v996.toNat, 0, 0]

def k0_chk30 (i : grid0.Coords) (v996 : BitVec 32) : Prop :=
  (∀ a, (k0_off60 i v996) a + S1x1x128x512.size a ≤ S2x216x128x512.size a) ∧
  (∀ (hinb : ∀ a, (k0_off60 i v996) a + S1x1x128x512.size a ≤ S2x216x128x512.size a), (Rect.unit (s := S2x216x128x512) (k0_off60 i v996) S1x1x128x512.size hinb).WholeWords (EltTy.packing .bf16)) ∧
  (∀ a, (k0_off158 i v996) a + S1x1x128x512.size a ≤ S2x216x128x512.size a) ∧
  (∀ (hinb : ∀ a, (k0_off158 i v996) a + S1x1x128x512.size a ≤ S2x216x128x512.size a), (Rect.unit (s := S2x216x128x512) (k0_off158 i v996) S1x1x128x512.size hinb).WholeWords (EltTy.packing .bf16))
instance k0_chk30.dec : ∀ (i : grid0.Coords) (v996 : BitVec 32), Decidable (k0_chk30 i v996) := fun i v996 => decidable_of_iff' _ (Iff.of_eq (k0_chk30.eq_1 i v996))
theorem k0_off60_inb : ∀ (i : grid0.Coords) (v996 : BitVec 32) (k0_hw30 : k0_chk30 i v996), ∀ a, (k0_off60 i v996) a + S1x1x128x512.size a ≤ S2x216x128x512.size a := fun i v996 k0_hw30 => k0_hw30.1
theorem k0_off60_wordsbf16 : ∀ (i : grid0.Coords) (v996 : BitVec 32) (k0_hw30 : k0_chk30 i v996), (Rect.unit (s := S2x216x128x512) (k0_off60 i v996) S1x1x128x512.size (k0_off60_inb i v996 k0_hw30)).WholeWords (EltTy.packing .bf16) := fun i v996 k0_hw30 => k0_hw30.2.1 (k0_off60_inb i v996 k0_hw30)
theorem k0_off158_inb : ∀ (i : grid0.Coords) (v996 : BitVec 32) (k0_hw30 : k0_chk30 i v996), ∀ a, (k0_off158 i v996) a + S1x1x128x512.size a ≤ S2x216x128x512.size a := fun i v996 k0_hw30 => k0_hw30.2.2.1
theorem k0_off158_wordsbf16 : ∀ (i : grid0.Coords) (v996 : BitVec 32) (k0_hw30 : k0_chk30 i v996), (Rect.unit (s := S2x216x128x512) (k0_off158 i v996) S1x1x128x512.size (k0_off158_inb i v996 k0_hw30)).WholeWords (EltTy.packing .bf16) := fun i v996 k0_hw30 => k0_hw30.2.2.2 (k0_off158_inb i v996 k0_hw30)

def k0_off159 (i : grid0.Coords) (v1030 : BitVec 32) : Fin 4 → Nat :=
  let arg0 : BitVec 32 := BitVec.ofNat 32 (i 0).val
  let c0_i32_888 : BitVec 32 := 0#32
  let c0_i32_889 : BitVec 32 := 0#32
  ![arg0.toNat, v1030.toNat, 0, 0]

def k0_chk31 (i : grid0.Coords) (v1030 : BitVec 32) : Prop :=
  (∀ a, (k0_off62 i v1030) a + S1x1x128x512.size a ≤ S2x216x128x512.size a) ∧
  (∀ (hinb : ∀ a, (k0_off62 i v1030) a + S1x1x128x512.size a ≤ S2x216x128x512.size a), (Rect.unit (s := S2x216x128x512) (k0_off62 i v1030) S1x1x128x512.size hinb).WholeWords (EltTy.packing .bf16)) ∧
  (∀ a, (k0_off159 i v1030) a + S1x1x128x512.size a ≤ S2x216x128x512.size a) ∧
  (∀ (hinb : ∀ a, (k0_off159 i v1030) a + S1x1x128x512.size a ≤ S2x216x128x512.size a), (Rect.unit (s := S2x216x128x512) (k0_off159 i v1030) S1x1x128x512.size hinb).WholeWords (EltTy.packing .bf16))
instance k0_chk31.dec : ∀ (i : grid0.Coords) (v1030 : BitVec 32), Decidable (k0_chk31 i v1030) := fun i v1030 => decidable_of_iff' _ (Iff.of_eq (k0_chk31.eq_1 i v1030))
theorem k0_off62_inb : ∀ (i : grid0.Coords) (v1030 : BitVec 32) (k0_hw31 : k0_chk31 i v1030), ∀ a, (k0_off62 i v1030) a + S1x1x128x512.size a ≤ S2x216x128x512.size a := fun i v1030 k0_hw31 => k0_hw31.1
theorem k0_off62_wordsbf16 : ∀ (i : grid0.Coords) (v1030 : BitVec 32) (k0_hw31 : k0_chk31 i v1030), (Rect.unit (s := S2x216x128x512) (k0_off62 i v1030) S1x1x128x512.size (k0_off62_inb i v1030 k0_hw31)).WholeWords (EltTy.packing .bf16) := fun i v1030 k0_hw31 => k0_hw31.2.1 (k0_off62_inb i v1030 k0_hw31)
theorem k0_off159_inb : ∀ (i : grid0.Coords) (v1030 : BitVec 32) (k0_hw31 : k0_chk31 i v1030), ∀ a, (k0_off159 i v1030) a + S1x1x128x512.size a ≤ S2x216x128x512.size a := fun i v1030 k0_hw31 => k0_hw31.2.2.1
theorem k0_off159_wordsbf16 : ∀ (i : grid0.Coords) (v1030 : BitVec 32) (k0_hw31 : k0_chk31 i v1030), (Rect.unit (s := S2x216x128x512) (k0_off159 i v1030) S1x1x128x512.size (k0_off159_inb i v1030 k0_hw31)).WholeWords (EltTy.packing .bf16) := fun i v1030 k0_hw31 => k0_hw31.2.2.2 (k0_off159_inb i v1030 k0_hw31)

def k0_off160 (i : grid0.Coords) (v1064 : BitVec 32) : Fin 4 → Nat :=
  let arg0 : BitVec 32 := BitVec.ofNat 32 (i 0).val
  let c0_i32_894 : BitVec 32 := 0#32
  let c0_i32_895 : BitVec 32 := 0#32
  ![arg0.toNat, v1064.toNat, 0, 0]

def k0_chk32 (i : grid0.Coords) (v1064 : BitVec 32) : Prop :=
  (∀ a, (k0_off64 i v1064) a + S1x1x128x512.size a ≤ S2x216x128x512.size a) ∧
  (∀ (hinb : ∀ a, (k0_off64 i v1064) a + S1x1x128x512.size a ≤ S2x216x128x512.size a), (Rect.unit (s := S2x216x128x512) (k0_off64 i v1064) S1x1x128x512.size hinb).WholeWords (EltTy.packing .bf16)) ∧
  (∀ a, (k0_off160 i v1064) a + S1x1x128x512.size a ≤ S2x216x128x512.size a) ∧
  (∀ (hinb : ∀ a, (k0_off160 i v1064) a + S1x1x128x512.size a ≤ S2x216x128x512.size a), (Rect.unit (s := S2x216x128x512) (k0_off160 i v1064) S1x1x128x512.size hinb).WholeWords (EltTy.packing .bf16))
instance k0_chk32.dec : ∀ (i : grid0.Coords) (v1064 : BitVec 32), Decidable (k0_chk32 i v1064) := fun i v1064 => decidable_of_iff' _ (Iff.of_eq (k0_chk32.eq_1 i v1064))
theorem k0_off64_inb : ∀ (i : grid0.Coords) (v1064 : BitVec 32) (k0_hw32 : k0_chk32 i v1064), ∀ a, (k0_off64 i v1064) a + S1x1x128x512.size a ≤ S2x216x128x512.size a := fun i v1064 k0_hw32 => k0_hw32.1
theorem k0_off64_wordsbf16 : ∀ (i : grid0.Coords) (v1064 : BitVec 32) (k0_hw32 : k0_chk32 i v1064), (Rect.unit (s := S2x216x128x512) (k0_off64 i v1064) S1x1x128x512.size (k0_off64_inb i v1064 k0_hw32)).WholeWords (EltTy.packing .bf16) := fun i v1064 k0_hw32 => k0_hw32.2.1 (k0_off64_inb i v1064 k0_hw32)
theorem k0_off160_inb : ∀ (i : grid0.Coords) (v1064 : BitVec 32) (k0_hw32 : k0_chk32 i v1064), ∀ a, (k0_off160 i v1064) a + S1x1x128x512.size a ≤ S2x216x128x512.size a := fun i v1064 k0_hw32 => k0_hw32.2.2.1
theorem k0_off160_wordsbf16 : ∀ (i : grid0.Coords) (v1064 : BitVec 32) (k0_hw32 : k0_chk32 i v1064), (Rect.unit (s := S2x216x128x512) (k0_off160 i v1064) S1x1x128x512.size (k0_off160_inb i v1064 k0_hw32)).WholeWords (EltTy.packing .bf16) := fun i v1064 k0_hw32 => k0_hw32.2.2.2 (k0_off160_inb i v1064 k0_hw32)

def k0_off161 (i : grid0.Coords) (v1098 : BitVec 32) : Fin 4 → Nat :=
  let arg0 : BitVec 32 := BitVec.ofNat 32 (i 0).val
  let c0_i32_900 : BitVec 32 := 0#32
  let c0_i32_901 : BitVec 32 := 0#32
  ![arg0.toNat, v1098.toNat, 0, 0]

def k0_chk33 (i : grid0.Coords) (v1098 : BitVec 32) : Prop :=
  (∀ a, (k0_off66 i v1098) a + S1x1x128x512.size a ≤ S2x216x128x512.size a) ∧
  (∀ (hinb : ∀ a, (k0_off66 i v1098) a + S1x1x128x512.size a ≤ S2x216x128x512.size a), (Rect.unit (s := S2x216x128x512) (k0_off66 i v1098) S1x1x128x512.size hinb).WholeWords (EltTy.packing .bf16)) ∧
  (∀ a, (k0_off161 i v1098) a + S1x1x128x512.size a ≤ S2x216x128x512.size a) ∧
  (∀ (hinb : ∀ a, (k0_off161 i v1098) a + S1x1x128x512.size a ≤ S2x216x128x512.size a), (Rect.unit (s := S2x216x128x512) (k0_off161 i v1098) S1x1x128x512.size hinb).WholeWords (EltTy.packing .bf16))
instance k0_chk33.dec : ∀ (i : grid0.Coords) (v1098 : BitVec 32), Decidable (k0_chk33 i v1098) := fun i v1098 => decidable_of_iff' _ (Iff.of_eq (k0_chk33.eq_1 i v1098))
theorem k0_off66_inb : ∀ (i : grid0.Coords) (v1098 : BitVec 32) (k0_hw33 : k0_chk33 i v1098), ∀ a, (k0_off66 i v1098) a + S1x1x128x512.size a ≤ S2x216x128x512.size a := fun i v1098 k0_hw33 => k0_hw33.1
theorem k0_off66_wordsbf16 : ∀ (i : grid0.Coords) (v1098 : BitVec 32) (k0_hw33 : k0_chk33 i v1098), (Rect.unit (s := S2x216x128x512) (k0_off66 i v1098) S1x1x128x512.size (k0_off66_inb i v1098 k0_hw33)).WholeWords (EltTy.packing .bf16) := fun i v1098 k0_hw33 => k0_hw33.2.1 (k0_off66_inb i v1098 k0_hw33)
theorem k0_off161_inb : ∀ (i : grid0.Coords) (v1098 : BitVec 32) (k0_hw33 : k0_chk33 i v1098), ∀ a, (k0_off161 i v1098) a + S1x1x128x512.size a ≤ S2x216x128x512.size a := fun i v1098 k0_hw33 => k0_hw33.2.2.1
theorem k0_off161_wordsbf16 : ∀ (i : grid0.Coords) (v1098 : BitVec 32) (k0_hw33 : k0_chk33 i v1098), (Rect.unit (s := S2x216x128x512) (k0_off161 i v1098) S1x1x128x512.size (k0_off161_inb i v1098 k0_hw33)).WholeWords (EltTy.packing .bf16) := fun i v1098 k0_hw33 => k0_hw33.2.2.2 (k0_off161_inb i v1098 k0_hw33)

def k0_off162 (i : grid0.Coords) (v1132 : BitVec 32) : Fin 4 → Nat :=
  let arg0 : BitVec 32 := BitVec.ofNat 32 (i 0).val
  let c0_i32_906 : BitVec 32 := 0#32
  let c0_i32_907 : BitVec 32 := 0#32
  ![arg0.toNat, v1132.toNat, 0, 0]

def k0_chk34 (i : grid0.Coords) (v1132 : BitVec 32) : Prop :=
  (∀ a, (k0_off68 i v1132) a + S1x1x128x512.size a ≤ S2x216x128x512.size a) ∧
  (∀ (hinb : ∀ a, (k0_off68 i v1132) a + S1x1x128x512.size a ≤ S2x216x128x512.size a), (Rect.unit (s := S2x216x128x512) (k0_off68 i v1132) S1x1x128x512.size hinb).WholeWords (EltTy.packing .bf16)) ∧
  (∀ a, (k0_off162 i v1132) a + S1x1x128x512.size a ≤ S2x216x128x512.size a) ∧
  (∀ (hinb : ∀ a, (k0_off162 i v1132) a + S1x1x128x512.size a ≤ S2x216x128x512.size a), (Rect.unit (s := S2x216x128x512) (k0_off162 i v1132) S1x1x128x512.size hinb).WholeWords (EltTy.packing .bf16))
instance k0_chk34.dec : ∀ (i : grid0.Coords) (v1132 : BitVec 32), Decidable (k0_chk34 i v1132) := fun i v1132 => decidable_of_iff' _ (Iff.of_eq (k0_chk34.eq_1 i v1132))
theorem k0_off68_inb : ∀ (i : grid0.Coords) (v1132 : BitVec 32) (k0_hw34 : k0_chk34 i v1132), ∀ a, (k0_off68 i v1132) a + S1x1x128x512.size a ≤ S2x216x128x512.size a := fun i v1132 k0_hw34 => k0_hw34.1
theorem k0_off68_wordsbf16 : ∀ (i : grid0.Coords) (v1132 : BitVec 32) (k0_hw34 : k0_chk34 i v1132), (Rect.unit (s := S2x216x128x512) (k0_off68 i v1132) S1x1x128x512.size (k0_off68_inb i v1132 k0_hw34)).WholeWords (EltTy.packing .bf16) := fun i v1132 k0_hw34 => k0_hw34.2.1 (k0_off68_inb i v1132 k0_hw34)
theorem k0_off162_inb : ∀ (i : grid0.Coords) (v1132 : BitVec 32) (k0_hw34 : k0_chk34 i v1132), ∀ a, (k0_off162 i v1132) a + S1x1x128x512.size a ≤ S2x216x128x512.size a := fun i v1132 k0_hw34 => k0_hw34.2.2.1
theorem k0_off162_wordsbf16 : ∀ (i : grid0.Coords) (v1132 : BitVec 32) (k0_hw34 : k0_chk34 i v1132), (Rect.unit (s := S2x216x128x512) (k0_off162 i v1132) S1x1x128x512.size (k0_off162_inb i v1132 k0_hw34)).WholeWords (EltTy.packing .bf16) := fun i v1132 k0_hw34 => k0_hw34.2.2.2 (k0_off162_inb i v1132 k0_hw34)

def k0_off163 (i : grid0.Coords) (v1166 : BitVec 32) : Fin 4 → Nat :=
  let arg0 : BitVec 32 := BitVec.ofNat 32 (i 0).val
  let c0_i32_912 : BitVec 32 := 0#32
  let c0_i32_913 : BitVec 32 := 0#32
  ![arg0.toNat, v1166.toNat, 0, 0]

def k0_chk35 (i : grid0.Coords) (v1166 : BitVec 32) : Prop :=
  (∀ a, (k0_off70 i v1166) a + S1x1x128x512.size a ≤ S2x216x128x512.size a) ∧
  (∀ (hinb : ∀ a, (k0_off70 i v1166) a + S1x1x128x512.size a ≤ S2x216x128x512.size a), (Rect.unit (s := S2x216x128x512) (k0_off70 i v1166) S1x1x128x512.size hinb).WholeWords (EltTy.packing .bf16)) ∧
  (∀ a, (k0_off163 i v1166) a + S1x1x128x512.size a ≤ S2x216x128x512.size a) ∧
  (∀ (hinb : ∀ a, (k0_off163 i v1166) a + S1x1x128x512.size a ≤ S2x216x128x512.size a), (Rect.unit (s := S2x216x128x512) (k0_off163 i v1166) S1x1x128x512.size hinb).WholeWords (EltTy.packing .bf16))
instance k0_chk35.dec : ∀ (i : grid0.Coords) (v1166 : BitVec 32), Decidable (k0_chk35 i v1166) := fun i v1166 => decidable_of_iff' _ (Iff.of_eq (k0_chk35.eq_1 i v1166))
theorem k0_off70_inb : ∀ (i : grid0.Coords) (v1166 : BitVec 32) (k0_hw35 : k0_chk35 i v1166), ∀ a, (k0_off70 i v1166) a + S1x1x128x512.size a ≤ S2x216x128x512.size a := fun i v1166 k0_hw35 => k0_hw35.1
theorem k0_off70_wordsbf16 : ∀ (i : grid0.Coords) (v1166 : BitVec 32) (k0_hw35 : k0_chk35 i v1166), (Rect.unit (s := S2x216x128x512) (k0_off70 i v1166) S1x1x128x512.size (k0_off70_inb i v1166 k0_hw35)).WholeWords (EltTy.packing .bf16) := fun i v1166 k0_hw35 => k0_hw35.2.1 (k0_off70_inb i v1166 k0_hw35)
theorem k0_off163_inb : ∀ (i : grid0.Coords) (v1166 : BitVec 32) (k0_hw35 : k0_chk35 i v1166), ∀ a, (k0_off163 i v1166) a + S1x1x128x512.size a ≤ S2x216x128x512.size a := fun i v1166 k0_hw35 => k0_hw35.2.2.1
theorem k0_off163_wordsbf16 : ∀ (i : grid0.Coords) (v1166 : BitVec 32) (k0_hw35 : k0_chk35 i v1166), (Rect.unit (s := S2x216x128x512) (k0_off163 i v1166) S1x1x128x512.size (k0_off163_inb i v1166 k0_hw35)).WholeWords (EltTy.packing .bf16) := fun i v1166 k0_hw35 => k0_hw35.2.2.2 (k0_off163_inb i v1166 k0_hw35)

def k0_off164 (i : grid0.Coords) (v1200 : BitVec 32) : Fin 4 → Nat :=
  let arg0 : BitVec 32 := BitVec.ofNat 32 (i 0).val
  let c0_i32_918 : BitVec 32 := 0#32
  let c0_i32_919 : BitVec 32 := 0#32
  ![arg0.toNat, v1200.toNat, 0, 0]

def k0_chk36 (i : grid0.Coords) (v1200 : BitVec 32) : Prop :=
  (∀ a, (k0_off72 i v1200) a + S1x1x128x512.size a ≤ S2x216x128x512.size a) ∧
  (∀ (hinb : ∀ a, (k0_off72 i v1200) a + S1x1x128x512.size a ≤ S2x216x128x512.size a), (Rect.unit (s := S2x216x128x512) (k0_off72 i v1200) S1x1x128x512.size hinb).WholeWords (EltTy.packing .bf16)) ∧
  (∀ a, (k0_off164 i v1200) a + S1x1x128x512.size a ≤ S2x216x128x512.size a) ∧
  (∀ (hinb : ∀ a, (k0_off164 i v1200) a + S1x1x128x512.size a ≤ S2x216x128x512.size a), (Rect.unit (s := S2x216x128x512) (k0_off164 i v1200) S1x1x128x512.size hinb).WholeWords (EltTy.packing .bf16))
instance k0_chk36.dec : ∀ (i : grid0.Coords) (v1200 : BitVec 32), Decidable (k0_chk36 i v1200) := fun i v1200 => decidable_of_iff' _ (Iff.of_eq (k0_chk36.eq_1 i v1200))
theorem k0_off72_inb : ∀ (i : grid0.Coords) (v1200 : BitVec 32) (k0_hw36 : k0_chk36 i v1200), ∀ a, (k0_off72 i v1200) a + S1x1x128x512.size a ≤ S2x216x128x512.size a := fun i v1200 k0_hw36 => k0_hw36.1
theorem k0_off72_wordsbf16 : ∀ (i : grid0.Coords) (v1200 : BitVec 32) (k0_hw36 : k0_chk36 i v1200), (Rect.unit (s := S2x216x128x512) (k0_off72 i v1200) S1x1x128x512.size (k0_off72_inb i v1200 k0_hw36)).WholeWords (EltTy.packing .bf16) := fun i v1200 k0_hw36 => k0_hw36.2.1 (k0_off72_inb i v1200 k0_hw36)
theorem k0_off164_inb : ∀ (i : grid0.Coords) (v1200 : BitVec 32) (k0_hw36 : k0_chk36 i v1200), ∀ a, (k0_off164 i v1200) a + S1x1x128x512.size a ≤ S2x216x128x512.size a := fun i v1200 k0_hw36 => k0_hw36.2.2.1
theorem k0_off164_wordsbf16 : ∀ (i : grid0.Coords) (v1200 : BitVec 32) (k0_hw36 : k0_chk36 i v1200), (Rect.unit (s := S2x216x128x512) (k0_off164 i v1200) S1x1x128x512.size (k0_off164_inb i v1200 k0_hw36)).WholeWords (EltTy.packing .bf16) := fun i v1200 k0_hw36 => k0_hw36.2.2.2 (k0_off164_inb i v1200 k0_hw36)

def k0_off165 (i : grid0.Coords) (v1234 : BitVec 32) : Fin 4 → Nat :=
  let arg0 : BitVec 32 := BitVec.ofNat 32 (i 0).val
  let c0_i32_924 : BitVec 32 := 0#32
  let c0_i32_925 : BitVec 32 := 0#32
  ![arg0.toNat, v1234.toNat, 0, 0]

def k0_chk37 (i : grid0.Coords) (v1234 : BitVec 32) : Prop :=
  (∀ a, (k0_off74 i v1234) a + S1x1x128x512.size a ≤ S2x216x128x512.size a) ∧
  (∀ (hinb : ∀ a, (k0_off74 i v1234) a + S1x1x128x512.size a ≤ S2x216x128x512.size a), (Rect.unit (s := S2x216x128x512) (k0_off74 i v1234) S1x1x128x512.size hinb).WholeWords (EltTy.packing .bf16)) ∧
  (∀ a, (k0_off165 i v1234) a + S1x1x128x512.size a ≤ S2x216x128x512.size a) ∧
  (∀ (hinb : ∀ a, (k0_off165 i v1234) a + S1x1x128x512.size a ≤ S2x216x128x512.size a), (Rect.unit (s := S2x216x128x512) (k0_off165 i v1234) S1x1x128x512.size hinb).WholeWords (EltTy.packing .bf16))
instance k0_chk37.dec : ∀ (i : grid0.Coords) (v1234 : BitVec 32), Decidable (k0_chk37 i v1234) := fun i v1234 => decidable_of_iff' _ (Iff.of_eq (k0_chk37.eq_1 i v1234))
theorem k0_off74_inb : ∀ (i : grid0.Coords) (v1234 : BitVec 32) (k0_hw37 : k0_chk37 i v1234), ∀ a, (k0_off74 i v1234) a + S1x1x128x512.size a ≤ S2x216x128x512.size a := fun i v1234 k0_hw37 => k0_hw37.1
theorem k0_off74_wordsbf16 : ∀ (i : grid0.Coords) (v1234 : BitVec 32) (k0_hw37 : k0_chk37 i v1234), (Rect.unit (s := S2x216x128x512) (k0_off74 i v1234) S1x1x128x512.size (k0_off74_inb i v1234 k0_hw37)).WholeWords (EltTy.packing .bf16) := fun i v1234 k0_hw37 => k0_hw37.2.1 (k0_off74_inb i v1234 k0_hw37)
theorem k0_off165_inb : ∀ (i : grid0.Coords) (v1234 : BitVec 32) (k0_hw37 : k0_chk37 i v1234), ∀ a, (k0_off165 i v1234) a + S1x1x128x512.size a ≤ S2x216x128x512.size a := fun i v1234 k0_hw37 => k0_hw37.2.2.1
theorem k0_off165_wordsbf16 : ∀ (i : grid0.Coords) (v1234 : BitVec 32) (k0_hw37 : k0_chk37 i v1234), (Rect.unit (s := S2x216x128x512) (k0_off165 i v1234) S1x1x128x512.size (k0_off165_inb i v1234 k0_hw37)).WholeWords (EltTy.packing .bf16) := fun i v1234 k0_hw37 => k0_hw37.2.2.2 (k0_off165_inb i v1234 k0_hw37)

def k0_off166 (i : grid0.Coords) (v1268 : BitVec 32) : Fin 4 → Nat :=
  let arg0 : BitVec 32 := BitVec.ofNat 32 (i 0).val
  let c0_i32_930 : BitVec 32 := 0#32
  let c0_i32_931 : BitVec 32 := 0#32
  ![arg0.toNat, v1268.toNat, 0, 0]

def k0_chk38 (i : grid0.Coords) (v1268 : BitVec 32) : Prop :=
  (∀ a, (k0_off76 i v1268) a + S1x1x128x512.size a ≤ S2x216x128x512.size a) ∧
  (∀ (hinb : ∀ a, (k0_off76 i v1268) a + S1x1x128x512.size a ≤ S2x216x128x512.size a), (Rect.unit (s := S2x216x128x512) (k0_off76 i v1268) S1x1x128x512.size hinb).WholeWords (EltTy.packing .bf16)) ∧
  (∀ a, (k0_off166 i v1268) a + S1x1x128x512.size a ≤ S2x216x128x512.size a) ∧
  (∀ (hinb : ∀ a, (k0_off166 i v1268) a + S1x1x128x512.size a ≤ S2x216x128x512.size a), (Rect.unit (s := S2x216x128x512) (k0_off166 i v1268) S1x1x128x512.size hinb).WholeWords (EltTy.packing .bf16))
instance k0_chk38.dec : ∀ (i : grid0.Coords) (v1268 : BitVec 32), Decidable (k0_chk38 i v1268) := fun i v1268 => decidable_of_iff' _ (Iff.of_eq (k0_chk38.eq_1 i v1268))
theorem k0_off76_inb : ∀ (i : grid0.Coords) (v1268 : BitVec 32) (k0_hw38 : k0_chk38 i v1268), ∀ a, (k0_off76 i v1268) a + S1x1x128x512.size a ≤ S2x216x128x512.size a := fun i v1268 k0_hw38 => k0_hw38.1
theorem k0_off76_wordsbf16 : ∀ (i : grid0.Coords) (v1268 : BitVec 32) (k0_hw38 : k0_chk38 i v1268), (Rect.unit (s := S2x216x128x512) (k0_off76 i v1268) S1x1x128x512.size (k0_off76_inb i v1268 k0_hw38)).WholeWords (EltTy.packing .bf16) := fun i v1268 k0_hw38 => k0_hw38.2.1 (k0_off76_inb i v1268 k0_hw38)
theorem k0_off166_inb : ∀ (i : grid0.Coords) (v1268 : BitVec 32) (k0_hw38 : k0_chk38 i v1268), ∀ a, (k0_off166 i v1268) a + S1x1x128x512.size a ≤ S2x216x128x512.size a := fun i v1268 k0_hw38 => k0_hw38.2.2.1
theorem k0_off166_wordsbf16 : ∀ (i : grid0.Coords) (v1268 : BitVec 32) (k0_hw38 : k0_chk38 i v1268), (Rect.unit (s := S2x216x128x512) (k0_off166 i v1268) S1x1x128x512.size (k0_off166_inb i v1268 k0_hw38)).WholeWords (EltTy.packing .bf16) := fun i v1268 k0_hw38 => k0_hw38.2.2.2 (k0_off166_inb i v1268 k0_hw38)

def k0_off167 (i : grid0.Coords) (v1302 : BitVec 32) : Fin 4 → Nat :=
  let arg0 : BitVec 32 := BitVec.ofNat 32 (i 0).val
  let c0_i32_936 : BitVec 32 := 0#32
  let c0_i32_937 : BitVec 32 := 0#32
  ![arg0.toNat, v1302.toNat, 0, 0]

def k0_chk39 (i : grid0.Coords) (v1302 : BitVec 32) : Prop :=
  (∀ a, (k0_off78 i v1302) a + S1x1x128x512.size a ≤ S2x216x128x512.size a) ∧
  (∀ (hinb : ∀ a, (k0_off78 i v1302) a + S1x1x128x512.size a ≤ S2x216x128x512.size a), (Rect.unit (s := S2x216x128x512) (k0_off78 i v1302) S1x1x128x512.size hinb).WholeWords (EltTy.packing .bf16)) ∧
  (∀ a, (k0_off167 i v1302) a + S1x1x128x512.size a ≤ S2x216x128x512.size a) ∧
  (∀ (hinb : ∀ a, (k0_off167 i v1302) a + S1x1x128x512.size a ≤ S2x216x128x512.size a), (Rect.unit (s := S2x216x128x512) (k0_off167 i v1302) S1x1x128x512.size hinb).WholeWords (EltTy.packing .bf16))
instance k0_chk39.dec : ∀ (i : grid0.Coords) (v1302 : BitVec 32), Decidable (k0_chk39 i v1302) := fun i v1302 => decidable_of_iff' _ (Iff.of_eq (k0_chk39.eq_1 i v1302))
theorem k0_off78_inb : ∀ (i : grid0.Coords) (v1302 : BitVec 32) (k0_hw39 : k0_chk39 i v1302), ∀ a, (k0_off78 i v1302) a + S1x1x128x512.size a ≤ S2x216x128x512.size a := fun i v1302 k0_hw39 => k0_hw39.1
theorem k0_off78_wordsbf16 : ∀ (i : grid0.Coords) (v1302 : BitVec 32) (k0_hw39 : k0_chk39 i v1302), (Rect.unit (s := S2x216x128x512) (k0_off78 i v1302) S1x1x128x512.size (k0_off78_inb i v1302 k0_hw39)).WholeWords (EltTy.packing .bf16) := fun i v1302 k0_hw39 => k0_hw39.2.1 (k0_off78_inb i v1302 k0_hw39)
theorem k0_off167_inb : ∀ (i : grid0.Coords) (v1302 : BitVec 32) (k0_hw39 : k0_chk39 i v1302), ∀ a, (k0_off167 i v1302) a + S1x1x128x512.size a ≤ S2x216x128x512.size a := fun i v1302 k0_hw39 => k0_hw39.2.2.1
theorem k0_off167_wordsbf16 : ∀ (i : grid0.Coords) (v1302 : BitVec 32) (k0_hw39 : k0_chk39 i v1302), (Rect.unit (s := S2x216x128x512) (k0_off167 i v1302) S1x1x128x512.size (k0_off167_inb i v1302 k0_hw39)).WholeWords (EltTy.packing .bf16) := fun i v1302 k0_hw39 => k0_hw39.2.2.2 (k0_off167_inb i v1302 k0_hw39)

def k0_off168 (i : grid0.Coords) (v1336 : BitVec 32) : Fin 4 → Nat :=
  let arg0 : BitVec 32 := BitVec.ofNat 32 (i 0).val
  let c0_i32_942 : BitVec 32 := 0#32
  let c0_i32_943 : BitVec 32 := 0#32
  ![arg0.toNat, v1336.toNat, 0, 0]

def k0_chk40 (i : grid0.Coords) (v1336 : BitVec 32) : Prop :=
  (∀ a, (k0_off80 i v1336) a + S1x1x128x512.size a ≤ S2x216x128x512.size a) ∧
  (∀ (hinb : ∀ a, (k0_off80 i v1336) a + S1x1x128x512.size a ≤ S2x216x128x512.size a), (Rect.unit (s := S2x216x128x512) (k0_off80 i v1336) S1x1x128x512.size hinb).WholeWords (EltTy.packing .bf16)) ∧
  (∀ a, (k0_off168 i v1336) a + S1x1x128x512.size a ≤ S2x216x128x512.size a) ∧
  (∀ (hinb : ∀ a, (k0_off168 i v1336) a + S1x1x128x512.size a ≤ S2x216x128x512.size a), (Rect.unit (s := S2x216x128x512) (k0_off168 i v1336) S1x1x128x512.size hinb).WholeWords (EltTy.packing .bf16))
instance k0_chk40.dec : ∀ (i : grid0.Coords) (v1336 : BitVec 32), Decidable (k0_chk40 i v1336) := fun i v1336 => decidable_of_iff' _ (Iff.of_eq (k0_chk40.eq_1 i v1336))
theorem k0_off80_inb : ∀ (i : grid0.Coords) (v1336 : BitVec 32) (k0_hw40 : k0_chk40 i v1336), ∀ a, (k0_off80 i v1336) a + S1x1x128x512.size a ≤ S2x216x128x512.size a := fun i v1336 k0_hw40 => k0_hw40.1
theorem k0_off80_wordsbf16 : ∀ (i : grid0.Coords) (v1336 : BitVec 32) (k0_hw40 : k0_chk40 i v1336), (Rect.unit (s := S2x216x128x512) (k0_off80 i v1336) S1x1x128x512.size (k0_off80_inb i v1336 k0_hw40)).WholeWords (EltTy.packing .bf16) := fun i v1336 k0_hw40 => k0_hw40.2.1 (k0_off80_inb i v1336 k0_hw40)
theorem k0_off168_inb : ∀ (i : grid0.Coords) (v1336 : BitVec 32) (k0_hw40 : k0_chk40 i v1336), ∀ a, (k0_off168 i v1336) a + S1x1x128x512.size a ≤ S2x216x128x512.size a := fun i v1336 k0_hw40 => k0_hw40.2.2.1
theorem k0_off168_wordsbf16 : ∀ (i : grid0.Coords) (v1336 : BitVec 32) (k0_hw40 : k0_chk40 i v1336), (Rect.unit (s := S2x216x128x512) (k0_off168 i v1336) S1x1x128x512.size (k0_off168_inb i v1336 k0_hw40)).WholeWords (EltTy.packing .bf16) := fun i v1336 k0_hw40 => k0_hw40.2.2.2 (k0_off168_inb i v1336 k0_hw40)

def k0_off169 (i : grid0.Coords) (v1370 : BitVec 32) : Fin 4 → Nat :=
  let arg0 : BitVec 32 := BitVec.ofNat 32 (i 0).val
  let c0_i32_948 : BitVec 32 := 0#32
  let c0_i32_949 : BitVec 32 := 0#32
  ![arg0.toNat, v1370.toNat, 0, 0]

def k0_chk41 (i : grid0.Coords) (v1370 : BitVec 32) : Prop :=
  (∀ a, (k0_off82 i v1370) a + S1x1x128x512.size a ≤ S2x216x128x512.size a) ∧
  (∀ (hinb : ∀ a, (k0_off82 i v1370) a + S1x1x128x512.size a ≤ S2x216x128x512.size a), (Rect.unit (s := S2x216x128x512) (k0_off82 i v1370) S1x1x128x512.size hinb).WholeWords (EltTy.packing .bf16)) ∧
  (∀ a, (k0_off169 i v1370) a + S1x1x128x512.size a ≤ S2x216x128x512.size a) ∧
  (∀ (hinb : ∀ a, (k0_off169 i v1370) a + S1x1x128x512.size a ≤ S2x216x128x512.size a), (Rect.unit (s := S2x216x128x512) (k0_off169 i v1370) S1x1x128x512.size hinb).WholeWords (EltTy.packing .bf16))
instance k0_chk41.dec : ∀ (i : grid0.Coords) (v1370 : BitVec 32), Decidable (k0_chk41 i v1370) := fun i v1370 => decidable_of_iff' _ (Iff.of_eq (k0_chk41.eq_1 i v1370))
theorem k0_off82_inb : ∀ (i : grid0.Coords) (v1370 : BitVec 32) (k0_hw41 : k0_chk41 i v1370), ∀ a, (k0_off82 i v1370) a + S1x1x128x512.size a ≤ S2x216x128x512.size a := fun i v1370 k0_hw41 => k0_hw41.1
theorem k0_off82_wordsbf16 : ∀ (i : grid0.Coords) (v1370 : BitVec 32) (k0_hw41 : k0_chk41 i v1370), (Rect.unit (s := S2x216x128x512) (k0_off82 i v1370) S1x1x128x512.size (k0_off82_inb i v1370 k0_hw41)).WholeWords (EltTy.packing .bf16) := fun i v1370 k0_hw41 => k0_hw41.2.1 (k0_off82_inb i v1370 k0_hw41)
theorem k0_off169_inb : ∀ (i : grid0.Coords) (v1370 : BitVec 32) (k0_hw41 : k0_chk41 i v1370), ∀ a, (k0_off169 i v1370) a + S1x1x128x512.size a ≤ S2x216x128x512.size a := fun i v1370 k0_hw41 => k0_hw41.2.2.1
theorem k0_off169_wordsbf16 : ∀ (i : grid0.Coords) (v1370 : BitVec 32) (k0_hw41 : k0_chk41 i v1370), (Rect.unit (s := S2x216x128x512) (k0_off169 i v1370) S1x1x128x512.size (k0_off169_inb i v1370 k0_hw41)).WholeWords (EltTy.packing .bf16) := fun i v1370 k0_hw41 => k0_hw41.2.2.2 (k0_off169_inb i v1370 k0_hw41)

def k0_off170 (i : grid0.Coords) (v1404 : BitVec 32) : Fin 4 → Nat :=
  let arg0 : BitVec 32 := BitVec.ofNat 32 (i 0).val
  let c0_i32_954 : BitVec 32 := 0#32
  let c0_i32_955 : BitVec 32 := 0#32
  ![arg0.toNat, v1404.toNat, 0, 0]

def k0_chk42 (i : grid0.Coords) (v1404 : BitVec 32) : Prop :=
  (∀ a, (k0_off84 i v1404) a + S1x1x128x512.size a ≤ S2x216x128x512.size a) ∧
  (∀ (hinb : ∀ a, (k0_off84 i v1404) a + S1x1x128x512.size a ≤ S2x216x128x512.size a), (Rect.unit (s := S2x216x128x512) (k0_off84 i v1404) S1x1x128x512.size hinb).WholeWords (EltTy.packing .bf16)) ∧
  (∀ a, (k0_off170 i v1404) a + S1x1x128x512.size a ≤ S2x216x128x512.size a) ∧
  (∀ (hinb : ∀ a, (k0_off170 i v1404) a + S1x1x128x512.size a ≤ S2x216x128x512.size a), (Rect.unit (s := S2x216x128x512) (k0_off170 i v1404) S1x1x128x512.size hinb).WholeWords (EltTy.packing .bf16))
instance k0_chk42.dec : ∀ (i : grid0.Coords) (v1404 : BitVec 32), Decidable (k0_chk42 i v1404) := fun i v1404 => decidable_of_iff' _ (Iff.of_eq (k0_chk42.eq_1 i v1404))
theorem k0_off84_inb : ∀ (i : grid0.Coords) (v1404 : BitVec 32) (k0_hw42 : k0_chk42 i v1404), ∀ a, (k0_off84 i v1404) a + S1x1x128x512.size a ≤ S2x216x128x512.size a := fun i v1404 k0_hw42 => k0_hw42.1
theorem k0_off84_wordsbf16 : ∀ (i : grid0.Coords) (v1404 : BitVec 32) (k0_hw42 : k0_chk42 i v1404), (Rect.unit (s := S2x216x128x512) (k0_off84 i v1404) S1x1x128x512.size (k0_off84_inb i v1404 k0_hw42)).WholeWords (EltTy.packing .bf16) := fun i v1404 k0_hw42 => k0_hw42.2.1 (k0_off84_inb i v1404 k0_hw42)
theorem k0_off170_inb : ∀ (i : grid0.Coords) (v1404 : BitVec 32) (k0_hw42 : k0_chk42 i v1404), ∀ a, (k0_off170 i v1404) a + S1x1x128x512.size a ≤ S2x216x128x512.size a := fun i v1404 k0_hw42 => k0_hw42.2.2.1
theorem k0_off170_wordsbf16 : ∀ (i : grid0.Coords) (v1404 : BitVec 32) (k0_hw42 : k0_chk42 i v1404), (Rect.unit (s := S2x216x128x512) (k0_off170 i v1404) S1x1x128x512.size (k0_off170_inb i v1404 k0_hw42)).WholeWords (EltTy.packing .bf16) := fun i v1404 k0_hw42 => k0_hw42.2.2.2 (k0_off170_inb i v1404 k0_hw42)

def k0_off171 (i : grid0.Coords) (v1438 : BitVec 32) : Fin 4 → Nat :=
  let arg0 : BitVec 32 := BitVec.ofNat 32 (i 0).val
  let c0_i32_960 : BitVec 32 := 0#32
  let c0_i32_961 : BitVec 32 := 0#32
  ![arg0.toNat, v1438.toNat, 0, 0]

def k0_chk43 (i : grid0.Coords) (v1438 : BitVec 32) : Prop :=
  (∀ a, (k0_off86 i v1438) a + S1x1x128x512.size a ≤ S2x216x128x512.size a) ∧
  (∀ (hinb : ∀ a, (k0_off86 i v1438) a + S1x1x128x512.size a ≤ S2x216x128x512.size a), (Rect.unit (s := S2x216x128x512) (k0_off86 i v1438) S1x1x128x512.size hinb).WholeWords (EltTy.packing .bf16)) ∧
  (∀ a, (k0_off171 i v1438) a + S1x1x128x512.size a ≤ S2x216x128x512.size a) ∧
  (∀ (hinb : ∀ a, (k0_off171 i v1438) a + S1x1x128x512.size a ≤ S2x216x128x512.size a), (Rect.unit (s := S2x216x128x512) (k0_off171 i v1438) S1x1x128x512.size hinb).WholeWords (EltTy.packing .bf16))
instance k0_chk43.dec : ∀ (i : grid0.Coords) (v1438 : BitVec 32), Decidable (k0_chk43 i v1438) := fun i v1438 => decidable_of_iff' _ (Iff.of_eq (k0_chk43.eq_1 i v1438))
theorem k0_off86_inb : ∀ (i : grid0.Coords) (v1438 : BitVec 32) (k0_hw43 : k0_chk43 i v1438), ∀ a, (k0_off86 i v1438) a + S1x1x128x512.size a ≤ S2x216x128x512.size a := fun i v1438 k0_hw43 => k0_hw43.1
theorem k0_off86_wordsbf16 : ∀ (i : grid0.Coords) (v1438 : BitVec 32) (k0_hw43 : k0_chk43 i v1438), (Rect.unit (s := S2x216x128x512) (k0_off86 i v1438) S1x1x128x512.size (k0_off86_inb i v1438 k0_hw43)).WholeWords (EltTy.packing .bf16) := fun i v1438 k0_hw43 => k0_hw43.2.1 (k0_off86_inb i v1438 k0_hw43)
theorem k0_off171_inb : ∀ (i : grid0.Coords) (v1438 : BitVec 32) (k0_hw43 : k0_chk43 i v1438), ∀ a, (k0_off171 i v1438) a + S1x1x128x512.size a ≤ S2x216x128x512.size a := fun i v1438 k0_hw43 => k0_hw43.2.2.1
theorem k0_off171_wordsbf16 : ∀ (i : grid0.Coords) (v1438 : BitVec 32) (k0_hw43 : k0_chk43 i v1438), (Rect.unit (s := S2x216x128x512) (k0_off171 i v1438) S1x1x128x512.size (k0_off171_inb i v1438 k0_hw43)).WholeWords (EltTy.packing .bf16) := fun i v1438 k0_hw43 => k0_hw43.2.2.2 (k0_off171_inb i v1438 k0_hw43)

def k0_off172 (i : grid0.Coords) (v1472 : BitVec 32) : Fin 4 → Nat :=
  let arg0 : BitVec 32 := BitVec.ofNat 32 (i 0).val
  let c0_i32_966 : BitVec 32 := 0#32
  let c0_i32_967 : BitVec 32 := 0#32
  ![arg0.toNat, v1472.toNat, 0, 0]

def k0_chk44 (i : grid0.Coords) (v1472 : BitVec 32) : Prop :=
  (∀ a, (k0_off88 i v1472) a + S1x1x128x512.size a ≤ S2x216x128x512.size a) ∧
  (∀ (hinb : ∀ a, (k0_off88 i v1472) a + S1x1x128x512.size a ≤ S2x216x128x512.size a), (Rect.unit (s := S2x216x128x512) (k0_off88 i v1472) S1x1x128x512.size hinb).WholeWords (EltTy.packing .bf16)) ∧
  (∀ a, (k0_off172 i v1472) a + S1x1x128x512.size a ≤ S2x216x128x512.size a) ∧
  (∀ (hinb : ∀ a, (k0_off172 i v1472) a + S1x1x128x512.size a ≤ S2x216x128x512.size a), (Rect.unit (s := S2x216x128x512) (k0_off172 i v1472) S1x1x128x512.size hinb).WholeWords (EltTy.packing .bf16))
instance k0_chk44.dec : ∀ (i : grid0.Coords) (v1472 : BitVec 32), Decidable (k0_chk44 i v1472) := fun i v1472 => decidable_of_iff' _ (Iff.of_eq (k0_chk44.eq_1 i v1472))
theorem k0_off88_inb : ∀ (i : grid0.Coords) (v1472 : BitVec 32) (k0_hw44 : k0_chk44 i v1472), ∀ a, (k0_off88 i v1472) a + S1x1x128x512.size a ≤ S2x216x128x512.size a := fun i v1472 k0_hw44 => k0_hw44.1
theorem k0_off88_wordsbf16 : ∀ (i : grid0.Coords) (v1472 : BitVec 32) (k0_hw44 : k0_chk44 i v1472), (Rect.unit (s := S2x216x128x512) (k0_off88 i v1472) S1x1x128x512.size (k0_off88_inb i v1472 k0_hw44)).WholeWords (EltTy.packing .bf16) := fun i v1472 k0_hw44 => k0_hw44.2.1 (k0_off88_inb i v1472 k0_hw44)
theorem k0_off172_inb : ∀ (i : grid0.Coords) (v1472 : BitVec 32) (k0_hw44 : k0_chk44 i v1472), ∀ a, (k0_off172 i v1472) a + S1x1x128x512.size a ≤ S2x216x128x512.size a := fun i v1472 k0_hw44 => k0_hw44.2.2.1
theorem k0_off172_wordsbf16 : ∀ (i : grid0.Coords) (v1472 : BitVec 32) (k0_hw44 : k0_chk44 i v1472), (Rect.unit (s := S2x216x128x512) (k0_off172 i v1472) S1x1x128x512.size (k0_off172_inb i v1472 k0_hw44)).WholeWords (EltTy.packing .bf16) := fun i v1472 k0_hw44 => k0_hw44.2.2.2 (k0_off172_inb i v1472 k0_hw44)

def k0_off173 (i : grid0.Coords) (v1506 : BitVec 32) : Fin 4 → Nat :=
  let arg0 : BitVec 32 := BitVec.ofNat 32 (i 0).val
  let c0_i32_972 : BitVec 32 := 0#32
  let c0_i32_973 : BitVec 32 := 0#32
  ![arg0.toNat, v1506.toNat, 0, 0]

def k0_chk45 (i : grid0.Coords) (v1506 : BitVec 32) : Prop :=
  (∀ a, (k0_off90 i v1506) a + S1x1x128x512.size a ≤ S2x216x128x512.size a) ∧
  (∀ (hinb : ∀ a, (k0_off90 i v1506) a + S1x1x128x512.size a ≤ S2x216x128x512.size a), (Rect.unit (s := S2x216x128x512) (k0_off90 i v1506) S1x1x128x512.size hinb).WholeWords (EltTy.packing .bf16)) ∧
  (∀ a, (k0_off173 i v1506) a + S1x1x128x512.size a ≤ S2x216x128x512.size a) ∧
  (∀ (hinb : ∀ a, (k0_off173 i v1506) a + S1x1x128x512.size a ≤ S2x216x128x512.size a), (Rect.unit (s := S2x216x128x512) (k0_off173 i v1506) S1x1x128x512.size hinb).WholeWords (EltTy.packing .bf16))
instance k0_chk45.dec : ∀ (i : grid0.Coords) (v1506 : BitVec 32), Decidable (k0_chk45 i v1506) := fun i v1506 => decidable_of_iff' _ (Iff.of_eq (k0_chk45.eq_1 i v1506))
theorem k0_off90_inb : ∀ (i : grid0.Coords) (v1506 : BitVec 32) (k0_hw45 : k0_chk45 i v1506), ∀ a, (k0_off90 i v1506) a + S1x1x128x512.size a ≤ S2x216x128x512.size a := fun i v1506 k0_hw45 => k0_hw45.1
theorem k0_off90_wordsbf16 : ∀ (i : grid0.Coords) (v1506 : BitVec 32) (k0_hw45 : k0_chk45 i v1506), (Rect.unit (s := S2x216x128x512) (k0_off90 i v1506) S1x1x128x512.size (k0_off90_inb i v1506 k0_hw45)).WholeWords (EltTy.packing .bf16) := fun i v1506 k0_hw45 => k0_hw45.2.1 (k0_off90_inb i v1506 k0_hw45)
theorem k0_off173_inb : ∀ (i : grid0.Coords) (v1506 : BitVec 32) (k0_hw45 : k0_chk45 i v1506), ∀ a, (k0_off173 i v1506) a + S1x1x128x512.size a ≤ S2x216x128x512.size a := fun i v1506 k0_hw45 => k0_hw45.2.2.1
theorem k0_off173_wordsbf16 : ∀ (i : grid0.Coords) (v1506 : BitVec 32) (k0_hw45 : k0_chk45 i v1506), (Rect.unit (s := S2x216x128x512) (k0_off173 i v1506) S1x1x128x512.size (k0_off173_inb i v1506 k0_hw45)).WholeWords (EltTy.packing .bf16) := fun i v1506 k0_hw45 => k0_hw45.2.2.2 (k0_off173_inb i v1506 k0_hw45)

def k0_off174 (i : grid0.Coords) (v1540 : BitVec 32) : Fin 4 → Nat :=
  let arg0 : BitVec 32 := BitVec.ofNat 32 (i 0).val
  let c0_i32_978 : BitVec 32 := 0#32
  let c0_i32_979 : BitVec 32 := 0#32
  ![arg0.toNat, v1540.toNat, 0, 0]

def k0_chk46 (i : grid0.Coords) (v1540 : BitVec 32) : Prop :=
  (∀ a, (k0_off92 i v1540) a + S1x1x128x512.size a ≤ S2x216x128x512.size a) ∧
  (∀ (hinb : ∀ a, (k0_off92 i v1540) a + S1x1x128x512.size a ≤ S2x216x128x512.size a), (Rect.unit (s := S2x216x128x512) (k0_off92 i v1540) S1x1x128x512.size hinb).WholeWords (EltTy.packing .bf16)) ∧
  (∀ a, (k0_off174 i v1540) a + S1x1x128x512.size a ≤ S2x216x128x512.size a) ∧
  (∀ (hinb : ∀ a, (k0_off174 i v1540) a + S1x1x128x512.size a ≤ S2x216x128x512.size a), (Rect.unit (s := S2x216x128x512) (k0_off174 i v1540) S1x1x128x512.size hinb).WholeWords (EltTy.packing .bf16))
instance k0_chk46.dec : ∀ (i : grid0.Coords) (v1540 : BitVec 32), Decidable (k0_chk46 i v1540) := fun i v1540 => decidable_of_iff' _ (Iff.of_eq (k0_chk46.eq_1 i v1540))
theorem k0_off92_inb : ∀ (i : grid0.Coords) (v1540 : BitVec 32) (k0_hw46 : k0_chk46 i v1540), ∀ a, (k0_off92 i v1540) a + S1x1x128x512.size a ≤ S2x216x128x512.size a := fun i v1540 k0_hw46 => k0_hw46.1
theorem k0_off92_wordsbf16 : ∀ (i : grid0.Coords) (v1540 : BitVec 32) (k0_hw46 : k0_chk46 i v1540), (Rect.unit (s := S2x216x128x512) (k0_off92 i v1540) S1x1x128x512.size (k0_off92_inb i v1540 k0_hw46)).WholeWords (EltTy.packing .bf16) := fun i v1540 k0_hw46 => k0_hw46.2.1 (k0_off92_inb i v1540 k0_hw46)
theorem k0_off174_inb : ∀ (i : grid0.Coords) (v1540 : BitVec 32) (k0_hw46 : k0_chk46 i v1540), ∀ a, (k0_off174 i v1540) a + S1x1x128x512.size a ≤ S2x216x128x512.size a := fun i v1540 k0_hw46 => k0_hw46.2.2.1
theorem k0_off174_wordsbf16 : ∀ (i : grid0.Coords) (v1540 : BitVec 32) (k0_hw46 : k0_chk46 i v1540), (Rect.unit (s := S2x216x128x512) (k0_off174 i v1540) S1x1x128x512.size (k0_off174_inb i v1540 k0_hw46)).WholeWords (EltTy.packing .bf16) := fun i v1540 k0_hw46 => k0_hw46.2.2.2 (k0_off174_inb i v1540 k0_hw46)

def k0_off175 (i : grid0.Coords) (v1574 : BitVec 32) : Fin 4 → Nat :=
  let arg0 : BitVec 32 := BitVec.ofNat 32 (i 0).val
  let c0_i32_984 : BitVec 32 := 0#32
  let c0_i32_985 : BitVec 32 := 0#32
  ![arg0.toNat, v1574.toNat, 0, 0]

def k0_chk47 (i : grid0.Coords) (v1574 : BitVec 32) : Prop :=
  (∀ a, (k0_off94 i v1574) a + S1x1x128x512.size a ≤ S2x216x128x512.size a) ∧
  (∀ (hinb : ∀ a, (k0_off94 i v1574) a + S1x1x128x512.size a ≤ S2x216x128x512.size a), (Rect.unit (s := S2x216x128x512) (k0_off94 i v1574) S1x1x128x512.size hinb).WholeWords (EltTy.packing .bf16)) ∧
  (∀ a, (k0_off175 i v1574) a + S1x1x128x512.size a ≤ S2x216x128x512.size a) ∧
  (∀ (hinb : ∀ a, (k0_off175 i v1574) a + S1x1x128x512.size a ≤ S2x216x128x512.size a), (Rect.unit (s := S2x216x128x512) (k0_off175 i v1574) S1x1x128x512.size hinb).WholeWords (EltTy.packing .bf16))
instance k0_chk47.dec : ∀ (i : grid0.Coords) (v1574 : BitVec 32), Decidable (k0_chk47 i v1574) := fun i v1574 => decidable_of_iff' _ (Iff.of_eq (k0_chk47.eq_1 i v1574))
theorem k0_off94_inb : ∀ (i : grid0.Coords) (v1574 : BitVec 32) (k0_hw47 : k0_chk47 i v1574), ∀ a, (k0_off94 i v1574) a + S1x1x128x512.size a ≤ S2x216x128x512.size a := fun i v1574 k0_hw47 => k0_hw47.1
theorem k0_off94_wordsbf16 : ∀ (i : grid0.Coords) (v1574 : BitVec 32) (k0_hw47 : k0_chk47 i v1574), (Rect.unit (s := S2x216x128x512) (k0_off94 i v1574) S1x1x128x512.size (k0_off94_inb i v1574 k0_hw47)).WholeWords (EltTy.packing .bf16) := fun i v1574 k0_hw47 => k0_hw47.2.1 (k0_off94_inb i v1574 k0_hw47)
theorem k0_off175_inb : ∀ (i : grid0.Coords) (v1574 : BitVec 32) (k0_hw47 : k0_chk47 i v1574), ∀ a, (k0_off175 i v1574) a + S1x1x128x512.size a ≤ S2x216x128x512.size a := fun i v1574 k0_hw47 => k0_hw47.2.2.1
theorem k0_off175_wordsbf16 : ∀ (i : grid0.Coords) (v1574 : BitVec 32) (k0_hw47 : k0_chk47 i v1574), (Rect.unit (s := S2x216x128x512) (k0_off175 i v1574) S1x1x128x512.size (k0_off175_inb i v1574 k0_hw47)).WholeWords (EltTy.packing .bf16) := fun i v1574 k0_hw47 => k0_hw47.2.2.2 (k0_off175_inb i v1574 k0_hw47)

def k0_off176 (i : grid0.Coords) (v1608 : BitVec 32) : Fin 4 → Nat :=
  let arg0 : BitVec 32 := BitVec.ofNat 32 (i 0).val
  let c0_i32_990 : BitVec 32 := 0#32
  let c0_i32_991 : BitVec 32 := 0#32
  ![arg0.toNat, v1608.toNat, 0, 0]

def k0_chk48 (i : grid0.Coords) (v1608 : BitVec 32) : Prop :=
  (∀ a, (k0_off96 i v1608) a + S1x1x128x512.size a ≤ S2x216x128x512.size a) ∧
  (∀ (hinb : ∀ a, (k0_off96 i v1608) a + S1x1x128x512.size a ≤ S2x216x128x512.size a), (Rect.unit (s := S2x216x128x512) (k0_off96 i v1608) S1x1x128x512.size hinb).WholeWords (EltTy.packing .bf16)) ∧
  (∀ a, (k0_off176 i v1608) a + S1x1x128x512.size a ≤ S2x216x128x512.size a) ∧
  (∀ (hinb : ∀ a, (k0_off176 i v1608) a + S1x1x128x512.size a ≤ S2x216x128x512.size a), (Rect.unit (s := S2x216x128x512) (k0_off176 i v1608) S1x1x128x512.size hinb).WholeWords (EltTy.packing .bf16))
instance k0_chk48.dec : ∀ (i : grid0.Coords) (v1608 : BitVec 32), Decidable (k0_chk48 i v1608) := fun i v1608 => decidable_of_iff' _ (Iff.of_eq (k0_chk48.eq_1 i v1608))
theorem k0_off96_inb : ∀ (i : grid0.Coords) (v1608 : BitVec 32) (k0_hw48 : k0_chk48 i v1608), ∀ a, (k0_off96 i v1608) a + S1x1x128x512.size a ≤ S2x216x128x512.size a := fun i v1608 k0_hw48 => k0_hw48.1
theorem k0_off96_wordsbf16 : ∀ (i : grid0.Coords) (v1608 : BitVec 32) (k0_hw48 : k0_chk48 i v1608), (Rect.unit (s := S2x216x128x512) (k0_off96 i v1608) S1x1x128x512.size (k0_off96_inb i v1608 k0_hw48)).WholeWords (EltTy.packing .bf16) := fun i v1608 k0_hw48 => k0_hw48.2.1 (k0_off96_inb i v1608 k0_hw48)
theorem k0_off176_inb : ∀ (i : grid0.Coords) (v1608 : BitVec 32) (k0_hw48 : k0_chk48 i v1608), ∀ a, (k0_off176 i v1608) a + S1x1x128x512.size a ≤ S2x216x128x512.size a := fun i v1608 k0_hw48 => k0_hw48.2.2.1
theorem k0_off176_wordsbf16 : ∀ (i : grid0.Coords) (v1608 : BitVec 32) (k0_hw48 : k0_chk48 i v1608), (Rect.unit (s := S2x216x128x512) (k0_off176 i v1608) S1x1x128x512.size (k0_off176_inb i v1608 k0_hw48)).WholeWords (EltTy.packing .bf16) := fun i v1608 k0_hw48 => k0_hw48.2.2.2 (k0_off176_inb i v1608 k0_hw48)

def k0_off177 (i : grid0.Coords) (v1642 : BitVec 32) : Fin 4 → Nat :=
  let arg0 : BitVec 32 := BitVec.ofNat 32 (i 0).val
  let c0_i32_996 : BitVec 32 := 0#32
  let c0_i32_997 : BitVec 32 := 0#32
  ![arg0.toNat, v1642.toNat, 0, 0]

def k0_chk49 (i : grid0.Coords) (v1642 : BitVec 32) : Prop :=
  (∀ a, (k0_off98 i v1642) a + S1x1x128x512.size a ≤ S2x216x128x512.size a) ∧
  (∀ (hinb : ∀ a, (k0_off98 i v1642) a + S1x1x128x512.size a ≤ S2x216x128x512.size a), (Rect.unit (s := S2x216x128x512) (k0_off98 i v1642) S1x1x128x512.size hinb).WholeWords (EltTy.packing .bf16)) ∧
  (∀ a, (k0_off177 i v1642) a + S1x1x128x512.size a ≤ S2x216x128x512.size a) ∧
  (∀ (hinb : ∀ a, (k0_off177 i v1642) a + S1x1x128x512.size a ≤ S2x216x128x512.size a), (Rect.unit (s := S2x216x128x512) (k0_off177 i v1642) S1x1x128x512.size hinb).WholeWords (EltTy.packing .bf16))
instance k0_chk49.dec : ∀ (i : grid0.Coords) (v1642 : BitVec 32), Decidable (k0_chk49 i v1642) := fun i v1642 => decidable_of_iff' _ (Iff.of_eq (k0_chk49.eq_1 i v1642))
theorem k0_off98_inb : ∀ (i : grid0.Coords) (v1642 : BitVec 32) (k0_hw49 : k0_chk49 i v1642), ∀ a, (k0_off98 i v1642) a + S1x1x128x512.size a ≤ S2x216x128x512.size a := fun i v1642 k0_hw49 => k0_hw49.1
theorem k0_off98_wordsbf16 : ∀ (i : grid0.Coords) (v1642 : BitVec 32) (k0_hw49 : k0_chk49 i v1642), (Rect.unit (s := S2x216x128x512) (k0_off98 i v1642) S1x1x128x512.size (k0_off98_inb i v1642 k0_hw49)).WholeWords (EltTy.packing .bf16) := fun i v1642 k0_hw49 => k0_hw49.2.1 (k0_off98_inb i v1642 k0_hw49)
theorem k0_off177_inb : ∀ (i : grid0.Coords) (v1642 : BitVec 32) (k0_hw49 : k0_chk49 i v1642), ∀ a, (k0_off177 i v1642) a + S1x1x128x512.size a ≤ S2x216x128x512.size a := fun i v1642 k0_hw49 => k0_hw49.2.2.1
theorem k0_off177_wordsbf16 : ∀ (i : grid0.Coords) (v1642 : BitVec 32) (k0_hw49 : k0_chk49 i v1642), (Rect.unit (s := S2x216x128x512) (k0_off177 i v1642) S1x1x128x512.size (k0_off177_inb i v1642 k0_hw49)).WholeWords (EltTy.packing .bf16) := fun i v1642 k0_hw49 => k0_hw49.2.2.2 (k0_off177_inb i v1642 k0_hw49)

def k0_off178 (i : grid0.Coords) (v1676 : BitVec 32) : Fin 4 → Nat :=
  let arg0 : BitVec 32 := BitVec.ofNat 32 (i 0).val
  let c0_i32_1002 : BitVec 32 := 0#32
  let c0_i32_1003 : BitVec 32 := 0#32
  ![arg0.toNat, v1676.toNat, 0, 0]

def k0_chk50 (i : grid0.Coords) (v1676 : BitVec 32) : Prop :=
  (∀ a, (k0_off100 i v1676) a + S1x1x128x512.size a ≤ S2x216x128x512.size a) ∧
  (∀ (hinb : ∀ a, (k0_off100 i v1676) a + S1x1x128x512.size a ≤ S2x216x128x512.size a), (Rect.unit (s := S2x216x128x512) (k0_off100 i v1676) S1x1x128x512.size hinb).WholeWords (EltTy.packing .bf16)) ∧
  (∀ a, (k0_off178 i v1676) a + S1x1x128x512.size a ≤ S2x216x128x512.size a) ∧
  (∀ (hinb : ∀ a, (k0_off178 i v1676) a + S1x1x128x512.size a ≤ S2x216x128x512.size a), (Rect.unit (s := S2x216x128x512) (k0_off178 i v1676) S1x1x128x512.size hinb).WholeWords (EltTy.packing .bf16))
instance k0_chk50.dec : ∀ (i : grid0.Coords) (v1676 : BitVec 32), Decidable (k0_chk50 i v1676) := fun i v1676 => decidable_of_iff' _ (Iff.of_eq (k0_chk50.eq_1 i v1676))
theorem k0_off100_inb : ∀ (i : grid0.Coords) (v1676 : BitVec 32) (k0_hw50 : k0_chk50 i v1676), ∀ a, (k0_off100 i v1676) a + S1x1x128x512.size a ≤ S2x216x128x512.size a := fun i v1676 k0_hw50 => k0_hw50.1
theorem k0_off100_wordsbf16 : ∀ (i : grid0.Coords) (v1676 : BitVec 32) (k0_hw50 : k0_chk50 i v1676), (Rect.unit (s := S2x216x128x512) (k0_off100 i v1676) S1x1x128x512.size (k0_off100_inb i v1676 k0_hw50)).WholeWords (EltTy.packing .bf16) := fun i v1676 k0_hw50 => k0_hw50.2.1 (k0_off100_inb i v1676 k0_hw50)
theorem k0_off178_inb : ∀ (i : grid0.Coords) (v1676 : BitVec 32) (k0_hw50 : k0_chk50 i v1676), ∀ a, (k0_off178 i v1676) a + S1x1x128x512.size a ≤ S2x216x128x512.size a := fun i v1676 k0_hw50 => k0_hw50.2.2.1
theorem k0_off178_wordsbf16 : ∀ (i : grid0.Coords) (v1676 : BitVec 32) (k0_hw50 : k0_chk50 i v1676), (Rect.unit (s := S2x216x128x512) (k0_off178 i v1676) S1x1x128x512.size (k0_off178_inb i v1676 k0_hw50)).WholeWords (EltTy.packing .bf16) := fun i v1676 k0_hw50 => k0_hw50.2.2.2 (k0_off178_inb i v1676 k0_hw50)

def k0_off179 (i : grid0.Coords) (v1710 : BitVec 32) : Fin 4 → Nat :=
  let arg0 : BitVec 32 := BitVec.ofNat 32 (i 0).val
  let c0_i32_1008 : BitVec 32 := 0#32
  let c0_i32_1009 : BitVec 32 := 0#32
  ![arg0.toNat, v1710.toNat, 0, 0]

def k0_chk51 (i : grid0.Coords) (v1710 : BitVec 32) : Prop :=
  (∀ a, (k0_off102 i v1710) a + S1x1x128x512.size a ≤ S2x216x128x512.size a) ∧
  (∀ (hinb : ∀ a, (k0_off102 i v1710) a + S1x1x128x512.size a ≤ S2x216x128x512.size a), (Rect.unit (s := S2x216x128x512) (k0_off102 i v1710) S1x1x128x512.size hinb).WholeWords (EltTy.packing .bf16)) ∧
  (∀ a, (k0_off179 i v1710) a + S1x1x128x512.size a ≤ S2x216x128x512.size a) ∧
  (∀ (hinb : ∀ a, (k0_off179 i v1710) a + S1x1x128x512.size a ≤ S2x216x128x512.size a), (Rect.unit (s := S2x216x128x512) (k0_off179 i v1710) S1x1x128x512.size hinb).WholeWords (EltTy.packing .bf16))
instance k0_chk51.dec : ∀ (i : grid0.Coords) (v1710 : BitVec 32), Decidable (k0_chk51 i v1710) := fun i v1710 => decidable_of_iff' _ (Iff.of_eq (k0_chk51.eq_1 i v1710))
theorem k0_off102_inb : ∀ (i : grid0.Coords) (v1710 : BitVec 32) (k0_hw51 : k0_chk51 i v1710), ∀ a, (k0_off102 i v1710) a + S1x1x128x512.size a ≤ S2x216x128x512.size a := fun i v1710 k0_hw51 => k0_hw51.1
theorem k0_off102_wordsbf16 : ∀ (i : grid0.Coords) (v1710 : BitVec 32) (k0_hw51 : k0_chk51 i v1710), (Rect.unit (s := S2x216x128x512) (k0_off102 i v1710) S1x1x128x512.size (k0_off102_inb i v1710 k0_hw51)).WholeWords (EltTy.packing .bf16) := fun i v1710 k0_hw51 => k0_hw51.2.1 (k0_off102_inb i v1710 k0_hw51)
theorem k0_off179_inb : ∀ (i : grid0.Coords) (v1710 : BitVec 32) (k0_hw51 : k0_chk51 i v1710), ∀ a, (k0_off179 i v1710) a + S1x1x128x512.size a ≤ S2x216x128x512.size a := fun i v1710 k0_hw51 => k0_hw51.2.2.1
theorem k0_off179_wordsbf16 : ∀ (i : grid0.Coords) (v1710 : BitVec 32) (k0_hw51 : k0_chk51 i v1710), (Rect.unit (s := S2x216x128x512) (k0_off179 i v1710) S1x1x128x512.size (k0_off179_inb i v1710 k0_hw51)).WholeWords (EltTy.packing .bf16) := fun i v1710 k0_hw51 => k0_hw51.2.2.2 (k0_off179_inb i v1710 k0_hw51)

def k0_off180 (i : grid0.Coords) (v1744 : BitVec 32) : Fin 4 → Nat :=
  let arg0 : BitVec 32 := BitVec.ofNat 32 (i 0).val
  let c0_i32_1014 : BitVec 32 := 0#32
  let c0_i32_1015 : BitVec 32 := 0#32
  ![arg0.toNat, v1744.toNat, 0, 0]

def k0_chk52 (i : grid0.Coords) (v1744 : BitVec 32) : Prop :=
  (∀ a, (k0_off104 i v1744) a + S1x1x128x512.size a ≤ S2x216x128x512.size a) ∧
  (∀ (hinb : ∀ a, (k0_off104 i v1744) a + S1x1x128x512.size a ≤ S2x216x128x512.size a), (Rect.unit (s := S2x216x128x512) (k0_off104 i v1744) S1x1x128x512.size hinb).WholeWords (EltTy.packing .bf16)) ∧
  (∀ a, (k0_off180 i v1744) a + S1x1x128x512.size a ≤ S2x216x128x512.size a) ∧
  (∀ (hinb : ∀ a, (k0_off180 i v1744) a + S1x1x128x512.size a ≤ S2x216x128x512.size a), (Rect.unit (s := S2x216x128x512) (k0_off180 i v1744) S1x1x128x512.size hinb).WholeWords (EltTy.packing .bf16))
instance k0_chk52.dec : ∀ (i : grid0.Coords) (v1744 : BitVec 32), Decidable (k0_chk52 i v1744) := fun i v1744 => decidable_of_iff' _ (Iff.of_eq (k0_chk52.eq_1 i v1744))
theorem k0_off104_inb : ∀ (i : grid0.Coords) (v1744 : BitVec 32) (k0_hw52 : k0_chk52 i v1744), ∀ a, (k0_off104 i v1744) a + S1x1x128x512.size a ≤ S2x216x128x512.size a := fun i v1744 k0_hw52 => k0_hw52.1
theorem k0_off104_wordsbf16 : ∀ (i : grid0.Coords) (v1744 : BitVec 32) (k0_hw52 : k0_chk52 i v1744), (Rect.unit (s := S2x216x128x512) (k0_off104 i v1744) S1x1x128x512.size (k0_off104_inb i v1744 k0_hw52)).WholeWords (EltTy.packing .bf16) := fun i v1744 k0_hw52 => k0_hw52.2.1 (k0_off104_inb i v1744 k0_hw52)
theorem k0_off180_inb : ∀ (i : grid0.Coords) (v1744 : BitVec 32) (k0_hw52 : k0_chk52 i v1744), ∀ a, (k0_off180 i v1744) a + S1x1x128x512.size a ≤ S2x216x128x512.size a := fun i v1744 k0_hw52 => k0_hw52.2.2.1
theorem k0_off180_wordsbf16 : ∀ (i : grid0.Coords) (v1744 : BitVec 32) (k0_hw52 : k0_chk52 i v1744), (Rect.unit (s := S2x216x128x512) (k0_off180 i v1744) S1x1x128x512.size (k0_off180_inb i v1744 k0_hw52)).WholeWords (EltTy.packing .bf16) := fun i v1744 k0_hw52 => k0_hw52.2.2.2 (k0_off180_inb i v1744 k0_hw52)

def k0_off181 (i : grid0.Coords) (v1778 : BitVec 32) : Fin 4 → Nat :=
  let arg0 : BitVec 32 := BitVec.ofNat 32 (i 0).val
  let c0_i32_1020 : BitVec 32 := 0#32
  let c0_i32_1021 : BitVec 32 := 0#32
  ![arg0.toNat, v1778.toNat, 0, 0]

def k0_chk53 (i : grid0.Coords) (v1778 : BitVec 32) : Prop :=
  (∀ a, (k0_off106 i v1778) a + S1x1x128x512.size a ≤ S2x216x128x512.size a) ∧
  (∀ (hinb : ∀ a, (k0_off106 i v1778) a + S1x1x128x512.size a ≤ S2x216x128x512.size a), (Rect.unit (s := S2x216x128x512) (k0_off106 i v1778) S1x1x128x512.size hinb).WholeWords (EltTy.packing .bf16)) ∧
  (∀ a, (k0_off181 i v1778) a + S1x1x128x512.size a ≤ S2x216x128x512.size a) ∧
  (∀ (hinb : ∀ a, (k0_off181 i v1778) a + S1x1x128x512.size a ≤ S2x216x128x512.size a), (Rect.unit (s := S2x216x128x512) (k0_off181 i v1778) S1x1x128x512.size hinb).WholeWords (EltTy.packing .bf16))
instance k0_chk53.dec : ∀ (i : grid0.Coords) (v1778 : BitVec 32), Decidable (k0_chk53 i v1778) := fun i v1778 => decidable_of_iff' _ (Iff.of_eq (k0_chk53.eq_1 i v1778))
theorem k0_off106_inb : ∀ (i : grid0.Coords) (v1778 : BitVec 32) (k0_hw53 : k0_chk53 i v1778), ∀ a, (k0_off106 i v1778) a + S1x1x128x512.size a ≤ S2x216x128x512.size a := fun i v1778 k0_hw53 => k0_hw53.1
theorem k0_off106_wordsbf16 : ∀ (i : grid0.Coords) (v1778 : BitVec 32) (k0_hw53 : k0_chk53 i v1778), (Rect.unit (s := S2x216x128x512) (k0_off106 i v1778) S1x1x128x512.size (k0_off106_inb i v1778 k0_hw53)).WholeWords (EltTy.packing .bf16) := fun i v1778 k0_hw53 => k0_hw53.2.1 (k0_off106_inb i v1778 k0_hw53)
theorem k0_off181_inb : ∀ (i : grid0.Coords) (v1778 : BitVec 32) (k0_hw53 : k0_chk53 i v1778), ∀ a, (k0_off181 i v1778) a + S1x1x128x512.size a ≤ S2x216x128x512.size a := fun i v1778 k0_hw53 => k0_hw53.2.2.1
theorem k0_off181_wordsbf16 : ∀ (i : grid0.Coords) (v1778 : BitVec 32) (k0_hw53 : k0_chk53 i v1778), (Rect.unit (s := S2x216x128x512) (k0_off181 i v1778) S1x1x128x512.size (k0_off181_inb i v1778 k0_hw53)).WholeWords (EltTy.packing .bf16) := fun i v1778 k0_hw53 => k0_hw53.2.2.2 (k0_off181_inb i v1778 k0_hw53)

def k0_off182 (i : grid0.Coords) (v1812 : BitVec 32) : Fin 4 → Nat :=
  let arg0 : BitVec 32 := BitVec.ofNat 32 (i 0).val
  let c0_i32_1026 : BitVec 32 := 0#32
  let c0_i32_1027 : BitVec 32 := 0#32
  ![arg0.toNat, v1812.toNat, 0, 0]

def k0_chk54 (i : grid0.Coords) (v1812 : BitVec 32) : Prop :=
  (∀ a, (k0_off108 i v1812) a + S1x1x128x512.size a ≤ S2x216x128x512.size a) ∧
  (∀ (hinb : ∀ a, (k0_off108 i v1812) a + S1x1x128x512.size a ≤ S2x216x128x512.size a), (Rect.unit (s := S2x216x128x512) (k0_off108 i v1812) S1x1x128x512.size hinb).WholeWords (EltTy.packing .bf16)) ∧
  (∀ a, (k0_off182 i v1812) a + S1x1x128x512.size a ≤ S2x216x128x512.size a) ∧
  (∀ (hinb : ∀ a, (k0_off182 i v1812) a + S1x1x128x512.size a ≤ S2x216x128x512.size a), (Rect.unit (s := S2x216x128x512) (k0_off182 i v1812) S1x1x128x512.size hinb).WholeWords (EltTy.packing .bf16))
instance k0_chk54.dec : ∀ (i : grid0.Coords) (v1812 : BitVec 32), Decidable (k0_chk54 i v1812) := fun i v1812 => decidable_of_iff' _ (Iff.of_eq (k0_chk54.eq_1 i v1812))
theorem k0_off108_inb : ∀ (i : grid0.Coords) (v1812 : BitVec 32) (k0_hw54 : k0_chk54 i v1812), ∀ a, (k0_off108 i v1812) a + S1x1x128x512.size a ≤ S2x216x128x512.size a := fun i v1812 k0_hw54 => k0_hw54.1
theorem k0_off108_wordsbf16 : ∀ (i : grid0.Coords) (v1812 : BitVec 32) (k0_hw54 : k0_chk54 i v1812), (Rect.unit (s := S2x216x128x512) (k0_off108 i v1812) S1x1x128x512.size (k0_off108_inb i v1812 k0_hw54)).WholeWords (EltTy.packing .bf16) := fun i v1812 k0_hw54 => k0_hw54.2.1 (k0_off108_inb i v1812 k0_hw54)
theorem k0_off182_inb : ∀ (i : grid0.Coords) (v1812 : BitVec 32) (k0_hw54 : k0_chk54 i v1812), ∀ a, (k0_off182 i v1812) a + S1x1x128x512.size a ≤ S2x216x128x512.size a := fun i v1812 k0_hw54 => k0_hw54.2.2.1
theorem k0_off182_wordsbf16 : ∀ (i : grid0.Coords) (v1812 : BitVec 32) (k0_hw54 : k0_chk54 i v1812), (Rect.unit (s := S2x216x128x512) (k0_off182 i v1812) S1x1x128x512.size (k0_off182_inb i v1812 k0_hw54)).WholeWords (EltTy.packing .bf16) := fun i v1812 k0_hw54 => k0_hw54.2.2.2 (k0_off182_inb i v1812 k0_hw54)

def k0_off183 (i : grid0.Coords) (v1846 : BitVec 32) : Fin 4 → Nat :=
  let arg0 : BitVec 32 := BitVec.ofNat 32 (i 0).val
  let c0_i32_1032 : BitVec 32 := 0#32
  let c0_i32_1033 : BitVec 32 := 0#32
  ![arg0.toNat, v1846.toNat, 0, 0]

def k0_chk55 (i : grid0.Coords) (v1846 : BitVec 32) : Prop :=
  (∀ a, (k0_off110 i v1846) a + S1x1x128x512.size a ≤ S2x216x128x512.size a) ∧
  (∀ (hinb : ∀ a, (k0_off110 i v1846) a + S1x1x128x512.size a ≤ S2x216x128x512.size a), (Rect.unit (s := S2x216x128x512) (k0_off110 i v1846) S1x1x128x512.size hinb).WholeWords (EltTy.packing .bf16)) ∧
  (∀ a, (k0_off183 i v1846) a + S1x1x128x512.size a ≤ S2x216x128x512.size a) ∧
  (∀ (hinb : ∀ a, (k0_off183 i v1846) a + S1x1x128x512.size a ≤ S2x216x128x512.size a), (Rect.unit (s := S2x216x128x512) (k0_off183 i v1846) S1x1x128x512.size hinb).WholeWords (EltTy.packing .bf16))
instance k0_chk55.dec : ∀ (i : grid0.Coords) (v1846 : BitVec 32), Decidable (k0_chk55 i v1846) := fun i v1846 => decidable_of_iff' _ (Iff.of_eq (k0_chk55.eq_1 i v1846))
theorem k0_off110_inb : ∀ (i : grid0.Coords) (v1846 : BitVec 32) (k0_hw55 : k0_chk55 i v1846), ∀ a, (k0_off110 i v1846) a + S1x1x128x512.size a ≤ S2x216x128x512.size a := fun i v1846 k0_hw55 => k0_hw55.1
theorem k0_off110_wordsbf16 : ∀ (i : grid0.Coords) (v1846 : BitVec 32) (k0_hw55 : k0_chk55 i v1846), (Rect.unit (s := S2x216x128x512) (k0_off110 i v1846) S1x1x128x512.size (k0_off110_inb i v1846 k0_hw55)).WholeWords (EltTy.packing .bf16) := fun i v1846 k0_hw55 => k0_hw55.2.1 (k0_off110_inb i v1846 k0_hw55)
theorem k0_off183_inb : ∀ (i : grid0.Coords) (v1846 : BitVec 32) (k0_hw55 : k0_chk55 i v1846), ∀ a, (k0_off183 i v1846) a + S1x1x128x512.size a ≤ S2x216x128x512.size a := fun i v1846 k0_hw55 => k0_hw55.2.2.1
theorem k0_off183_wordsbf16 : ∀ (i : grid0.Coords) (v1846 : BitVec 32) (k0_hw55 : k0_chk55 i v1846), (Rect.unit (s := S2x216x128x512) (k0_off183 i v1846) S1x1x128x512.size (k0_off183_inb i v1846 k0_hw55)).WholeWords (EltTy.packing .bf16) := fun i v1846 k0_hw55 => k0_hw55.2.2.2 (k0_off183_inb i v1846 k0_hw55)

def k0_off184 (i : grid0.Coords) (v1880 : BitVec 32) : Fin 4 → Nat :=
  let arg0 : BitVec 32 := BitVec.ofNat 32 (i 0).val
  let c0_i32_1038 : BitVec 32 := 0#32
  let c0_i32_1039 : BitVec 32 := 0#32
  ![arg0.toNat, v1880.toNat, 0, 0]

def k0_chk56 (i : grid0.Coords) (v1880 : BitVec 32) : Prop :=
  (∀ a, (k0_off112 i v1880) a + S1x1x128x512.size a ≤ S2x216x128x512.size a) ∧
  (∀ (hinb : ∀ a, (k0_off112 i v1880) a + S1x1x128x512.size a ≤ S2x216x128x512.size a), (Rect.unit (s := S2x216x128x512) (k0_off112 i v1880) S1x1x128x512.size hinb).WholeWords (EltTy.packing .bf16)) ∧
  (∀ a, (k0_off184 i v1880) a + S1x1x128x512.size a ≤ S2x216x128x512.size a) ∧
  (∀ (hinb : ∀ a, (k0_off184 i v1880) a + S1x1x128x512.size a ≤ S2x216x128x512.size a), (Rect.unit (s := S2x216x128x512) (k0_off184 i v1880) S1x1x128x512.size hinb).WholeWords (EltTy.packing .bf16))
instance k0_chk56.dec : ∀ (i : grid0.Coords) (v1880 : BitVec 32), Decidable (k0_chk56 i v1880) := fun i v1880 => decidable_of_iff' _ (Iff.of_eq (k0_chk56.eq_1 i v1880))
theorem k0_off112_inb : ∀ (i : grid0.Coords) (v1880 : BitVec 32) (k0_hw56 : k0_chk56 i v1880), ∀ a, (k0_off112 i v1880) a + S1x1x128x512.size a ≤ S2x216x128x512.size a := fun i v1880 k0_hw56 => k0_hw56.1
theorem k0_off112_wordsbf16 : ∀ (i : grid0.Coords) (v1880 : BitVec 32) (k0_hw56 : k0_chk56 i v1880), (Rect.unit (s := S2x216x128x512) (k0_off112 i v1880) S1x1x128x512.size (k0_off112_inb i v1880 k0_hw56)).WholeWords (EltTy.packing .bf16) := fun i v1880 k0_hw56 => k0_hw56.2.1 (k0_off112_inb i v1880 k0_hw56)
theorem k0_off184_inb : ∀ (i : grid0.Coords) (v1880 : BitVec 32) (k0_hw56 : k0_chk56 i v1880), ∀ a, (k0_off184 i v1880) a + S1x1x128x512.size a ≤ S2x216x128x512.size a := fun i v1880 k0_hw56 => k0_hw56.2.2.1
theorem k0_off184_wordsbf16 : ∀ (i : grid0.Coords) (v1880 : BitVec 32) (k0_hw56 : k0_chk56 i v1880), (Rect.unit (s := S2x216x128x512) (k0_off184 i v1880) S1x1x128x512.size (k0_off184_inb i v1880 k0_hw56)).WholeWords (EltTy.packing .bf16) := fun i v1880 k0_hw56 => k0_hw56.2.2.2 (k0_off184_inb i v1880 k0_hw56)

def k0_off185 (i : grid0.Coords) (v1914 : BitVec 32) : Fin 4 → Nat :=
  let arg0 : BitVec 32 := BitVec.ofNat 32 (i 0).val
  let c0_i32_1044 : BitVec 32 := 0#32
  let c0_i32_1045 : BitVec 32 := 0#32
  ![arg0.toNat, v1914.toNat, 0, 0]

def k0_chk57 (i : grid0.Coords) (v1914 : BitVec 32) : Prop :=
  (∀ a, (k0_off114 i v1914) a + S1x1x128x512.size a ≤ S2x216x128x512.size a) ∧
  (∀ (hinb : ∀ a, (k0_off114 i v1914) a + S1x1x128x512.size a ≤ S2x216x128x512.size a), (Rect.unit (s := S2x216x128x512) (k0_off114 i v1914) S1x1x128x512.size hinb).WholeWords (EltTy.packing .bf16)) ∧
  (∀ a, (k0_off185 i v1914) a + S1x1x128x512.size a ≤ S2x216x128x512.size a) ∧
  (∀ (hinb : ∀ a, (k0_off185 i v1914) a + S1x1x128x512.size a ≤ S2x216x128x512.size a), (Rect.unit (s := S2x216x128x512) (k0_off185 i v1914) S1x1x128x512.size hinb).WholeWords (EltTy.packing .bf16))
instance k0_chk57.dec : ∀ (i : grid0.Coords) (v1914 : BitVec 32), Decidable (k0_chk57 i v1914) := fun i v1914 => decidable_of_iff' _ (Iff.of_eq (k0_chk57.eq_1 i v1914))
theorem k0_off114_inb : ∀ (i : grid0.Coords) (v1914 : BitVec 32) (k0_hw57 : k0_chk57 i v1914), ∀ a, (k0_off114 i v1914) a + S1x1x128x512.size a ≤ S2x216x128x512.size a := fun i v1914 k0_hw57 => k0_hw57.1
theorem k0_off114_wordsbf16 : ∀ (i : grid0.Coords) (v1914 : BitVec 32) (k0_hw57 : k0_chk57 i v1914), (Rect.unit (s := S2x216x128x512) (k0_off114 i v1914) S1x1x128x512.size (k0_off114_inb i v1914 k0_hw57)).WholeWords (EltTy.packing .bf16) := fun i v1914 k0_hw57 => k0_hw57.2.1 (k0_off114_inb i v1914 k0_hw57)
theorem k0_off185_inb : ∀ (i : grid0.Coords) (v1914 : BitVec 32) (k0_hw57 : k0_chk57 i v1914), ∀ a, (k0_off185 i v1914) a + S1x1x128x512.size a ≤ S2x216x128x512.size a := fun i v1914 k0_hw57 => k0_hw57.2.2.1
theorem k0_off185_wordsbf16 : ∀ (i : grid0.Coords) (v1914 : BitVec 32) (k0_hw57 : k0_chk57 i v1914), (Rect.unit (s := S2x216x128x512) (k0_off185 i v1914) S1x1x128x512.size (k0_off185_inb i v1914 k0_hw57)).WholeWords (EltTy.packing .bf16) := fun i v1914 k0_hw57 => k0_hw57.2.2.2 (k0_off185_inb i v1914 k0_hw57)

def k0_off186 (i : grid0.Coords) (v1948 : BitVec 32) : Fin 4 → Nat :=
  let arg0 : BitVec 32 := BitVec.ofNat 32 (i 0).val
  let c0_i32_1050 : BitVec 32 := 0#32
  let c0_i32_1051 : BitVec 32 := 0#32
  ![arg0.toNat, v1948.toNat, 0, 0]

def k0_chk58 (i : grid0.Coords) (v1948 : BitVec 32) : Prop :=
  (∀ a, (k0_off116 i v1948) a + S1x1x128x512.size a ≤ S2x216x128x512.size a) ∧
  (∀ (hinb : ∀ a, (k0_off116 i v1948) a + S1x1x128x512.size a ≤ S2x216x128x512.size a), (Rect.unit (s := S2x216x128x512) (k0_off116 i v1948) S1x1x128x512.size hinb).WholeWords (EltTy.packing .bf16)) ∧
  (∀ a, (k0_off186 i v1948) a + S1x1x128x512.size a ≤ S2x216x128x512.size a) ∧
  (∀ (hinb : ∀ a, (k0_off186 i v1948) a + S1x1x128x512.size a ≤ S2x216x128x512.size a), (Rect.unit (s := S2x216x128x512) (k0_off186 i v1948) S1x1x128x512.size hinb).WholeWords (EltTy.packing .bf16))
instance k0_chk58.dec : ∀ (i : grid0.Coords) (v1948 : BitVec 32), Decidable (k0_chk58 i v1948) := fun i v1948 => decidable_of_iff' _ (Iff.of_eq (k0_chk58.eq_1 i v1948))
theorem k0_off116_inb : ∀ (i : grid0.Coords) (v1948 : BitVec 32) (k0_hw58 : k0_chk58 i v1948), ∀ a, (k0_off116 i v1948) a + S1x1x128x512.size a ≤ S2x216x128x512.size a := fun i v1948 k0_hw58 => k0_hw58.1
theorem k0_off116_wordsbf16 : ∀ (i : grid0.Coords) (v1948 : BitVec 32) (k0_hw58 : k0_chk58 i v1948), (Rect.unit (s := S2x216x128x512) (k0_off116 i v1948) S1x1x128x512.size (k0_off116_inb i v1948 k0_hw58)).WholeWords (EltTy.packing .bf16) := fun i v1948 k0_hw58 => k0_hw58.2.1 (k0_off116_inb i v1948 k0_hw58)
theorem k0_off186_inb : ∀ (i : grid0.Coords) (v1948 : BitVec 32) (k0_hw58 : k0_chk58 i v1948), ∀ a, (k0_off186 i v1948) a + S1x1x128x512.size a ≤ S2x216x128x512.size a := fun i v1948 k0_hw58 => k0_hw58.2.2.1
theorem k0_off186_wordsbf16 : ∀ (i : grid0.Coords) (v1948 : BitVec 32) (k0_hw58 : k0_chk58 i v1948), (Rect.unit (s := S2x216x128x512) (k0_off186 i v1948) S1x1x128x512.size (k0_off186_inb i v1948 k0_hw58)).WholeWords (EltTy.packing .bf16) := fun i v1948 k0_hw58 => k0_hw58.2.2.2 (k0_off186_inb i v1948 k0_hw58)

def k0_off187 (i : grid0.Coords) (v1982 : BitVec 32) : Fin 4 → Nat :=
  let arg0 : BitVec 32 := BitVec.ofNat 32 (i 0).val
  let c0_i32_1056 : BitVec 32 := 0#32
  let c0_i32_1057 : BitVec 32 := 0#32
  ![arg0.toNat, v1982.toNat, 0, 0]

def k0_chk59 (i : grid0.Coords) (v1982 : BitVec 32) : Prop :=
  (∀ a, (k0_off118 i v1982) a + S1x1x128x512.size a ≤ S2x216x128x512.size a) ∧
  (∀ (hinb : ∀ a, (k0_off118 i v1982) a + S1x1x128x512.size a ≤ S2x216x128x512.size a), (Rect.unit (s := S2x216x128x512) (k0_off118 i v1982) S1x1x128x512.size hinb).WholeWords (EltTy.packing .bf16)) ∧
  (∀ a, (k0_off187 i v1982) a + S1x1x128x512.size a ≤ S2x216x128x512.size a) ∧
  (∀ (hinb : ∀ a, (k0_off187 i v1982) a + S1x1x128x512.size a ≤ S2x216x128x512.size a), (Rect.unit (s := S2x216x128x512) (k0_off187 i v1982) S1x1x128x512.size hinb).WholeWords (EltTy.packing .bf16))
instance k0_chk59.dec : ∀ (i : grid0.Coords) (v1982 : BitVec 32), Decidable (k0_chk59 i v1982) := fun i v1982 => decidable_of_iff' _ (Iff.of_eq (k0_chk59.eq_1 i v1982))
theorem k0_off118_inb : ∀ (i : grid0.Coords) (v1982 : BitVec 32) (k0_hw59 : k0_chk59 i v1982), ∀ a, (k0_off118 i v1982) a + S1x1x128x512.size a ≤ S2x216x128x512.size a := fun i v1982 k0_hw59 => k0_hw59.1
theorem k0_off118_wordsbf16 : ∀ (i : grid0.Coords) (v1982 : BitVec 32) (k0_hw59 : k0_chk59 i v1982), (Rect.unit (s := S2x216x128x512) (k0_off118 i v1982) S1x1x128x512.size (k0_off118_inb i v1982 k0_hw59)).WholeWords (EltTy.packing .bf16) := fun i v1982 k0_hw59 => k0_hw59.2.1 (k0_off118_inb i v1982 k0_hw59)
theorem k0_off187_inb : ∀ (i : grid0.Coords) (v1982 : BitVec 32) (k0_hw59 : k0_chk59 i v1982), ∀ a, (k0_off187 i v1982) a + S1x1x128x512.size a ≤ S2x216x128x512.size a := fun i v1982 k0_hw59 => k0_hw59.2.2.1
theorem k0_off187_wordsbf16 : ∀ (i : grid0.Coords) (v1982 : BitVec 32) (k0_hw59 : k0_chk59 i v1982), (Rect.unit (s := S2x216x128x512) (k0_off187 i v1982) S1x1x128x512.size (k0_off187_inb i v1982 k0_hw59)).WholeWords (EltTy.packing .bf16) := fun i v1982 k0_hw59 => k0_hw59.2.2.2 (k0_off187_inb i v1982 k0_hw59)

def k0_off188 (i : grid0.Coords) (v2016 : BitVec 32) : Fin 4 → Nat :=
  let arg0 : BitVec 32 := BitVec.ofNat 32 (i 0).val
  let c0_i32_1062 : BitVec 32 := 0#32
  let c0_i32_1063 : BitVec 32 := 0#32
  ![arg0.toNat, v2016.toNat, 0, 0]

def k0_chk60 (i : grid0.Coords) (v2016 : BitVec 32) : Prop :=
  (∀ a, (k0_off120 i v2016) a + S1x1x128x512.size a ≤ S2x216x128x512.size a) ∧
  (∀ (hinb : ∀ a, (k0_off120 i v2016) a + S1x1x128x512.size a ≤ S2x216x128x512.size a), (Rect.unit (s := S2x216x128x512) (k0_off120 i v2016) S1x1x128x512.size hinb).WholeWords (EltTy.packing .bf16)) ∧
  (∀ a, (k0_off188 i v2016) a + S1x1x128x512.size a ≤ S2x216x128x512.size a) ∧
  (∀ (hinb : ∀ a, (k0_off188 i v2016) a + S1x1x128x512.size a ≤ S2x216x128x512.size a), (Rect.unit (s := S2x216x128x512) (k0_off188 i v2016) S1x1x128x512.size hinb).WholeWords (EltTy.packing .bf16))
instance k0_chk60.dec : ∀ (i : grid0.Coords) (v2016 : BitVec 32), Decidable (k0_chk60 i v2016) := fun i v2016 => decidable_of_iff' _ (Iff.of_eq (k0_chk60.eq_1 i v2016))
theorem k0_off120_inb : ∀ (i : grid0.Coords) (v2016 : BitVec 32) (k0_hw60 : k0_chk60 i v2016), ∀ a, (k0_off120 i v2016) a + S1x1x128x512.size a ≤ S2x216x128x512.size a := fun i v2016 k0_hw60 => k0_hw60.1
theorem k0_off120_wordsbf16 : ∀ (i : grid0.Coords) (v2016 : BitVec 32) (k0_hw60 : k0_chk60 i v2016), (Rect.unit (s := S2x216x128x512) (k0_off120 i v2016) S1x1x128x512.size (k0_off120_inb i v2016 k0_hw60)).WholeWords (EltTy.packing .bf16) := fun i v2016 k0_hw60 => k0_hw60.2.1 (k0_off120_inb i v2016 k0_hw60)
theorem k0_off188_inb : ∀ (i : grid0.Coords) (v2016 : BitVec 32) (k0_hw60 : k0_chk60 i v2016), ∀ a, (k0_off188 i v2016) a + S1x1x128x512.size a ≤ S2x216x128x512.size a := fun i v2016 k0_hw60 => k0_hw60.2.2.1
theorem k0_off188_wordsbf16 : ∀ (i : grid0.Coords) (v2016 : BitVec 32) (k0_hw60 : k0_chk60 i v2016), (Rect.unit (s := S2x216x128x512) (k0_off188 i v2016) S1x1x128x512.size (k0_off188_inb i v2016 k0_hw60)).WholeWords (EltTy.packing .bf16) := fun i v2016 k0_hw60 => k0_hw60.2.2.2 (k0_off188_inb i v2016 k0_hw60)

def k0_off189 (i : grid0.Coords) (v2050 : BitVec 32) : Fin 4 → Nat :=
  let arg0 : BitVec 32 := BitVec.ofNat 32 (i 0).val
  let c0_i32_1068 : BitVec 32 := 0#32
  let c0_i32_1069 : BitVec 32 := 0#32
  ![arg0.toNat, v2050.toNat, 0, 0]

def k0_chk61 (i : grid0.Coords) (v2050 : BitVec 32) : Prop :=
  (∀ a, (k0_off122 i v2050) a + S1x1x128x512.size a ≤ S2x216x128x512.size a) ∧
  (∀ (hinb : ∀ a, (k0_off122 i v2050) a + S1x1x128x512.size a ≤ S2x216x128x512.size a), (Rect.unit (s := S2x216x128x512) (k0_off122 i v2050) S1x1x128x512.size hinb).WholeWords (EltTy.packing .bf16)) ∧
  (∀ a, (k0_off189 i v2050) a + S1x1x128x512.size a ≤ S2x216x128x512.size a) ∧
  (∀ (hinb : ∀ a, (k0_off189 i v2050) a + S1x1x128x512.size a ≤ S2x216x128x512.size a), (Rect.unit (s := S2x216x128x512) (k0_off189 i v2050) S1x1x128x512.size hinb).WholeWords (EltTy.packing .bf16))
instance k0_chk61.dec : ∀ (i : grid0.Coords) (v2050 : BitVec 32), Decidable (k0_chk61 i v2050) := fun i v2050 => decidable_of_iff' _ (Iff.of_eq (k0_chk61.eq_1 i v2050))
theorem k0_off122_inb : ∀ (i : grid0.Coords) (v2050 : BitVec 32) (k0_hw61 : k0_chk61 i v2050), ∀ a, (k0_off122 i v2050) a + S1x1x128x512.size a ≤ S2x216x128x512.size a := fun i v2050 k0_hw61 => k0_hw61.1
theorem k0_off122_wordsbf16 : ∀ (i : grid0.Coords) (v2050 : BitVec 32) (k0_hw61 : k0_chk61 i v2050), (Rect.unit (s := S2x216x128x512) (k0_off122 i v2050) S1x1x128x512.size (k0_off122_inb i v2050 k0_hw61)).WholeWords (EltTy.packing .bf16) := fun i v2050 k0_hw61 => k0_hw61.2.1 (k0_off122_inb i v2050 k0_hw61)
theorem k0_off189_inb : ∀ (i : grid0.Coords) (v2050 : BitVec 32) (k0_hw61 : k0_chk61 i v2050), ∀ a, (k0_off189 i v2050) a + S1x1x128x512.size a ≤ S2x216x128x512.size a := fun i v2050 k0_hw61 => k0_hw61.2.2.1
theorem k0_off189_wordsbf16 : ∀ (i : grid0.Coords) (v2050 : BitVec 32) (k0_hw61 : k0_chk61 i v2050), (Rect.unit (s := S2x216x128x512) (k0_off189 i v2050) S1x1x128x512.size (k0_off189_inb i v2050 k0_hw61)).WholeWords (EltTy.packing .bf16) := fun i v2050 k0_hw61 => k0_hw61.2.2.2 (k0_off189_inb i v2050 k0_hw61)

def k0_off190 (i : grid0.Coords) (v2084 : BitVec 32) : Fin 4 → Nat :=
  let arg0 : BitVec 32 := BitVec.ofNat 32 (i 0).val
  let c0_i32_1074 : BitVec 32 := 0#32
  let c0_i32_1075 : BitVec 32 := 0#32
  ![arg0.toNat, v2084.toNat, 0, 0]

def k0_chk62 (i : grid0.Coords) (v2084 : BitVec 32) : Prop :=
  (∀ a, (k0_off124 i v2084) a + S1x1x128x512.size a ≤ S2x216x128x512.size a) ∧
  (∀ (hinb : ∀ a, (k0_off124 i v2084) a + S1x1x128x512.size a ≤ S2x216x128x512.size a), (Rect.unit (s := S2x216x128x512) (k0_off124 i v2084) S1x1x128x512.size hinb).WholeWords (EltTy.packing .bf16)) ∧
  (∀ a, (k0_off190 i v2084) a + S1x1x128x512.size a ≤ S2x216x128x512.size a) ∧
  (∀ (hinb : ∀ a, (k0_off190 i v2084) a + S1x1x128x512.size a ≤ S2x216x128x512.size a), (Rect.unit (s := S2x216x128x512) (k0_off190 i v2084) S1x1x128x512.size hinb).WholeWords (EltTy.packing .bf16))
instance k0_chk62.dec : ∀ (i : grid0.Coords) (v2084 : BitVec 32), Decidable (k0_chk62 i v2084) := fun i v2084 => decidable_of_iff' _ (Iff.of_eq (k0_chk62.eq_1 i v2084))
theorem k0_off124_inb : ∀ (i : grid0.Coords) (v2084 : BitVec 32) (k0_hw62 : k0_chk62 i v2084), ∀ a, (k0_off124 i v2084) a + S1x1x128x512.size a ≤ S2x216x128x512.size a := fun i v2084 k0_hw62 => k0_hw62.1
theorem k0_off124_wordsbf16 : ∀ (i : grid0.Coords) (v2084 : BitVec 32) (k0_hw62 : k0_chk62 i v2084), (Rect.unit (s := S2x216x128x512) (k0_off124 i v2084) S1x1x128x512.size (k0_off124_inb i v2084 k0_hw62)).WholeWords (EltTy.packing .bf16) := fun i v2084 k0_hw62 => k0_hw62.2.1 (k0_off124_inb i v2084 k0_hw62)
theorem k0_off190_inb : ∀ (i : grid0.Coords) (v2084 : BitVec 32) (k0_hw62 : k0_chk62 i v2084), ∀ a, (k0_off190 i v2084) a + S1x1x128x512.size a ≤ S2x216x128x512.size a := fun i v2084 k0_hw62 => k0_hw62.2.2.1
theorem k0_off190_wordsbf16 : ∀ (i : grid0.Coords) (v2084 : BitVec 32) (k0_hw62 : k0_chk62 i v2084), (Rect.unit (s := S2x216x128x512) (k0_off190 i v2084) S1x1x128x512.size (k0_off190_inb i v2084 k0_hw62)).WholeWords (EltTy.packing .bf16) := fun i v2084 k0_hw62 => k0_hw62.2.2.2 (k0_off190_inb i v2084 k0_hw62)

def k0_off191 (i : grid0.Coords) (v2118 : BitVec 32) : Fin 4 → Nat :=
  let arg0 : BitVec 32 := BitVec.ofNat 32 (i 0).val
  let c0_i32_1080 : BitVec 32 := 0#32
  let c0_i32_1081 : BitVec 32 := 0#32
  ![arg0.toNat, v2118.toNat, 0, 0]

def k0_chk63 (i : grid0.Coords) (v2118 : BitVec 32) : Prop :=
  (∀ a, (k0_off126 i v2118) a + S1x1x128x512.size a ≤ S2x216x128x512.size a) ∧
  (∀ (hinb : ∀ a, (k0_off126 i v2118) a + S1x1x128x512.size a ≤ S2x216x128x512.size a), (Rect.unit (s := S2x216x128x512) (k0_off126 i v2118) S1x1x128x512.size hinb).WholeWords (EltTy.packing .bf16)) ∧
  (∀ a, (k0_off191 i v2118) a + S1x1x128x512.size a ≤ S2x216x128x512.size a) ∧
  (∀ (hinb : ∀ a, (k0_off191 i v2118) a + S1x1x128x512.size a ≤ S2x216x128x512.size a), (Rect.unit (s := S2x216x128x512) (k0_off191 i v2118) S1x1x128x512.size hinb).WholeWords (EltTy.packing .bf16))
instance k0_chk63.dec : ∀ (i : grid0.Coords) (v2118 : BitVec 32), Decidable (k0_chk63 i v2118) := fun i v2118 => decidable_of_iff' _ (Iff.of_eq (k0_chk63.eq_1 i v2118))
theorem k0_off126_inb : ∀ (i : grid0.Coords) (v2118 : BitVec 32) (k0_hw63 : k0_chk63 i v2118), ∀ a, (k0_off126 i v2118) a + S1x1x128x512.size a ≤ S2x216x128x512.size a := fun i v2118 k0_hw63 => k0_hw63.1
theorem k0_off126_wordsbf16 : ∀ (i : grid0.Coords) (v2118 : BitVec 32) (k0_hw63 : k0_chk63 i v2118), (Rect.unit (s := S2x216x128x512) (k0_off126 i v2118) S1x1x128x512.size (k0_off126_inb i v2118 k0_hw63)).WholeWords (EltTy.packing .bf16) := fun i v2118 k0_hw63 => k0_hw63.2.1 (k0_off126_inb i v2118 k0_hw63)
theorem k0_off191_inb : ∀ (i : grid0.Coords) (v2118 : BitVec 32) (k0_hw63 : k0_chk63 i v2118), ∀ a, (k0_off191 i v2118) a + S1x1x128x512.size a ≤ S2x216x128x512.size a := fun i v2118 k0_hw63 => k0_hw63.2.2.1
theorem k0_off191_wordsbf16 : ∀ (i : grid0.Coords) (v2118 : BitVec 32) (k0_hw63 : k0_chk63 i v2118), (Rect.unit (s := S2x216x128x512) (k0_off191 i v2118) S1x1x128x512.size (k0_off191_inb i v2118 k0_hw63)).WholeWords (EltTy.packing .bf16) := fun i v2118 k0_hw63 => k0_hw63.2.2.2 (k0_off191_inb i v2118 k0_hw63)

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x216x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x216x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S2x1024 : S_.BroadcastsInDim S2x1024 (![] : Fin 0 → Fin S2x1024.rank)
  bitsLt_bf16_f32 : FTy.bits .bf16 < FTy.bits .f32
  shapeCasts_S2x216x65536_S2x216x128x512 : S2x216x65536.ShapeCasts S2x216x128x512
  iota_S1x216_d1_w32 : S1x216.Iotas .tc 32 [1]
  shapeCasts_S1x216_S216 : S1x216.ShapeCasts S216
  numel1_S1x1 : S1x1.numel = 1
  inb_S64_S1_0 : ∀ a, (![0] : Fin 1 → Nat) a + S1.size a ≤ S64.size a
  squeezes_S1_S_ : S1.Squeezes S_
  inb_S64x128x512_S1x128x512_0_0_0 : ∀ a, (![0, 0, 0] : Fin 3 → Nat) a + S1x128x512.size a ≤ S64x128x512.size a
  squeezes_S1x128x512_S128x512 : S1x128x512.Squeezes S128x512
  squeezes_S1x1x128x512_S128x512 : S1x1x128x512.Squeezes S128x512
  wordsbf16_S64x128x512_S1x128x512_0_0_0 : (Rect.unit (s := S64x128x512) ![0, 0, 0] S1x128x512.size inb_S64x128x512_S1x128x512_0_0_0).WholeWords (EltTy.packing .bf16)
  natLt_1_32 : 1 < 32
  inb_S64x216_S1x216_0_0 : ∀ a, (![0, 0] : Fin 2 → Nat) a + S1x216.size a ≤ S64x216.size a
  h_S1x216 : 0 < S1x216.numel
  shapeCasts_S216_S1x216 : S216.ShapeCasts S1x216
  inb_S64x216_S2x216_0_0 : ∀ a, (![0, 0] : Fin 2 → Nat) a + S2x216.size a ≤ S64x216.size a
  h_S2x216 : 0 < S2x216.numel
  slices_S2x216_S1x216_0_0 : S2x216.Slices ![0, 0] S1x216
  packedbf16_S64x216_S2x216_0_0 : (Rect.unit (s := S64x216) ![0, 0] S2x216.size inb_S64x216_S2x216_0_0).PackedRows (EltTy.packing .bf16)
  inb_S64_S1_1 : ∀ a, (![1] : Fin 1 → Nat) a + S1.size a ≤ S64.size a
  inb_S64x128x512_S1x128x512_1_0_0 : ∀ a, (![1, 0, 0] : Fin 3 → Nat) a + S1x128x512.size a ≤ S64x128x512.size a
  wordsbf16_S64x128x512_S1x128x512_1_0_0 : (Rect.unit (s := S64x128x512) ![1, 0, 0] S1x128x512.size inb_S64x128x512_S1x128x512_1_0_0).WholeWords (EltTy.packing .bf16)
  inb_S64x216_S1x216_1_0 : ∀ a, (![1, 0] : Fin 2 → Nat) a + S1x216.size a ≤ S64x216.size a
  slices_S2x216_S1x216_1_0 : S2x216.Slices ![1, 0] S1x216
  inb_S64_S1_2 : ∀ a, (![2] : Fin 1 → Nat) a + S1.size a ≤ S64.size a
  inb_S64x128x512_S1x128x512_2_0_0 : ∀ a, (![2, 0, 0] : Fin 3 → Nat) a + S1x128x512.size a ≤ S64x128x512.size a
  wordsbf16_S64x128x512_S1x128x512_2_0_0 : (Rect.unit (s := S64x128x512) ![2, 0, 0] S1x128x512.size inb_S64x128x512_S1x128x512_2_0_0).WholeWords (EltTy.packing .bf16)
  inb_S64x216_S1x216_2_0 : ∀ a, (![2, 0] : Fin 2 → Nat) a + S1x216.size a ≤ S64x216.size a
  inb_S64x216_S2x216_2_0 : ∀ a, (![2, 0] : Fin 2 → Nat) a + S2x216.size a ≤ S64x216.size a
  packedbf16_S64x216_S2x216_2_0 : (Rect.unit (s := S64x216) ![2, 0] S2x216.size inb_S64x216_S2x216_2_0).PackedRows (EltTy.packing .bf16)
  inb_S64_S1_3 : ∀ a, (![3] : Fin 1 → Nat) a + S1.size a ≤ S64.size a
  inb_S64x128x512_S1x128x512_3_0_0 : ∀ a, (![3, 0, 0] : Fin 3 → Nat) a + S1x128x512.size a ≤ S64x128x512.size a
  wordsbf16_S64x128x512_S1x128x512_3_0_0 : (Rect.unit (s := S64x128x512) ![3, 0, 0] S1x128x512.size inb_S64x128x512_S1x128x512_3_0_0).WholeWords (EltTy.packing .bf16)
  inb_S64x216_S1x216_3_0 : ∀ a, (![3, 0] : Fin 2 → Nat) a + S1x216.size a ≤ S64x216.size a
  inb_S64_S1_4 : ∀ a, (![4] : Fin 1 → Nat) a + S1.size a ≤ S64.size a
  inb_S64x128x512_S1x128x512_4_0_0 : ∀ a, (![4, 0, 0] : Fin 3 → Nat) a + S1x128x512.size a ≤ S64x128x512.size a
  wordsbf16_S64x128x512_S1x128x512_4_0_0 : (Rect.unit (s := S64x128x512) ![4, 0, 0] S1x128x512.size inb_S64x128x512_S1x128x512_4_0_0).WholeWords (EltTy.packing .bf16)
  inb_S64x216_S1x216_4_0 : ∀ a, (![4, 0] : Fin 2 → Nat) a + S1x216.size a ≤ S64x216.size a
  inb_S64x216_S2x216_4_0 : ∀ a, (![4, 0] : Fin 2 → Nat) a + S2x216.size a ≤ S64x216.size a
  packedbf16_S64x216_S2x216_4_0 : (Rect.unit (s := S64x216) ![4, 0] S2x216.size inb_S64x216_S2x216_4_0).PackedRows (EltTy.packing .bf16)
  inb_S64_S1_5 : ∀ a, (![5] : Fin 1 → Nat) a + S1.size a ≤ S64.size a
  inb_S64x128x512_S1x128x512_5_0_0 : ∀ a, (![5, 0, 0] : Fin 3 → Nat) a + S1x128x512.size a ≤ S64x128x512.size a
  wordsbf16_S64x128x512_S1x128x512_5_0_0 : (Rect.unit (s := S64x128x512) ![5, 0, 0] S1x128x512.size inb_S64x128x512_S1x128x512_5_0_0).WholeWords (EltTy.packing .bf16)
  inb_S64x216_S1x216_5_0 : ∀ a, (![5, 0] : Fin 2 → Nat) a + S1x216.size a ≤ S64x216.size a
  inb_S64_S1_6 : ∀ a, (![6] : Fin 1 → Nat) a + S1.size a ≤ S64.size a
  inb_S64x128x512_S1x128x512_6_0_0 : ∀ a, (![6, 0, 0] : Fin 3 → Nat) a + S1x128x512.size a ≤ S64x128x512.size a
  wordsbf16_S64x128x512_S1x128x512_6_0_0 : (Rect.unit (s := S64x128x512) ![6, 0, 0] S1x128x512.size inb_S64x128x512_S1x128x512_6_0_0).WholeWords (EltTy.packing .bf16)
  inb_S64x216_S1x216_6_0 : ∀ a, (![6, 0] : Fin 2 → Nat) a + S1x216.size a ≤ S64x216.size a
  inb_S64x216_S2x216_6_0 : ∀ a, (![6, 0] : Fin 2 → Nat) a + S2x216.size a ≤ S64x216.size a
  packedbf16_S64x216_S2x216_6_0 : (Rect.unit (s := S64x216) ![6, 0] S2x216.size inb_S64x216_S2x216_6_0).PackedRows (EltTy.packing .bf16)
  inb_S64_S1_7 : ∀ a, (![7] : Fin 1 → Nat) a + S1.size a ≤ S64.size a
  inb_S64x128x512_S1x128x512_7_0_0 : ∀ a, (![7, 0, 0] : Fin 3 → Nat) a + S1x128x512.size a ≤ S64x128x512.size a
  wordsbf16_S64x128x512_S1x128x512_7_0_0 : (Rect.unit (s := S64x128x512) ![7, 0, 0] S1x128x512.size inb_S64x128x512_S1x128x512_7_0_0).WholeWords (EltTy.packing .bf16)
  inb_S64x216_S1x216_7_0 : ∀ a, (![7, 0] : Fin 2 → Nat) a + S1x216.size a ≤ S64x216.size a
  inb_S64_S1_8 : ∀ a, (![8] : Fin 1 → Nat) a + S1.size a ≤ S64.size a
  inb_S64x128x512_S1x128x512_8_0_0 : ∀ a, (![8, 0, 0] : Fin 3 → Nat) a + S1x128x512.size a ≤ S64x128x512.size a
  wordsbf16_S64x128x512_S1x128x512_8_0_0 : (Rect.unit (s := S64x128x512) ![8, 0, 0] S1x128x512.size inb_S64x128x512_S1x128x512_8_0_0).WholeWords (EltTy.packing .bf16)
  inb_S64x216_S1x216_8_0 : ∀ a, (![8, 0] : Fin 2 → Nat) a + S1x216.size a ≤ S64x216.size a
  inb_S64x216_S2x216_8_0 : ∀ a, (![8, 0] : Fin 2 → Nat) a + S2x216.size a ≤ S64x216.size a
  packedbf16_S64x216_S2x216_8_0 : (Rect.unit (s := S64x216) ![8, 0] S2x216.size inb_S64x216_S2x216_8_0).PackedRows (EltTy.packing .bf16)
  inb_S64_S1_9 : ∀ a, (![9] : Fin 1 → Nat) a + S1.size a ≤ S64.size a
  inb_S64x128x512_S1x128x512_9_0_0 : ∀ a, (![9, 0, 0] : Fin 3 → Nat) a + S1x128x512.size a ≤ S64x128x512.size a
  wordsbf16_S64x128x512_S1x128x512_9_0_0 : (Rect.unit (s := S64x128x512) ![9, 0, 0] S1x128x512.size inb_S64x128x512_S1x128x512_9_0_0).WholeWords (EltTy.packing .bf16)
  inb_S64x216_S1x216_9_0 : ∀ a, (![9, 0] : Fin 2 → Nat) a + S1x216.size a ≤ S64x216.size a
  inb_S64_S1_10 : ∀ a, (![10] : Fin 1 → Nat) a + S1.size a ≤ S64.size a
  inb_S64x128x512_S1x128x512_10_0_0 : ∀ a, (![10, 0, 0] : Fin 3 → Nat) a + S1x128x512.size a ≤ S64x128x512.size a
  wordsbf16_S64x128x512_S1x128x512_10_0_0 : (Rect.unit (s := S64x128x512) ![10, 0, 0] S1x128x512.size inb_S64x128x512_S1x128x512_10_0_0).WholeWords (EltTy.packing .bf16)
  inb_S64x216_S1x216_10_0 : ∀ a, (![10, 0] : Fin 2 → Nat) a + S1x216.size a ≤ S64x216.size a
  inb_S64x216_S2x216_10_0 : ∀ a, (![10, 0] : Fin 2 → Nat) a + S2x216.size a ≤ S64x216.size a
  packedbf16_S64x216_S2x216_10_0 : (Rect.unit (s := S64x216) ![10, 0] S2x216.size inb_S64x216_S2x216_10_0).PackedRows (EltTy.packing .bf16)
  inb_S64_S1_11 : ∀ a, (![11] : Fin 1 → Nat) a + S1.size a ≤ S64.size a
  inb_S64x128x512_S1x128x512_11_0_0 : ∀ a, (![11, 0, 0] : Fin 3 → Nat) a + S1x128x512.size a ≤ S64x128x512.size a
  wordsbf16_S64x128x512_S1x128x512_11_0_0 : (Rect.unit (s := S64x128x512) ![11, 0, 0] S1x128x512.size inb_S64x128x512_S1x128x512_11_0_0).WholeWords (EltTy.packing .bf16)
  inb_S64x216_S1x216_11_0 : ∀ a, (![11, 0] : Fin 2 → Nat) a + S1x216.size a ≤ S64x216.size a
  inb_S64_S1_12 : ∀ a, (![12] : Fin 1 → Nat) a + S1.size a ≤ S64.size a
  inb_S64x128x512_S1x128x512_12_0_0 : ∀ a, (![12, 0, 0] : Fin 3 → Nat) a + S1x128x512.size a ≤ S64x128x512.size a
  wordsbf16_S64x128x512_S1x128x512_12_0_0 : (Rect.unit (s := S64x128x512) ![12, 0, 0] S1x128x512.size inb_S64x128x512_S1x128x512_12_0_0).WholeWords (EltTy.packing .bf16)
  inb_S64x216_S1x216_12_0 : ∀ a, (![12, 0] : Fin 2 → Nat) a + S1x216.size a ≤ S64x216.size a
  inb_S64x216_S2x216_12_0 : ∀ a, (![12, 0] : Fin 2 → Nat) a + S2x216.size a ≤ S64x216.size a
  packedbf16_S64x216_S2x216_12_0 : (Rect.unit (s := S64x216) ![12, 0] S2x216.size inb_S64x216_S2x216_12_0).PackedRows (EltTy.packing .bf16)
  inb_S64_S1_13 : ∀ a, (![13] : Fin 1 → Nat) a + S1.size a ≤ S64.size a
  inb_S64x128x512_S1x128x512_13_0_0 : ∀ a, (![13, 0, 0] : Fin 3 → Nat) a + S1x128x512.size a ≤ S64x128x512.size a
  wordsbf16_S64x128x512_S1x128x512_13_0_0 : (Rect.unit (s := S64x128x512) ![13, 0, 0] S1x128x512.size inb_S64x128x512_S1x128x512_13_0_0).WholeWords (EltTy.packing .bf16)
  inb_S64x216_S1x216_13_0 : ∀ a, (![13, 0] : Fin 2 → Nat) a + S1x216.size a ≤ S64x216.size a
  inb_S64_S1_14 : ∀ a, (![14] : Fin 1 → Nat) a + S1.size a ≤ S64.size a
  inb_S64x128x512_S1x128x512_14_0_0 : ∀ a, (![14, 0, 0] : Fin 3 → Nat) a + S1x128x512.size a ≤ S64x128x512.size a
  wordsbf16_S64x128x512_S1x128x512_14_0_0 : (Rect.unit (s := S64x128x512) ![14, 0, 0] S1x128x512.size inb_S64x128x512_S1x128x512_14_0_0).WholeWords (EltTy.packing .bf16)
  inb_S64x216_S1x216_14_0 : ∀ a, (![14, 0] : Fin 2 → Nat) a + S1x216.size a ≤ S64x216.size a
  inb_S64x216_S2x216_14_0 : ∀ a, (![14, 0] : Fin 2 → Nat) a + S2x216.size a ≤ S64x216.size a
  packedbf16_S64x216_S2x216_14_0 : (Rect.unit (s := S64x216) ![14, 0] S2x216.size inb_S64x216_S2x216_14_0).PackedRows (EltTy.packing .bf16)
  inb_S64_S1_15 : ∀ a, (![15] : Fin 1 → Nat) a + S1.size a ≤ S64.size a
  inb_S64x128x512_S1x128x512_15_0_0 : ∀ a, (![15, 0, 0] : Fin 3 → Nat) a + S1x128x512.size a ≤ S64x128x512.size a
  wordsbf16_S64x128x512_S1x128x512_15_0_0 : (Rect.unit (s := S64x128x512) ![15, 0, 0] S1x128x512.size inb_S64x128x512_S1x128x512_15_0_0).WholeWords (EltTy.packing .bf16)
  inb_S64x216_S1x216_15_0 : ∀ a, (![15, 0] : Fin 2 → Nat) a + S1x216.size a ≤ S64x216.size a
  inb_S64_S1_16 : ∀ a, (![16] : Fin 1 → Nat) a + S1.size a ≤ S64.size a
  inb_S64x128x512_S1x128x512_16_0_0 : ∀ a, (![16, 0, 0] : Fin 3 → Nat) a + S1x128x512.size a ≤ S64x128x512.size a
  wordsbf16_S64x128x512_S1x128x512_16_0_0 : (Rect.unit (s := S64x128x512) ![16, 0, 0] S1x128x512.size inb_S64x128x512_S1x128x512_16_0_0).WholeWords (EltTy.packing .bf16)
  inb_S64x216_S1x216_16_0 : ∀ a, (![16, 0] : Fin 2 → Nat) a + S1x216.size a ≤ S64x216.size a
  inb_S64x216_S2x216_16_0 : ∀ a, (![16, 0] : Fin 2 → Nat) a + S2x216.size a ≤ S64x216.size a
  packedbf16_S64x216_S2x216_16_0 : (Rect.unit (s := S64x216) ![16, 0] S2x216.size inb_S64x216_S2x216_16_0).PackedRows (EltTy.packing .bf16)
  inb_S64_S1_17 : ∀ a, (![17] : Fin 1 → Nat) a + S1.size a ≤ S64.size a
  inb_S64x128x512_S1x128x512_17_0_0 : ∀ a, (![17, 0, 0] : Fin 3 → Nat) a + S1x128x512.size a ≤ S64x128x512.size a
  wordsbf16_S64x128x512_S1x128x512_17_0_0 : (Rect.unit (s := S64x128x512) ![17, 0, 0] S1x128x512.size inb_S64x128x512_S1x128x512_17_0_0).WholeWords (EltTy.packing .bf16)
  inb_S64x216_S1x216_17_0 : ∀ a, (![17, 0] : Fin 2 → Nat) a + S1x216.size a ≤ S64x216.size a
  inb_S64_S1_18 : ∀ a, (![18] : Fin 1 → Nat) a + S1.size a ≤ S64.size a
  inb_S64x128x512_S1x128x512_18_0_0 : ∀ a, (![18, 0, 0] : Fin 3 → Nat) a + S1x128x512.size a ≤ S64x128x512.size a
  wordsbf16_S64x128x512_S1x128x512_18_0_0 : (Rect.unit (s := S64x128x512) ![18, 0, 0] S1x128x512.size inb_S64x128x512_S1x128x512_18_0_0).WholeWords (EltTy.packing .bf16)
  inb_S64x216_S1x216_18_0 : ∀ a, (![18, 0] : Fin 2 → Nat) a + S1x216.size a ≤ S64x216.size a
  inb_S64x216_S2x216_18_0 : ∀ a, (![18, 0] : Fin 2 → Nat) a + S2x216.size a ≤ S64x216.size a
  packedbf16_S64x216_S2x216_18_0 : (Rect.unit (s := S64x216) ![18, 0] S2x216.size inb_S64x216_S2x216_18_0).PackedRows (EltTy.packing .bf16)
  inb_S64_S1_19 : ∀ a, (![19] : Fin 1 → Nat) a + S1.size a ≤ S64.size a
  inb_S64x128x512_S1x128x512_19_0_0 : ∀ a, (![19, 0, 0] : Fin 3 → Nat) a + S1x128x512.size a ≤ S64x128x512.size a
  wordsbf16_S64x128x512_S1x128x512_19_0_0 : (Rect.unit (s := S64x128x512) ![19, 0, 0] S1x128x512.size inb_S64x128x512_S1x128x512_19_0_0).WholeWords (EltTy.packing .bf16)
  inb_S64x216_S1x216_19_0 : ∀ a, (![19, 0] : Fin 2 → Nat) a + S1x216.size a ≤ S64x216.size a
  inb_S64_S1_20 : ∀ a, (![20] : Fin 1 → Nat) a + S1.size a ≤ S64.size a
  inb_S64x128x512_S1x128x512_20_0_0 : ∀ a, (![20, 0, 0] : Fin 3 → Nat) a + S1x128x512.size a ≤ S64x128x512.size a
  wordsbf16_S64x128x512_S1x128x512_20_0_0 : (Rect.unit (s := S64x128x512) ![20, 0, 0] S1x128x512.size inb_S64x128x512_S1x128x512_20_0_0).WholeWords (EltTy.packing .bf16)
  inb_S64x216_S1x216_20_0 : ∀ a, (![20, 0] : Fin 2 → Nat) a + S1x216.size a ≤ S64x216.size a
  inb_S64x216_S2x216_20_0 : ∀ a, (![20, 0] : Fin 2 → Nat) a + S2x216.size a ≤ S64x216.size a
  packedbf16_S64x216_S2x216_20_0 : (Rect.unit (s := S64x216) ![20, 0] S2x216.size inb_S64x216_S2x216_20_0).PackedRows (EltTy.packing .bf16)
  inb_S64_S1_21 : ∀ a, (![21] : Fin 1 → Nat) a + S1.size a ≤ S64.size a
  inb_S64x128x512_S1x128x512_21_0_0 : ∀ a, (![21, 0, 0] : Fin 3 → Nat) a + S1x128x512.size a ≤ S64x128x512.size a
  wordsbf16_S64x128x512_S1x128x512_21_0_0 : (Rect.unit (s := S64x128x512) ![21, 0, 0] S1x128x512.size inb_S64x128x512_S1x128x512_21_0_0).WholeWords (EltTy.packing .bf16)
  inb_S64x216_S1x216_21_0 : ∀ a, (![21, 0] : Fin 2 → Nat) a + S1x216.size a ≤ S64x216.size a
  inb_S64_S1_22 : ∀ a, (![22] : Fin 1 → Nat) a + S1.size a ≤ S64.size a
  inb_S64x128x512_S1x128x512_22_0_0 : ∀ a, (![22, 0, 0] : Fin 3 → Nat) a + S1x128x512.size a ≤ S64x128x512.size a
  wordsbf16_S64x128x512_S1x128x512_22_0_0 : (Rect.unit (s := S64x128x512) ![22, 0, 0] S1x128x512.size inb_S64x128x512_S1x128x512_22_0_0).WholeWords (EltTy.packing .bf16)
  inb_S64x216_S1x216_22_0 : ∀ a, (![22, 0] : Fin 2 → Nat) a + S1x216.size a ≤ S64x216.size a
  inb_S64x216_S2x216_22_0 : ∀ a, (![22, 0] : Fin 2 → Nat) a + S2x216.size a ≤ S64x216.size a
  packedbf16_S64x216_S2x216_22_0 : (Rect.unit (s := S64x216) ![22, 0] S2x216.size inb_S64x216_S2x216_22_0).PackedRows (EltTy.packing .bf16)
  inb_S64_S1_23 : ∀ a, (![23] : Fin 1 → Nat) a + S1.size a ≤ S64.size a
  inb_S64x128x512_S1x128x512_23_0_0 : ∀ a, (![23, 0, 0] : Fin 3 → Nat) a + S1x128x512.size a ≤ S64x128x512.size a
  wordsbf16_S64x128x512_S1x128x512_23_0_0 : (Rect.unit (s := S64x128x512) ![23, 0, 0] S1x128x512.size inb_S64x128x512_S1x128x512_23_0_0).WholeWords (EltTy.packing .bf16)
  inb_S64x216_S1x216_23_0 : ∀ a, (![23, 0] : Fin 2 → Nat) a + S1x216.size a ≤ S64x216.size a
  inb_S64_S1_24 : ∀ a, (![24] : Fin 1 → Nat) a + S1.size a ≤ S64.size a
  inb_S64x128x512_S1x128x512_24_0_0 : ∀ a, (![24, 0, 0] : Fin 3 → Nat) a + S1x128x512.size a ≤ S64x128x512.size a
  wordsbf16_S64x128x512_S1x128x512_24_0_0 : (Rect.unit (s := S64x128x512) ![24, 0, 0] S1x128x512.size inb_S64x128x512_S1x128x512_24_0_0).WholeWords (EltTy.packing .bf16)
  inb_S64x216_S1x216_24_0 : ∀ a, (![24, 0] : Fin 2 → Nat) a + S1x216.size a ≤ S64x216.size a
  inb_S64x216_S2x216_24_0 : ∀ a, (![24, 0] : Fin 2 → Nat) a + S2x216.size a ≤ S64x216.size a
  packedbf16_S64x216_S2x216_24_0 : (Rect.unit (s := S64x216) ![24, 0] S2x216.size inb_S64x216_S2x216_24_0).PackedRows (EltTy.packing .bf16)
  inb_S64_S1_25 : ∀ a, (![25] : Fin 1 → Nat) a + S1.size a ≤ S64.size a
  inb_S64x128x512_S1x128x512_25_0_0 : ∀ a, (![25, 0, 0] : Fin 3 → Nat) a + S1x128x512.size a ≤ S64x128x512.size a
  wordsbf16_S64x128x512_S1x128x512_25_0_0 : (Rect.unit (s := S64x128x512) ![25, 0, 0] S1x128x512.size inb_S64x128x512_S1x128x512_25_0_0).WholeWords (EltTy.packing .bf16)
  inb_S64x216_S1x216_25_0 : ∀ a, (![25, 0] : Fin 2 → Nat) a + S1x216.size a ≤ S64x216.size a
  inb_S64_S1_26 : ∀ a, (![26] : Fin 1 → Nat) a + S1.size a ≤ S64.size a
  inb_S64x128x512_S1x128x512_26_0_0 : ∀ a, (![26, 0, 0] : Fin 3 → Nat) a + S1x128x512.size a ≤ S64x128x512.size a
  wordsbf16_S64x128x512_S1x128x512_26_0_0 : (Rect.unit (s := S64x128x512) ![26, 0, 0] S1x128x512.size inb_S64x128x512_S1x128x512_26_0_0).WholeWords (EltTy.packing .bf16)
  inb_S64x216_S1x216_26_0 : ∀ a, (![26, 0] : Fin 2 → Nat) a + S1x216.size a ≤ S64x216.size a
  inb_S64x216_S2x216_26_0 : ∀ a, (![26, 0] : Fin 2 → Nat) a + S2x216.size a ≤ S64x216.size a
  packedbf16_S64x216_S2x216_26_0 : (Rect.unit (s := S64x216) ![26, 0] S2x216.size inb_S64x216_S2x216_26_0).PackedRows (EltTy.packing .bf16)
  inb_S64_S1_27 : ∀ a, (![27] : Fin 1 → Nat) a + S1.size a ≤ S64.size a
  inb_S64x128x512_S1x128x512_27_0_0 : ∀ a, (![27, 0, 0] : Fin 3 → Nat) a + S1x128x512.size a ≤ S64x128x512.size a
  wordsbf16_S64x128x512_S1x128x512_27_0_0 : (Rect.unit (s := S64x128x512) ![27, 0, 0] S1x128x512.size inb_S64x128x512_S1x128x512_27_0_0).WholeWords (EltTy.packing .bf16)
  inb_S64x216_S1x216_27_0 : ∀ a, (![27, 0] : Fin 2 → Nat) a + S1x216.size a ≤ S64x216.size a
  inb_S64_S1_28 : ∀ a, (![28] : Fin 1 → Nat) a + S1.size a ≤ S64.size a
  inb_S64x128x512_S1x128x512_28_0_0 : ∀ a, (![28, 0, 0] : Fin 3 → Nat) a + S1x128x512.size a ≤ S64x128x512.size a
  wordsbf16_S64x128x512_S1x128x512_28_0_0 : (Rect.unit (s := S64x128x512) ![28, 0, 0] S1x128x512.size inb_S64x128x512_S1x128x512_28_0_0).WholeWords (EltTy.packing .bf16)
  inb_S64x216_S1x216_28_0 : ∀ a, (![28, 0] : Fin 2 → Nat) a + S1x216.size a ≤ S64x216.size a
  inb_S64x216_S2x216_28_0 : ∀ a, (![28, 0] : Fin 2 → Nat) a + S2x216.size a ≤ S64x216.size a
  packedbf16_S64x216_S2x216_28_0 : (Rect.unit (s := S64x216) ![28, 0] S2x216.size inb_S64x216_S2x216_28_0).PackedRows (EltTy.packing .bf16)
  inb_S64_S1_29 : ∀ a, (![29] : Fin 1 → Nat) a + S1.size a ≤ S64.size a
  inb_S64x128x512_S1x128x512_29_0_0 : ∀ a, (![29, 0, 0] : Fin 3 → Nat) a + S1x128x512.size a ≤ S64x128x512.size a
  wordsbf16_S64x128x512_S1x128x512_29_0_0 : (Rect.unit (s := S64x128x512) ![29, 0, 0] S1x128x512.size inb_S64x128x512_S1x128x512_29_0_0).WholeWords (EltTy.packing .bf16)
  inb_S64x216_S1x216_29_0 : ∀ a, (![29, 0] : Fin 2 → Nat) a + S1x216.size a ≤ S64x216.size a
  inb_S64_S1_30 : ∀ a, (![30] : Fin 1 → Nat) a + S1.size a ≤ S64.size a
  inb_S64x128x512_S1x128x512_30_0_0 : ∀ a, (![30, 0, 0] : Fin 3 → Nat) a + S1x128x512.size a ≤ S64x128x512.size a
  wordsbf16_S64x128x512_S1x128x512_30_0_0 : (Rect.unit (s := S64x128x512) ![30, 0, 0] S1x128x512.size inb_S64x128x512_S1x128x512_30_0_0).WholeWords (EltTy.packing .bf16)
  inb_S64x216_S1x216_30_0 : ∀ a, (![30, 0] : Fin 2 → Nat) a + S1x216.size a ≤ S64x216.size a
  inb_S64x216_S2x216_30_0 : ∀ a, (![30, 0] : Fin 2 → Nat) a + S2x216.size a ≤ S64x216.size a
  packedbf16_S64x216_S2x216_30_0 : (Rect.unit (s := S64x216) ![30, 0] S2x216.size inb_S64x216_S2x216_30_0).PackedRows (EltTy.packing .bf16)
  inb_S64_S1_31 : ∀ a, (![31] : Fin 1 → Nat) a + S1.size a ≤ S64.size a
  inb_S64x128x512_S1x128x512_31_0_0 : ∀ a, (![31, 0, 0] : Fin 3 → Nat) a + S1x128x512.size a ≤ S64x128x512.size a
  wordsbf16_S64x128x512_S1x128x512_31_0_0 : (Rect.unit (s := S64x128x512) ![31, 0, 0] S1x128x512.size inb_S64x128x512_S1x128x512_31_0_0).WholeWords (EltTy.packing .bf16)
  inb_S64x216_S1x216_31_0 : ∀ a, (![31, 0] : Fin 2 → Nat) a + S1x216.size a ≤ S64x216.size a
  inb_S64_S1_32 : ∀ a, (![32] : Fin 1 → Nat) a + S1.size a ≤ S64.size a
  inb_S64x128x512_S1x128x512_32_0_0 : ∀ a, (![32, 0, 0] : Fin 3 → Nat) a + S1x128x512.size a ≤ S64x128x512.size a
  wordsbf16_S64x128x512_S1x128x512_32_0_0 : (Rect.unit (s := S64x128x512) ![32, 0, 0] S1x128x512.size inb_S64x128x512_S1x128x512_32_0_0).WholeWords (EltTy.packing .bf16)
  inb_S64x216_S1x216_32_0 : ∀ a, (![32, 0] : Fin 2 → Nat) a + S1x216.size a ≤ S64x216.size a
  inb_S64x216_S2x216_32_0 : ∀ a, (![32, 0] : Fin 2 → Nat) a + S2x216.size a ≤ S64x216.size a
  packedbf16_S64x216_S2x216_32_0 : (Rect.unit (s := S64x216) ![32, 0] S2x216.size inb_S64x216_S2x216_32_0).PackedRows (EltTy.packing .bf16)
  inb_S64_S1_33 : ∀ a, (![33] : Fin 1 → Nat) a + S1.size a ≤ S64.size a
  inb_S64x128x512_S1x128x512_33_0_0 : ∀ a, (![33, 0, 0] : Fin 3 → Nat) a + S1x128x512.size a ≤ S64x128x512.size a
  wordsbf16_S64x128x512_S1x128x512_33_0_0 : (Rect.unit (s := S64x128x512) ![33, 0, 0] S1x128x512.size inb_S64x128x512_S1x128x512_33_0_0).WholeWords (EltTy.packing .bf16)
  inb_S64x216_S1x216_33_0 : ∀ a, (![33, 0] : Fin 2 → Nat) a + S1x216.size a ≤ S64x216.size a
  inb_S64_S1_34 : ∀ a, (![34] : Fin 1 → Nat) a + S1.size a ≤ S64.size a
  inb_S64x128x512_S1x128x512_34_0_0 : ∀ a, (![34, 0, 0] : Fin 3 → Nat) a + S1x128x512.size a ≤ S64x128x512.size a
  wordsbf16_S64x128x512_S1x128x512_34_0_0 : (Rect.unit (s := S64x128x512) ![34, 0, 0] S1x128x512.size inb_S64x128x512_S1x128x512_34_0_0).WholeWords (EltTy.packing .bf16)
  inb_S64x216_S1x216_34_0 : ∀ a, (![34, 0] : Fin 2 → Nat) a + S1x216.size a ≤ S64x216.size a
  inb_S64x216_S2x216_34_0 : ∀ a, (![34, 0] : Fin 2 → Nat) a + S2x216.size a ≤ S64x216.size a
  packedbf16_S64x216_S2x216_34_0 : (Rect.unit (s := S64x216) ![34, 0] S2x216.size inb_S64x216_S2x216_34_0).PackedRows (EltTy.packing .bf16)
  inb_S64_S1_35 : ∀ a, (![35] : Fin 1 → Nat) a + S1.size a ≤ S64.size a
  inb_S64x128x512_S1x128x512_35_0_0 : ∀ a, (![35, 0, 0] : Fin 3 → Nat) a + S1x128x512.size a ≤ S64x128x512.size a
  wordsbf16_S64x128x512_S1x128x512_35_0_0 : (Rect.unit (s := S64x128x512) ![35, 0, 0] S1x128x512.size inb_S64x128x512_S1x128x512_35_0_0).WholeWords (EltTy.packing .bf16)
  inb_S64x216_S1x216_35_0 : ∀ a, (![35, 0] : Fin 2 → Nat) a + S1x216.size a ≤ S64x216.size a
  inb_S64_S1_36 : ∀ a, (![36] : Fin 1 → Nat) a + S1.size a ≤ S64.size a
  inb_S64x128x512_S1x128x512_36_0_0 : ∀ a, (![36, 0, 0] : Fin 3 → Nat) a + S1x128x512.size a ≤ S64x128x512.size a
  wordsbf16_S64x128x512_S1x128x512_36_0_0 : (Rect.unit (s := S64x128x512) ![36, 0, 0] S1x128x512.size inb_S64x128x512_S1x128x512_36_0_0).WholeWords (EltTy.packing .bf16)
  inb_S64x216_S1x216_36_0 : ∀ a, (![36, 0] : Fin 2 → Nat) a + S1x216.size a ≤ S64x216.size a
  inb_S64x216_S2x216_36_0 : ∀ a, (![36, 0] : Fin 2 → Nat) a + S2x216.size a ≤ S64x216.size a
  packedbf16_S64x216_S2x216_36_0 : (Rect.unit (s := S64x216) ![36, 0] S2x216.size inb_S64x216_S2x216_36_0).PackedRows (EltTy.packing .bf16)
  inb_S64_S1_37 : ∀ a, (![37] : Fin 1 → Nat) a + S1.size a ≤ S64.size a
  inb_S64x128x512_S1x128x512_37_0_0 : ∀ a, (![37, 0, 0] : Fin 3 → Nat) a + S1x128x512.size a ≤ S64x128x512.size a
  wordsbf16_S64x128x512_S1x128x512_37_0_0 : (Rect.unit (s := S64x128x512) ![37, 0, 0] S1x128x512.size inb_S64x128x512_S1x128x512_37_0_0).WholeWords (EltTy.packing .bf16)
  inb_S64x216_S1x216_37_0 : ∀ a, (![37, 0] : Fin 2 → Nat) a + S1x216.size a ≤ S64x216.size a
  inb_S64_S1_38 : ∀ a, (![38] : Fin 1 → Nat) a + S1.size a ≤ S64.size a
  inb_S64x128x512_S1x128x512_38_0_0 : ∀ a, (![38, 0, 0] : Fin 3 → Nat) a + S1x128x512.size a ≤ S64x128x512.size a
  wordsbf16_S64x128x512_S1x128x512_38_0_0 : (Rect.unit (s := S64x128x512) ![38, 0, 0] S1x128x512.size inb_S64x128x512_S1x128x512_38_0_0).WholeWords (EltTy.packing .bf16)
  inb_S64x216_S1x216_38_0 : ∀ a, (![38, 0] : Fin 2 → Nat) a + S1x216.size a ≤ S64x216.size a
  inb_S64x216_S2x216_38_0 : ∀ a, (![38, 0] : Fin 2 → Nat) a + S2x216.size a ≤ S64x216.size a
  packedbf16_S64x216_S2x216_38_0 : (Rect.unit (s := S64x216) ![38, 0] S2x216.size inb_S64x216_S2x216_38_0).PackedRows (EltTy.packing .bf16)
  inb_S64_S1_39 : ∀ a, (![39] : Fin 1 → Nat) a + S1.size a ≤ S64.size a
  inb_S64x128x512_S1x128x512_39_0_0 : ∀ a, (![39, 0, 0] : Fin 3 → Nat) a + S1x128x512.size a ≤ S64x128x512.size a
  wordsbf16_S64x128x512_S1x128x512_39_0_0 : (Rect.unit (s := S64x128x512) ![39, 0, 0] S1x128x512.size inb_S64x128x512_S1x128x512_39_0_0).WholeWords (EltTy.packing .bf16)
  inb_S64x216_S1x216_39_0 : ∀ a, (![39, 0] : Fin 2 → Nat) a + S1x216.size a ≤ S64x216.size a
  inb_S64_S1_40 : ∀ a, (![40] : Fin 1 → Nat) a + S1.size a ≤ S64.size a
  inb_S64x128x512_S1x128x512_40_0_0 : ∀ a, (![40, 0, 0] : Fin 3 → Nat) a + S1x128x512.size a ≤ S64x128x512.size a
  wordsbf16_S64x128x512_S1x128x512_40_0_0 : (Rect.unit (s := S64x128x512) ![40, 0, 0] S1x128x512.size inb_S64x128x512_S1x128x512_40_0_0).WholeWords (EltTy.packing .bf16)
  inb_S64x216_S1x216_40_0 : ∀ a, (![40, 0] : Fin 2 → Nat) a + S1x216.size a ≤ S64x216.size a
  inb_S64x216_S2x216_40_0 : ∀ a, (![40, 0] : Fin 2 → Nat) a + S2x216.size a ≤ S64x216.size a
  packedbf16_S64x216_S2x216_40_0 : (Rect.unit (s := S64x216) ![40, 0] S2x216.size inb_S64x216_S2x216_40_0).PackedRows (EltTy.packing .bf16)
  inb_S64_S1_41 : ∀ a, (![41] : Fin 1 → Nat) a + S1.size a ≤ S64.size a
  inb_S64x128x512_S1x128x512_41_0_0 : ∀ a, (![41, 0, 0] : Fin 3 → Nat) a + S1x128x512.size a ≤ S64x128x512.size a
  wordsbf16_S64x128x512_S1x128x512_41_0_0 : (Rect.unit (s := S64x128x512) ![41, 0, 0] S1x128x512.size inb_S64x128x512_S1x128x512_41_0_0).WholeWords (EltTy.packing .bf16)
  inb_S64x216_S1x216_41_0 : ∀ a, (![41, 0] : Fin 2 → Nat) a + S1x216.size a ≤ S64x216.size a
  inb_S64_S1_42 : ∀ a, (![42] : Fin 1 → Nat) a + S1.size a ≤ S64.size a
  inb_S64x128x512_S1x128x512_42_0_0 : ∀ a, (![42, 0, 0] : Fin 3 → Nat) a + S1x128x512.size a ≤ S64x128x512.size a
  wordsbf16_S64x128x512_S1x128x512_42_0_0 : (Rect.unit (s := S64x128x512) ![42, 0, 0] S1x128x512.size inb_S64x128x512_S1x128x512_42_0_0).WholeWords (EltTy.packing .bf16)
  inb_S64x216_S1x216_42_0 : ∀ a, (![42, 0] : Fin 2 → Nat) a + S1x216.size a ≤ S64x216.size a
  inb_S64x216_S2x216_42_0 : ∀ a, (![42, 0] : Fin 2 → Nat) a + S2x216.size a ≤ S64x216.size a
  packedbf16_S64x216_S2x216_42_0 : (Rect.unit (s := S64x216) ![42, 0] S2x216.size inb_S64x216_S2x216_42_0).PackedRows (EltTy.packing .bf16)
  inb_S64_S1_43 : ∀ a, (![43] : Fin 1 → Nat) a + S1.size a ≤ S64.size a
  inb_S64x128x512_S1x128x512_43_0_0 : ∀ a, (![43, 0, 0] : Fin 3 → Nat) a + S1x128x512.size a ≤ S64x128x512.size a
  wordsbf16_S64x128x512_S1x128x512_43_0_0 : (Rect.unit (s := S64x128x512) ![43, 0, 0] S1x128x512.size inb_S64x128x512_S1x128x512_43_0_0).WholeWords (EltTy.packing .bf16)
  inb_S64x216_S1x216_43_0 : ∀ a, (![43, 0] : Fin 2 → Nat) a + S1x216.size a ≤ S64x216.size a
  inb_S64_S1_44 : ∀ a, (![44] : Fin 1 → Nat) a + S1.size a ≤ S64.size a
  inb_S64x128x512_S1x128x512_44_0_0 : ∀ a, (![44, 0, 0] : Fin 3 → Nat) a + S1x128x512.size a ≤ S64x128x512.size a
  wordsbf16_S64x128x512_S1x128x512_44_0_0 : (Rect.unit (s := S64x128x512) ![44, 0, 0] S1x128x512.size inb_S64x128x512_S1x128x512_44_0_0).WholeWords (EltTy.packing .bf16)
  inb_S64x216_S1x216_44_0 : ∀ a, (![44, 0] : Fin 2 → Nat) a + S1x216.size a ≤ S64x216.size a
  inb_S64x216_S2x216_44_0 : ∀ a, (![44, 0] : Fin 2 → Nat) a + S2x216.size a ≤ S64x216.size a
  packedbf16_S64x216_S2x216_44_0 : (Rect.unit (s := S64x216) ![44, 0] S2x216.size inb_S64x216_S2x216_44_0).PackedRows (EltTy.packing .bf16)
  inb_S64_S1_45 : ∀ a, (![45] : Fin 1 → Nat) a + S1.size a ≤ S64.size a
  inb_S64x128x512_S1x128x512_45_0_0 : ∀ a, (![45, 0, 0] : Fin 3 → Nat) a + S1x128x512.size a ≤ S64x128x512.size a
  wordsbf16_S64x128x512_S1x128x512_45_0_0 : (Rect.unit (s := S64x128x512) ![45, 0, 0] S1x128x512.size inb_S64x128x512_S1x128x512_45_0_0).WholeWords (EltTy.packing .bf16)
  inb_S64x216_S1x216_45_0 : ∀ a, (![45, 0] : Fin 2 → Nat) a + S1x216.size a ≤ S64x216.size a
  inb_S64_S1_46 : ∀ a, (![46] : Fin 1 → Nat) a + S1.size a ≤ S64.size a
  inb_S64x128x512_S1x128x512_46_0_0 : ∀ a, (![46, 0, 0] : Fin 3 → Nat) a + S1x128x512.size a ≤ S64x128x512.size a
  wordsbf16_S64x128x512_S1x128x512_46_0_0 : (Rect.unit (s := S64x128x512) ![46, 0, 0] S1x128x512.size inb_S64x128x512_S1x128x512_46_0_0).WholeWords (EltTy.packing .bf16)
  inb_S64x216_S1x216_46_0 : ∀ a, (![46, 0] : Fin 2 → Nat) a + S1x216.size a ≤ S64x216.size a
  inb_S64x216_S2x216_46_0 : ∀ a, (![46, 0] : Fin 2 → Nat) a + S2x216.size a ≤ S64x216.size a
  packedbf16_S64x216_S2x216_46_0 : (Rect.unit (s := S64x216) ![46, 0] S2x216.size inb_S64x216_S2x216_46_0).PackedRows (EltTy.packing .bf16)
  inb_S64_S1_47 : ∀ a, (![47] : Fin 1 → Nat) a + S1.size a ≤ S64.size a
  inb_S64x128x512_S1x128x512_47_0_0 : ∀ a, (![47, 0, 0] : Fin 3 → Nat) a + S1x128x512.size a ≤ S64x128x512.size a
  wordsbf16_S64x128x512_S1x128x512_47_0_0 : (Rect.unit (s := S64x128x512) ![47, 0, 0] S1x128x512.size inb_S64x128x512_S1x128x512_47_0_0).WholeWords (EltTy.packing .bf16)
  inb_S64x216_S1x216_47_0 : ∀ a, (![47, 0] : Fin 2 → Nat) a + S1x216.size a ≤ S64x216.size a
  inb_S64_S1_48 : ∀ a, (![48] : Fin 1 → Nat) a + S1.size a ≤ S64.size a
  inb_S64x128x512_S1x128x512_48_0_0 : ∀ a, (![48, 0, 0] : Fin 3 → Nat) a + S1x128x512.size a ≤ S64x128x512.size a
  wordsbf16_S64x128x512_S1x128x512_48_0_0 : (Rect.unit (s := S64x128x512) ![48, 0, 0] S1x128x512.size inb_S64x128x512_S1x128x512_48_0_0).WholeWords (EltTy.packing .bf16)
  inb_S64x216_S1x216_48_0 : ∀ a, (![48, 0] : Fin 2 → Nat) a + S1x216.size a ≤ S64x216.size a
  inb_S64x216_S2x216_48_0 : ∀ a, (![48, 0] : Fin 2 → Nat) a + S2x216.size a ≤ S64x216.size a
  packedbf16_S64x216_S2x216_48_0 : (Rect.unit (s := S64x216) ![48, 0] S2x216.size inb_S64x216_S2x216_48_0).PackedRows (EltTy.packing .bf16)
  inb_S64_S1_49 : ∀ a, (![49] : Fin 1 → Nat) a + S1.size a ≤ S64.size a
  inb_S64x128x512_S1x128x512_49_0_0 : ∀ a, (![49, 0, 0] : Fin 3 → Nat) a + S1x128x512.size a ≤ S64x128x512.size a
  wordsbf16_S64x128x512_S1x128x512_49_0_0 : (Rect.unit (s := S64x128x512) ![49, 0, 0] S1x128x512.size inb_S64x128x512_S1x128x512_49_0_0).WholeWords (EltTy.packing .bf16)
  inb_S64x216_S1x216_49_0 : ∀ a, (![49, 0] : Fin 2 → Nat) a + S1x216.size a ≤ S64x216.size a
  inb_S64_S1_50 : ∀ a, (![50] : Fin 1 → Nat) a + S1.size a ≤ S64.size a
  inb_S64x128x512_S1x128x512_50_0_0 : ∀ a, (![50, 0, 0] : Fin 3 → Nat) a + S1x128x512.size a ≤ S64x128x512.size a
  wordsbf16_S64x128x512_S1x128x512_50_0_0 : (Rect.unit (s := S64x128x512) ![50, 0, 0] S1x128x512.size inb_S64x128x512_S1x128x512_50_0_0).WholeWords (EltTy.packing .bf16)
  inb_S64x216_S1x216_50_0 : ∀ a, (![50, 0] : Fin 2 → Nat) a + S1x216.size a ≤ S64x216.size a
  inb_S64x216_S2x216_50_0 : ∀ a, (![50, 0] : Fin 2 → Nat) a + S2x216.size a ≤ S64x216.size a
  packedbf16_S64x216_S2x216_50_0 : (Rect.unit (s := S64x216) ![50, 0] S2x216.size inb_S64x216_S2x216_50_0).PackedRows (EltTy.packing .bf16)
  inb_S64_S1_51 : ∀ a, (![51] : Fin 1 → Nat) a + S1.size a ≤ S64.size a
  inb_S64x128x512_S1x128x512_51_0_0 : ∀ a, (![51, 0, 0] : Fin 3 → Nat) a + S1x128x512.size a ≤ S64x128x512.size a
  wordsbf16_S64x128x512_S1x128x512_51_0_0 : (Rect.unit (s := S64x128x512) ![51, 0, 0] S1x128x512.size inb_S64x128x512_S1x128x512_51_0_0).WholeWords (EltTy.packing .bf16)
  inb_S64x216_S1x216_51_0 : ∀ a, (![51, 0] : Fin 2 → Nat) a + S1x216.size a ≤ S64x216.size a
  inb_S64_S1_52 : ∀ a, (![52] : Fin 1 → Nat) a + S1.size a ≤ S64.size a
  inb_S64x128x512_S1x128x512_52_0_0 : ∀ a, (![52, 0, 0] : Fin 3 → Nat) a + S1x128x512.size a ≤ S64x128x512.size a
  wordsbf16_S64x128x512_S1x128x512_52_0_0 : (Rect.unit (s := S64x128x512) ![52, 0, 0] S1x128x512.size inb_S64x128x512_S1x128x512_52_0_0).WholeWords (EltTy.packing .bf16)
  inb_S64x216_S1x216_52_0 : ∀ a, (![52, 0] : Fin 2 → Nat) a + S1x216.size a ≤ S64x216.size a
  inb_S64x216_S2x216_52_0 : ∀ a, (![52, 0] : Fin 2 → Nat) a + S2x216.size a ≤ S64x216.size a
  packedbf16_S64x216_S2x216_52_0 : (Rect.unit (s := S64x216) ![52, 0] S2x216.size inb_S64x216_S2x216_52_0).PackedRows (EltTy.packing .bf16)
  inb_S64_S1_53 : ∀ a, (![53] : Fin 1 → Nat) a + S1.size a ≤ S64.size a
  inb_S64x128x512_S1x128x512_53_0_0 : ∀ a, (![53, 0, 0] : Fin 3 → Nat) a + S1x128x512.size a ≤ S64x128x512.size a
  wordsbf16_S64x128x512_S1x128x512_53_0_0 : (Rect.unit (s := S64x128x512) ![53, 0, 0] S1x128x512.size inb_S64x128x512_S1x128x512_53_0_0).WholeWords (EltTy.packing .bf16)
  inb_S64x216_S1x216_53_0 : ∀ a, (![53, 0] : Fin 2 → Nat) a + S1x216.size a ≤ S64x216.size a
  inb_S64_S1_54 : ∀ a, (![54] : Fin 1 → Nat) a + S1.size a ≤ S64.size a
  inb_S64x128x512_S1x128x512_54_0_0 : ∀ a, (![54, 0, 0] : Fin 3 → Nat) a + S1x128x512.size a ≤ S64x128x512.size a
  wordsbf16_S64x128x512_S1x128x512_54_0_0 : (Rect.unit (s := S64x128x512) ![54, 0, 0] S1x128x512.size inb_S64x128x512_S1x128x512_54_0_0).WholeWords (EltTy.packing .bf16)
  inb_S64x216_S1x216_54_0 : ∀ a, (![54, 0] : Fin 2 → Nat) a + S1x216.size a ≤ S64x216.size a
  inb_S64x216_S2x216_54_0 : ∀ a, (![54, 0] : Fin 2 → Nat) a + S2x216.size a ≤ S64x216.size a
  packedbf16_S64x216_S2x216_54_0 : (Rect.unit (s := S64x216) ![54, 0] S2x216.size inb_S64x216_S2x216_54_0).PackedRows (EltTy.packing .bf16)
  inb_S64_S1_55 : ∀ a, (![55] : Fin 1 → Nat) a + S1.size a ≤ S64.size a
  inb_S64x128x512_S1x128x512_55_0_0 : ∀ a, (![55, 0, 0] : Fin 3 → Nat) a + S1x128x512.size a ≤ S64x128x512.size a
  wordsbf16_S64x128x512_S1x128x512_55_0_0 : (Rect.unit (s := S64x128x512) ![55, 0, 0] S1x128x512.size inb_S64x128x512_S1x128x512_55_0_0).WholeWords (EltTy.packing .bf16)
  inb_S64x216_S1x216_55_0 : ∀ a, (![55, 0] : Fin 2 → Nat) a + S1x216.size a ≤ S64x216.size a
  inb_S64_S1_56 : ∀ a, (![56] : Fin 1 → Nat) a + S1.size a ≤ S64.size a
  inb_S64x128x512_S1x128x512_56_0_0 : ∀ a, (![56, 0, 0] : Fin 3 → Nat) a + S1x128x512.size a ≤ S64x128x512.size a
  wordsbf16_S64x128x512_S1x128x512_56_0_0 : (Rect.unit (s := S64x128x512) ![56, 0, 0] S1x128x512.size inb_S64x128x512_S1x128x512_56_0_0).WholeWords (EltTy.packing .bf16)
  inb_S64x216_S1x216_56_0 : ∀ a, (![56, 0] : Fin 2 → Nat) a + S1x216.size a ≤ S64x216.size a
  inb_S64x216_S2x216_56_0 : ∀ a, (![56, 0] : Fin 2 → Nat) a + S2x216.size a ≤ S64x216.size a
  packedbf16_S64x216_S2x216_56_0 : (Rect.unit (s := S64x216) ![56, 0] S2x216.size inb_S64x216_S2x216_56_0).PackedRows (EltTy.packing .bf16)
  inb_S64_S1_57 : ∀ a, (![57] : Fin 1 → Nat) a + S1.size a ≤ S64.size a
  inb_S64x128x512_S1x128x512_57_0_0 : ∀ a, (![57, 0, 0] : Fin 3 → Nat) a + S1x128x512.size a ≤ S64x128x512.size a
  wordsbf16_S64x128x512_S1x128x512_57_0_0 : (Rect.unit (s := S64x128x512) ![57, 0, 0] S1x128x512.size inb_S64x128x512_S1x128x512_57_0_0).WholeWords (EltTy.packing .bf16)
  inb_S64x216_S1x216_57_0 : ∀ a, (![57, 0] : Fin 2 → Nat) a + S1x216.size a ≤ S64x216.size a
  inb_S64_S1_58 : ∀ a, (![58] : Fin 1 → Nat) a + S1.size a ≤ S64.size a
  inb_S64x128x512_S1x128x512_58_0_0 : ∀ a, (![58, 0, 0] : Fin 3 → Nat) a + S1x128x512.size a ≤ S64x128x512.size a
  wordsbf16_S64x128x512_S1x128x512_58_0_0 : (Rect.unit (s := S64x128x512) ![58, 0, 0] S1x128x512.size inb_S64x128x512_S1x128x512_58_0_0).WholeWords (EltTy.packing .bf16)
  inb_S64x216_S1x216_58_0 : ∀ a, (![58, 0] : Fin 2 → Nat) a + S1x216.size a ≤ S64x216.size a
  inb_S64x216_S2x216_58_0 : ∀ a, (![58, 0] : Fin 2 → Nat) a + S2x216.size a ≤ S64x216.size a
  packedbf16_S64x216_S2x216_58_0 : (Rect.unit (s := S64x216) ![58, 0] S2x216.size inb_S64x216_S2x216_58_0).PackedRows (EltTy.packing .bf16)
  inb_S64_S1_59 : ∀ a, (![59] : Fin 1 → Nat) a + S1.size a ≤ S64.size a
  inb_S64x128x512_S1x128x512_59_0_0 : ∀ a, (![59, 0, 0] : Fin 3 → Nat) a + S1x128x512.size a ≤ S64x128x512.size a
  wordsbf16_S64x128x512_S1x128x512_59_0_0 : (Rect.unit (s := S64x128x512) ![59, 0, 0] S1x128x512.size inb_S64x128x512_S1x128x512_59_0_0).WholeWords (EltTy.packing .bf16)
  inb_S64x216_S1x216_59_0 : ∀ a, (![59, 0] : Fin 2 → Nat) a + S1x216.size a ≤ S64x216.size a
  inb_S64_S1_60 : ∀ a, (![60] : Fin 1 → Nat) a + S1.size a ≤ S64.size a
  inb_S64x128x512_S1x128x512_60_0_0 : ∀ a, (![60, 0, 0] : Fin 3 → Nat) a + S1x128x512.size a ≤ S64x128x512.size a
  wordsbf16_S64x128x512_S1x128x512_60_0_0 : (Rect.unit (s := S64x128x512) ![60, 0, 0] S1x128x512.size inb_S64x128x512_S1x128x512_60_0_0).WholeWords (EltTy.packing .bf16)
  inb_S64x216_S1x216_60_0 : ∀ a, (![60, 0] : Fin 2 → Nat) a + S1x216.size a ≤ S64x216.size a
  inb_S64x216_S2x216_60_0 : ∀ a, (![60, 0] : Fin 2 → Nat) a + S2x216.size a ≤ S64x216.size a
  packedbf16_S64x216_S2x216_60_0 : (Rect.unit (s := S64x216) ![60, 0] S2x216.size inb_S64x216_S2x216_60_0).PackedRows (EltTy.packing .bf16)
  inb_S64_S1_61 : ∀ a, (![61] : Fin 1 → Nat) a + S1.size a ≤ S64.size a
  inb_S64x128x512_S1x128x512_61_0_0 : ∀ a, (![61, 0, 0] : Fin 3 → Nat) a + S1x128x512.size a ≤ S64x128x512.size a
  wordsbf16_S64x128x512_S1x128x512_61_0_0 : (Rect.unit (s := S64x128x512) ![61, 0, 0] S1x128x512.size inb_S64x128x512_S1x128x512_61_0_0).WholeWords (EltTy.packing .bf16)
  inb_S64x216_S1x216_61_0 : ∀ a, (![61, 0] : Fin 2 → Nat) a + S1x216.size a ≤ S64x216.size a
  inb_S64_S1_62 : ∀ a, (![62] : Fin 1 → Nat) a + S1.size a ≤ S64.size a
  inb_S64x128x512_S1x128x512_62_0_0 : ∀ a, (![62, 0, 0] : Fin 3 → Nat) a + S1x128x512.size a ≤ S64x128x512.size a
  wordsbf16_S64x128x512_S1x128x512_62_0_0 : (Rect.unit (s := S64x128x512) ![62, 0, 0] S1x128x512.size inb_S64x128x512_S1x128x512_62_0_0).WholeWords (EltTy.packing .bf16)
  inb_S64x216_S1x216_62_0 : ∀ a, (![62, 0] : Fin 2 → Nat) a + S1x216.size a ≤ S64x216.size a
  inb_S64x216_S2x216_62_0 : ∀ a, (![62, 0] : Fin 2 → Nat) a + S2x216.size a ≤ S64x216.size a
  packedbf16_S64x216_S2x216_62_0 : (Rect.unit (s := S64x216) ![62, 0] S2x216.size inb_S64x216_S2x216_62_0).PackedRows (EltTy.packing .bf16)
  inb_S64_S1_63 : ∀ a, (![63] : Fin 1 → Nat) a + S1.size a ≤ S64.size a
  inb_S64x128x512_S1x128x512_63_0_0 : ∀ a, (![63, 0, 0] : Fin 3 → Nat) a + S1x128x512.size a ≤ S64x128x512.size a
  wordsbf16_S64x128x512_S1x128x512_63_0_0 : (Rect.unit (s := S64x128x512) ![63, 0, 0] S1x128x512.size inb_S64x128x512_S1x128x512_63_0_0).WholeWords (EltTy.packing .bf16)
  inb_S64x216_S1x216_63_0 : ∀ a, (![63, 0] : Fin 2 → Nat) a + S1x216.size a ≤ S64x216.size a
  inb_S64x216_S64x216_0_0 : ∀ a, (![0, 0] : Fin 2 → Nat) a + S64x216.size a ≤ S64x216.size a
  h_S64x216 : 0 < S64x216.numel
  inb_S1x216x256_S1x216x256_0_0_0 : ∀ a, (![0, 0, 0] : Fin 3 → Nat) a + S1x216x256.size a ≤ S1x216x256.size a
  h_S1x216x256 : 0 < S1x216x256.numel
  shapeCasts_S1x216x256_S216x256 : S1x216x256.ShapeCasts S216x256
  shapeCasts_S64x256_S64x2x128 : S64x256.ShapeCasts S64x2x128
  shapeCasts_S64x256_S64x128x2 : S64x256.ShapeCasts S64x128x2
  inb_S64x128x512_S64x128x512_0_0_0 : ∀ a, (![0, 0, 0] : Fin 3 → Nat) a + S64x128x512.size a ≤ S64x128x512.size a
  h_S64x128x512 : 0 < S64x128x512.numel
  shapeCasts_S64x2x512_S64x8x128 : S64x2x512.ShapeCasts S64x8x128
  shapeCasts_S64x8x2_S1x64x16 : S64x8x2.ShapeCasts S1x64x16
  inb_S1x64x16_S1x64x16_0_0_0 : ∀ a, (![0, 0, 0] : Fin 3 → Nat) a + S1x64x16.size a ≤ S1x64x16.size a
  h_S1x64x16 : 0 < S1x64x16.numel
  dot_S64x216_S216x256_S64x256_1_0_0_1_n_n_wf : DotDims.WF S64x216 S216x256 S64x256 [1] [0] [0] [1] [] []
  dot_S64x2x128_S64x128x512_S64x2x512_2_1_1_2_0_0_wf : DotDims.WF S64x2x128 S64x128x512 S64x2x512 [2] [1] [1] [2] [0] [0]
  dot_S64x8x128_S64x128x2_S64x8x2_2_1_1_2_0_0_wf : DotDims.WF S64x8x128 S64x128x2 S64x8x2 [2] [1] [1] [2] [0] [0]
  hcc0_scratch3 : 6 + S64.numel ≤ 70
  hrank0 : 0 < grid0.rank
  k0_off1_inb : ∀ i : grid0.Coords, ∀ a, (k0_off1 i) a + S1x1.size a ≤ S2x1024.size a
  k0_off3_inb : ∀ i : grid0.Coords, ∀ a, (k0_off3 i) a + S1x1.size a ≤ S2x1024.size a
  k0_off5_inb : ∀ i : grid0.Coords, ∀ a, (k0_off5 i) a + S1x1.size a ≤ S2x1024.size a
  k0_off7_inb : ∀ i : grid0.Coords, ∀ a, (k0_off7 i) a + S1x1.size a ≤ S2x1024.size a
  k0_off9_inb : ∀ i : grid0.Coords, ∀ a, (k0_off9 i) a + S1x1.size a ≤ S2x1024.size a
  k0_off11_inb : ∀ i : grid0.Coords, ∀ a, (k0_off11 i) a + S1x1.size a ≤ S2x1024.size a
  k0_off13_inb : ∀ i : grid0.Coords, ∀ a, (k0_off13 i) a + S1x1.size a ≤ S2x1024.size a
  k0_off15_inb : ∀ i : grid0.Coords, ∀ a, (k0_off15 i) a + S1x1.size a ≤ S2x1024.size a
  k0_off17_inb : ∀ i : grid0.Coords, ∀ a, (k0_off17 i) a + S1x1.size a ≤ S2x1024.size a
  k0_off19_inb : ∀ i : grid0.Coords, ∀ a, (k0_off19 i) a + S1x1.size a ≤ S2x1024.size a
  k0_off21_inb : ∀ i : grid0.Coords, ∀ a, (k0_off21 i) a + S1x1.size a ≤ S2x1024.size a
  k0_off23_inb : ∀ i : grid0.Coords, ∀ a, (k0_off23 i) a + S1x1.size a ≤ S2x1024.size a
  k0_off25_inb : ∀ i : grid0.Coords, ∀ a, (k0_off25 i) a + S1x1.size a ≤ S2x1024.size a
  k0_off27_inb : ∀ i : grid0.Coords, ∀ a, (k0_off27 i) a + S1x1.size a ≤ S2x1024.size a
  k0_off29_inb : ∀ i : grid0.Coords, ∀ a, (k0_off29 i) a + S1x1.size a ≤ S2x1024.size a
  k0_off31_inb : ∀ i : grid0.Coords, ∀ a, (k0_off31 i) a + S1x1.size a ≤ S2x1024.size a
  k0_off33_inb : ∀ i : grid0.Coords, ∀ a, (k0_off33 i) a + S1x1.size a ≤ S2x1024.size a
  k0_off35_inb : ∀ i : grid0.Coords, ∀ a, (k0_off35 i) a + S1x1.size a ≤ S2x1024.size a
  k0_off37_inb : ∀ i : grid0.Coords, ∀ a, (k0_off37 i) a + S1x1.size a ≤ S2x1024.size a
  k0_off39_inb : ∀ i : grid0.Coords, ∀ a, (k0_off39 i) a + S1x1.size a ≤ S2x1024.size a
  k0_off41_inb : ∀ i : grid0.Coords, ∀ a, (k0_off41 i) a + S1x1.size a ≤ S2x1024.size a
  k0_off43_inb : ∀ i : grid0.Coords, ∀ a, (k0_off43 i) a + S1x1.size a ≤ S2x1024.size a
  k0_off45_inb : ∀ i : grid0.Coords, ∀ a, (k0_off45 i) a + S1x1.size a ≤ S2x1024.size a
  k0_off47_inb : ∀ i : grid0.Coords, ∀ a, (k0_off47 i) a + S1x1.size a ≤ S2x1024.size a
  k0_off49_inb : ∀ i : grid0.Coords, ∀ a, (k0_off49 i) a + S1x1.size a ≤ S2x1024.size a
  k0_off51_inb : ∀ i : grid0.Coords, ∀ a, (k0_off51 i) a + S1x1.size a ≤ S2x1024.size a
  k0_off53_inb : ∀ i : grid0.Coords, ∀ a, (k0_off53 i) a + S1x1.size a ≤ S2x1024.size a
  k0_off55_inb : ∀ i : grid0.Coords, ∀ a, (k0_off55 i) a + S1x1.size a ≤ S2x1024.size a
  k0_off57_inb : ∀ i : grid0.Coords, ∀ a, (k0_off57 i) a + S1x1.size a ≤ S2x1024.size a
  k0_off59_inb : ∀ i : grid0.Coords, ∀ a, (k0_off59 i) a + S1x1.size a ≤ S2x1024.size a
  k0_off61_inb : ∀ i : grid0.Coords, ∀ a, (k0_off61 i) a + S1x1.size a ≤ S2x1024.size a
  k0_off63_inb : ∀ i : grid0.Coords, ∀ a, (k0_off63 i) a + S1x1.size a ≤ S2x1024.size a
  k0_off65_inb : ∀ i : grid0.Coords, ∀ a, (k0_off65 i) a + S1x1.size a ≤ S2x1024.size a
  k0_off67_inb : ∀ i : grid0.Coords, ∀ a, (k0_off67 i) a + S1x1.size a ≤ S2x1024.size a
  k0_off69_inb : ∀ i : grid0.Coords, ∀ a, (k0_off69 i) a + S1x1.size a ≤ S2x1024.size a
  k0_off71_inb : ∀ i : grid0.Coords, ∀ a, (k0_off71 i) a + S1x1.size a ≤ S2x1024.size a
  k0_off73_inb : ∀ i : grid0.Coords, ∀ a, (k0_off73 i) a + S1x1.size a ≤ S2x1024.size a
  k0_off75_inb : ∀ i : grid0.Coords, ∀ a, (k0_off75 i) a + S1x1.size a ≤ S2x1024.size a
  k0_off77_inb : ∀ i : grid0.Coords, ∀ a, (k0_off77 i) a + S1x1.size a ≤ S2x1024.size a
  k0_off79_inb : ∀ i : grid0.Coords, ∀ a, (k0_off79 i) a + S1x1.size a ≤ S2x1024.size a
  k0_off81_inb : ∀ i : grid0.Coords, ∀ a, (k0_off81 i) a + S1x1.size a ≤ S2x1024.size a
  k0_off83_inb : ∀ i : grid0.Coords, ∀ a, (k0_off83 i) a + S1x1.size a ≤ S2x1024.size a
  k0_off85_inb : ∀ i : grid0.Coords, ∀ a, (k0_off85 i) a + S1x1.size a ≤ S2x1024.size a
  k0_off87_inb : ∀ i : grid0.Coords, ∀ a, (k0_off87 i) a + S1x1.size a ≤ S2x1024.size a
  k0_off89_inb : ∀ i : grid0.Coords, ∀ a, (k0_off89 i) a + S1x1.size a ≤ S2x1024.size a
  k0_off91_inb : ∀ i : grid0.Coords, ∀ a, (k0_off91 i) a + S1x1.size a ≤ S2x1024.size a
  k0_off93_inb : ∀ i : grid0.Coords, ∀ a, (k0_off93 i) a + S1x1.size a ≤ S2x1024.size a
  k0_off95_inb : ∀ i : grid0.Coords, ∀ a, (k0_off95 i) a + S1x1.size a ≤ S2x1024.size a
  k0_off97_inb : ∀ i : grid0.Coords, ∀ a, (k0_off97 i) a + S1x1.size a ≤ S2x1024.size a
  k0_off99_inb : ∀ i : grid0.Coords, ∀ a, (k0_off99 i) a + S1x1.size a ≤ S2x1024.size a
  k0_off101_inb : ∀ i : grid0.Coords, ∀ a, (k0_off101 i) a + S1x1.size a ≤ S2x1024.size a
  k0_off103_inb : ∀ i : grid0.Coords, ∀ a, (k0_off103 i) a + S1x1.size a ≤ S2x1024.size a
  k0_off105_inb : ∀ i : grid0.Coords, ∀ a, (k0_off105 i) a + S1x1.size a ≤ S2x1024.size a
  k0_off107_inb : ∀ i : grid0.Coords, ∀ a, (k0_off107 i) a + S1x1.size a ≤ S2x1024.size a
  k0_off109_inb : ∀ i : grid0.Coords, ∀ a, (k0_off109 i) a + S1x1.size a ≤ S2x1024.size a
  k0_off111_inb : ∀ i : grid0.Coords, ∀ a, (k0_off111 i) a + S1x1.size a ≤ S2x1024.size a
  k0_off113_inb : ∀ i : grid0.Coords, ∀ a, (k0_off113 i) a + S1x1.size a ≤ S2x1024.size a
  k0_off115_inb : ∀ i : grid0.Coords, ∀ a, (k0_off115 i) a + S1x1.size a ≤ S2x1024.size a
  k0_off117_inb : ∀ i : grid0.Coords, ∀ a, (k0_off117 i) a + S1x1.size a ≤ S2x1024.size a
  k0_off119_inb : ∀ i : grid0.Coords, ∀ a, (k0_off119 i) a + S1x1.size a ≤ S2x1024.size a
  k0_off121_inb : ∀ i : grid0.Coords, ∀ a, (k0_off121 i) a + S1x1.size a ≤ S2x1024.size a
  k0_off123_inb : ∀ i : grid0.Coords, ∀ a, (k0_off123 i) a + S1x1.size a ≤ S2x1024.size a
  k0_off125_inb : ∀ i : grid0.Coords, ∀ a, (k0_off125 i) a + S1x1.size a ≤ S2x1024.size a
  k0_off127_inb : ∀ i : grid0.Coords, ∀ a, (k0_off127 i) a + S1x1.size a ≤ S2x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x216x256.size a ≤ S2x216x256.size a
  hwx0_0 : ∀ i : grid0.Coords, EltTy.bits .bf16 = 32 ∨ (Rect.block (s := S2x216x256) S1x216x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1x216x256.size a ≤ S2x216x256.size a
  hwx0_1 : ∀ i : grid0.Coords, EltTy.bits .bf16 = 32 ∨ (Rect.block (s := S2x216x256) S1x216x256.size (cc0_transform_2 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S1x64x16.size a ≤ S2x1024x16.size a
  hwx0_2 : ∀ i : grid0.Coords, EltTy.bits .f32 = 32 ∨ (Rect.block (s := S2x1024x16) S1x64x16.size (cc0_transform_3 i) (hinb0_2 i)).WholeWords (EltTy.packing .f32)

variable [Facts₀]

abbrev cc0_scratch3 : DmaSems sig S64 := SemArray.consecutive 6 S64 hcc0_scratch3
def dot_S64x216_S216x256_S64x256_1_0_0_1_n_n : DotDims S64x216 S216x256 S64x256 where
  lhsContracting := [1]
  rhsContracting := [0]
  lhsNonContracting := [0]
  rhsNonContracting := [1]
  lhsBatch := []
  rhsBatch := []
  wf := dot_S64x216_S216x256_S64x256_1_0_0_1_n_n_wf
def dot_S64x2x128_S64x128x512_S64x2x512_2_1_1_2_0_0 : DotDims S64x2x128 S64x128x512 S64x2x512 where
  lhsContracting := [2]
  rhsContracting := [1]
  lhsNonContracting := [1]
  rhsNonContracting := [2]
  lhsBatch := [0]
  rhsBatch := [0]
  wf := dot_S64x2x128_S64x128x512_S64x2x512_2_1_1_2_0_0_wf
def dot_S64x8x128_S64x128x2_S64x8x2_2_1_1_2_0_0 : DotDims S64x8x128 S64x128x2 S64x8x2 where
  lhsContracting := [2]
  rhsContracting := [1]
  lhsNonContracting := [1]
  rhsNonContracting := [2]
  lhsBatch := [0]
  rhsBatch := [0]
  wf := dot_S64x8x128_S64x128x2_S64x8x2_2_1_1_2_0_0_wf

abbrev spec0_0 : Pipeline.WinSpec sig grid0.rank :=
  Pipeline.WinSpec.ofSpec (Memref.whole main_v7) S1x216x256.size reads0_0 false false 2 stage0_0 sem0_0 nbuf0_0 hstage0_0

abbrev spec0_1 : Pipeline.WinSpec sig grid0.rank :=
  Pipeline.WinSpec.ofSpec (Memref.whole main_v10) S1x216x256.size reads0_1 false false 2 stage0_1 sem0_1 nbuf0_1 hstage0_1

abbrev spec0_2 : Pipeline.WinSpec sig grid0.rank :=
  Pipeline.WinSpec.ofSpec (Memref.whole main_v11) S1x64x16.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_2 | 2 => cc0_transform_3 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S2x1024 : Shape := ⟨2, ![2, 1024]⟩
abbrev S2x216x256 : Shape := ⟨3, ![2, 216, 256]⟩
abbrev S2x216x65536 : Shape := ⟨3, ![2, 216, 65536]⟩
abbrev S_ : Shape := ⟨0, ![]⟩
abbrev S2x1024x1 : Shape := ⟨3, ![2, 1024, 1]⟩
abbrev S2x1024x256 : Shape := ⟨3, ![2, 1024, 256]⟩
abbrev S2x1024x2x128 : Shape := ⟨4, ![2, 1024, 2, 128]⟩
abbrev S2x1024x65536 : Shape := ⟨3, ![2, 1024, 65536]⟩
abbrev S2x1024x128x512 : Shape := ⟨4, ![2, 1024, 128, 512]⟩
abbrev S2x1024x128x2 : Shape := ⟨4, ![2, 1024, 128, 2]⟩
abbrev S2x1024x2x512 : Shape := ⟨4, ![2, 1024, 2, 512]⟩
abbrev S2x1024x8x128 : Shape := ⟨4, ![2, 1024, 8, 128]⟩
abbrev S2x1024x8x2 : Shape := ⟨4, ![2, 1024, 8, 2]⟩
abbrev S2x1024x16 : Shape := ⟨3, ![2, 1024, 16]⟩

abbrev nBuf : Space → Nat
  | .hbm => 118
  | .vmem => 0
  | .smem => 0
  | _ => 0

abbrev bufTy : (tb : Table) → Fin (tcTables nBuf tb) → BufTy
  | .hbm, ⟨0, _⟩ => ⟨S2x1024, .i32⟩
  | .hbm, ⟨1, _⟩ => ⟨S2x216x256, .f32⟩
  | .hbm, ⟨2, _⟩ => ⟨S2x216x65536, .f32⟩
  | .hbm, ⟨3, _⟩ => ⟨S2x216x256, .f32⟩
  | .hbm, ⟨4, _⟩ => ⟨S_, .i32⟩
  | .hbm, ⟨5, _⟩ => ⟨S_, .i32⟩
  | .hbm, ⟨6, _⟩ => ⟨S2x1024, .i32⟩
  | .hbm, ⟨7, _⟩ => ⟨S2x1024, .i32⟩
  | .hbm, ⟨8, _⟩ => ⟨S2x1024, .i32⟩
  | .hbm, ⟨9, _⟩ => ⟨S_, .i32⟩
  | .hbm, ⟨10, _⟩ => ⟨S2x1024, .i32⟩
  | .hbm, ⟨11, _⟩ => ⟨S2x1024, .i1⟩
  | .hbm, ⟨12, _⟩ => ⟨S2x1024, .i32⟩
  | .hbm, ⟨13, _⟩ => ⟨S2x1024, .i32⟩
  | .hbm, ⟨14, _⟩ => ⟨S_, .i32⟩
  | .hbm, ⟨15, _⟩ => ⟨S2x1024, .i32⟩
  | .hbm, ⟨16, _⟩ => ⟨S2x1024, .i1⟩
  | .hbm, ⟨17, _⟩ => ⟨S2x1024, .i1⟩
  | .hbm, ⟨18, _⟩ => ⟨S_, .i32⟩
  | .hbm, ⟨19, _⟩ => ⟨S2x1024, .i32⟩
  | .hbm, ⟨20, _⟩ => ⟨S2x1024, .i32⟩
  | .hbm, ⟨21, _⟩ => ⟨S2x1024, .i32⟩
  | .hbm, ⟨22, _⟩ => ⟨S_, .i32⟩
  | .hbm, ⟨23, _⟩ => ⟨S_, .i32⟩
  | .hbm, ⟨24, _⟩ => ⟨S2x1024, .i32⟩
  | .hbm, ⟨25, _⟩ => ⟨S2x1024, .i32⟩
  | .hbm, ⟨26, _⟩ => ⟨S2x1024, .i32⟩
  | .hbm, ⟨27, _⟩ => ⟨S_, .i32⟩
  | .hbm, ⟨28, _⟩ => ⟨S2x1024, .i32⟩
  | .hbm, ⟨29, _⟩ => ⟨S2x1024, .i1⟩
  | .hbm, ⟨30, _⟩ => ⟨S2x1024, .i32⟩
  | .hbm, ⟨31, _⟩ => ⟨S2x1024, .i32⟩
  | .hbm, ⟨32, _⟩ => ⟨S_, .i32⟩
  | .hbm, ⟨33, _⟩ => ⟨S2x1024, .i32⟩
  | .hbm, ⟨34, _⟩ => ⟨S2x1024, .i1⟩
  | .hbm, ⟨35, _⟩ => ⟨S2x1024, .i1⟩
  | .hbm, ⟨36, _⟩ => ⟨S_, .i32⟩
  | .hbm, ⟨37, _⟩ => ⟨S2x1024, .i32⟩
  | .hbm, ⟨38, _⟩ => ⟨S2x1024, .i32⟩
  | .hbm, ⟨39, _⟩ => ⟨S2x1024, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S2x1024, .i32⟩
  | .hbm, ⟨47, _⟩ => ⟨S2x1024, .i32⟩
  | .hbm, ⟨48, _⟩ => ⟨S_, .i32⟩
  | .hbm, ⟨49, _⟩ => ⟨S2x1024, .i32⟩
  | .hbm, ⟨50, _⟩ => ⟨S2x1024, .i1⟩
  | .hbm, ⟨51, _⟩ => ⟨S_, .i32⟩
  | .hbm, ⟨52, _⟩ => ⟨S2x1024, .i32⟩
  | .hbm, ⟨53, _⟩ => ⟨S2x1024, .i1⟩
  | .hbm, ⟨54, _⟩ => ⟨S_, .i32⟩
  | .hbm, ⟨55, _⟩ => ⟨S_, .i1⟩
  | .hbm, ⟨56, _⟩ => ⟨S2x1024, .i1⟩
  | .hbm, ⟨57, _⟩ => ⟨S2x1024, .i1⟩
  | .hbm, ⟨58, _⟩ => ⟨S2x1024, .i1⟩
  | .hbm, ⟨59, _⟩ => ⟨S2x1024, .i32⟩
  | .hbm, ⟨60, _⟩ => ⟨S2x1024, .i32⟩
  | .hbm, ⟨61, _⟩ => ⟨S2x1024, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S2x1024, .i32⟩
  | .hbm, ⟨69, _⟩ => ⟨S2x1024, .i32⟩
  | .hbm, ⟨70, _⟩ => ⟨S_, .i32⟩
  | .hbm, ⟨71, _⟩ => ⟨S2x1024, .i32⟩
  | .hbm, ⟨72, _⟩ => ⟨S2x1024, .i1⟩
  | .hbm, ⟨73, _⟩ => ⟨S_, .i32⟩
  | .hbm, ⟨74, _⟩ => ⟨S2x1024, .i32⟩
  | .hbm, ⟨75, _⟩ => ⟨S2x1024, .i1⟩
  | .hbm, ⟨76, _⟩ => ⟨S_, .i32⟩
  | .hbm, ⟨77, _⟩ => ⟨S_, .i1⟩
  | .hbm, ⟨78, _⟩ => ⟨S2x1024, .i1⟩
  | .hbm, ⟨79, _⟩ => ⟨S2x1024, .i1⟩
  | .hbm, ⟨80, _⟩ => ⟨S2x1024, .i1⟩
  | .hbm, ⟨81, _⟩ => ⟨S2x1024, .i32⟩
  | .hbm, ⟨82, _⟩ => ⟨S2x1024, .i32⟩
  | .hbm, ⟨83, _⟩ => ⟨S2x1024, .i32⟩
  | .hbm, ⟨84, _⟩ => ⟨S_, .i32⟩
  | .hbm, ⟨85, _⟩ => ⟨S2x1024, .i32⟩
  | .hbm, ⟨86, _⟩ => ⟨S2x1024, .i1⟩
  | .hbm, ⟨87, _⟩ => ⟨S_, .i32⟩
  | .hbm, ⟨88, _⟩ => ⟨S2x1024, .i32⟩
  | .hbm, ⟨89, _⟩ => ⟨S2x1024, .i32⟩
  | .hbm, ⟨90, _⟩ => ⟨S2x1024, .i32⟩
  | .hbm, ⟨91, _⟩ => ⟨S2x1024x1, .i32⟩
  | .hbm, ⟨92, _⟩ => ⟨S2x1024x256, .f32⟩
  | .hbm, ⟨93, _⟩ => ⟨S2x1024x2x128, .f32⟩
  | .hbm, ⟨94, _⟩ => ⟨S_, .i32⟩
  | .hbm, ⟨95, _⟩ => ⟨S2x1024, .i32⟩
  | .hbm, ⟨96, _⟩ => ⟨S2x1024, .i1⟩
  | .hbm, ⟨97, _⟩ => ⟨S_, .i32⟩
  | .hbm, ⟨98, _⟩ => ⟨S2x1024, .i32⟩
  | .hbm, ⟨99, _⟩ => ⟨S2x1024, .i32⟩
  | .hbm, ⟨100, _⟩ => ⟨S2x1024, .i32⟩
  | .hbm, ⟨101, _⟩ => ⟨S2x1024x1, .i32⟩
  | .hbm, ⟨102, _⟩ => ⟨S2x1024x65536, .f32⟩
  | .hbm, ⟨103, _⟩ => ⟨S2x1024x128x512, .f32⟩
  | .hbm, ⟨104, _⟩ => ⟨S_, .i32⟩
  | .hbm, ⟨105, _⟩ => ⟨S2x1024, .i32⟩
  | .hbm, ⟨106, _⟩ => ⟨S2x1024, .i1⟩
  | .hbm, ⟨107, _⟩ => ⟨S_, .i32⟩
  | .hbm, ⟨108, _⟩ => ⟨S2x1024, .i32⟩
  | .hbm, ⟨109, _⟩ => ⟨S2x1024, .i32⟩
  | .hbm, ⟨110, _⟩ => ⟨S2x1024, .i32⟩
  | .hbm, ⟨111, _⟩ => ⟨S2x1024x1, .i32⟩
  | .hbm, ⟨112, _⟩ => ⟨S2x1024x256, .f32⟩
  | .hbm, ⟨113, _⟩ => ⟨S2x1024x128x2, .f32⟩
  | .hbm, ⟨114, _⟩ => ⟨S2x1024x2x512, .f32⟩
  | .hbm, ⟨115, _⟩ => ⟨S2x1024x8x128, .f32⟩
  | .hbm, ⟨116, _⟩ => ⟨S2x1024x8x2, .f32⟩
  | .hbm, ⟨117, _⟩ => ⟨S2x1024x16, .f32⟩
  | _, _ => ⟨S2x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v1 : Ref sig .tc := ⟨.hbm, 39, rfl⟩
abbrev main_c_1 : Ref sig .tc := ⟨.hbm, 40, rfl⟩
abbrev main_call2_v0 : Ref sig .tc := ⟨.hbm, 41, rfl⟩
abbrev main_call2_c : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_c_1 : Ref sig .tc := ⟨.hbm, 48, rfl⟩
abbrev main_call2_v5 : Ref sig .tc := ⟨.hbm, 49, rfl⟩
abbrev main_call2_v6 : Ref sig .tc := ⟨.hbm, 50, rfl⟩
abbrev main_call2_c_2 : Ref sig .tc := ⟨.hbm, 51, rfl⟩
abbrev main_call2_v7 : Ref sig .tc := ⟨.hbm, 52, rfl⟩
abbrev main_call2_v8 : Ref sig .tc := ⟨.hbm, 53, rfl⟩
abbrev main_call2_c_3 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_v12 : Ref sig .tc := ⟨.hbm, 58, rfl⟩
abbrev main_call2_v13 : Ref sig .tc := ⟨.hbm, 59, rfl⟩
abbrev main_call2_v14 : Ref sig .tc := ⟨.hbm, 60, rfl⟩
abbrev main_v2 : Ref sig .tc := ⟨.hbm, 61, rfl⟩
abbrev main_c_2 : Ref sig .tc := ⟨.hbm, 62, rfl⟩
abbrev main_call3_v0 : Ref sig .tc := ⟨.hbm, 63, rfl⟩
abbrev main_call3_c : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_c_1 : Ref sig .tc := ⟨.hbm, 70, rfl⟩
abbrev main_call3_v5 : Ref sig .tc := ⟨.hbm, 71, rfl⟩
abbrev main_call3_v6 : Ref sig .tc := ⟨.hbm, 72, rfl⟩
abbrev main_call3_c_2 : Ref sig .tc := ⟨.hbm, 73, rfl⟩
abbrev main_call3_v7 : Ref sig .tc := ⟨.hbm, 74, rfl⟩
abbrev main_call3_v8 : Ref sig .tc := ⟨.hbm, 75, rfl⟩
abbrev main_call3_c_3 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_v3 : Ref sig .tc := ⟨.hbm, 83, rfl⟩
abbrev main_c_3 : Ref sig .tc := ⟨.hbm, 84, rfl⟩
abbrev main_v4 : Ref sig .tc := ⟨.hbm, 85, rfl⟩
abbrev main_v5 : Ref sig .tc := ⟨.hbm, 86, rfl⟩
abbrev main_c_4 : Ref sig .tc := ⟨.hbm, 87, rfl⟩
abbrev main_v6 : Ref sig .tc := ⟨.hbm, 88, rfl⟩
abbrev main_v7 : Ref sig .tc := ⟨.hbm, 89, rfl⟩
abbrev main_v8 : Ref sig .tc := ⟨.hbm, 90, rfl⟩
abbrev main_v9 : Ref sig .tc := ⟨.hbm, 91, rfl⟩
abbrev main_v10 : Ref sig .tc := ⟨.hbm, 92, rfl⟩
abbrev main_v11 : Ref sig .tc := ⟨.hbm, 93, rfl⟩
abbrev main_c_5 : Ref sig .tc := ⟨.hbm, 94, rfl⟩
abbrev main_v12 : Ref sig .tc := ⟨.hbm, 95, rfl⟩
abbrev main_v13 : Ref sig .tc := ⟨.hbm, 96, rfl⟩
abbrev main_c_6 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_c_7 : Ref sig .tc := ⟨.hbm, 104, rfl⟩
abbrev main_v20 : Ref sig .tc := ⟨.hbm, 105, rfl⟩
abbrev main_v21 : Ref sig .tc := ⟨.hbm, 106, rfl⟩
abbrev main_c_8 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩

abbrev nD : Nat := 1
abbrev τ : Topo := Topo.v7x

variable {F : FTy → Type} [FloatOps F]

class Facts₀ : Prop where
  bcast_S_S2x1024 : S_.BroadcastsInDim S2x1024 (![] : Fin 0 → Fin S2x1024.rank)
  bcast_S2x1024_S2x1024x1_0_1 : S2x1024.BroadcastsInDim S2x1024x1 (![0, 1] : Fin 2 → Fin S2x1024x1.rank)
  shapeCasts_S2x1024x256_S2x1024x2x128 : S2x1024x256.ShapeCasts S2x1024x2x128
  shapeCasts_S2x1024x65536_S2x1024x128x512 : S2x1024x65536.ShapeCasts S2x1024x128x512
  shapeCasts_S2x1024x256_S2x1024x128x2 : S2x1024x256.ShapeCasts S2x1024x128x2
  shapeCasts_S2x1024x2x512_S2x1024x8x128 : S2x1024x2x512.ShapeCasts S2x1024x8x128
  shapeCasts_S2x1024x8x2_S2x1024x16 : S2x1024x8x2.ShapeCasts S2x1024x16
  gather_S2x216x256_S2x1024x1_S2x1024x256_2_1_0_0_1_2_11256_wf : GatherDims.WF S2x216x256 S2x1024x1 S2x1024x256 [2] [1] [0] [1] [0] 2 ![1, 1, 256]
  gather_S2x216x65536_S2x1024x1_S2x1024x65536_2_1_0_0_1_2_1165536_wf : GatherDims.WF S2x216x65536 S2x1024x1 S2x1024x65536 [2] [1] [0] [1] [0] 2 ![1, 1, 65536]
  dot_S2x1024x2x128_S2x1024x128x512_S2x1024x2x512_3_2_2_3_01_01_wf : DotDims.WF S2x1024x2x128 S2x1024x128x512 S2x1024x2x512 [3] [2] [2] [3] [0, 1] [0, 1]
  dot_S2x1024x8x128_S2x1024x128x2_S2x1024x8x2_3_2_2_3_01_01_wf : DotDims.WF S2x1024x8x128 S2x1024x128x2 S2x1024x8x2 [3] [2] [2] [3] [0, 1] [0, 1]

variable [Facts₀]

def gather_S2x216x256_S2x1024x1_S2x1024x256_2_1_0_0_1_2_11256 : GatherDims S2x216x256 S2x1024x1 S2x1024x256 where
  offsetDims := [2]
  collapsedSliceDims := [1]
  operandBatchingDims := [0]
  startIndicesBatchingDims := [0]
  startIndexMap := [1]
  indexVectorDim := 2
  sliceSizes := ![1, 1, 256]
  wf := gather_S2x216x256_S2x1024x1_S2x1024x256_2_1_0_0_1_2_11256_wf
def gather_S2x216x65536_S2x1024x1_S2x1024x65536_2_1_0_0_1_2_1165536 : GatherDims S2x216x65536 S2x1024x1 S2x1024x65536 where
  offsetDims := [2]
  collapsedSliceDims := [1]
  operandBatchingDims := [0]
  startIndicesBatchingDims := [0]
  startIndexMap := [1]
  indexVectorDim := 2
  sliceSizes := ![1, 1, 65536]
  wf := gather_S2x216x65536_S2x1024x1_S2x1024x65536_2_1_0_0_1_2_1165536_wf
def dot_S2x1024x2x128_S2x1024x128x512_S2x1024x2x512_3_2_2_3_01_01 : DotDims S2x1024x2x128 S2x1024x128x512 S2x1024x2x512 where
  lhsContracting := [3]
  rhsContracting := [2]
  lhsNonContracting := [2]
  rhsNonContracting := [3]
  lhsBatch := [0, 1]
  rhsBatch := [0, 1]
  wf := dot_S2x1024x2x128_S2x1024x128x512_S2x1024x2x512_3_2_2_3_01_01_wf
def dot_S2x1024x8x128_S2x1024x128x2_S2x1024x8x2_3_2_2_3_01_01 : DotDims S2x1024x8x128 S2x1024x128x2 S2x1024x8x2 where
  lhsContracting := [3]
  rhsContracting := [2]
  lhsNonContracting := [2]
  rhsNonContracting := [3]
  lhsBatch := [0, 1]
  rhsBatch := [0, 1]
  wf := dot_S2x1024x8x128_S2x1024x128x2_S2x1024x8x2_3_2_2_3_01_01_wf

class Facts : Prop extends Facts₀ where

variable [Facts]
-- ==== Proof.PreDecode.lean ====
/- The last conjunct of the precondition, read entry by entry: every index is non-negative. -/
import proofs.«403558_j46694884442289_3_alg».proof.Pre_finite_inputs
import proofs.«403558_j46694884442289_3_alg».proof.Proof.Gen.Pre_finite_inputs
import Idealize.ShloMosaic.Lib.ReduceAll

namespace Cert.Proof.PreDecode

open Idealize.ShloMosaic

instance : Subsingleton Cert.Pre_finite_inputs.S_.Idx := ⟨fun _ _ => funext fun d => d.elim0⟩

theorem nonneg_of_pre {F : FTy → Type} [FloatOps F] (a0 : IVec Cert.Pre_finite_inputs.S2x1024 32)
    (a1 : FVec F Cert.Pre_finite_inputs.S2x216x256 .f32) (a2 : FVec F Cert.Pre_finite_inputs.S2x216x65536 .f32)
    (a3 : FVec F Cert.Pre_finite_inputs.S2x216x256 .f32)
    (h : Cert.Pre_finite_inputs.fn (F := F) a0 a1 a2 a3 = fun _ => 1#1) : ∀ j, 0 ≤ (a0 j).toInt := by
  intro j
  have h0 := congrFun h (fun d => d.elim0)
  dsimp only [Cert.Pre_finite_inputs.fn, Cert.Pre_finite_inputs.fn_part1, andi] at h0
  have hall := (IntOp.andi_eq_one.1 h0).2
  have hj := Host.reduce_andi_all _ _ _ _ _ hall j
  have hle : (0#32 : BitVec 32).toInt ≤ (a0 j).toInt := IntOp.cmpi_sge.1 hj
  have e0 : (0#32 : BitVec 32).toInt = 0 := by decide
  rw [e0] at hle
  exact hle

end Cert.Proof.PreDecode
-- ==== Proof.RefRun.lean ====
/- The reference's run, one operation after another: it terminates, keeps its arguments, and its result is the composed term of the arguments. -/
import proofs.«403558_j46694884442289_3_alg».proof.Defs
import proofs.«403558_j46694884442289_3_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ nullary main_c (constantI S_ 32 46656#32),
    TRef.unary (.of main_c) main_call0.v0 id,
    TRef.unary main_call0.v0 main_call0.v1 (broadcastInDim S2x1024 ![] bcast_S_S2x1024),
    TRef.binary (.of main_arg0) main_call0.v1 main_call0.v2 Host.divsi,
    TRef.unary (.of main_arg0) main_call0.v3 signi,
    TRef.unary main_call0.v0 main_call0.v4 signi,
    TRef.unary main_call0.v4 main_call0.v5 (broadcastInDim S2x1024 ![] bcast_S_S2x1024),
    TRef.binary main_call0.v3 main_call0.v5 main_call0.v6 (cmpi .ne),
    TRef.unary main_call0.v0 main_call0.v7 (broadcastInDim S2x1024 ![] bcast_S_S2x1024),
    TRef.binary (.of main_arg0) main_call0.v7 main_call0.v8 Host.remsi,
    TRef.nullary main_call0.c (constantI S_ 32 0#32),
    TRef.unary main_call0.c main_call0.v9 (broadcastInDim S2x1024 ![] bcast_S_S2x1024),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S2x1024 ![] bcast_S_S2x1024),
    TRef.binary main_call0.v2 main_call0.v12 main_call0.v13 subi,
    TRef.ternary main_call0.v11 main_call0.v13 main_call0.v2 main_call0.call0.v0 select,
    nullary main_c_0 (constantI S_ 32 216#32),
    TRef.unary (.of main_c_0) main_call1.v0 id,
    TRef.unary main_call1.v0 main_call1.v1 (broadcastInDim S2x1024 ![] bcast_S_S2x1024),
    TRef.binary (.of main_arg0) main_call1.v1 main_call1.v2 Host.divsi,
    TRef.unary (.of main_arg0) main_call1.v3 signi,
    TRef.unary main_call1.v0 main_call1.v4 signi,
    TRef.unary main_call1.v4 main_call1.v5 (broadcastInDim S2x1024 ![] bcast_S_S2x1024),
    TRef.binary main_call1.v3 main_call1.v5 main_call1.v6 (cmpi .ne),
    TRef.unary main_call1.v0 main_call1.v7 (broadcastInDim S2x1024 ![] bcast_S_S2x1024),
    TRef.binary (.of main_arg0) main_call1.v7 main_call1.v8 Host.remsi,
    TRef.nullary main_call1.c (constantI S_ 32 0#32),
    TRef.unary main_call1.c main_call1.v9 (broadcastInDim S2x1024 ![] bcast_S_S2x1024),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S2x1024 ![] bcast_S_S2x1024),
    TRef.binary main_call1.v2 main_call1.v12 main_call1.v13 subi,
    TRef.ternary main_call1.v11 main_call1.v13 main_call1.v2 main_call1.call0.v0 select,
    nullary main_c_1 (constantI S_ 32 216#32),
    TRef.unary (.of main_c_1) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S2x1024 ![] bcast_S_S2x1024),
    TRef.binary (.of main_v1) main_call2.v3 main_call2.v4 Host.remsi,
    TRef.nullary main_call2.c_1 (constantI S_ 32 0#32),
    TRef.unary main_call2.c_1 main_call2.v5 (broadcastInDim S2x1024 ![] bcast_S_S2x1024),
    TRef.binary main_call2.v4 main_call2.v5 main_call2.v6 (cmpi .ne),
    TRef.nullary main_call2.c_2 (constantI S_ 32 0#32),
    TRef.unary main_call2.c_2 main_call2.v7 (broadcastInDim S2x1024 ![] bcast_S_S2x1024),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S2x1024 ![] bcast_S_S2x1024),
    TRef.binary main_call2.v8 main_call2.v10 main_call2.v11 (cmpi .ne),
    TRef.binary main_call2.v11 main_call2.v6 main_call2.v12 andi,
    TRef.unary main_call2.call0.v0 main_call2.v13 (broadcastInDim S2x1024 ![] bcast_S_S2x1024),
    TRef.binary main_call2.v4 main_call2.v13 main_call2.v14 addi,
    TRef.ternary main_call2.v12 main_call2.v14 main_call2.v4 main_call2.v15 select,
    nullary main_c_2 (constantI S_ 32 216#32),
    TRef.unary (.of main_c_2) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S2x1024 ![] bcast_S_S2x1024),
    TRef.binary (.of main_arg0) main_call3.v3 main_call3.v4 Host.remsi,
    TRef.nullary main_call3.c_1 (constantI S_ 32 0#32),
    TRef.unary main_call3.c_1 main_call3.v5 (broadcastInDim S2x1024 ![] bcast_S_S2x1024),
    TRef.binary main_call3.v4 main_call3.v5 main_call3.v6 (cmpi .ne),
    TRef.nullary main_call3.c_2 (constantI S_ 32 0#32),
    TRef.unary main_call3.c_2 main_call3.v7 (broadcastInDim S2x1024 ![] bcast_S_S2x1024),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S2x1024 ![] bcast_S_S2x1024),
    TRef.binary main_call3.v8 main_call3.v10 main_call3.v11 (cmpi .ne),
    TRef.binary main_call3.v11 main_call3.v6 main_call3.v12 andi,
    TRef.unary main_call3.call0.v0 main_call3.v13 (broadcastInDim S2x1024 ![] bcast_S_S2x1024),
    TRef.binary main_call3.v4 main_call3.v13 main_call3.v14 addi,
    TRef.ternary main_call3.v12 main_call3.v14 main_call3.v4 main_call3.v15 select,
    nullary main_c_3 (constantI S_ 32 0#32),
    unary main_c_3 main_v4 (broadcastInDim S2x1024 ![] bcast_S_S2x1024 : (⟨S_, .i32⟩ : BufTy).Contents (Elt F) → (⟨S2x1024, .i32⟩ : BufTy).Contents (Elt F)),
    binary main_v0 main_v4 main_v5 (cmpi .slt : (⟨S2x1024, .i32⟩ : BufTy).Contents (Elt F) → (⟨S2x1024, .i32⟩ : BufTy).Contents (Elt F) → (⟨S2x1024, .i1⟩ : BufTy).Contents (Elt F)),
    nullary main_c_4 (constantI S_ 32 216#32),
    unary main_c_4 main_v6 (broadcastInDim S2x1024 ![] bcast_S_S2x1024 : (⟨S_, .i32⟩ : BufTy).Contents (Elt F) → (⟨S2x1024, .i32⟩ : BufTy).Contents (Elt F)),
    binary main_v0 main_v6 main_v7 (addi : (⟨S2x1024, .i32⟩ : BufTy).Contents (Elt F) → (⟨S2x1024, .i32⟩ : BufTy).Contents (Elt F) → (⟨S2x1024, .i32⟩ : BufTy).Contents (Elt F)),
    ternary main_v5 main_v7 main_v0 main_v8 (select : (⟨S2x1024, .i1⟩ : BufTy).Contents (Elt F) → (⟨S2x1024, .i32⟩ : BufTy).Contents (Elt F) → (⟨S2x1024, .i32⟩ : BufTy).Contents (Elt F) → (⟨S2x1024, .i32⟩ : BufTy).Contents (Elt F)),
    unary main_v8 main_v9 (broadcastInDim S2x1024x1 ![0, 1] bcast_S2x1024_S2x1024x1_0_1 : (⟨S2x1024, .i32⟩ : BufTy).Contents (Elt F) → (⟨S2x1024x1, .i32⟩ : BufTy).Contents (Elt F)),
    binary main_arg1 main_v9 main_v10 ((fun x i => Host.gather gather_S2x216x256_S2x1024x1_S2x1024x256_2_1_0_0_1_2_11256 x i) : (⟨S2x216x256, .f32⟩ : BufTy).Contents (Elt F) → (⟨S2x1024x1, .i32⟩ : BufTy).Contents (Elt F) → (⟨S2x1024x256, .f32⟩ : BufTy).Contents (Elt F)),
    reshape main_v10 main_v11 rfl shapeCasts_S2x1024x256_S2x1024x2x128,
    nullary main_c_5 (constantI S_ 32 0#32),
    unary main_c_5 main_v12 (broadcastInDim S2x1024 ![] bcast_S_S2x1024 : (⟨S_, .i32⟩ : BufTy).Contents (Elt F) → (⟨S2x1024, .i32⟩ : BufTy).Contents (Elt F)),
    binary main_v2 main_v12 main_v13 (cmpi .slt : (⟨S2x1024, .i32⟩ : BufTy).Contents (Elt F) → (⟨S2x1024, .i32⟩ : BufTy).Contents (Elt F) → (⟨S2x1024, .i1⟩ : BufTy).Contents (Elt F)),
    nullary main_c_6 (constantI S_ 32 216#32),
    unary main_c_6 main_v14 (broadcastInDim S2x1024 ![] bcast_S_S2x1024 : (⟨S_, .i32⟩ : BufTy).Contents (Elt F) → (⟨S2x1024, .i32⟩ : BufTy).Contents (Elt F)),
    binary main_v2 main_v14 main_v15 (addi : (⟨S2x1024, .i32⟩ : BufTy).Contents (Elt F) → (⟨S2x1024, .i32⟩ : BufTy).Contents (Elt F) → (⟨S2x1024, .i32⟩ : BufTy).Contents (Elt F)),
    ternary main_v13 main_v15 main_v2 main_v16 (select : (⟨S2x1024, .i1⟩ : BufTy).Contents (Elt F) → (⟨S2x1024, .i32⟩ : BufTy).Contents (Elt F) → (⟨S2x1024, .i32⟩ : BufTy).Contents (Elt F) → (⟨S2x1024, .i32⟩ : BufTy).Contents (Elt F)),
    unary main_v16 main_v17 (broadcastInDim S2x1024x1 ![0, 1] bcast_S2x1024_S2x1024x1_0_1 : (⟨S2x1024, .i32⟩ : BufTy).Contents (Elt F) → (⟨S2x1024x1, .i32⟩ : BufTy).Contents (Elt F)),
    binary main_arg2 main_v17 main_v18 ((fun x i => Host.gather gather_S2x216x65536_S2x1024x1_S2x1024x65536_2_1_0_0_1_2_1165536 x i) : (⟨S2x216x65536, .f32⟩ : BufTy).Contents (Elt F) → (⟨S2x1024x1, .i32⟩ : BufTy).Contents (Elt F) → (⟨S2x1024x65536, .f32⟩ : BufTy).Contents (Elt F)),
    reshape main_v18 main_v19 rfl shapeCasts_S2x1024x65536_S2x1024x128x512,
    nullary main_c_7 (constantI S_ 32 0#32),
    unary main_c_7 main_v20 (broadcastInDim S2x1024 ![] bcast_S_S2x1024 : (⟨S_, .i32⟩ : BufTy).Contents (Elt F) → (⟨S2x1024, .i32⟩ : BufTy).Contents (Elt F)),
    binary main_v3 main_v20 main_v21 (cmpi .slt : (⟨S2x1024, .i32⟩ : BufTy).Contents (Elt F) → (⟨S2x1024, .i32⟩ : BufTy).Contents (Elt F) → (⟨S2x1024, .i1⟩ : BufTy).Contents (Elt F)),
    nullary main_c_8 (constantI S_ 32 216#32),
    unary main_c_8 main_v22 (broadcastInDim S2x1024 ![] bcast_S_S2x1024 : (⟨S_, .i32⟩ : BufTy).Contents (Elt F) → (⟨S2x1024, .i32⟩ : BufTy).Contents (Elt F)),
    binary main_v3 main_v22 main_v23 (addi : (⟨S2x1024, .i32⟩ : BufTy).Contents (Elt F) → (⟨S2x1024, .i32⟩ : BufTy).Contents (Elt F) → (⟨S2x1024, .i32⟩ : BufTy).Contents (Elt F)),
    ternary main_v21 main_v23 main_v3 main_v24 (select : (⟨S2x1024, .i1⟩ : BufTy).Contents (Elt F) → (⟨S2x1024, .i32⟩ : BufTy).Contents (Elt F) → (⟨S2x1024, .i32⟩ : BufTy).Contents (Elt F) → (⟨S2x1024, .i32⟩ : BufTy).Contents (Elt F)),
    unary main_v24 main_v25 (broadcastInDim S2x1024x1 ![0, 1] bcast_S2x1024_S2x1024x1_0_1 : (⟨S2x1024, .i32⟩ : BufTy).Contents (Elt F) → (⟨S2x1024x1, .i32⟩ : BufTy).Contents (Elt F)),
    binary main_arg3 main_v25 main_v26 ((fun x i => Host.gather gather_S2x216x256_S2x1024x1_S2x1024x256_2_1_0_0_1_2_11256 x i) : (⟨S2x216x256, .f32⟩ : BufTy).Contents (Elt F) → (⟨S2x1024x1, .i32⟩ : BufTy).Contents (Elt F) → (⟨S2x1024x256, .f32⟩ : BufTy).Contents (Elt F)),
    reshape main_v26 main_v27 rfl shapeCasts_S2x1024x256_S2x1024x128x2,
    binary main_v11 main_v19 main_v28 ((fun l r => Host.dotGeneral dot_S2x1024x2x128_S2x1024x128x512_S2x1024x2x512_3_2_2_3_01_01 none l r) : (⟨S2x1024x2x128, .f32⟩ : BufTy).Contents (Elt F) → (⟨S2x1024x128x512, .f32⟩ : BufTy).Contents (Elt F) → (⟨S2x1024x2x512, .f32⟩ : BufTy).Contents (Elt F)),
    reshape main_v28 main_v29 rfl shapeCasts_S2x1024x2x512_S2x1024x8x128,
    binary main_v29 main_v27 main_v30 ((fun l r => Host.dotGeneral dot_S2x1024x8x128_S2x1024x128x2_S2x1024x8x2_3_2_2_3_01_01 none l r) : (⟨S2x1024x8x128, .f32⟩ : BufTy).Contents (Elt F) → (⟨S2x1024x128x2, .f32⟩ : BufTy).Contents (Elt F) → (⟨S2x1024x8x2, .f32⟩ : BufTy).Contents (Elt F)),
    reshape main_v30 main_v31 rfl shapeCasts_S2x1024x8x2_S2x1024x16 ]

set_option maxRecDepth 8192 in
set_option maxHeartbeats 4000000 in

theorem main_eq (c : Dev nD) : main (F := F) c = seq ops := by
  simp only [main, fn_floor_divide.body, fn_remainder.body, fn_remainder_1.body, fn_where.body, fn_where_0.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., reshape_bufs_sub .., binary_bufs_sub .., reshape_bufs_sub .., binary_bufs_sub .., reshape_bufs_sub ..⟩

abbrev bcI {α : Type} (x : S_.Idx → α) : S2x1024.Idx → α := broadcastInDim S2x1024 ![] bcast_S_S2x1024 x

def fdivA (d : BitVec 32) (x : IVec S2x1024 32) : IVec S2x1024 32 :=
  select
    (andi (cmpi .ne (signi x) (bcI (signi (constantI S_ 32 d))))
      (cmpi .ne (Host.remsi x (bcI (constantI S_ 32 d))) (bcI (constantI S_ 32 0#32))))
    (subi (Host.divsi x (bcI (constantI S_ 32 d))) (bcI (constantI S_ 32 1#32)))
    (Host.divsi x (bcI (constantI S_ 32 d)))

def divisor (d : BitVec 32) : IVec S_ 32 :=
  select (cmpi .eq (constantI S_ 32 d) (constantI S_ 32 0#32)) (constantI S_ 32 1#32) (constantI S_ 32 d)

def tremA (d : BitVec 32) (x : IVec S2x1024 32) : IVec S2x1024 32 := Host.remsi x (bcI (divisor d))

def fmodA (d : BitVec 32) (x : IVec S2x1024 32) : IVec S2x1024 32 :=
  select
    (andi
      (cmpi .ne (cmpi .slt (tremA d x) (bcI (constantI S_ 32 0#32))) (bcI (cmpi .slt (divisor d) (constantI S_ 32 0#32))))
      (cmpi .ne (tremA d x) (bcI (constantI S_ 32 0#32))))
    (addi (tremA d x) (bcI (divisor d)))
    (tremA d x)

def dig0 (a0 : IVec S2x1024 32) : IVec S2x1024 32 := fdivA 46656#32 a0
def dig1 (a0 : IVec S2x1024 32) : IVec S2x1024 32 := fmodA 216#32 (fdivA 216#32 a0)
def dig2 (a0 : IVec S2x1024 32) : IVec S2x1024 32 := fmodA 216#32 a0

def wrapA (x : IVec S2x1024 32) : IVec S2x1024 32 :=
  select (cmpi .slt x (bcI (constantI S_ 32 0#32))) (addi x (bcI (constantI S_ 32 216#32))) x
def startA (x : IVec S2x1024 32) : IVec S2x1024x1 32 :=
  broadcastInDim S2x1024x1 ![0, 1] bcast_S2x1024_S2x1024x1_0_1 (wrapA x)

def rowsA (a0 : IVec S2x1024 32) (a1 : FVec F S2x216x256 .f32) : FVec F S2x1024x2x128 .f32 :=
  shapeCast S2x1024x2x128 (Host.gather gather_S2x216x256_S2x1024x1_S2x1024x256_2_1_0_0_1_2_11256 a1 (startA (dig0 a0)))
    shapeCasts_S2x1024x256_S2x1024x2x128
def rowsB (a0 : IVec S2x1024 32) (a2 : FVec F S2x216x65536 .f32) : FVec F S2x1024x128x512 .f32 :=
  shapeCast S2x1024x128x512 (Host.gather gather_S2x216x65536_S2x1024x1_S2x1024x65536_2_1_0_0_1_2_1165536 a2 (startA (dig1 a0)))
    shapeCasts_S2x1024x65536_S2x1024x128x512
def rowsC (a0 : IVec S2x1024 32) (a3 : FVec F S2x216x256 .f32) : FVec F S2x1024x128x2 .f32 :=
  shapeCast S2x1024x128x2 (Host.gather gather_S2x216x256_S2x1024x1_S2x1024x256_2_1_0_0_1_2_11256 a3 (startA (dig2 a0)))
    shapeCasts_S2x1024x256_S2x1024x128x2

def prodAB (a0 : IVec S2x1024 32) (a1 : FVec F S2x216x256 .f32) (a2 : FVec F S2x216x65536 .f32) : FVec F S2x1024x8x128 .f32 :=
  shapeCast S2x1024x8x128
    (Host.dotGeneral dot_S2x1024x2x128_S2x1024x128x512_S2x1024x2x512_3_2_2_3_01_01 none (rowsA a0 a1) (rowsB a0 a2))
    shapeCasts_S2x1024x2x512_S2x1024x8x128

def res (a0 : IVec S2x1024 32) (a1 : FVec F S2x216x256 .f32) (a2 : FVec F S2x216x65536 .f32) (a3 : FVec F S2x216x256 .f32) :
    FVec F S2x1024x16 .f32 :=
  shapeCast S2x1024x16
    (Host.dotGeneral dot_S2x1024x8x128_S2x1024x128x2_S2x1024x8x2_3_2_2_3_01_01 none (prodAB a0 a1 a2) (rowsC a0 a3))
    shapeCasts_S2x1024x8x2_S2x1024x16

set_option maxRecDepth 8192 in
set_option maxHeartbeats 40000000 in

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
        = res (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v31).trans (by after_results_simp <;> rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.Proof.Ref

end
-- ==== Proof.Spec.lean ====
/- The function both programs compute. For an output index (b, n, o) the three base-216 digits of the flat index pick one row of each core; `tt` contracts the three rows over the two inner ranks of 128, and `out` reads the rows through the digit maps. -/
import Idealize.ShloMosaic.PureOps.Ideal
import Idealize.ShloMosaic.Lib.ValueIdx

noncomputable section

namespace Cert.Proof.Spec

open Idealize.ShloMosaic Idealize.ShloMosaic.ValueIdx

abbrev SIdx : Shape := ⟨2, ![2, 1024]⟩
abbrev SC0 : Shape := ⟨3, ![2, 216, 256]⟩
abbrev SC1 : Shape := ⟨3, ![2, 216, 65536]⟩
abbrev SOut : Shape := ⟨3, ![2, 1024, 16]⟩

def tt (a : Fin 256 → EReal) (b : Fin 65536 → EReal) (c : Fin 256 → EReal) (o : Fin 16) : EReal :=
  ∑ r1 : Fin 128,
    (∑ r0 : Fin 128,
        a ⟨(o.val / 8) * 128 + r0.val, by have := o.isLt; have := r0.isLt; omega⟩
          * b ⟨r0.val * 512 + ((o.val / 2) % 4) * 128 + r1.val, by have := r0.isLt; have := r1.isLt; omega⟩)
      * c ⟨r1.val * 2 + o.val % 2, by have := r1.isLt; omega⟩

def out (row0 row1 row2 : Fin 2 → Fin 1024 → Fin 216)
    (c0 : SC0.Idx → EReal) (c1 : SC1.Idx → EReal) (c2 : SC0.Idx → EReal) : SOut.Idx → EReal :=
  fun j =>
    tt (fun x => c0 (ix3 (j 0) (row0 (j 0) (j 1)) x))
       (fun x => c1 (ix3 (j 0) (row1 (j 0) (j 1)) x))
       (fun x => c2 (ix3 (j 0) (row2 (j 0) (j 1)) x))
       (j 2)

end Cert.Proof.Spec

end
-- ==== Proof.Digits.lean ====
/- Base-216 digits of a 32-bit index: floor division and remainder by 216 and 46656, the wrap of a negative digit, and the clamp into [0, 215]. For a non-negative index the clamp and the wrap pick the same row. -/
import Mathlib.Data.BitVec
import Idealize.ShloMosaic.PureOps
import Idealize.ShloMosaic.Lib.ValueIdx
import Idealize.ShloMosaic.Lib.WordArith
import proofs.«403558_j46694884442289_3_alg».proof.Proof.Spec

namespace Cert.Proof.Digits

open Idealize.ShloMosaic

def sgn (x : BitVec 32) : BitVec 32 := if x = 0 then 0 else if x.msb then -1 else 1

def fdiv (d x : BitVec 32) : BitVec 32 :=
  Scalar.select (IntOp.andi (IntOp.cmpi .ne (sgn x) (sgn d)) (IntOp.cmpi .ne (IntOp.remsi .host x d) 0#32)) (IntOp.subi (IntOp.divsi .host x d) 1#32) (IntOp.divsi .host x d)

def fmod (d x : BitVec 32) : BitVec 32 :=
  let d' := Scalar.select (IntOp.cmpi .eq d 0#32) 1#32 d
  let r := IntOp.remsi .host x d'
  Scalar.select (IntOp.andi (IntOp.cmpi .ne (IntOp.cmpi .slt r 0#32) (IntOp.cmpi .slt d' 0#32)) (IntOp.cmpi .ne r 0#32)) (IntOp.addi r d') r

def clip215 (x : BitVec 32) : BitVec 32 := IntOp.minsi 215#32 (IntOp.maxsi 0#32 x)

def wrap216 (x : BitVec 32) : BitVec 32 := Scalar.select (IntOp.cmpi .slt x 0#32) (IntOp.addi x 216#32) x

def d0 (x : BitVec 32) : BitVec 32 := fdiv 46656#32 x
def d1 (x : BitVec 32) : BitVec 32 := fmod 216#32 (fdiv 216#32 x)
def d2 (x : BitVec 32) : BitVec 32 := fmod 216#32 x

def row (w : BitVec 32) : Fin 216 := ⟨(max 0 (min w.toInt 215)).toNat, by omega⟩

def rows0 (idx : Cert.Proof.Spec.SIdx.Idx → BitVec 32) : Fin 2 → Fin 1024 → Fin 216 :=
  fun t b => row (d0 (idx (Idealize.ShloMosaic.ValueIdx.ix2 t b)))
def rows1 (idx : Cert.Proof.Spec.SIdx.Idx → BitVec 32) : Fin 2 → Fin 1024 → Fin 216 :=
  fun t b => row (d1 (idx (Idealize.ShloMosaic.ValueIdx.ix2 t b)))
def rows2 (idx : Cert.Proof.Spec.SIdx.Idx → BitVec 32) : Fin 2 → Fin 1024 → Fin 216 :=
  fun t b => row (d2 (idx (Idealize.ShloMosaic.ValueIdx.ix2 t b)))

theorem toInt_zero32 : (0#32 : BitVec 32).toInt = 0 := by decide
theorem toInt_215 : (215#32 : BitVec 32).toInt = 215 := by decide
theorem toInt_216 : (216#32 : BitVec 32).toInt = 216 := by decide
theorem toInt_46656 : (46656#32 : BitVec 32).toInt = 46656 := by decide

theorem select_zero {α : Type} (a b : α) : Scalar.select 0#1 a b = b := by
  unfold Scalar.select; exact if_neg (by decide)

theorem select_one {α : Type} (a b : α) : Scalar.select 1#1 a b = a := by
  unfold Scalar.select; exact if_pos rfl

theorem eq_zero_of_toInt (x : BitVec 32) (h : x.toInt = 0) : x = 0#32 :=
  BitVec.eq_of_toInt_eq (by rw [h, toInt_zero32])

theorem ne_zero_of_toInt_pos (x : BitVec 32) (h : 0 < x.toInt) : ¬ x = 0 := by
  intro e; subst e; exact absurd h (by decide)

theorem not_corner (x d : BitVec 32) (hd : 0 < d.toInt) : ¬ IntOp.SDivCorner x d := by
  rintro (h | ⟨_, h⟩)
  · subst h; exact absurd hd (by decide)
  · subst h; exact absurd hd (by decide)

theorem toInt_divsi (x d : BitVec 32) (hd : 0 < d.toInt) :
    (IntOp.divsi .host x d).toInt = x.toInt.tdiv d.toInt := by
  unfold IntOp.divsi
  rw [if_neg (not_corner x d hd)]
  refine BitVec.toInt_sdiv_of_ne_or_ne x d (Or.inr ?_)
  intro h; subst h; exact absurd hd (by decide)

theorem toInt_remsi (x d : BitVec 32) (hd : 0 < d.toInt) :
    (IntOp.remsi .host x d).toInt = x.toInt.tmod d.toInt := by
  unfold IntOp.remsi
  rw [if_neg (not_corner x d hd)]
  exact BitVec.toInt_srem x d

theorem sgn_of_pos (x : BitVec 32) (h : 0 < x.toInt) : sgn x = 1#32 := by
  have hm : x.msb = false := by rw [BitVec.msb_eq_toInt]; exact decide_eq_false (by omega)
  unfold sgn
  rw [if_neg (ne_zero_of_toInt_pos x h), hm]; rfl

theorem fdiv_of_nonneg (d x : BitVec 32) (hd : 0 < d.toInt) (hx : 0 ≤ x.toInt) :
    fdiv d x = IntOp.divsi .host x d := by
  unfold fdiv
  have hc : IntOp.andi (IntOp.cmpi .ne (sgn x) (sgn d)) (IntOp.cmpi .ne (IntOp.remsi .host x d) 0#32) = 0#1 := by
    rcases Int.lt_or_eq_of_le hx with hpos | h0
    · rw [sgn_of_pos x hpos, sgn_of_pos d hd]
      have e : IntOp.cmpi .ne (1#32 : BitVec 32) 1#32 = 0#1 := by decide
      rw [e]; unfold IntOp.andi; exact BitVec.zero_and
    · have hr : IntOp.remsi .host x d = 0#32 := by
        refine eq_zero_of_toInt _ ?_
        rw [toInt_remsi x d hd, ← h0]; exact Int.zero_tmod _
      rw [hr]
      have e : IntOp.cmpi .ne (0#32 : BitVec 32) 0#32 = 0#1 := by decide
      rw [e]; unfold IntOp.andi; exact BitVec.and_zero
  rw [hc, select_zero]

theorem toInt_fdiv_of_nonneg (d x : BitVec 32) (hd : 0 < d.toInt) (hx : 0 ≤ x.toInt) :
    (fdiv d x).toInt = x.toInt / d.toInt := by
  rw [fdiv_of_nonneg d x hd hx, toInt_divsi x d hd, Int.tdiv_eq_ediv_of_nonneg hx]

theorem fdiv_nonneg (d x : BitVec 32) (hd : 0 < d.toInt) (hx : 0 ≤ x.toInt) : 0 ≤ (fdiv d x).toInt := by
  rw [fdiv_of_nonneg d x hd hx, toInt_divsi x d hd]
  exact Int.tdiv_nonneg hx (Int.le_of_lt hd)

theorem toInt_fmod216 (x : BitVec 32) : (fmod 216#32 x).toInt = x.toInt % 216 := by
  have hd : (0 : Int) < (216#32 : BitVec 32).toInt := by rw [toInt_216]; omega
  have hd' : Scalar.select (IntOp.cmpi .eq (216#32 : BitVec 32) 0#32) 1#32 216#32 = 216#32 := by decide
  have hs : IntOp.cmpi .slt (216#32 : BitVec 32) 0#32 = 0#1 := by decide
  unfold fmod
  dsimp only
  rw [hd', hs]
  generalize hr : IntOp.remsi .host x 216#32 = r
  have hrt : r.toInt = x.toInt.tmod 216 := by rw [← hr, toInt_remsi x _ hd, toInt_216]
  have h1 := Int.mul_tdiv_add_tmod x.toInt 216
  have h2 := Int.tmod_lt_of_pos x.toInt (b := 216) (by omega)
  have h3 := Int.lt_tmod_of_pos x.toInt (b := 216) (by omega)
  by_cases hneg : r.toInt < 0
  · have hslt : IntOp.cmpi .slt r 0#32 = 1#1 := by
      unfold IntOp.cmpi
      have : r.slt 0#32 = true := BitVec.slt_iff_toInt_lt.mpr (by rw [toInt_zero32]; exact hneg)
      simp only [this]; rfl
    have hne : IntOp.cmpi .ne r 0#32 = 1#1 := by
      unfold IntOp.cmpi
      have : (r != 0#32) = true := by
        rw [bne_iff_ne]; intro e; rw [e, toInt_zero32] at hneg; omega
      simp only [this]; rfl
    have e : IntOp.andi (IntOp.cmpi .ne (1#1 : BitVec 1) 0#1) (1#1 : BitVec 1) = 1#1 := by decide
    rw [hslt, hne, e, select_one]
    unfold IntOp.addi
    rw [WordArith.toInt_add_of_bounds r 216#32 (by rw [toInt_216]; omega) (by rw [toInt_216]; omega), toInt_216]
    omega
  · have hslt : IntOp.cmpi .slt r 0#32 = 0#1 := by
      unfold IntOp.cmpi
      have : r.slt 0#32 = false := by
        rw [Bool.eq_false_iff]; intro h
        exact hneg (by have := BitVec.slt_iff_toInt_lt.mp h; rwa [toInt_zero32] at this)
      simp only [this]; rfl
    have e : IntOp.cmpi .ne (0#1 : BitVec 1) 0#1 = 0#1 := by decide
    rw [hslt, e]
    unfold IntOp.andi
    rw [BitVec.zero_and, select_zero]
    omega

theorem fmod216_nonneg (x : BitVec 32) : 0 ≤ (fmod 216#32 x).toInt := by
  rw [toInt_fmod216]; omega

theorem d0_nonneg (x : BitVec 32) (h : 0 ≤ x.toInt) : 0 ≤ (d0 x).toInt :=
  fdiv_nonneg 46656#32 x (by rw [toInt_46656]; omega) h

theorem d1_nonneg' (x : BitVec 32) : 0 ≤ (d1 x).toInt := fmod216_nonneg _

theorem d1_nonneg (x : BitVec 32) (_h : 0 ≤ x.toInt) : 0 ≤ (d1 x).toInt := d1_nonneg' x

theorem d2_nonneg' (x : BitVec 32) : 0 ≤ (d2 x).toInt := fmod216_nonneg _

theorem d2_nonneg (x : BitVec 32) (_h : 0 ≤ x.toInt) : 0 ≤ (d2 x).toInt := d2_nonneg' x

theorem toInt_clip215 (w : BitVec 32) : (clip215 w).toInt = max 0 (min w.toInt 215) := by
  unfold clip215 IntOp.minsi
  have hm := WordArith.toInt_maxsi_zero w
  by_cases h : (215#32 : BitVec 32).slt (IntOp.maxsi 0#32 w) = true
  · rw [if_pos h, toInt_215]
    rw [BitVec.slt_iff_toInt_lt, toInt_215, hm] at h
    omega
  · rw [if_neg h, hm]
    rw [BitVec.slt_iff_toInt_lt, toInt_215, hm] at h
    omega

theorem clip215_toNat (w : BitVec 32) : (clip215 w).toNat = (row w).val := by
  have h := toInt_clip215 w
  have e := BitVec.toInt_eq_toNat_cond (clip215 w)
  have hl := (clip215 w).isLt
  show (clip215 w).toNat = (max 0 (min w.toInt 215)).toNat
  split at e <;> omega

theorem clip215_eq_ofNat (w : BitVec 32) : clip215 w = BitVec.ofNat 32 (row w).val := by
  refine BitVec.eq_of_toNat_eq ?_
  rw [clip215_toNat, BitVec.toNat_ofNat]
  have := (row w).isLt
  exact (Nat.mod_eq_of_lt (by omega)).symm

theorem wrap216_of_nonneg (w : BitVec 32) (h : 0 ≤ w.toInt) : wrap216 w = w := by
  unfold wrap216
  have hs : IntOp.cmpi .slt w 0#32 = 0#1 := by
    unfold IntOp.cmpi
    have : w.slt 0#32 = false := by
      rw [Bool.eq_false_iff]; intro hlt
      have := BitVec.slt_iff_toInt_lt.mp hlt
      rw [toInt_zero32] at this; omega
    simp only [this]; rfl
  rw [hs, select_zero]

theorem row_wrap216 (w : BitVec 32) (h : 0 ≤ w.toInt) : row (wrap216 w) = row w := by
  rw [wrap216_of_nonneg w h]

theorem ofNat_eq_clip215_iff (p : Fin 216) (w : BitVec 32) : (BitVec.ofNat 32 p.val = clip215 w) ↔ p = row w := by
  rw [clip215_eq_ofNat]
  constructor
  · intro h
    have e := congrArg BitVec.toNat h
    rw [BitVec.toNat_ofNat, BitVec.toNat_ofNat] at e
    have hp := p.isLt
    have hr := (row w).isLt
    rw [Nat.mod_eq_of_lt (by omega), Nat.mod_eq_of_lt (by omega)] at e
    exact Fin.ext e
  · intro h; rw [h]

end Cert.Proof.Digits
-- ==== Proof.RefValue.lean ====
/- The reference's composed term at an index is `Spec.out` of the rows the digits pick, for non-negative indices. -/
import proofs.«403558_j46694884442289_3_alg».proof.Proof.RefRun
import proofs.«403558_j46694884442289_3_alg».proof.Proof.Spec
import proofs.«403558_j46694884442289_3_alg».proof.Proof.Digits
import Idealize.ShloMosaic.Lib.ValueIdx
import Idealize.ShloMosaic.Lib.Pipeline.Value
import Idealize.ShloMosaic.PureOps.Ideal.Laws

noncomputable section

open scoped BigOperators

namespace Cert.Proof.Ref

open Cert.ReferenceIdeal Cert.ReferenceIdeal.Gen Idealize.ShloMosaic Idealize.ShloMosaic.ValueIdx

theorem wrapA_apply (x : IVec S2x1024 32) (j : S2x1024.Idx) : wrapA x j = Digits.wrap216 (x j) := rfl

theorem startA_apply (x : IVec S2x1024 32) (t : Fin 2) (b : Fin 1024) (z : Fin 1) :
    startA x (ix3 t b z) = Digits.wrap216 (x (ix2 t b)) := by
  unfold startA
  refine (broadcastInDim_apply _ _ _ (ix3 t b z) (ix2 t b) (fun a => ?_)).trans (wrapA_apply x _)
  match a with
  | ⟨0, _⟩ => rfl
  | ⟨1, _⟩ => rfl

theorem clamp_eq_row (w : BitVec 32) (h : min w.toInt.toNat 215 < 216) :
    (⟨min w.toInt.toNat 215, h⟩ : Fin 216) = Digits.row w := by
  refine Fin.ext ?_
  show min w.toInt.toNat 215 = (max 0 (min w.toInt 215)).toNat
  omega

abbrev rowDims (W : Nat)
    (wf : GatherDims.WF ⟨3, ![2, 216, W]⟩ ⟨3, ![2, 1024, 1]⟩ ⟨3, ![2, 1024, W]⟩ [2] [1] [0] [1] [0] 2 ![1, 1, W]) :
    GatherDims ⟨3, ![2, 216, W]⟩ ⟨3, ![2, 1024, 1]⟩ ⟨3, ![2, 1024, W]⟩ where
  offsetDims := [2]
  collapsedSliceDims := [1]
  operandBatchingDims := [0]
  startIndicesBatchingDims := [0]
  startIndexMap := [1]
  indexVectorDim := 2
  sliceSizes := ![1, 1, W]
  wf := wf

section Gather
variable {W w : Nat}
  (wf : GatherDims.WF ⟨3, ![2, 216, W]⟩ ⟨3, ![2, 1024, 1]⟩ ⟨3, ![2, 1024, W]⟩ [2] [1] [0] [1] [0] 2 ![1, 1, W])
  (idx : IVec ⟨3, ![2, 1024, 1]⟩ w) (t : Fin 2) (b : Fin 1024) (e : Fin W)

theorem rowDims_operandIdx_0 : ((rowDims W wf).operandIdx (ix3 t b e) idx 0).val = t.val := by
  show (rowDims W wf).start (ix3 t b e) idx 0 + (rowDims W wf).batchCoord (ix3 t b e) 0 + (rowDims W wf).offCoord (ix3 t b e) 0 = _
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  rfl

theorem rowDims_operandIdx_1 :
    ((rowDims W wf).operandIdx (ix3 t b e) idx 1).val = min (idx (ix3 t b 0)).toInt.toNat 215 := by
  show (rowDims W wf).start (ix3 t b e) idx 1 + (rowDims W wf).batchCoord (ix3 t b e) 1 + (rowDims W wf).offCoord (ix3 t b e) 1 = _
  rw [GatherDims.batchCoord_eq_zero _ _ _ (show (1 : Fin 3) ∉ ([0] : List (Fin 3)) by decide),
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (rowDims W wf).startIndexMap from List.mem_singleton.mpr rfl)]
  have hsi : (rowDims W wf).siIdx (ix3 t b e) ⟨List.idxOf (1 : Fin 3) (rowDims W wf).startIndexMap,
      List.idxOf_lt_length_iff.2 (List.mem_singleton.mpr rfl)⟩ = ix3 t b 0 := by
    funext c; refine Fin.ext ?_
    match c with
    | ⟨0, _⟩ => rfl
    | ⟨1, _⟩ => rfl
    | ⟨2, _⟩ => rfl
  rw [hsi]
  rfl

theorem rowDims_operandIdx_2 : ((rowDims W wf).operandIdx (ix3 t b e) idx 2).val = e.val := by
  show (rowDims W wf).start (ix3 t b e) idx 2 + (rowDims W wf).batchCoord (ix3 t b e) 2 + (rowDims W wf).offCoord (ix3 t b e) 2 = _
  rw [GatherDims.batchCoord_eq_zero _ _ _ (show (2 : Fin 3) ∉ ([0] : List (Fin 3)) by decide)]
  unfold GatherDims.start
  rw [dif_neg (show (2 : Fin 3) ∉ ([1] : List (Fin 3)) by decide)]
  simp only [Nat.zero_add, Nat.add_zero]
  rfl

theorem gather_row_apply {α : Type} (x : (⟨3, ![2, 216, W]⟩ : Shape).Idx → α) :
    Host.gather (rowDims W wf) x idx (ix3 t b e)
      = x (ix3 t ⟨min (idx (ix3 t b 0)).toInt.toNat 215, by omega⟩ e) := by
  unfold Host.gather
  refine congrArg x (funext fun a => Fin.ext ?_)
  match a with
  | ⟨0, _⟩ => exact rowDims_operandIdx_0 wf idx t b e
  | ⟨1, _⟩ => exact rowDims_operandIdx_1 wf idx t b e
  | ⟨2, _⟩ => exact rowDims_operandIdx_2 wf idx t b e

end Gather

theorem lhsA_0 (i : S2x1024x2x512.Idx) (q : dot_S2x1024x2x128_S2x1024x128x512_S2x1024x2x512_3_2_2_3_01_01.contr.Idx) :
    (dot_S2x1024x2x128_S2x1024x128x512_S2x1024x2x512_3_2_2_3_01_01.lhsIdx i q 0).val = (i 0).val := by
  unfold DotDims.lhsIdx
  rw [dif_pos (show (0 : Fin S2x1024x2x128.rank) ∈ dot_S2x1024x2x128_S2x1024x128x512_S2x1024x2x512_3_2_2_3_01_01.lhsBatch by decide)]
  rfl

theorem lhsA_1 (i : S2x1024x2x512.Idx) (q : dot_S2x1024x2x128_S2x1024x128x512_S2x1024x2x512_3_2_2_3_01_01.contr.Idx) :
    (dot_S2x1024x2x128_S2x1024x128x512_S2x1024x2x512_3_2_2_3_01_01.lhsIdx i q 1).val = (i 1).val := by
  unfold DotDims.lhsIdx
  rw [dif_pos (show (1 : Fin S2x1024x2x128.rank) ∈ dot_S2x1024x2x128_S2x1024x128x512_S2x1024x2x512_3_2_2_3_01_01.lhsBatch by decide)]
  rfl

theorem lhsA_2 (i : S2x1024x2x512.Idx) (q : dot_S2x1024x2x128_S2x1024x128x512_S2x1024x2x512_3_2_2_3_01_01.contr.Idx) :
    (dot_S2x1024x2x128_S2x1024x128x512_S2x1024x2x512_3_2_2_3_01_01.lhsIdx i q 2).val = (i 2).val := by
  unfold DotDims.lhsIdx
  rw [dif_neg (show ¬(2 : Fin S2x1024x2x128.rank) ∈ dot_S2x1024x2x128_S2x1024x128x512_S2x1024x2x512_3_2_2_3_01_01.lhsBatch by decide), dif_pos (show (2 : Fin S2x1024x2x128.rank) ∈ dot_S2x1024x2x128_S2x1024x128x512_S2x1024x2x512_3_2_2_3_01_01.lhsNonContracting by decide)]
  rfl

theorem lhsA_3 (i : S2x1024x2x512.Idx) (q : dot_S2x1024x2x128_S2x1024x128x512_S2x1024x2x512_3_2_2_3_01_01.contr.Idx) :
    (dot_S2x1024x2x128_S2x1024x128x512_S2x1024x2x512_3_2_2_3_01_01.lhsIdx i q 3).val = (q ⟨0, by decide⟩).val :=
  dot_S2x1024x2x128_S2x1024x128x512_S2x1024x2x512_3_2_2_3_01_01.lhsIdx_val_of_single rfl i q

theorem rhsA_0 (i : S2x1024x2x512.Idx) (q : dot_S2x1024x2x128_S2x1024x128x512_S2x1024x2x512_3_2_2_3_01_01.contr.Idx) :
    (dot_S2x1024x2x128_S2x1024x128x512_S2x1024x2x512_3_2_2_3_01_01.rhsIdx i q 0).val = (i 0).val := by
  unfold DotDims.rhsIdx
  rw [dif_pos (show (0 : Fin S2x1024x128x512.rank) ∈ dot_S2x1024x2x128_S2x1024x128x512_S2x1024x2x512_3_2_2_3_01_01.rhsBatch by decide)]
  rfl

theorem rhsA_1 (i : S2x1024x2x512.Idx) (q : dot_S2x1024x2x128_S2x1024x128x512_S2x1024x2x512_3_2_2_3_01_01.contr.Idx) :
    (dot_S2x1024x2x128_S2x1024x128x512_S2x1024x2x512_3_2_2_3_01_01.rhsIdx i q 1).val = (i 1).val := by
  unfold DotDims.rhsIdx
  rw [dif_pos (show (1 : Fin S2x1024x128x512.rank) ∈ dot_S2x1024x2x128_S2x1024x128x512_S2x1024x2x512_3_2_2_3_01_01.rhsBatch by decide)]
  rfl

theorem rhsA_2 (i : S2x1024x2x512.Idx) (q : dot_S2x1024x2x128_S2x1024x128x512_S2x1024x2x512_3_2_2_3_01_01.contr.Idx) :
    (dot_S2x1024x2x128_S2x1024x128x512_S2x1024x2x512_3_2_2_3_01_01.rhsIdx i q 2).val = (q ⟨0, by decide⟩).val :=
  dot_S2x1024x2x128_S2x1024x128x512_S2x1024x2x512_3_2_2_3_01_01.rhsIdx_val_of_single rfl i q

theorem rhsA_3 (i : S2x1024x2x512.Idx) (q : dot_S2x1024x2x128_S2x1024x128x512_S2x1024x2x512_3_2_2_3_01_01.contr.Idx) :
    (dot_S2x1024x2x128_S2x1024x128x512_S2x1024x2x512_3_2_2_3_01_01.rhsIdx i q 3).val = (i 3).val := by
  unfold DotDims.rhsIdx
  rw [dif_neg (show ¬(3 : Fin S2x1024x128x512.rank) ∈ dot_S2x1024x2x128_S2x1024x128x512_S2x1024x2x512_3_2_2_3_01_01.rhsBatch by decide), dif_pos (show (3 : Fin S2x1024x128x512.rank) ∈ dot_S2x1024x2x128_S2x1024x128x512_S2x1024x2x512_3_2_2_3_01_01.rhsNonContracting by decide)]
  rfl

theorem dotA_apply (l : FVec Ideal S2x1024x2x128 .f32) (r : FVec Ideal S2x1024x128x512 .f32) (t : Fin 2) (b : Fin 1024) (p : Fin 2) (c : Fin 512) :
    Host.dotGeneral dot_S2x1024x2x128_S2x1024x128x512_S2x1024x2x512_3_2_2_3_01_01 none l r (ix4 t b p c) = ∑ k : Fin 128, l (ix4 t b p k) * r (ix4 t b k c) := by
  simp only [Host.dotGeneral]
  rw [Ideal.dotGeneral_apply, ← Equiv.sum_comp (contrEquiv1 dot_S2x1024x2x128_S2x1024x128x512_S2x1024x2x512_3_2_2_3_01_01 128 rfl rfl).symm]
  refine Finset.sum_congr rfl fun k _ => ?_
  have hk := contrEquiv1_symm_val dot_S2x1024x2x128_S2x1024x128x512_S2x1024x2x512_3_2_2_3_01_01 128 rfl rfl k
  have el : dot_S2x1024x2x128_S2x1024x128x512_S2x1024x2x512_3_2_2_3_01_01.lhsIdx (ix4 t b p c) ((contrEquiv1 dot_S2x1024x2x128_S2x1024x128x512_S2x1024x2x512_3_2_2_3_01_01 128 rfl rfl).symm k) = ix4 t b p k := funext fun a => Fin.ext (by
    match a with
    | ⟨0, _⟩ => exact lhsA_0 _ _
    | ⟨1, _⟩ => exact lhsA_1 _ _
    | ⟨2, _⟩ => exact lhsA_2 _ _
    | ⟨3, _⟩ => exact (lhsA_3 _ _).trans hk)
  have er : dot_S2x1024x2x128_S2x1024x128x512_S2x1024x2x512_3_2_2_3_01_01.rhsIdx (ix4 t b p c) ((contrEquiv1 dot_S2x1024x2x128_S2x1024x128x512_S2x1024x2x512_3_2_2_3_01_01 128 rfl rfl).symm k) = ix4 t b k c := funext fun a => Fin.ext (by
    match a with
    | ⟨0, _⟩ => exact rhsA_0 _ _
    | ⟨1, _⟩ => exact rhsA_1 _ _
    | ⟨2, _⟩ => exact (rhsA_2 _ _).trans hk
    | ⟨3, _⟩ => exact rhsA_3 _ _)
  rw [el, er]

theorem lhsB_0 (i : S2x1024x8x2.Idx) (q : dot_S2x1024x8x128_S2x1024x128x2_S2x1024x8x2_3_2_2_3_01_01.contr.Idx) :
    (dot_S2x1024x8x128_S2x1024x128x2_S2x1024x8x2_3_2_2_3_01_01.lhsIdx i q 0).val = (i 0).val := by
  unfold DotDims.lhsIdx
  rw [dif_pos (show (0 : Fin S2x1024x8x128.rank) ∈ dot_S2x1024x8x128_S2x1024x128x2_S2x1024x8x2_3_2_2_3_01_01.lhsBatch by decide)]
  rfl

theorem lhsB_1 (i : S2x1024x8x2.Idx) (q : dot_S2x1024x8x128_S2x1024x128x2_S2x1024x8x2_3_2_2_3_01_01.contr.Idx) :
    (dot_S2x1024x8x128_S2x1024x128x2_S2x1024x8x2_3_2_2_3_01_01.lhsIdx i q 1).val = (i 1).val := by
  unfold DotDims.lhsIdx
  rw [dif_pos (show (1 : Fin S2x1024x8x128.rank) ∈ dot_S2x1024x8x128_S2x1024x128x2_S2x1024x8x2_3_2_2_3_01_01.lhsBatch by decide)]
  rfl

theorem lhsB_2 (i : S2x1024x8x2.Idx) (q : dot_S2x1024x8x128_S2x1024x128x2_S2x1024x8x2_3_2_2_3_01_01.contr.Idx) :
    (dot_S2x1024x8x128_S2x1024x128x2_S2x1024x8x2_3_2_2_3_01_01.lhsIdx i q 2).val = (i 2).val := by
  unfold DotDims.lhsIdx
  rw [dif_neg (show ¬(2 : Fin S2x1024x8x128.rank) ∈ dot_S2x1024x8x128_S2x1024x128x2_S2x1024x8x2_3_2_2_3_01_01.lhsBatch by decide), dif_pos (show (2 : Fin S2x1024x8x128.rank) ∈ dot_S2x1024x8x128_S2x1024x128x2_S2x1024x8x2_3_2_2_3_01_01.lhsNonContracting by decide)]
  rfl

theorem lhsB_3 (i : S2x1024x8x2.Idx) (q : dot_S2x1024x8x128_S2x1024x128x2_S2x1024x8x2_3_2_2_3_01_01.contr.Idx) :
    (dot_S2x1024x8x128_S2x1024x128x2_S2x1024x8x2_3_2_2_3_01_01.lhsIdx i q 3).val = (q ⟨0, by decide⟩).val :=
  dot_S2x1024x8x128_S2x1024x128x2_S2x1024x8x2_3_2_2_3_01_01.lhsIdx_val_of_single rfl i q

theorem rhsB_0 (i : S2x1024x8x2.Idx) (q : dot_S2x1024x8x128_S2x1024x128x2_S2x1024x8x2_3_2_2_3_01_01.contr.Idx) :
    (dot_S2x1024x8x128_S2x1024x128x2_S2x1024x8x2_3_2_2_3_01_01.rhsIdx i q 0).val = (i 0).val := by
  unfold DotDims.rhsIdx
  rw [dif_pos (show (0 : Fin S2x1024x128x2.rank) ∈ dot_S2x1024x8x128_S2x1024x128x2_S2x1024x8x2_3_2_2_3_01_01.rhsBatch by decide)]
  rfl

theorem rhsB_1 (i : S2x1024x8x2.Idx) (q : dot_S2x1024x8x128_S2x1024x128x2_S2x1024x8x2_3_2_2_3_01_01.contr.Idx) :
    (dot_S2x1024x8x128_S2x1024x128x2_S2x1024x8x2_3_2_2_3_01_01.rhsIdx i q 1).val = (i 1).val := by
  unfold DotDims.rhsIdx
  rw [dif_pos (show (1 : Fin S2x1024x128x2.rank) ∈ dot_S2x1024x8x128_S2x1024x128x2_S2x1024x8x2_3_2_2_3_01_01.rhsBatch by decide)]
  rfl

theorem rhsB_2 (i : S2x1024x8x2.Idx) (q : dot_S2x1024x8x128_S2x1024x128x2_S2x1024x8x2_3_2_2_3_01_01.contr.Idx) :
    (dot_S2x1024x8x128_S2x1024x128x2_S2x1024x8x2_3_2_2_3_01_01.rhsIdx i q 2).val = (q ⟨0, by decide⟩).val :=
  dot_S2x1024x8x128_S2x1024x128x2_S2x1024x8x2_3_2_2_3_01_01.rhsIdx_val_of_single rfl i q

theorem rhsB_3 (i : S2x1024x8x2.Idx) (q : dot_S2x1024x8x128_S2x1024x128x2_S2x1024x8x2_3_2_2_3_01_01.contr.Idx) :
    (dot_S2x1024x8x128_S2x1024x128x2_S2x1024x8x2_3_2_2_3_01_01.rhsIdx i q 3).val = (i 3).val := by
  unfold DotDims.rhsIdx
  rw [dif_neg (show ¬(3 : Fin S2x1024x128x2.rank) ∈ dot_S2x1024x8x128_S2x1024x128x2_S2x1024x8x2_3_2_2_3_01_01.rhsBatch by decide), dif_pos (show (3 : Fin S2x1024x128x2.rank) ∈ dot_S2x1024x8x128_S2x1024x128x2_S2x1024x8x2_3_2_2_3_01_01.rhsNonContracting by decide)]
  rfl

theorem dotB_apply (l : FVec Ideal S2x1024x8x128 .f32) (r : FVec Ideal S2x1024x128x2 .f32) (t : Fin 2) (b : Fin 1024) (p : Fin 8) (c : Fin 2) :
    Host.dotGeneral dot_S2x1024x8x128_S2x1024x128x2_S2x1024x8x2_3_2_2_3_01_01 none l r (ix4 t b p c) = ∑ k : Fin 128, l (ix4 t b p k) * r (ix4 t b k c) := by
  simp only [Host.dotGeneral]
  rw [Ideal.dotGeneral_apply, ← Equiv.sum_comp (contrEquiv1 dot_S2x1024x8x128_S2x1024x128x2_S2x1024x8x2_3_2_2_3_01_01 128 rfl rfl).symm]
  refine Finset.sum_congr rfl fun k _ => ?_
  have hk := contrEquiv1_symm_val dot_S2x1024x8x128_S2x1024x128x2_S2x1024x8x2_3_2_2_3_01_01 128 rfl rfl k
  have el : dot_S2x1024x8x128_S2x1024x128x2_S2x1024x8x2_3_2_2_3_01_01.lhsIdx (ix4 t b p c) ((contrEquiv1 dot_S2x1024x8x128_S2x1024x128x2_S2x1024x8x2_3_2_2_3_01_01 128 rfl rfl).symm k) = ix4 t b p k := funext fun a => Fin.ext (by
    match a with
    | ⟨0, _⟩ => exact lhsB_0 _ _
    | ⟨1, _⟩ => exact lhsB_1 _ _
    | ⟨2, _⟩ => exact lhsB_2 _ _
    | ⟨3, _⟩ => exact (lhsB_3 _ _).trans hk)
  have er : dot_S2x1024x8x128_S2x1024x128x2_S2x1024x8x2_3_2_2_3_01_01.rhsIdx (ix4 t b p c) ((contrEquiv1 dot_S2x1024x8x128_S2x1024x128x2_S2x1024x8x2_3_2_2_3_01_01 128 rfl rfl).symm k) = ix4 t b k c := funext fun a => Fin.ext (by
    match a with
    | ⟨0, _⟩ => exact rhsB_0 _ _
    | ⟨1, _⟩ => exact rhsB_1 _ _
    | ⟨2, _⟩ => exact (rhsB_2 _ _).trans hk
    | ⟨3, _⟩ => exact rhsB_3 _ _)
  rw [el, er]

theorem gather256_eq : gather_S2x216x256_S2x1024x1_S2x1024x256_2_1_0_0_1_2_11256 = rowDims 256 gather_S2x216x256_S2x1024x1_S2x1024x256_2_1_0_0_1_2_11256_wf := rfl
theorem gather65536_eq : gather_S2x216x65536_S2x1024x1_S2x1024x65536_2_1_0_0_1_2_1165536 = rowDims 65536 gather_S2x216x65536_S2x1024x1_S2x1024x65536_2_1_0_0_1_2_1165536_wf := rfl

theorem gather_start_apply {α : Type} {W : Nat}
    (wf : GatherDims.WF ⟨3, ![2, 216, W]⟩ ⟨3, ![2, 1024, 1]⟩ ⟨3, ![2, 1024, W]⟩ [2] [1] [0] [1] [0] 2 ![1, 1, W])
    (x : (⟨3, ![2, 216, W]⟩ : Shape).Idx → α) (d : IVec S2x1024 32) (hd : ∀ j, 0 ≤ (d j).toInt)
    (t : Fin 2) (b : Fin 1024) (e : Fin W) :
    Host.gather (rowDims W wf) x (startA d) (ix3 t b e) = x (ix3 t (Digits.row (d (ix2 t b))) e) := by
  refine (gather_row_apply wf (startA d) t b e x).trans ?_
  refine congrArg (fun r => x (ix3 t r e)) ?_
  refine (clamp_eq_row _ _).trans ?_
  rw [startA_apply]
  exact Digits.row_wrap216 _ (hd _)

section Rows
variable (a0 : IVec S2x1024 32) (hnn : ∀ j, 0 ≤ (a0 j).toInt) (t : Fin 2) (b : Fin 1024)
include hnn

theorem dig0_nonneg (j : S2x1024.Idx) : 0 ≤ (dig0 a0 j).toInt := Digits.d0_nonneg _ (hnn j)
theorem dig1_nonneg (j : S2x1024.Idx) : 0 ≤ (dig1 a0 j).toInt := Digits.d1_nonneg _ (hnn j)
theorem dig2_nonneg (j : S2x1024.Idx) : 0 ≤ (dig2 a0 j).toInt := Digits.d2_nonneg _ (hnn j)

theorem rowsA_apply (a1 : FVec Ideal S2x216x256 .f32) (p : Fin 2) (r : Fin 128) :
    rowsA a0 a1 (ix4 t b p r)
      = a1 (ix3 t (Digits.rows0 a0 t b) ⟨p.val * 128 + r.val, by have := p.isLt; have := r.isLt; omega⟩) := by
  unfold rowsA
  refine (shapeCast_apply _ _ (ix4 t b p r)
    (ix3 t b (⟨p.val * 128 + r.val, by have := p.isLt; have := r.isLt; omega⟩ : Fin 256)) ?_).trans ?_
  · rw [Shape.rowMajor_val_three, Shape.rowMajor_val_four]
    show (t.val * 1024 + b.val) * 256 + (p.val * 128 + r.val) = ((t.val * 1024 + b.val) * 2 + p.val) * 128 + r.val
    omega
  · rw [gather256_eq]
    exact gather_start_apply _ a1 (dig0 a0) (dig0_nonneg a0 hnn) t b _

theorem rowsB_apply (a2 : FVec Ideal S2x216x65536 .f32) (r : Fin 128) (c : Fin 512) :
    rowsB a0 a2 (ix4 t b r c)
      = a2 (ix3 t (Digits.rows1 a0 t b) ⟨r.val * 512 + c.val, by have := r.isLt; have := c.isLt; omega⟩) := by
  unfold rowsB
  refine (shapeCast_apply _ _ (ix4 t b r c)
    (ix3 t b (⟨r.val * 512 + c.val, by have := r.isLt; have := c.isLt; omega⟩ : Fin 65536)) ?_).trans ?_
  · rw [Shape.rowMajor_val_three, Shape.rowMajor_val_four]
    show (t.val * 1024 + b.val) * 65536 + (r.val * 512 + c.val) = ((t.val * 1024 + b.val) * 128 + r.val) * 512 + c.val
    omega
  · rw [gather65536_eq]
    exact gather_start_apply _ a2 (dig1 a0) (dig1_nonneg a0 hnn) t b _

theorem rowsC_apply (a3 : FVec Ideal S2x216x256 .f32) (r : Fin 128) (s : Fin 2) :
    rowsC a0 a3 (ix4 t b r s)
      = a3 (ix3 t (Digits.rows2 a0 t b) ⟨r.val * 2 + s.val, by have := r.isLt; have := s.isLt; omega⟩) := by
  unfold rowsC
  refine (shapeCast_apply _ _ (ix4 t b r s)
    (ix3 t b (⟨r.val * 2 + s.val, by have := r.isLt; have := s.isLt; omega⟩ : Fin 256)) ?_).trans ?_
  · rw [Shape.rowMajor_val_three, Shape.rowMajor_val_four]
    show (t.val * 1024 + b.val) * 256 + (r.val * 2 + s.val) = ((t.val * 1024 + b.val) * 128 + r.val) * 2 + s.val
    omega
  · rw [gather256_eq]
    exact gather_start_apply _ a3 (dig2 a0) (dig2_nonneg a0 hnn) t b _

theorem prodAB_apply (a1 : FVec Ideal S2x216x256 .f32) (a2 : FVec Ideal S2x216x65536 .f32) (o : Fin 16) (r1 : Fin 128) :
    prodAB a0 a1 a2 (ix4 t b (⟨o.val / 2, by have := o.isLt; omega⟩ : Fin 8) r1)
      = ∑ r0 : Fin 128,
          a1 (ix3 t (Digits.rows0 a0 t b) ⟨(o.val / 8) * 128 + r0.val, by have := o.isLt; have := r0.isLt; omega⟩)
            * a2 (ix3 t (Digits.rows1 a0 t b)
                ⟨r0.val * 512 + ((o.val / 2) % 4) * 128 + r1.val, by have := r0.isLt; have := r1.isLt; omega⟩) := by
  unfold prodAB
  refine (shapeCast_apply _ _ (ix4 t b (⟨o.val / 2, by have := o.isLt; omega⟩ : Fin 8) r1)
    (ix4 t b (⟨o.val / 8, by have := o.isLt; omega⟩ : Fin 2)
      (⟨((o.val / 2) % 4) * 128 + r1.val, by have := r1.isLt; omega⟩ : Fin 512)) ?_).trans ?_
  · rw [Shape.rowMajor_val_four, Shape.rowMajor_val_four]
    show ((t.val * 1024 + b.val) * 2 + o.val / 8) * 512 + (((o.val / 2) % 4) * 128 + r1.val)
      = ((t.val * 1024 + b.val) * 8 + o.val / 2) * 128 + r1.val
    omega
  · rw [dotA_apply]
    refine Finset.sum_congr rfl fun r0 _ => ?_
    rw [rowsA_apply a0 hnn t b a1, rowsB_apply a0 hnn t b a2]
    refine congrArg (fun e => _ * a2 (ix3 t (Digits.rows1 a0 t b) e)) (Fin.ext ?_)
    show r0.val * 512 + (((o.val / 2) % 4) * 128 + r1.val) = r0.val * 512 + ((o.val / 2) % 4) * 128 + r1.val
    omega

theorem res_apply (a1 : FVec Ideal S2x216x256 .f32) (a2 : FVec Ideal S2x216x65536 .f32) (a3 : FVec Ideal S2x216x256 .f32)
    (o : Fin 16) :
    res a0 a1 a2 a3 (ix3 t b o)
      = Spec.tt (fun x => a1 (ix3 t (Digits.rows0 a0 t b) x)) (fun x => a2 (ix3 t (Digits.rows1 a0 t b) x))
          (fun x => a3 (ix3 t (Digits.rows2 a0 t b) x)) o := by
  unfold res
  refine (shapeCast_apply _ _ (ix3 t b o)
    (ix4 t b (⟨o.val / 2, by have := o.isLt; omega⟩ : Fin 8) (⟨o.val % 2, by omega⟩ : Fin 2)) ?_).trans ?_
  · rw [Shape.rowMajor_val_four, Shape.rowMajor_val_three]
    show ((t.val * 1024 + b.val) * 8 + o.val / 2) * 2 + o.val % 2 = (t.val * 1024 + b.val) * 16 + o.val
    omega
  · rw [dotB_apply]
    unfold Spec.tt
    refine Finset.sum_congr rfl fun r1 _ => ?_
    rw [prodAB_apply a0 hnn t b a1 a2 o r1, rowsC_apply a0 hnn t b a3]

end Rows

theorem res_eq_spec (a0 : IVec S2x1024 32) (a1 : FVec Ideal S2x216x256 .f32) (a2 : FVec Ideal S2x216x65536 .f32)
    (a3 : FVec Ideal S2x216x256 .f32) (hnn : ∀ j, 0 ≤ (a0 j).toInt) :
    res a0 a1 a2 a3 = Spec.out (Digits.rows0 a0) (Digits.rows1 a0) (Digits.rows2 a0) a1 a2 a3 := by
  funext j
  obtain ⟨t, b, o, rfl⟩ : ∃ (t : Fin 2) (b : Fin 1024) (o : Fin 16), j = ix3 t b o := ⟨j 0, j 1, j 2, eq_ix3 j⟩
  exact res_apply a0 hnn t b a1 a2 a3 o

theorem run_spec (m : (ℓ : Loc nD τ sig) → Buf (Elt Ideal) ℓ) (ρ : Dev nD → PrngReg)
    (hnn : ∀ (c : Dev nD) (j : S2x1024.Idx), 0 ≤ BitVec.toInt ((m ((c.tc : Thread nD τ).loc main_arg0) : IVec S2x1024 32) j)) :
    θ_run (defs (F := Ideal)) (onTc (τ := τ) (main (F := Ideal))) ⟨m, fun _ => 0, ρ⟩ fun r => ∀ c : Dev nD,
      r.2.mem ((c.tc : Thread nD τ).loc main_v31)
        = Spec.out (Digits.rows0 (m ((c.tc : Thread nD τ).loc main_arg0))) (Digits.rows1 (m ((c.tc : Thread nD τ).loc main_arg0)))
            (Digits.rows2 (m ((c.tc : Thread nD τ).loc main_arg0)))
            (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (res_eq_spec _ _ _ _ (hnn c)), (h c).2⟩) (run (F := Ideal) m ρ)

end Cert.Proof.Ref

end
-- ==== Proof.KitIdeal.lean ====
/- The program up to its one call: the arrays the call finds and the three digit tables it reads. -/
import proofs.«403558_j46694884442289_3_alg».proof.Proof.Gen.KernelIdeal
import proofs.«403558_j46694884442289_3_alg».proof.Proof.Gen.KernelIdeal.Launch
import Idealize.ShloMosaic.Lib.Pipeline.Frame
import Idealize.ShloMosaic.Lib.Transfers

noncomputable section

namespace Cert.KernelIdeal.Hand

open Idealize.ShloMosaic Idealize.ShloMosaic.TcCoe
open Idealize.SL Idealize.SL.RA Idealize.SL.BI Idealize.SL.Sem
open scoped Idealize.SL.BI
open Idealize.SL.BI.BIBase
open Cert.KernelIdeal Cert.KernelIdeal.Gen

variable {F : FTy → Type} [FloatOps F]
variable (m : (ℓ : Loc nD τ sig) → Buf (Elt F) ℓ)

abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14]

abbrev V (c : Dev nD) (b : Ref sig .tc) : Buf (Elt F) ((c : Thread nD τ).loc b) :=
  StableHlo.after (List.flatten (prefixOps (F := F))) (fun b => m (c, b)) b

theorem hmain (𝒱₀ : Variants) :
    Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main (prefixOps (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; repeat' constructor)
    (fun c => (main_chain c).trans rfl)

-- No operation before the call writes an argument, so the call finds each argument as the program was given it.
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

section Held

local notation "𝕄" => MT nD τ sig Unit (Elt F) ℕ (Pipeline.UD sig nD τ) ℕ

abbrev pt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦{q} f

abbrev own (c : Dev nD) {sp : Space} {S : Shape} {e : EltTy} (M : Memref sig .tc sp S e)
    (f : Buf (Elt F) (M.view.loc (c : Thread nD τ))) : sProp 𝕄 :=
  M.view.loc (c : Thread nD τ) ↦[M.view.set]{fullShare} f

end Held

abbrev tb2 : Memref sig .tc .smem S2x1024 .i32 := Memref.whole main_v4
abbrev tb3 : Memref sig .tc .smem S2x1024 .i32 := Memref.whole main_v5
abbrev tb4 : Memref sig .tc .smem S2x1024 .i32 := Memref.whole main_v6
abbrev hb6 : Memref sig .tc .hbm S2x216x128x512 .bf16 := Memref.whole main_v9
abbrev sc9 : Memref sig .tc .vmem S64x128x512 .bf16 := Memref.whole cc0_scratch0
abbrev sc10 : Memref sig .tc .vmem S64x216 .bf16 := Memref.whole cc0_scratch1
abbrev sc11 : Memref sig .tc .vmem S64x216 .bf16 := Memref.whole cc0_scratch2

abbrev dst (k : Nat) (hk : ∀ a, (![k, 0, 0] : Fin 3 → Nat) a + S1x128x512.size a ≤ S64x128x512.size a) :
    Memref sig .tc .vmem S128x512 .bf16 :=
  (sc9.slice (Rect.unit (s := S64x128x512) ![k, 0, 0] S1x128x512.size hk) (fun _ => rfl)).squeeze S128x512 squeezes_S1x128x512_S128x512

end Cert.KernelIdeal.Hand

end
-- ==== Proof.BlocksIdeal.lean ====
/- The 64 x 128 x 512 work buffer as the disjoint union of its 64 leading-axis blocks, and the middle core as one cell per row: holding the whole is holding the parts, in both directions. -/
import proofs.«403558_j46694884442289_3_alg».proof.Proof.KitIdeal
import Idealize.ShloMosaic.Lib.Ring
import Idealize.ShloMosaic.Lib.Transfers
import Idealize.ShloMosaic.Lib.ValueIdx
import Idealize.ShloMosaic.Lib.ValueLayout

noncomputable section

namespace Cert.KernelIdeal.Hand

open Idealize.ShloMosaic Idealize.ShloMosaic.TcCoe
open Idealize.SL Idealize.SL.RA Idealize.SL.BI Idealize.SL.Sem
open scoped Idealize.SL.BI
open Idealize.SL.BI.BIBase
open Idealize.SL.ProofMode
open Idealize.ShloMosaic.ValueIdx
open Cert.KernelIdeal Cert.KernelIdeal.Gen

variable {F : FTy → Type} [FloatOps F] [∀ e, Nonempty (Elt F e)]

local notation "𝕄" => MT nD τ sig Unit (Elt F) ℕ (Pipeline.UD sig nD τ) ℕ

theorem blk_inb (k : Fin 64) : ∀ a, (![k.val, 0, 0] : Fin 3 → Nat) a + S1x128x512.size a ≤ S64x128x512.size a := by
  intro a
  have hk := k.isLt
  match a with
  | ⟨0, _⟩ => show k.val + 1 ≤ 64; omega
  | ⟨1, _⟩ => show 0 + 128 ≤ 128; omega
  | ⟨2, _⟩ => show 0 + 512 ≤ 512; omega

abbrev blk (k : Fin 64) : Memref sig .tc .vmem S128x512 .bf16 := dst k.val (blk_inb k)

abbrev rset (k : Fin 64) : Finset S64x128x512.Idx :=
  (Rect.unit (s := S64x128x512) ![k.val, 0, 0] S1x128x512.size (blk_inb k)).set

theorem blk_set (k : Fin 64) : (blk k).view.set = rset k := by
  simp only [Memref.view_squeeze, Memref.view_slice, Memref.view_whole, View.set_reshape, View.set_slice_whole]

theorem rset_disjoint (b b' : Fin 64) (h : b ≠ b') : Disjoint (rset b) (rset b') :=
  Ring.lead_disjoint (s := S64x128x512) (NB := 64) 0 1 (fun b => ![b.val, 0, 0]) S1x128x512.size blk_inb
    (fun b => (Nat.one_mul _).symm) rfl b b' h

theorem rset_cover : Finset.univ.biUnion rset = Finset.univ :=
  Ring.lead_cover (s := S64x128x512) (NB := 64) 0 1 (fun b => ![b.val, 0, 0]) S1x128x512.size blk_inb
    (fun b => (Nat.one_mul _).symm)
    (fun b a ha => by match a with | ⟨0, _⟩ => exact absurd rfl ha | ⟨1, _⟩ => rfl | ⟨2, _⟩ => rfl)
    rfl
    (fun a ha => by match a with | ⟨0, _⟩ => exact absurd rfl ha | ⟨1, _⟩ => rfl | ⟨2, _⟩ => rfl)
    rfl

theorem own_blk (c : Dev nD) (k : Fin 64) (f : Buf (Elt F) (sc9.view.loc (c : Thread nD τ))) :
    (own c (blk k) f : sProp 𝕄) = (sc9.view.loc (c : Thread nD τ) ↦[rset k]{fullShare} f) := by
  show ((blk k).view.loc (c : Thread nD τ) ↦[(blk k).view.set]{fullShare} f) = _
  rw [blk_set]

theorem sc9_blocks (c : Dev nD) (g9 : Buf (Elt F) (sc9.view.loc (c : Thread nD τ))) :
    (pt c sc9 fullShare g9 : sProp 𝕄) = bigSep Finset.univ fun k : Fin 64 => own c (blk k) g9 := by
  simp only [own_blk]
  exact Ring.pointsTo_blocks (ℓ := sc9.view.loc (c : Thread nD τ)) rset rset_disjoint rset_cover g9

theorem univ64 : (Finset.univ : Finset (Fin 64)) = ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] : List (Fin 64)).toFinset := by decide
theorem nodup64 : ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] : List (Fin 64)).Nodup := by decide

set_option maxHeartbeats 4000000 in

theorem sc9_split (c : Dev nD) (g9 : Buf (Elt F) (sc9.view.loc (c : Thread nD τ))) :
    pt c sc9 fullShare g9 ⊢ (iprop(own c (dst 0 inb_S64x128x512_S1x128x512_0_0_0) g9 ∗ own c (dst 1 inb_S64x128x512_S1x128x512_1_0_0) g9 ∗ own c (dst 2 inb_S64x128x512_S1x128x512_2_0_0) g9 ∗ own c (dst 3 inb_S64x128x512_S1x128x512_3_0_0) g9 ∗ own c (dst 4 inb_S64x128x512_S1x128x512_4_0_0) g9 ∗ own c (dst 5 inb_S64x128x512_S1x128x512_5_0_0) g9 ∗ own c (dst 6 inb_S64x128x512_S1x128x512_6_0_0) g9 ∗ own c (dst 7 inb_S64x128x512_S1x128x512_7_0_0) g9 ∗ own c (dst 8 inb_S64x128x512_S1x128x512_8_0_0) g9 ∗ own c (dst 9 inb_S64x128x512_S1x128x512_9_0_0) g9 ∗ own c (dst 10 inb_S64x128x512_S1x128x512_10_0_0) g9 ∗ own c (dst 11 inb_S64x128x512_S1x128x512_11_0_0) g9 ∗ own c (dst 12 inb_S64x128x512_S1x128x512_12_0_0) g9 ∗ own c (dst 13 inb_S64x128x512_S1x128x512_13_0_0) g9 ∗ own c (dst 14 inb_S64x128x512_S1x128x512_14_0_0) g9 ∗ own c (dst 15 inb_S64x128x512_S1x128x512_15_0_0) g9 ∗ own c (dst 16 inb_S64x128x512_S1x128x512_16_0_0) g9 ∗ own c (dst 17 inb_S64x128x512_S1x128x512_17_0_0) g9 ∗ own c (dst 18 inb_S64x128x512_S1x128x512_18_0_0) g9 ∗ own c (dst 19 inb_S64x128x512_S1x128x512_19_0_0) g9 ∗ own c (dst 20 inb_S64x128x512_S1x128x512_20_0_0) g9 ∗ own c (dst 21 inb_S64x128x512_S1x128x512_21_0_0) g9 ∗ own c (dst 22 inb_S64x128x512_S1x128x512_22_0_0) g9 ∗ own c (dst 23 inb_S64x128x512_S1x128x512_23_0_0) g9 ∗ own c (dst 24 inb_S64x128x512_S1x128x512_24_0_0) g9 ∗ own c (dst 25 inb_S64x128x512_S1x128x512_25_0_0) g9 ∗ own c (dst 26 inb_S64x128x512_S1x128x512_26_0_0) g9 ∗ own c (dst 27 inb_S64x128x512_S1x128x512_27_0_0) g9 ∗ own c (dst 28 inb_S64x128x512_S1x128x512_28_0_0) g9 ∗ own c (dst 29 inb_S64x128x512_S1x128x512_29_0_0) g9 ∗ own c (dst 30 inb_S64x128x512_S1x128x512_30_0_0) g9 ∗ own c (dst 31 inb_S64x128x512_S1x128x512_31_0_0) g9 ∗ own c (dst 32 inb_S64x128x512_S1x128x512_32_0_0) g9 ∗ own c (dst 33 inb_S64x128x512_S1x128x512_33_0_0) g9 ∗ own c (dst 34 inb_S64x128x512_S1x128x512_34_0_0) g9 ∗ own c (dst 35 inb_S64x128x512_S1x128x512_35_0_0) g9 ∗ own c (dst 36 inb_S64x128x512_S1x128x512_36_0_0) g9 ∗ own c (dst 37 inb_S64x128x512_S1x128x512_37_0_0) g9 ∗ own c (dst 38 inb_S64x128x512_S1x128x512_38_0_0) g9 ∗ own c (dst 39 inb_S64x128x512_S1x128x512_39_0_0) g9 ∗ own c (dst 40 inb_S64x128x512_S1x128x512_40_0_0) g9 ∗ own c (dst 41 inb_S64x128x512_S1x128x512_41_0_0) g9 ∗ own c (dst 42 inb_S64x128x512_S1x128x512_42_0_0) g9 ∗ own c (dst 43 inb_S64x128x512_S1x128x512_43_0_0) g9 ∗ own c (dst 44 inb_S64x128x512_S1x128x512_44_0_0) g9 ∗ own c (dst 45 inb_S64x128x512_S1x128x512_45_0_0) g9 ∗ own c (dst 46 inb_S64x128x512_S1x128x512_46_0_0) g9 ∗ own c (dst 47 inb_S64x128x512_S1x128x512_47_0_0) g9 ∗ own c (dst 48 inb_S64x128x512_S1x128x512_48_0_0) g9 ∗ own c (dst 49 inb_S64x128x512_S1x128x512_49_0_0) g9 ∗ own c (dst 50 inb_S64x128x512_S1x128x512_50_0_0) g9 ∗ own c (dst 51 inb_S64x128x512_S1x128x512_51_0_0) g9 ∗ own c (dst 52 inb_S64x128x512_S1x128x512_52_0_0) g9 ∗ own c (dst 53 inb_S64x128x512_S1x128x512_53_0_0) g9 ∗ own c (dst 54 inb_S64x128x512_S1x128x512_54_0_0) g9 ∗ own c (dst 55 inb_S64x128x512_S1x128x512_55_0_0) g9 ∗ own c (dst 56 inb_S64x128x512_S1x128x512_56_0_0) g9 ∗ own c (dst 57 inb_S64x128x512_S1x128x512_57_0_0) g9 ∗ own c (dst 58 inb_S64x128x512_S1x128x512_58_0_0) g9 ∗ own c (dst 59 inb_S64x128x512_S1x128x512_59_0_0) g9 ∗ own c (dst 60 inb_S64x128x512_S1x128x512_60_0_0) g9 ∗ own c (dst 61 inb_S64x128x512_S1x128x512_61_0_0) g9 ∗ own c (dst 62 inb_S64x128x512_S1x128x512_62_0_0) g9 ∗ own c (dst 63 inb_S64x128x512_S1x128x512_63_0_0) g9) : sProp 𝕄) := by
  have h := sc9_blocks c g9
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] univ64 nodup64] at h
  exact Entails.of_eq h

theorem blk_emb (k : Fin 64) (r : Fin 128) (u : Fin 512) :
    (blk k).view.emb (ix2 r u) = (ix3 k r u : S64x128x512.Idx) := by
  have hsq : (blk k).view.emb (ix2 r u)
      = (Rect.unit (s := S64x128x512) ![k.val, 0, 0] S1x128x512.size (blk_inb k)).emb
          (Shape.reshapeEquiv squeezes_S1x128x512_S128x512.numel_eq (ix2 r u)) := rfl
  rw [hsq, reshapeEquiv_ix2_1ab]
  funext a
  apply Fin.ext
  rw [Rect.emb_apply]
  match a with
  | ⟨0, _⟩ => show k.val + 1 * 0 = k.val; omega
  | ⟨1, _⟩ => show 0 + 1 * r.val = r.val; omega
  | ⟨2, _⟩ => show 0 + 1 * u.val = u.val; omega

theorem blk_writes_apply (c : Dev nD) (g9 : Buf (Elt F) (sc9.view.loc (c : Thread nD τ))) (k : Fin 64)
    (p : S128x512.Idx → Elt F .bf16) (r : Fin 128) (u : Fin 512) :
    (blk k).view.writes (Elt F) g9 [⟨Rect.whole S128x512, p⟩] (ix3 k r u) = p (ix2 r u) := by
  rw [← blk_emb, ← View.write_univ_eq_writes_whole, View.writes_nil, View.write_emb_of_mem _ _ (Finset.mem_univ _)]
  rfl

theorem ix3_mem_rset (k : Fin 64) (r : Fin 128) (u : Fin 512) : (ix3 k r u : S64x128x512.Idx) ∈ rset k := by
  refine Rect.mem_set_unit.mpr fun a => ?_
  have hr := r.isLt
  have hu := u.isLt
  match a with
  | ⟨0, _⟩ => show k.val ≤ k.val ∧ k.val < k.val + 1; omega
  | ⟨1, _⟩ => show 0 ≤ r.val ∧ r.val < 0 + 128; omega
  | ⟨2, _⟩ => show 0 ≤ u.val ∧ u.val < 0 + 512; omega

def glue (P : Fin 64 → S128x512.Idx → Elt F .bf16) : S64x128x512.Idx → Elt F .bf16 :=
  fun i => P ⟨(i 0).val, (i 0).isLt⟩ (ix2 (n0 := 128) (n1 := 512) (i 1) (i 2))

theorem glue_apply (P : Fin 64 → S128x512.Idx → Elt F .bf16) (k : Fin 64) (r : Fin 128) (u : Fin 512) :
    glue P (ix3 k r u) = P k (ix2 r u) := rfl

theorem sc9_glue (c : Dev nD) (g9 : Buf (Elt F) (sc9.view.loc (c : Thread nD τ))) (P : Fin 64 → S128x512.Idx → Elt F .bf16) :
    bigSep Finset.univ (fun k : Fin 64 => own c (blk k) ((blk k).view.writes (Elt F) g9 [⟨Rect.whole S128x512, P k⟩]))
      ⊢ (pt c sc9 fullShare (glue P) : sProp 𝕄) := by
  simp only [own_blk]
  refine (pointsTo_biUnion_join (ℓ := sc9.view.loc (c : Thread nD τ)) Finset.univ rset
    (fun k => (blk k).view.writes (Elt F) g9 [⟨Rect.whole S128x512, P k⟩]) g9
    (fun b _ b' _ h => rset_disjoint b b' h)).trans ?_
  rw [rset_cover]
  iintro ⟨%g, %hg, H⟩
  have e : (sc9.view.loc (c : Thread nD τ) ↦[Finset.univ]{fullShare} g : sProp 𝕄)
      = (sc9.view.loc (c : Thread nD τ) ↦[Finset.univ]{fullShare} glue P) :=
    pointsTo_congr fun i _ => by
      obtain ⟨k, r, u, rfl⟩ : ∃ (k : Fin 64) (r : Fin 128) (u : Fin 512), i = ix3 k r u := ⟨i 0, i 1, i 2, eq_ix3 i⟩
      rw [hg k (Finset.mem_univ k) _ (ix3_mem_rset k r u), glue_apply]
      exact blk_writes_apply c g9 k (P k) r u
  iapply (Entails.of_eq e)
  iexact H

-- Block k of the work buffer holding g9 overwritten whole by p.
abbrev wrote (c : Dev nD) (g9 : Buf (Elt F) (sc9.view.loc (c : Thread nD τ))) (k : Nat)
    (hk : ∀ a, (![k, 0, 0] : Fin 3 → Nat) a + S1x128x512.size a ≤ S64x128x512.size a) (p : S128x512.Idx → Elt F .bf16) : sProp 𝕄 :=
  own c (dst k hk) ((dst k hk).view.writes (Elt F) g9 [⟨Rect.whole S128x512, p⟩])

def glue64 (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 : S128x512.Idx → Elt F .bf16) : S64x128x512.Idx → Elt F .bf16 :=
  glue ![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63]

theorem glue64_apply (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 : S128x512.Idx → Elt F .bf16) (k : Fin 64) (r : Fin 128) (u : Fin 512) :
    glue64 p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 (ix3 k r u)
      = (![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63] : Fin 64 → S128x512.Idx → Elt F .bf16) k (ix2 r u) := rfl

set_option maxHeartbeats 4000000 in

theorem sc9_join (c : Dev nD) (g9 : Buf (Elt F) (sc9.view.loc (c : Thread nD τ)))
    (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 : S128x512.Idx → Elt F .bf16) :
    (iprop(wrote c g9 0 inb_S64x128x512_S1x128x512_0_0_0 p0 ∗ wrote c g9 1 inb_S64x128x512_S1x128x512_1_0_0 p1 ∗ wrote c g9 2 inb_S64x128x512_S1x128x512_2_0_0 p2 ∗ wrote c g9 3 inb_S64x128x512_S1x128x512_3_0_0 p3 ∗ wrote c g9 4 inb_S64x128x512_S1x128x512_4_0_0 p4 ∗ wrote c g9 5 inb_S64x128x512_S1x128x512_5_0_0 p5 ∗ wrote c g9 6 inb_S64x128x512_S1x128x512_6_0_0 p6 ∗ wrote c g9 7 inb_S64x128x512_S1x128x512_7_0_0 p7 ∗ wrote c g9 8 inb_S64x128x512_S1x128x512_8_0_0 p8 ∗ wrote c g9 9 inb_S64x128x512_S1x128x512_9_0_0 p9 ∗ wrote c g9 10 inb_S64x128x512_S1x128x512_10_0_0 p10 ∗ wrote c g9 11 inb_S64x128x512_S1x128x512_11_0_0 p11 ∗ wrote c g9 12 inb_S64x128x512_S1x128x512_12_0_0 p12 ∗ wrote c g9 13 inb_S64x128x512_S1x128x512_13_0_0 p13 ∗ wrote c g9 14 inb_S64x128x512_S1x128x512_14_0_0 p14 ∗ wrote c g9 15 inb_S64x128x512_S1x128x512_15_0_0 p15 ∗ wrote c g9 16 inb_S64x128x512_S1x128x512_16_0_0 p16 ∗ wrote c g9 17 inb_S64x128x512_S1x128x512_17_0_0 p17 ∗ wrote c g9 18 inb_S64x128x512_S1x128x512_18_0_0 p18 ∗ wrote c g9 19 inb_S64x128x512_S1x128x512_19_0_0 p19 ∗ wrote c g9 20 inb_S64x128x512_S1x128x512_20_0_0 p20 ∗ wrote c g9 21 inb_S64x128x512_S1x128x512_21_0_0 p21 ∗ wrote c g9 22 inb_S64x128x512_S1x128x512_22_0_0 p22 ∗ wrote c g9 23 inb_S64x128x512_S1x128x512_23_0_0 p23 ∗ wrote c g9 24 inb_S64x128x512_S1x128x512_24_0_0 p24 ∗ wrote c g9 25 inb_S64x128x512_S1x128x512_25_0_0 p25 ∗ wrote c g9 26 inb_S64x128x512_S1x128x512_26_0_0 p26 ∗ wrote c g9 27 inb_S64x128x512_S1x128x512_27_0_0 p27 ∗ wrote c g9 28 inb_S64x128x512_S1x128x512_28_0_0 p28 ∗ wrote c g9 29 inb_S64x128x512_S1x128x512_29_0_0 p29 ∗ wrote c g9 30 inb_S64x128x512_S1x128x512_30_0_0 p30 ∗ wrote c g9 31 inb_S64x128x512_S1x128x512_31_0_0 p31 ∗ wrote c g9 32 inb_S64x128x512_S1x128x512_32_0_0 p32 ∗ wrote c g9 33 inb_S64x128x512_S1x128x512_33_0_0 p33 ∗ wrote c g9 34 inb_S64x128x512_S1x128x512_34_0_0 p34 ∗ wrote c g9 35 inb_S64x128x512_S1x128x512_35_0_0 p35 ∗ wrote c g9 36 inb_S64x128x512_S1x128x512_36_0_0 p36 ∗ wrote c g9 37 inb_S64x128x512_S1x128x512_37_0_0 p37 ∗ wrote c g9 38 inb_S64x128x512_S1x128x512_38_0_0 p38 ∗ wrote c g9 39 inb_S64x128x512_S1x128x512_39_0_0 p39 ∗ wrote c g9 40 inb_S64x128x512_S1x128x512_40_0_0 p40 ∗ wrote c g9 41 inb_S64x128x512_S1x128x512_41_0_0 p41 ∗ wrote c g9 42 inb_S64x128x512_S1x128x512_42_0_0 p42 ∗ wrote c g9 43 inb_S64x128x512_S1x128x512_43_0_0 p43 ∗ wrote c g9 44 inb_S64x128x512_S1x128x512_44_0_0 p44 ∗ wrote c g9 45 inb_S64x128x512_S1x128x512_45_0_0 p45 ∗ wrote c g9 46 inb_S64x128x512_S1x128x512_46_0_0 p46 ∗ wrote c g9 47 inb_S64x128x512_S1x128x512_47_0_0 p47 ∗ wrote c g9 48 inb_S64x128x512_S1x128x512_48_0_0 p48 ∗ wrote c g9 49 inb_S64x128x512_S1x128x512_49_0_0 p49 ∗ wrote c g9 50 inb_S64x128x512_S1x128x512_50_0_0 p50 ∗ wrote c g9 51 inb_S64x128x512_S1x128x512_51_0_0 p51 ∗ wrote c g9 52 inb_S64x128x512_S1x128x512_52_0_0 p52 ∗ wrote c g9 53 inb_S64x128x512_S1x128x512_53_0_0 p53 ∗ wrote c g9 54 inb_S64x128x512_S1x128x512_54_0_0 p54 ∗ wrote c g9 55 inb_S64x128x512_S1x128x512_55_0_0 p55 ∗ wrote c g9 56 inb_S64x128x512_S1x128x512_56_0_0 p56 ∗ wrote c g9 57 inb_S64x128x512_S1x128x512_57_0_0 p57 ∗ wrote c g9 58 inb_S64x128x512_S1x128x512_58_0_0 p58 ∗ wrote c g9 59 inb_S64x128x512_S1x128x512_59_0_0 p59 ∗ wrote c g9 60 inb_S64x128x512_S1x128x512_60_0_0 p60 ∗ wrote c g9 61 inb_S64x128x512_S1x128x512_61_0_0 p61 ∗ wrote c g9 62 inb_S64x128x512_S1x128x512_62_0_0 p62 ∗ wrote c g9 63 inb_S64x128x512_S1x128x512_63_0_0 p63) : sProp 𝕄)
      ⊢ pt c sc9 fullShare (glue64 p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63) := by
  have h := sc9_glue c g9 ![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63]
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] univ64 nodup64] at h
  exact h

theorem univ70 : (Finset.univ : Finset (Fin 70)) = ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69] : List (Fin 70)).toFinset := by decide
theorem nodup70 : ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69] : List (Fin 70)).Nodup := by decide

set_option maxHeartbeats 4000000 in

theorem hb6_split (c : Dev nD) (fh : Buf (Elt F) (hb6.view.loc (c : Thread nD τ))) :
    pt c hb6 fullShare fh
      ⊢ (iprop(pt c hb6 (Transfers.shareDrop fullShare 70) fh ∗ pt c hb6 (Transfers.shareTokN fullShare 0) fh ∗ pt c hb6 (Transfers.shareTokN fullShare 1) fh ∗ pt c hb6 (Transfers.shareTokN fullShare 2) fh ∗ pt c hb6 (Transfers.shareTokN fullShare 3) fh ∗ pt c hb6 (Transfers.shareTokN fullShare 4) fh ∗ pt c hb6 (Transfers.shareTokN fullShare 5) fh ∗ pt c hb6 (Transfers.shareTokN fullShare 6) fh ∗ pt c hb6 (Transfers.shareTokN fullShare 7) fh ∗ pt c hb6 (Transfers.shareTokN fullShare 8) fh ∗ pt c hb6 (Transfers.shareTokN fullShare 9) fh ∗ pt c hb6 (Transfers.shareTokN fullShare 10) fh ∗ pt c hb6 (Transfers.shareTokN fullShare 11) fh ∗ pt c hb6 (Transfers.shareTokN fullShare 12) fh ∗ pt c hb6 (Transfers.shareTokN fullShare 13) fh ∗ pt c hb6 (Transfers.shareTokN fullShare 14) fh ∗ pt c hb6 (Transfers.shareTokN fullShare 15) fh ∗ pt c hb6 (Transfers.shareTokN fullShare 16) fh ∗ pt c hb6 (Transfers.shareTokN fullShare 17) fh ∗ pt c hb6 (Transfers.shareTokN fullShare 18) fh ∗ pt c hb6 (Transfers.shareTokN fullShare 19) fh ∗ pt c hb6 (Transfers.shareTokN fullShare 20) fh ∗ pt c hb6 (Transfers.shareTokN fullShare 21) fh ∗ pt c hb6 (Transfers.shareTokN fullShare 22) fh ∗ pt c hb6 (Transfers.shareTokN fullShare 23) fh ∗ pt c hb6 (Transfers.shareTokN fullShare 24) fh ∗ pt c hb6 (Transfers.shareTokN fullShare 25) fh ∗ pt c hb6 (Transfers.shareTokN fullShare 26) fh ∗ pt c hb6 (Transfers.shareTokN fullShare 27) fh ∗ pt c hb6 (Transfers.shareTokN fullShare 28) fh ∗ pt c hb6 (Transfers.shareTokN fullShare 29) fh ∗ pt c hb6 (Transfers.shareTokN fullShare 30) fh ∗ pt c hb6 (Transfers.shareTokN fullShare 31) fh ∗ pt c hb6 (Transfers.shareTokN fullShare 32) fh ∗ pt c hb6 (Transfers.shareTokN fullShare 33) fh ∗ pt c hb6 (Transfers.shareTokN fullShare 34) fh ∗ pt c hb6 (Transfers.shareTokN fullShare 35) fh ∗ pt c hb6 (Transfers.shareTokN fullShare 36) fh ∗ pt c hb6 (Transfers.shareTokN fullShare 37) fh ∗ pt c hb6 (Transfers.shareTokN fullShare 38) fh ∗ pt c hb6 (Transfers.shareTokN fullShare 39) fh ∗ pt c hb6 (Transfers.shareTokN fullShare 40) fh ∗ pt c hb6 (Transfers.shareTokN fullShare 41) fh ∗ pt c hb6 (Transfers.shareTokN fullShare 42) fh ∗ pt c hb6 (Transfers.shareTokN fullShare 43) fh ∗ pt c hb6 (Transfers.shareTokN fullShare 44) fh ∗ pt c hb6 (Transfers.shareTokN fullShare 45) fh ∗ pt c hb6 (Transfers.shareTokN fullShare 46) fh ∗ pt c hb6 (Transfers.shareTokN fullShare 47) fh ∗ pt c hb6 (Transfers.shareTokN fullShare 48) fh ∗ pt c hb6 (Transfers.shareTokN fullShare 49) fh ∗ pt c hb6 (Transfers.shareTokN fullShare 50) fh ∗ pt c hb6 (Transfers.shareTokN fullShare 51) fh ∗ pt c hb6 (Transfers.shareTokN fullShare 52) fh ∗ pt c hb6 (Transfers.shareTokN fullShare 53) fh ∗ pt c hb6 (Transfers.shareTokN fullShare 54) fh ∗ pt c hb6 (Transfers.shareTokN fullShare 55) fh ∗ pt c hb6 (Transfers.shareTokN fullShare 56) fh ∗ pt c hb6 (Transfers.shareTokN fullShare 57) fh ∗ pt c hb6 (Transfers.shareTokN fullShare 58) fh ∗ pt c hb6 (Transfers.shareTokN fullShare 59) fh ∗ pt c hb6 (Transfers.shareTokN fullShare 60) fh ∗ pt c hb6 (Transfers.shareTokN fullShare 61) fh ∗ pt c hb6 (Transfers.shareTokN fullShare 62) fh ∗ pt c hb6 (Transfers.shareTokN fullShare 63) fh ∗ pt c hb6 (Transfers.shareTokN fullShare 64) fh ∗ pt c hb6 (Transfers.shareTokN fullShare 65) fh ∗ pt c hb6 (Transfers.shareTokN fullShare 66) fh ∗ pt c hb6 (Transfers.shareTokN fullShare 67) fh ∗ pt c hb6 (Transfers.shareTokN fullShare 68) fh ∗ pt c hb6 (Transfers.shareTokN fullShare 69) fh) : sProp 𝕄) := by
  have h := Transfers.pointsTo_toks_split (Ix := Unit) (Name := ℕ) (U := Pipeline.UD sig nD τ) (Lvl := ℕ)
    (ℓ := hb6.view.loc (c : Thread nD τ)) (S := Finset.univ) (f := fh) fullShare 70
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69] univ70 nodup70] at h
  exact h

set_option maxHeartbeats 4000000 in

theorem hb6_join (c : Dev nD) (fh : Buf (Elt F) (hb6.view.loc (c : Thread nD τ))) :
    (iprop(pt c hb6 (Transfers.shareDrop fullShare 70) fh ∗ pt c hb6 (Transfers.shareTokN fullShare 0) fh ∗ pt c hb6 (Transfers.shareTokN fullShare 1) fh ∗ pt c hb6 (Transfers.shareTokN fullShare 2) fh ∗ pt c hb6 (Transfers.shareTokN fullShare 3) fh ∗ pt c hb6 (Transfers.shareTokN fullShare 4) fh ∗ pt c hb6 (Transfers.shareTokN fullShare 5) fh ∗ pt c hb6 (Transfers.shareTokN fullShare 6) fh ∗ pt c hb6 (Transfers.shareTokN fullShare 7) fh ∗ pt c hb6 (Transfers.shareTokN fullShare 8) fh ∗ pt c hb6 (Transfers.shareTokN fullShare 9) fh ∗ pt c hb6 (Transfers.shareTokN fullShare 10) fh ∗ pt c hb6 (Transfers.shareTokN fullShare 11) fh ∗ pt c hb6 (Transfers.shareTokN fullShare 12) fh ∗ pt c hb6 (Transfers.shareTokN fullShare 13) fh ∗ pt c hb6 (Transfers.shareTokN fullShare 14) fh ∗ pt c hb6 (Transfers.shareTokN fullShare 15) fh ∗ pt c hb6 (Transfers.shareTokN fullShare 16) fh ∗ pt c hb6 (Transfers.shareTokN fullShare 17) fh ∗ pt c hb6 (Transfers.shareTokN fullShare 18) fh ∗ pt c hb6 (Transfers.shareTokN fullShare 19) fh ∗ pt c hb6 (Transfers.shareTokN fullShare 20) fh ∗ pt c hb6 (Transfers.shareTokN fullShare 21) fh ∗ pt c hb6 (Transfers.shareTokN fullShare 22) fh ∗ pt c hb6 (Transfers.shareTokN fullShare 23) fh ∗ pt c hb6 (Transfers.shareTokN fullShare 24) fh ∗ pt c hb6 (Transfers.shareTokN fullShare 25) fh ∗ pt c hb6 (Transfers.shareTokN fullShare 26) fh ∗ pt c hb6 (Transfers.shareTokN fullShare 27) fh ∗ pt c hb6 (Transfers.shareTokN fullShare 28) fh ∗ pt c hb6 (Transfers.shareTokN fullShare 29) fh ∗ pt c hb6 (Transfers.shareTokN fullShare 30) fh ∗ pt c hb6 (Transfers.shareTokN fullShare 31) fh ∗ pt c hb6 (Transfers.shareTokN fullShare 32) fh ∗ pt c hb6 (Transfers.shareTokN fullShare 33) fh ∗ pt c hb6 (Transfers.shareTokN fullShare 34) fh ∗ pt c hb6 (Transfers.shareTokN fullShare 35) fh ∗ pt c hb6 (Transfers.shareTokN fullShare 36) fh ∗ pt c hb6 (Transfers.shareTokN fullShare 37) fh ∗ pt c hb6 (Transfers.shareTokN fullShare 38) fh ∗ pt c hb6 (Transfers.shareTokN fullShare 39) fh ∗ pt c hb6 (Transfers.shareTokN fullShare 40) fh ∗ pt c hb6 (Transfers.shareTokN fullShare 41) fh ∗ pt c hb6 (Transfers.shareTokN fullShare 42) fh ∗ pt c hb6 (Transfers.shareTokN fullShare 43) fh ∗ pt c hb6 (Transfers.shareTokN fullShare 44) fh ∗ pt c hb6 (Transfers.shareTokN fullShare 45) fh ∗ pt c hb6 (Transfers.shareTokN fullShare 46) fh ∗ pt c hb6 (Transfers.shareTokN fullShare 47) fh ∗ pt c hb6 (Transfers.shareTokN fullShare 48) fh ∗ pt c hb6 (Transfers.shareTokN fullShare 49) fh ∗ pt c hb6 (Transfers.shareTokN fullShare 50) fh ∗ pt c hb6 (Transfers.shareTokN fullShare 51) fh ∗ pt c hb6 (Transfers.shareTokN fullShare 52) fh ∗ pt c hb6 (Transfers.shareTokN fullShare 53) fh ∗ pt c hb6 (Transfers.shareTokN fullShare 54) fh ∗ pt c hb6 (Transfers.shareTokN fullShare 55) fh ∗ pt c hb6 (Transfers.shareTokN fullShare 56) fh ∗ pt c hb6 (Transfers.shareTokN fullShare 57) fh ∗ pt c hb6 (Transfers.shareTokN fullShare 58) fh ∗ pt c hb6 (Transfers.shareTokN fullShare 59) fh ∗ pt c hb6 (Transfers.shareTokN fullShare 60) fh ∗ pt c hb6 (Transfers.shareTokN fullShare 61) fh ∗ pt c hb6 (Transfers.shareTokN fullShare 62) fh ∗ pt c hb6 (Transfers.shareTokN fullShare 63) fh ∗ pt c hb6 (Transfers.shareTokN fullShare 64) fh ∗ pt c hb6 (Transfers.shareTokN fullShare 65) fh ∗ pt c hb6 (Transfers.shareTokN fullShare 66) fh ∗ pt c hb6 (Transfers.shareTokN fullShare 67) fh ∗ pt c hb6 (Transfers.shareTokN fullShare 68) fh ∗ pt c hb6 (Transfers.shareTokN fullShare 69) fh) : sProp 𝕄)
      ⊢ pt c hb6 fullShare fh := by
  have h := Transfers.pointsTo_toks_join (Ix := Unit) (Name := ℕ) (U := Pipeline.UD sig nD τ) (Lvl := ℕ)
    (ℓ := hb6.view.loc (c : Thread nD τ)) (S := Finset.univ) (f := fh) fullShare 70
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69] univ70 nodup70] at h
  exact h

end Cert.KernelIdeal.Hand

end
-- ==== Proof.ChkIdeal.lean ====
/- A [1, 1, 128, 512] slab at table a < 2 and row b < 216 lies inside the [2, 216, 128, 512] array and is made of whole words. -/
import proofs.«403558_j46694884442289_3_alg».proof.Proof.Gen.KernelIdeal
import Idealize.ShloMosaic.Lib.Affine

namespace Cert.KernelIdeal.Hand

open Idealize.ShloMosaic
open Cert.KernelIdeal

theorem slab_inb (a b : Nat) (ha : a < 2) (hb : b < 216) :
    ∀ x, (![a, b, 0, 0] : Fin 4 → Nat) x + S1x1x128x512.size x ≤ S2x216x128x512.size x := by
  intro x
  match x with
  | ⟨0, _⟩ => show a + 1 ≤ 2; omega
  | ⟨1, _⟩ => show b + 1 ≤ 216; omega
  | ⟨2, _⟩ => show 0 + 128 ≤ 128; omega
  | ⟨3, _⟩ => show 0 + 512 ≤ 512; omega

theorem slab_words (a b : Nat)
    (hinb : ∀ x, (![a, b, 0, 0] : Fin 4 → Nat) x + S1x1x128x512.size x ≤ S2x216x128x512.size x) :
    (Rect.unit (s := S2x216x128x512) ![a, b, 0, 0] S1x1x128x512.size hinb).WholeWords (EltTy.packing .bf16) :=
  Affine.words_rows (by decide) rfl rfl

theorem coord0_lt (i : grid0.Coords) : (BitVec.ofNat 32 (i 0).val).toNat < 2 := by
  have h : (i 0).val < 2 := (i 0).isLt
  rw [BitVec.toNat_ofNat]
  exact Nat.lt_of_le_of_lt (Nat.mod_le _ _) h

theorem chk1_of (i : grid0.Coords) (v : BitVec 32) (h : v.toNat < 216) : k0_chk1 i v := by
  unfold k0_chk1
  exact ⟨slab_inb _ _ (coord0_lt i) h,
    fun hinb => slab_words _ _ hinb,
    slab_inb _ _ (coord0_lt i) h,
    fun hinb => slab_words _ _ hinb⟩

theorem chk64_of (i : grid0.Coords) (v : BitVec 32) (h : v.toNat < 216) : k0_chk64 i v := by
  unfold k0_chk64
  exact ⟨slab_inb _ _ (coord0_lt i) h,
    fun hinb => slab_words _ _ hinb⟩

end Cert.KernelIdeal.Hand
-- ==== Proof.BodyIdeal.lean ====
/- The body at one grid point as a triple: holding its operands it runs to holding them again, the output block written with the pieces the run finds. -/
import proofs.«403558_j46694884442289_3_alg».proof.Proof.KitIdeal
import proofs.«403558_j46694884442289_3_alg».proof.Proof.BlocksIdeal
import proofs.«403558_j46694884442289_3_alg».proof.Proof.ChkIdeal
import proofs.«403558_j46694884442289_3_alg».proof.Proof.Gen.KernelIdeal.Skeleton
import Idealize.ShloMosaic.Lib.Pipeline.FrameBody
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (Pipeline.UD sig nD τ) ℕ

theorem word_lt (c : Dev nD) (f3 : Buf (Elt F) (tb3.view.loc (c : Thread nD τ))) (hlt : ∀ j, (f3 j : BitVec 32).toNat < 216)
    (r : LoadRect S2x1024) (y : r.shape.Idx) : ((View.readAt (Elt F) tb3.view r f3 y : Elt F .i32) : BitVec 32).toNat < 216 := by
  rw [View.readAt_apply]; exact hlt _

abbrev cells0 (c : Dev nD) : sProp 𝕄 :=
  iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0)

set_option maxHeartbeats 40000000 in

noncomputable def kernelRun (c : Dev nD) (i : grid0.Coords)
    (arg5 : Memref sig .tc .vmem S1x216x256 .bf16) (harg5 : arg5.IsWhole) (arg7 : Memref sig .tc .vmem S1x216x256 .bf16) (harg7 : arg7.IsWhole)
    (arg8 : Memref sig .tc .vmem S1x64x16 .f32) (harg8 : arg8.IsWhole)
    (x5 x7 : Vec F S1x216x256 .bf16)
    (f2 : Buf (Elt F) (tb2.view.loc (c : Thread nD τ))) (f3 : Buf (Elt F) (tb3.view.loc (c : Thread nD τ))) (f4 : Buf (Elt F) (tb4.view.loc (c : Thread nD τ)))
    (fh : Buf (Elt F) (hb6.view.loc (c : Thread nD τ)))
    (g9 : Buf (Elt F) (sc9.view.loc (c : Thread nD τ))) (g10 : Buf (Elt F) (sc10.view.loc (c : Thread nD τ))) (g11 : Buf (Elt F) (sc11.view.loc (c : Thread nD τ)))
    (hlt : ∀ j, (f3 j : BitVec 32).toNat < 216) :
    { L : List (View.Piece (Elt F) S1x64x16 .f32) //
      ∀ (W : Waits sig Unit) (K : PUnit → sProp 𝕄),
        iprop(pt c tb2 fullShare.right f2 ∗ pt c tb3 fullShare.right f3 ∗ pt c tb4 fullShare.right f4
            ∗ owns (c : Thread nD τ) arg5 fullShare x5 ∗ owns (c : Thread nD τ) arg7 fullShare x7 ∗ (∃ d, owns (c : Thread nD τ) arg8 fullShare d)
            ∗ pt c sc9 fullShare g9 ∗ pt c sc10 fullShare g10 ∗ pt c sc11 fullShare g11
            ∗ cells0 c ∗ pt c hb6 fullShare fh ∗ owes (c : Thread nD τ) 0 W
            ∗ (iprop(pt c tb2 fullShare.right f2 ∗ pt c tb3 fullShare.right f3 ∗ pt c tb4 fullShare.right f4
                ∗ owns (c : Thread nD τ) arg5 fullShare x5 ∗ owns (c : Thread nD τ) arg7 fullShare x7
                ∗ (∃ f, arg8.view.loc (c : Thread nD τ) ↦[arg8.view.set]{fullShare} arg8.view.writes (Elt F) f L)
                ∗ (∃ g, pt c sc9 fullShare g) ∗ (∃ g, pt c sc10 fullShare g) ∗ (∃ g, pt c sc11 fullShare g)
                ∗ cells0 c ∗ pt c hb6 fullShare fh ∗ (∃ W', owes (c : Thread nD τ) 0 W')) -∗ K ⟨⟩))
          ⊢ wp frame (wpE (defs₀ (F := F)) Variants.none c none) Set.univ
              (cc0__tt_kernel i tb2 (Memref.isWhole_whole _) tb3 (Memref.isWhole_whole _) tb4 (Memref.isWhole_whole _) arg5 harg5 hb6 (Memref.isWhole_whole _) arg7 harg7 arg8 harg8
                sc9 (Memref.isWhole_whole _) sc10 (Memref.isWhole_whole _) sc11 (Memref.isWhole_whole _) cc0_scratch3) K } := by
  refine ⟨?_, fun W K => ?run⟩
  case run =>
    simp only [cc0__tt_kernel_eq_skeleton]; unfold cc0__tt_kernel_skel
    unfold owns cells0
    iintro ⟨H2, H3, H4, ⟨%f5, %hf5, H5⟩, ⟨%f7, %hf7, H7⟩, ⟨%d8, %f8, -, H8⟩, H9, H10, H11, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63⟩, Hh, HW, Hk⟩
    obtain rfl := harg5.eq_unread hf5
    obtain rfl := harg7.eq_unread hf7
    ihave HD := (sc9_split c g9) $$ H9
    icases HD with ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31, Hd32, Hd33, Hd34, Hd35, Hd36, Hd37, Hd38, Hd39, Hd40, Hd41, Hd42, Hd43, Hd44, Hd45, Hd46, Hd47, Hd48, Hd49, Hd50, Hd51, Hd52, Hd53, Hd54, Hd55, Hd56, Hd57, Hd58, Hd59, Hd60, Hd61, Hd62, Hd63⟩
    ihave HT := (hb6_split c fh) $$ Hh
    icases HT with ⟨Hr, Hx0, Hx1, Hx2, Hx3, Hx4, Hx5, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Ht45, Ht46, Ht47, Ht48, Ht49, Ht50, Ht51, Ht52, Ht53, Ht54, Ht55, Ht56, Ht57, Ht58, Ht59, Ht60, Ht61, Ht62, Ht63⟩
    sl_exec_parts (disch := (first | (refine chk64_of i _ ?_; exact word_lt c f3 hlt _ _) | (refine chk1_of i _ ?_; exact word_lt c f3 hlt _ _)))
    ihave HJ := (sc9_join c g9 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31 Hd32 Hd33 Hd34 Hd35 Hd36 Hd37 Hd38 Hd39 Hd40 Hd41 Hd42 Hd43 Hd44 Hd45 Hd46 Hd47 Hd48 Hd49 Hd50 Hd51 Hd52 Hd53 Hd54 Hd55 Hd56 Hd57 Hd58 Hd59 Hd60 Hd61 Hd62 Hd63]
    · isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      isplitl [Hd11]; · iexact Hd11
      isplitl [Hd12]; · iexact Hd12
      isplitl [Hd13]; · iexact Hd13
      isplitl [Hd14]; · iexact Hd14
      isplitl [Hd15]; · iexact Hd15
      isplitl [Hd16]; · iexact Hd16
      isplitl [Hd17]; · iexact Hd17
      isplitl [Hd18]; · iexact Hd18
      isplitl [Hd19]; · iexact Hd19
      isplitl [Hd20]; · iexact Hd20
      isplitl [Hd21]; · iexact Hd21
      isplitl [Hd22]; · iexact Hd22
      isplitl [Hd23]; · iexact Hd23
      isplitl [Hd24]; · iexact Hd24
      isplitl [Hd25]; · iexact Hd25
      isplitl [Hd26]; · iexact Hd26
      isplitl [Hd27]; · iexact Hd27
      isplitl [Hd28]; · iexact Hd28
      isplitl [Hd29]; · iexact Hd29
      isplitl [Hd30]; · iexact Hd30
      isplitl [Hd31]; · iexact Hd31
      isplitl [Hd32]; · iexact Hd32
      isplitl [Hd33]; · iexact Hd33
      isplitl [Hd34]; · iexact Hd34
      isplitl [Hd35]; · iexact Hd35
      isplitl [Hd36]; · iexact Hd36
      isplitl [Hd37]; · iexact Hd37
      isplitl [Hd38]; · iexact Hd38
      isplitl [Hd39]; · iexact Hd39
      isplitl [Hd40]; · iexact Hd40
      isplitl [Hd41]; · iexact Hd41
      isplitl [Hd42]; · iexact Hd42
      isplitl [Hd43]; · iexact Hd43
      isplitl [Hd44]; · iexact Hd44
      isplitl [Hd45]; · iexact Hd45
      isplitl [Hd46]; · iexact Hd46
      isplitl [Hd47]; · iexact Hd47
      isplitl [Hd48]; · iexact Hd48
      isplitl [Hd49]; · iexact Hd49
      isplitl [Hd50]; · iexact Hd50
      isplitl [Hd51]; · iexact Hd51
      isplitl [Hd52]; · iexact Hd52
      isplitl [Hd53]; · iexact Hd53
      isplitl [Hd54]; · iexact Hd54
      isplitl [Hd55]; · iexact Hd55
      isplitl [Hd56]; · iexact Hd56
      isplitl [Hd57]; · iexact Hd57
      isplitl [Hd58]; · iexact Hd58
      isplitl [Hd59]; · iexact Hd59
      isplitl [Hd60]; · iexact Hd60
      isplitl [Hd61]; · iexact Hd61
      isplitl [Hd62]; · iexact Hd62
      iexact Hd63
    sl_exec
    sl_step
    ihave Hh := (hb6_join c fh) $$ [Hr Hx0 Hx1 Hx2 Hx3 Hx4 Hx5 Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Ht40 Ht41 Ht42 Ht43 Ht44 Ht45 Ht46 Ht47 Ht48 Ht49 Ht50 Ht51 Ht52 Ht53 Ht54 Ht55 Ht56 Ht57 Ht58 Ht59 Ht60 Ht61 Ht62 Ht63]
    · isplitl [Hr]; · iexact Hr
      isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      isplitl [Ht19]; · iexact Ht19
      isplitl [Ht20]; · iexact Ht20
      isplitl [Ht21]; · iexact Ht21
      isplitl [Ht22]; · iexact Ht22
      isplitl [Ht23]; · iexact Ht23
      isplitl [Ht24]; · iexact Ht24
      isplitl [Ht25]; · iexact Ht25
      isplitl [Ht26]; · iexact Ht26
      isplitl [Ht27]; · iexact Ht27
      isplitl [Ht28]; · iexact Ht28
      isplitl [Ht29]; · iexact Ht29
      isplitl [Ht30]; · iexact Ht30
      isplitl [Ht31]; · iexact Ht31
      isplitl [Ht32]; · iexact Ht32
      isplitl [Ht33]; · iexact Ht33
      isplitl [Ht34]; · iexact Ht34
      isplitl [Ht35]; · iexact Ht35
      isplitl [Ht36]; · iexact Ht36
      isplitl [Ht37]; · iexact Ht37
      isplitl [Ht38]; · iexact Ht38
      isplitl [Ht39]; · iexact Ht39
      isplitl [Ht40]; · iexact Ht40
      isplitl [Ht41]; · iexact Ht41
      isplitl [Ht42]; · iexact Ht42
      isplitl [Ht43]; · iexact Ht43
      isplitl [Ht44]; · iexact Ht44
      isplitl [Ht45]; · iexact Ht45
      isplitl [Ht46]; · iexact Ht46
      isplitl [Ht47]; · iexact Ht47
      isplitl [Ht48]; · iexact Ht48
      isplitl [Ht49]; · iexact Ht49
      isplitl [Ht50]; · iexact Ht50
      isplitl [Ht51]; · iexact Ht51
      isplitl [Ht52]; · iexact Ht52
      isplitl [Ht53]; · iexact Ht53
      isplitl [Ht54]; · iexact Ht54
      isplitl [Ht55]; · iexact Ht55
      isplitl [Ht56]; · iexact Ht56
      isplitl [Ht57]; · iexact Ht57
      isplitl [Ht58]; · iexact Ht58
      isplitl [Ht59]; · iexact Ht59
      isplitl [Ht60]; · iexact Ht60
      isplitl [Ht61]; · iexact Ht61
      isplitl [Ht62]; · iexact Ht62
      iexact Ht63
    iapply Hk
    isplitl [H2]; · iexact H2
    isplitl [H3]; · iexact H3
    isplitl [H4]; · iexact H4
    isplitl [H5]
    · iexists _; isplitr; · ipureintro; exact harg5.read_unread _
      iexact H5
    isplitl [H7]
    · iexists _; isplitr; · ipureintro; exact harg7.read_unread _
      iexact H7
    isplitl [H8]; · iexists _; iexact H8
    isplitl [HJ]; · iexists _; iexact HJ
    isplitl [H10]; · iexists _; iexact H10
    isplitl [H11]; · iexists _; iexact H11
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      isplitl [Hq40]; · iexact Hq40
      isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      isplitl [Hq49]; · iexact Hq49
      isplitl [Hq50]; · iexact Hq50
      isplitl [Hq51]; · iexact Hq51
      isplitl [Hq52]; · iexact Hq52
      isplitl [Hq53]; · iexact Hq53
      isplitl [Hq54]; · iexact Hq54
      isplitl [Hq55]; · iexact Hq55
      isplitl [Hq56]; · iexact Hq56
      isplitl [Hq57]; · iexact Hq57
      isplitl [Hq58]; · iexact Hq58
      isplitl [Hq59]; · iexact Hq59
      isplitl [Hq60]; · iexact Hq60
      isplitl [Hq61]; · iexact Hq61
      isplitl [Hq62]; · iexact Hq62
      iexact Hq63
    isplitl [Hh]; · iexact Hh
    iexists _; iexact HW

theorem kernelRun_cover (c : Dev nD) (i : grid0.Coords)
    (arg5 : Memref sig .tc .vmem S1x216x256 .bf16) (harg5 : arg5.IsWhole) (arg7 : Memref sig .tc .vmem S1x216x256 .bf16) (harg7 : arg7.IsWhole)
    (arg8 : Memref sig .tc .vmem S1x64x16 .f32) (harg8 : arg8.IsWhole)
    (x5 x7 : Vec F S1x216x256 .bf16)
    (f2 : Buf (Elt F) (tb2.view.loc (c : Thread nD τ))) (f3 : Buf (Elt F) (tb3.view.loc (c : Thread nD τ))) (f4 : Buf (Elt F) (tb4.view.loc (c : Thread nD τ)))
    (fh : Buf (Elt F) (hb6.view.loc (c : Thread nD τ)))
    (g9 : Buf (Elt F) (sc9.view.loc (c : Thread nD τ))) (g10 : Buf (Elt F) (sc10.view.loc (c : Thread nD τ))) (g11 : Buf (Elt F) (sc11.view.loc (c : Thread nD τ)))
    (hlt : ∀ j, (f3 j : BitVec 32).toNat < 216) (y : S1x64x16.Idx) :
    ∃ pc ∈ (kernelRun c i arg5 harg5 arg7 harg7 arg8 harg8 x5 x7 f2 f3 f4 fh g9 g10 g11 hlt).1, y ∈ pc.1.set :=
  View.cover_of_tiledL (kernelRun c i arg5 harg5 arg7 harg7 arg8 harg8 x5 x7 f2 f3 f4 fh g9 g10 g11 hlt).1 S1x64x16.size (by sl_kernel_rfl) y

end Cert.KernelIdeal.Hand

end
-- ==== Proof.HostValIdeal.lean ====
/- What the operations before the call leave in the arrays the call reads: the clamped digits and the three cores. -/
import proofs.«403558_j46694884442289_3_alg».proof.Proof.KitIdeal
import proofs.«403558_j46694884442289_3_alg».proof.Proof.Digits
import Idealize.ShloMosaic.Lib.StableHlo.Run
import Idealize.ShloMosaic.Lib.ValueIdx

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

theorem V_main_v4 (c : Dev nD) :
    (V m c main_v4 : S2x1024.Idx → BitVec 32)
      = fun j => Cert.Proof.Digits.clip215 (Cert.Proof.Digits.d0 (m ((c : Thread nD τ).loc main_arg0) j)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf, StableHlo.TRef.toBuf, cast_eq]
  funext j
  rfl

theorem V_main_v5 (c : Dev nD) :
    (V m c main_v5 : S2x1024.Idx → BitVec 32)
      = fun j => Cert.Proof.Digits.clip215 (Cert.Proof.Digits.d1 (m ((c : Thread nD τ).loc main_arg0) j)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf, StableHlo.TRef.toBuf, cast_eq]
  funext j
  rfl

theorem V_main_v6 (c : Dev nD) :
    (V m c main_v6 : S2x1024.Idx → BitVec 32)
      = fun j => Cert.Proof.Digits.clip215 (Cert.Proof.Digits.d2 (m ((c : Thread nD τ).loc main_arg0) j)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf, StableHlo.TRef.toBuf, cast_eq]
  funext j
  rfl

theorem V_main_v5_lt (c : Dev nD) (j : S2x1024.Idx) :
    ((V m c main_v5 : S2x1024.Idx → BitVec 32) j).toNat < 216 := by
  rw [congrFun (V_main_v5 m c) j, Cert.Proof.Digits.clip215_toNat]
  exact (Cert.Proof.Digits.row _).isLt

theorem V_main_v7 (c : Dev nD) :
    (V m c main_v7 : S2x216x256.Idx → Elt F .bf16)
      = truncf .bf16 (m ((c : Thread nD τ).loc main_arg1)) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp

theorem V_main_v9 (c : Dev nD) :
    (V m c main_v9 : S2x216x128x512.Idx → Elt F .bf16)
      = shapeCast S2x216x128x512 (truncf .bf16 (m ((c : Thread nD τ).loc main_arg2)) bitsLt_bf16_f32)
          shapeCasts_S2x216x65536_S2x216x128x512 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem V_main_v10 (c : Dev nD) :
    (V m c main_v10 : S2x216x256.Idx → Elt F .bf16)
      = truncf .bf16 (m ((c : Thread nD τ).loc main_arg3)) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp

end Cert.KernelIdeal.Hand

end
-- ==== Proof.FrameIdeal.lean ====
/- The run of the program from the launch theorem: at every grid point the body runs by its triple, under the hypothesis that the piece it writes does not depend on what the three work buffers held before. -/
import proofs.«403558_j46694884442289_3_alg».proof.Proof.KitIdeal
import proofs.«403558_j46694884442289_3_alg».proof.Proof.BodyIdeal
import proofs.«403558_j46694884442289_3_alg».proof.Proof.HostValIdeal
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

abbrev VO2 : View sig .tc .vmem S1x64x16 .f32 := (Memref.whole cc0_stg2_0 : Memref sig .tc .vmem S1x64x16 .f32).view

variable
  (hind : ∀ c i arg5 harg5 arg7 harg7 arg8 harg8 x5 x7 f2 f3 f4 fh g9 g10 g11 g9' g10' g11' hlt,
    VO2.read (Elt F) (VO2.writes (Elt F) VO2.junk (kernelRun (F := F) c i arg5 harg5 arg7 harg7 arg8 harg8 x5 x7 f2 f3 f4 fh g9 g10 g11 hlt).1)
      = VO2.read (Elt F) (VO2.writes (Elt F) VO2.junk (kernelRun (F := F) c i arg5 harg5 arg7 harg7 arg8 harg8 x5 x7 f2 f3 f4 fh g9' g10' g11' hlt).1))

def adm : (p : Fin 1) → (pcfgs (F := F) p).Adm := fun _ => ⟨fun k => V m 0 (pre0.ref k), trivial⟩

theorem hpf (c : Dev nD) (k : Fin pre0.K) : V m c (pre0.ref k) = (adm m 0).1 k := by
  obtain rfl : c = 0 := Subsingleton.elim _ _
  rfl
theorem adm_fun (c : Dev nD) : (adm m 0).1 = fun k => V m c (pre0.ref k) := funext fun k => (hpf m c k).symm

abbrev cfgA : Cfg sig Λ₀ := Pipeline.pin (pcfgs (F := F)) (adm m) 0

def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

abbrev ms0_0 (t : Fin (cfgA m).N) : Memref sig .tc .vmem S1x216x256 .bf16 := spec0_0.stage ((cfgA m).slots t 0)
abbrev hs0_0 (t : Fin (cfgA m).N) : (ms0_0 m t).IsWhole := hstage0_0 (((cfgA m).slots t 0).cast nbuf0_0)
abbrev ms0_1 (t : Fin (cfgA m).N) : Memref sig .tc .vmem S1x216x256 .bf16 := spec0_1.stage ((cfgA m).slots t 1)
abbrev hs0_1 (t : Fin (cfgA m).N) : (ms0_1 m t).IsWhole := hstage0_1 (((cfgA m).slots t 1).cast nbuf0_1)
abbrev ms0_2 (t : Fin (cfgA m).N) : Memref sig .tc .vmem S1x64x16 .f32 := spec0_2.stage ((cfgA m).slots t 2)
abbrev hs0_2 (t : Fin (cfgA m).N) : (ms0_2 m t).IsWhole := hstage0_2 (((cfgA m).slots t 2).cast nbuf0_2)

abbrev bodyAt (t : Fin (cfgA m).N) : Prog (TpuEff nD τ sig (Elt F) Λ₀ .tc) PUnit :=
  cc0__tt_kernel (grid0.coords t) tb2 (Memref.isWhole_whole _) tb3 (Memref.isWhole_whole _) tb4 (Memref.isWhole_whole _)
    (ms0_0 m t) (hs0_0 m t) hb6 (Memref.isWhole_whole _) (ms0_1 m t) (hs0_1 m t) (ms0_2 m t) (hs0_2 m t)
    sc9 (Memref.isWhole_whole _) sc10 (Memref.isWhole_whole _) sc11 (Memref.isWhole_whole _) cc0_scratch3

abbrev osem0 : Fin 64 → SemLoc sig := fun j => (![SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69] : Fin 64 → SemLoc sig) j
theorem ownSemFacts0 : Pipeline.OwnSemFacts spec0 osem0 := by decide

theorem ownSems0_eq (c : Dev nD) :
    (Pipeline.ownSems0 (Ix := Unit) (Name := ℕ) (U := Pipeline.UD sig nD τ) (Lvl := ℕ) (Val := Elt F) (τ := τ) osem0 c : sProp 𝕄)
      = cells0 c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide)]; rfl

def H0 : Finset (Ref sig .tc) := {main_v9}
theorem H0_sub : H0 ⊆ Pipeline.restRefsP sig pre0 spec0 := by decide

theorem hbmPts0_eq (c : Dev nD) :
    (bigSep H0 (fun b => ((c : Thread nD τ).loc b) ↦{fullShare} V m c b) : sProp 𝕄) = pt c hb6 fullShare (V m c main_v9) := by
  rw [BI.bigSep_eq_bigSepL_of_eq [main_v9] (by decide) (by decide)]; rfl

theorem PhiD0_eq (c : Dev nD) :
    (Pipeline.ΦD osem0 spec0 H0 (V m) c : sProp 𝕄)
      = iprop(iprop((∃ g, pt c sc9 fullShare g) ∗ (∃ g, pt c sc10 fullShare g) ∗ (∃ g, pt c sc11 fullShare g))
          ∗ (∃ r, prngReg c r) ∗ cells0 c ∗ pt c hb6 fullShare (V m c main_v9)) := by
  rw [Pipeline.ΦD_eq, scopedRest0_eq, ownSems0_eq, hbmPts0_eq]; try rfl

theorem PhiT0_eq (c : Dev nD) :
    (Pipeline.ΦT (U := Pipeline.UD sig nD τ) pre0 (adm m 0).1 c : sProp 𝕄)
      = iprop(pt c tb2 fullShare.right (V m c main_v4) ∗ pt c tb3 fullShare.right (V m c main_v5) ∗ pt c tb4 fullShare.right (V m c main_v6)) := by
  unfold Pipeline.ΦT Pipeline.prefHeld
  rw [adm_fun m c, bigSep_W0]
  rfl

def outsAt (c : Dev nD) (t : Fin (cfgA m).N) : Vec F S1x64x16 .f32 :=
  VO2.read (Elt F) (VO2.writes (Elt F) VO2.junk
    (kernelRun c (grid0.coords t) (ms0_0 m t) (hs0_0 m t) (ms0_1 m t) (hs0_1 m t) (ms0_2 m t) (hs0_2 m t)
      (iblk m c 0 t) (iblk m c 1 t) (V m c main_v4) (V m c main_v5) (V m c main_v6) (V m c main_v9)
      (fun _ => Classical.arbitrary _) (fun _ => Classical.arbitrary _) (fun _ => Classical.arbitrary _) (V_main_v5_lt m c)).1)

def dats (p : Fin 1) (c : Dev nD) :
    Dat τ (Elt F) Unit ℕ (Pipeline.UD sig nD τ) ℕ (Pipeline.pin (pcfgs (F := F)) (adm m) p) c where
  A w := V m c (Pipeline.arrRef spec0 w)
  after w t := match w with
    | ⟨0, _⟩ => iblk m c 0 t
    | ⟨1, _⟩ => iblk m c 1 t
    | ⟨2, _⟩ => outsAt m c t
  Φ _ := iprop(Pipeline.ΦD osem0 spec0 H0 (V m) c ∗ Pipeline.ΦT pre0 (adm m 0).1 c)
  q _ := fullShare
  owed _ := 0

theorem A_eq (c : Dev nD) (w : Fin (cfgA m).W) : (dats m 0 c).A w = V m c (Pipeline.arrRef spec0 w) := by
  dsimp only [dats]

theorem after0_0 (c : Dev nD) (t : Fin (cfgA m).N) : (dats m 0 c).after 0 t = iblk m c 0 t := by dsimp only [dats]; rfl
theorem after0_1 (c : Dev nD) (t : Fin (cfgA m).N) : (dats m 0 c).after 1 t = iblk m c 1 t := by dsimp only [dats]; rfl
theorem after0_2 (c : Dev nD) (t : Fin (cfgA m).N) : (dats m 0 c).after 2 t = outsAt m c t := by dsimp only [dats]; rfl

theorem before0_0_of {c : Dev nD} (dat : Dat τ (Elt F) Unit ℕ (Pipeline.UD sig nD τ) ℕ (cfgA m) c)
    (hA : dat.A 0 = V m c (Pipeline.arrRef spec0 0)) (hafter : ∀ t, dat.after 0 t = iblk m c 0 t) (t : Fin (cfgA m).N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (Pipeline.UD sig nD τ) ℕ (cfgA m) c)
    (hA : dat.A 1 = V m c (Pipeline.arrRef spec0 1)) (hafter : ∀ t, dat.after 1 t = iblk m c 1 t) (t : Fin (cfgA m).N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin (cfgA m).N) (d) : (dats m 0 c).before 0 t d = iblk m c 0 t :=
  before0_0_of m (dats m 0 c) (A_eq m c 0) (after0_0 m c) t d
theorem before0_1 (c : Dev nD) (t : Fin (cfgA m).N) (d) : (dats m 0 c).before 1 t d = iblk m c 1 t :=
  before0_1_of m (dats m 0 c) (A_eq m c 1) (after0_1 m c) t d

def bodyPre (c : Dev nD) (t : Fin (cfgA m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d)))

def bodyPost (c : Dev nD) (t : Fin (cfgA m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t))

include hind in

theorem sound_body (c : Dev nD) (t : Fin (cfgA m).N) :
    bodyPre m c t ⊢ wp frame (wpE (defs₀ (F := F)) Variants.none c none) Set.univ (bodyAt m t) (fun _ => bodyPost m c t) := by
  unfold bodyPre bodyPost bodyAt
  simp only [before0_0 m, before0_1 m]
  rw [show (dats m 0 c).Φ t.succ = (dats m 0 c).Φ t.castSucc from rfl,
    after0_0, after0_1, after0_2]
  rw [show (dats m 0 c).Φ t.castSucc
      = iprop(Pipeline.ΦD osem0 spec0 H0 (V m) c ∗ Pipeline.ΦT pre0 (adm m 0).1 c) from rfl, PhiD0_eq, PhiT0_eq]
  unfold Dat.owesAt Pipeline.owesWithin
  rw [show (dats m 0 c).owed t.castSucc = 0 from rfl, show (dats m 0 c).owed t.succ = 0 from rfl]
  unfold outsAt
  iintro ⟨⟨⟨⟨⟨%g9, HS9⟩, ⟨%g10, HS10⟩, ⟨%g11, HS11⟩⟩, Hg, Hcells, Hh⟩, ⟨Ht2, Ht3, Ht4⟩⟩, ⟨%W, -, HW⟩, ⟨%d0, H0⟩, ⟨%d1, H1⟩, ⟨%d2, H2⟩⟩
  iapply ((kernelRun c (grid0.coords t) _ _ _ _ _ _ (iblk m c 0 t) (iblk m c 1 t) (V m c main_v4) (V m c main_v5) (V m c main_v6) (V m c main_v9)
    g9 g10 g11 (V_main_v5_lt m c)).2 W _)
  isplitl [Ht2]; · iexact Ht2
  isplitl [Ht3]; · iexact Ht3
  isplitl [Ht4]; · iexact Ht4
  isplitl [H0]; · iexact H0
  isplitl [H1]; · iexact H1
  isplitl [H2]; · iexists _; iexact H2
  isplitl [HS9]; · iexact HS9
  isplitl [HS10]; · iexact HS10
  isplitl [HS11]; · iexact HS11
  isplitl [Hcells]; · iexact Hcells
  isplitl [Hh]; · iexact Hh
  isplitl [HW]; · iexact HW
  iintro ⟨Ht2, Ht3, Ht4, H0, H1, ⟨%e2, H2⟩, HS9, HS10, HS11, Hcells, Hh, ⟨%W', HW'⟩⟩
  isplitl [HS9 HS10 HS11 Hg Hcells Hh Ht2 Ht3 Ht4]
  · isplitr [Ht2 Ht3 Ht4]
    · isplitl [HS9 HS10 HS11]
      · isplitl [HS9]; · iexact HS9
        isplitl [HS10]; · iexact HS10
        iexact HS11
      isplitl [Hg]; · iexact Hg
      isplitl [Hcells]; · iexact Hcells
      iexact Hh
    · isplitl [Ht2]; · iexact Ht2
      isplitl [Ht3]; · iexact Ht3
      iexact Ht4
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro
  exact (View.read_writes_of_cover _ _ _ _ _ (kernelRun_cover c _ _ _ _ _ _ _ _ _ _ _ _ _ _ _ _ _)).trans
    (hind c _ _ _ _ _ _ _ _ _ _ _ _ _ _ _ _ _ _ _ _)

include hind in
set_option maxRecDepth 1000000 in

theorem body_obligation (c : Dev nD) : BodyObligation (dats m 0 c) (defs₀ (F := F)) Variants.none () Set.univ := fun t => by
  rw [bigSep_W0, bigSep_W0]
  exact sound_body m hind c t

include hind in
set_option backward.isDefEq.respectTransparency.types false in

theorem run_main : θ_run defs (onTc (τ := τ) (main (F := F))) (s₀ m ρ)
    (Pipeline.FramePost (Pipeline.pin (pcfgs (F := F)) (adm m)) (dats m) 0 (V m)) :=
  Pipeline.θ_run_frameP_dma (pcfgs (F := F)) (adm m) (dats m) (0 : Fin 1) launch0 osem0 defs₀ Variants.none ownSemFacts0 H0 H0_sub m ρ main
    (hbody := fun c => (body_obligation m hind c).loose)
    (hshare := fun c => (dats m 0 c).share_full fun _ => rfl)
    (howed := fun _ _ => rfl) (V := V m) (hmain := hmain m Variants.none) (hA := A_eq m)
    (hpf := hpf m) (hin := fun _ => .rfl)
    (hout := fun c => (show iprop(Pipeline.ΦD osem0 spec0 H0 (V m) c ∗ Pipeline.ΦT pre0 (adm m 0).1 c) ⊢ (Pipeline.ΦD osem0 spec0 H0 (V m) c : sProp 𝕄) from by
      iintro ⟨H, -⟩; iexact H))

include hind in

theorem run_out : θ_run defs (onTc (τ := τ) (main (F := F))) ⟨m, fun _ => 0, ρ⟩ (fun r => ∀ c : Dev nD,
      r.2.mem ((c.tc : Thread nD τ).loc main_v11) = (dats m 0 c).arrAt 2 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 2,
     ((h c).2 main_arg0 (Pipeline.mem_restRefs_of (win := spec0) main_arg0 (by decide) (by decide))).trans (V_main_arg0 m c),
     ((h c).2 main_arg1 (Pipeline.mem_restRefs_of (win := spec0) main_arg1 (by decide) (by decide))).trans (V_main_arg1 m c),
     ((h c).2 main_arg2 (Pipeline.mem_restRefs_of (win := spec0) main_arg2 (by decide) (by decide))).trans (V_main_arg2 m c),
     ((h c).2 main_arg3 (Pipeline.mem_restRefs_of (win := spec0) main_arg3 (by decide) (by decide))).trans (V_main_arg3 m c)⟩)
    (run_main m ρ hind)

end Cert.KernelIdeal.Hand

end
-- ==== Proof.OneHotIdeal.lean ====
/- The two 64 x 216 selectors. Store k rewrites the pair of rows {2⌊k/2⌋, 2⌊k/2⌋+1} with row k replaced by the one-hot row of its word; by induction over the stores, after all 64 every row k is the one-hot row of word k, whatever the buffer held before. -/
import proofs.«403558_j46694884442289_3_alg».proof.Proof.BodyIdeal
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.WholeRead
import Idealize.ShloMosaic.PureOps.Ideal.Laws

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F] [∀ e, Nonempty (Elt F e)]

def onehotRow (w : BitVec 32) : FVec F S1x216 .bf16 :=
  shapeCast S1x216
    (truncf .bf16 (sitofp .f32 (extui 32 (cmpi .eq k0_pay1 (broadcast S216 w)) natLt_1_32) : FVec F S216 .f32) bitsLt_bf16_f32 : FVec F S216 .bf16)
    shapeCasts_S216_S1x216

def sel (w : BitVec 32) (p : Fin 216) : Elt F .bf16 :=
  (truncf .bf16 (sitofp .f32 (extui 32 (cmpi .eq k0_pay1 (broadcast S216 w)) natLt_1_32) : FVec F S216 .f32) bitsLt_bf16_f32 : FVec F S216 .bf16)
    (ix1 p)

theorem onehotRow_apply (w : BitVec 32) (u : Fin 1) (p : Fin 216) : (onehotRow w : FVec F S1x216 .bf16) (ix2 u p) = sel w p :=
  shapeCast_a_1a_apply _ shapeCasts_S216_S1x216 u p

section Pair

variable {α : Type}

theorem updateSlice_row_hit (old : S2x216.Idx → α) (v : S1x216.Idx → α) (t : ℕ) (h : S2x216.Slices ![t, 0] S1x216)
    (a : Fin 2) (p : Fin 216) (hat : a.val = t) :
    updateSlice old v ![t, 0] h (ix2 a p) = v (ix2 (0 : Fin 1) p) := by
  unfold updateSlice
  have hin : ∀ x : Fin S2x216.rank, (![t, 0] : Fin 2 → ℕ) x ≤ ((ix2 a p : S2x216.Idx) x).val
      ∧ ((ix2 a p : S2x216.Idx) x).val < (![t, 0] : Fin 2 → ℕ) x + S1x216.size (x.cast h.1.symm) := by
    intro x
    have hp := p.isLt
    match x with
    | ⟨0, _⟩ => show t ≤ a.val ∧ a.val < t + 1; omega
    | ⟨1, _⟩ => show 0 ≤ p.val ∧ p.val < 0 + 216; omega
  rw [dif_pos hin]
  congr 1
  funext x
  apply Fin.ext
  match x with
  | ⟨0, _⟩ => show a.val - t = 0; omega
  | ⟨1, _⟩ => show p.val - 0 = p.val; omega

theorem updateSlice_row_miss (old : S2x216.Idx → α) (v : S1x216.Idx → α) (t : ℕ) (h : S2x216.Slices ![t, 0] S1x216)
    (a : Fin 2) (p : Fin 216) (hat : a.val ≠ t) :
    updateSlice old v ![t, 0] h (ix2 a p) = old (ix2 a p) := by
  unfold updateSlice
  rw [dif_neg]
  intro hin
  have := hin ⟨0, by decide⟩
  change t ≤ a.val ∧ a.val < t + 1 at this
  omega

end Pair

theorem lt_of_pair_inb {a : ℕ} (ha : ∀ x, (![a, 0] : Fin 2 → ℕ) x + S2x216.size x ≤ S64x216.size x) : a + 2 ≤ 64 := ha 0
theorem pair_lt0 {a : ℕ} (ha : ∀ x, (![a, 0] : Fin 2 → ℕ) x + S2x216.size x ≤ S64x216.size x) : a < 64 := by
  have := lt_of_pair_inb ha; omega
theorem pair_lt1 {a : ℕ} (ha : ∀ x, (![a, 0] : Fin 2 → ℕ) x + S2x216.size x ≤ S64x216.size x) : a + 1 < 64 := by
  have := lt_of_pair_inb ha; omega

theorem pair_emb (a : ℕ) (ha : ∀ x, (![a, 0] : Fin 2 → ℕ) x + S2x216.size x ≤ S64x216.size x) (t : Fin 2) (p : Fin 216)
    (k : Fin 64) (hk : k.val = a + t.val) :
    (Rect.unit (s := S64x216) ![a, 0] S2x216.size ha).emb (ix2 t p) = (ix2 k p : S64x216.Idx) := by
  funext x
  apply Fin.ext
  rw [Rect.emb_apply]
  match x with
  | ⟨0, _⟩ => show a + 1 * t.val = k.val; omega
  | ⟨1, _⟩ => show 0 + 1 * p.val = p.val; omega

theorem canon_pair_hit (L : List (View.Piece (Elt F) S64x216 .bf16)) (a : ℕ)
    (ha : ∀ x, (![a, 0] : Fin 2 → ℕ) x + S2x216.size x ≤ S64x216.size x) (w : S2x216.Idx → Elt F .bf16)
    (t : Fin 2) (p : Fin 216) (k : Fin 64) (hk : k.val = a + t.val) :
    View.canon (⟨Rect.unit (s := S64x216) ![a, 0] S2x216.size ha, w⟩ :: L) (ix2 k p) = w (ix2 t p) := by
  rw [← pair_emb a ha t p k hk]
  exact View.canon_cons_emb (Rect.unit (s := S64x216) ![a, 0] S2x216.size ha) w L (ix2 t p)

theorem canon_pair_off (L : List (View.Piece (Elt F) S64x216 .bf16)) (a : ℕ)
    (ha : ∀ x, (![a, 0] : Fin 2 → ℕ) x + S2x216.size x ≤ S64x216.size x) (w : S2x216.Idx → Elt F .bf16)
    (k : Fin 64) (p : Fin 216) (hk : k.val < a ∨ a + 2 ≤ k.val) :
    View.canon (⟨Rect.unit (s := S64x216) ![a, 0] S2x216.size ha, w⟩ :: L) (ix2 k p) = View.canon L (ix2 k p) :=
  View.canon_cons_of_not_mem _ L (by
    rw [Rect.mem_set_unit]
    intro h
    have := h ⟨0, by decide⟩
    change a ≤ k.val ∧ k.val < a + 2 at this
    omega)

theorem readCov_pair {sp : Space} (v : View sig .tc sp S64x216 .bf16) (L : List (View.Piece (Elt F) S64x216 .bf16)) (a : ℕ)
    (ha : ∀ x, (![a, 0] : Fin 2 → ℕ) x + S2x216.size x ≤ S64x216.size x) (t : Fin 2) (p : Fin 216)
    (k : Fin 64) (hk : k.val = a + t.val) :
    v.readCov L (Rect.unit (s := S64x216) ![a, 0] S2x216.size ha).toLoadRect (ix2 t p) = View.canon L (ix2 k p) := by
  rw [View.readCov_eq_canon']
  exact congrArg (View.canon L) (pair_emb a ha t p k hk)

def Good (L : List (View.Piece (Elt F) S64x216 .bf16)) (n : ℕ) (W : Fin 64 → BitVec 32) : Prop :=
  ∀ k : Fin 64, k.val < n → ∀ p : Fin 216, View.canon L (ix2 k p) = sel (F := F) (W k) p

theorem good_nil (W : Fin 64 → BitVec 32) : Good (F := F) [] 0 W := fun k hk => absurd hk (Nat.not_lt_zero _)

-- First row of a pair: earlier rows lie in earlier pairs, and the new row is the update.
theorem good_even {L : List (View.Piece (Elt F) S64x216 .bf16)} {W : Fin 64 → BitVec 32} (a : ℕ)
    (ha : ∀ x, (![a, 0] : Fin 2 → ℕ) x + S2x216.size x ≤ S64x216.size x) (hs : S2x216.Slices ![0, 0] S1x216)
    (old : S2x216.Idx → Elt F .bf16) (V : FVec F S1x216 .bf16) (hL : Good L a W)
    (hV : V = onehotRow (W ⟨a, pair_lt0 ha⟩)) :
    Good (⟨Rect.unit (s := S64x216) ![a, 0] S2x216.size ha, updateSlice old V ![0, 0] hs⟩ :: L) (a + 1) W := by
  intro k hk p
  by_cases h : k.val = a
  · obtain rfl : k = ⟨a, pair_lt0 ha⟩ := Fin.ext h
    rw [canon_pair_hit L a ha _ (0 : Fin 2) p _ rfl, updateSlice_row_hit _ _ 0 hs (0 : Fin 2) p rfl, hV, onehotRow_apply]
  · rw [canon_pair_off L a ha _ k p (Or.inl (by omega))]
    exact hL k (by omega) p

-- Second row of a pair: the pair's first row is what the load read back, which the earlier stores left good.
theorem good_odd {sp : Space} (v : View sig .tc sp S64x216 .bf16) {L : List (View.Piece (Elt F) S64x216 .bf16)}
    {W : Fin 64 → BitVec 32} (a : ℕ)
    (ha : ∀ x, (![a, 0] : Fin 2 → ℕ) x + S2x216.size x ≤ S64x216.size x) (hs : S2x216.Slices ![1, 0] S1x216)
    (old : S2x216.Idx → Elt F .bf16) (V : FVec F S1x216 .bf16) (hL : Good L (a + 1) W)
    (hV : V = onehotRow (W ⟨a + 1, pair_lt1 ha⟩))
    (hold : old = v.readCov L (Rect.unit (s := S64x216) ![a, 0] S2x216.size ha).toLoadRect) :
    Good (⟨Rect.unit (s := S64x216) ![a, 0] S2x216.size ha, updateSlice old V ![1, 0] hs⟩ :: L) (a + 2) W := by
  intro k hk p
  by_cases h : k.val = a + 1
  · obtain rfl : k = ⟨a + 1, pair_lt1 ha⟩ := Fin.ext h
    rw [canon_pair_hit L a ha _ (1 : Fin 2) p _ rfl, updateSlice_row_hit _ _ 1 hs (1 : Fin 2) p rfl, hV, onehotRow_apply]
  · by_cases h' : k.val = a
    · rw [canon_pair_hit L a ha _ (0 : Fin 2) p k (by simpa using h'),
        updateSlice_row_miss _ _ 1 hs (0 : Fin 2) p (by decide), hold, readCov_pair v L a ha (0 : Fin 2) p k (by simpa using h')]
      exact hL k (by omega) p
    · rw [canon_pair_off L a ha _ k p (Or.inl (by omega))]
      exact hL k (by omega) p

theorem idx_unit_zero {S : Shape} {off : Fin S.rank → Nat} (h : off = fun _ => 0)
    (inb : ∀ a, off a + S.size a ≤ S.size a) (x : S.Idx) :
    (Rect.unit off S.size inb).toLoadRect.idx x = x := by
  subst h
  exact Rect.emb_whole_apply S x

-- A whole-buffer load after 64 good stores reads, at row k, the one-hot row of word k.
theorem load_row {sp : Space} (v : View sig .tc sp S64x216 .bf16) {L : List (View.Piece (Elt F) S64x216 .bf16)} {W : Fin 64 → BitVec 32}
    (hL : Good L 64 W) (k : Fin 64) (p : Fin 216) :
    v.readCov L (Rect.unit (s := S64x216) ![0, 0] S64x216.size inb_S64x216_S64x216_0_0).toLoadRect (ix2 k p) = sel (F := F) (W k) p := by
  refine (congrFun (View.readCov_eq_canon' v L
    (Rect.unit (s := S64x216) ![0, 0] S64x216.size inb_S64x216_S64x216_0_0).toLoadRect) (ix2 k p)).trans ?_
  show View.canon _ ((Rect.unit (s := S64x216) ![0, 0] S64x216.size inb_S64x216_S64x216_0_0).toLoadRect.idx (ix2 k p)) = _
  rw [idx_unit_zero (S := S64x216) (by decide) inb_S64x216_S64x216_0_0 (ix2 k p)]
  exact hL k k.isLt p

def W10 (c : Dev nD) (i : grid0.Coords) (f2 : Buf (Elt F) (tb2.view.loc (c : Thread nD τ))) : Fin 64 → BitVec 32 :=
  ![kernelRun.sl.r c i f2, kernelRun.sl.r_3 c i f2, kernelRun.sl.r_6 c i f2, kernelRun.sl.r_9 c i f2, kernelRun.sl.r_12 c i f2, kernelRun.sl.r_16 c i f2, kernelRun.sl.r_20 c i f2, kernelRun.sl.r_24 c i f2, kernelRun.sl.r_27 c i f2, kernelRun.sl.r_30 c i f2, kernelRun.sl.r_33 c i f2, kernelRun.sl.r_36 c i f2, kernelRun.sl.r_40 c i f2, kernelRun.sl.r_44 c i f2, kernelRun.sl.r_47 c i f2, kernelRun.sl.r_50 c i f2, kernelRun.sl.r_53 c i f2, kernelRun.sl.r_56 c i f2, kernelRun.sl.r_59 c i f2, kernelRun.sl.r_63 c i f2, kernelRun.sl.r_67 c i f2, kernelRun.sl.r_70 c i f2, kernelRun.sl.r_73 c i f2, kernelRun.sl.r_76 c i f2, kernelRun.sl.r_79 c i f2, kernelRun.sl.r_83 c i f2, kernelRun.sl.r_87 c i f2, kernelRun.sl.r_91 c i f2, kernelRun.sl.r_94 c i f2, kernelRun.sl.r_97 c i f2, kernelRun.sl.r_100 c i f2, kernelRun.sl.r_103 c i f2, kernelRun.sl.r_107 c i f2, kernelRun.sl.r_111 c i f2, kernelRun.sl.r_114 c i f2, kernelRun.sl.r_117 c i f2, kernelRun.sl.r_120 c i f2, kernelRun.sl.r_123 c i f2, kernelRun.sl.r_126 c i f2, kernelRun.sl.r_130 c i f2, kernelRun.sl.r_134 c i f2, kernelRun.sl.r_137 c i f2, kernelRun.sl.r_140 c i f2, kernelRun.sl.r_143 c i f2, kernelRun.sl.r_146 c i f2, kernelRun.sl.r_150 c i f2, kernelRun.sl.r_154 c i f2, kernelRun.sl.r_158 c i f2, kernelRun.sl.r_161 c i f2, kernelRun.sl.r_164 c i f2, kernelRun.sl.r_167 c i f2, kernelRun.sl.r_170 c i f2, kernelRun.sl.r_174 c i f2, kernelRun.sl.r_178 c i f2, kernelRun.sl.r_181 c i f2, kernelRun.sl.r_184 c i f2, kernelRun.sl.r_187 c i f2, kernelRun.sl.r_190 c i f2, kernelRun.sl.r_193 c i f2, kernelRun.sl.r_197 c i f2, kernelRun.sl.r_201 c i f2, kernelRun.sl.r_204 c i f2, kernelRun.sl.r_207 c i f2, kernelRun.sl.r_210 c i f2]

-- The 64 stores alternate first and second row of the 32 pairs.
theorem g10_64 (c : Dev nD) (i : grid0.Coords) (f2 : Buf (Elt F) (tb2.view.loc (c : Thread nD τ))) (g10 : Buf (Elt F) (sc10.view.loc (c : Thread nD τ))) :
    Good (kernelRun.sl.H10_64 c i f2 g10) 64 (W10 c i f2) := by
  iterate 32 (refine good_odd sc10.view _ _ _ _ _ (good_even _ _ _ _ _ ?_ rfl) rfl rfl)
  exact good_nil _

theorem v2563_rowW (c : Dev nD) (i : grid0.Coords) (f2 : Buf (Elt F) (tb2.view.loc (c : Thread nD τ))) (g10 : Buf (Elt F) (sc10.view.loc (c : Thread nD τ))) (k : Fin 64) (p : Fin 216) :
    kernelRun.sl.v2563 c i f2 g10 (ix2 k p) = sel (W10 c i f2 k) p :=
  load_row sc10.view (g10_64 c i f2 g10) k p

theorem v2563_indep (c : Dev nD) (i : grid0.Coords) (f2 : Buf (Elt F) (tb2.view.loc (c : Thread nD τ))) (g10 g10' : Buf (Elt F) (sc10.view.loc (c : Thread nD τ))) :
    kernelRun.sl.v2563 c i f2 g10 = kernelRun.sl.v2563 c i f2 g10' := by
  funext j
  obtain ⟨k, p, rfl⟩ : ∃ (k : Fin 64) (p : Fin 216), j = ix2 k p := ⟨j 0, j 1, eq_ix2 j⟩
  rw [v2563_rowW, v2563_rowW]

def W11 (c : Dev nD) (i : grid0.Coords) (f4 : Buf (Elt F) (tb4.view.loc (c : Thread nD τ))) : Fin 64 → BitVec 32 :=
  ![kernelRun.sl.r_2 c i f4, kernelRun.sl.r_5 c i f4, kernelRun.sl.r_8 c i f4, kernelRun.sl.r_11 c i f4, kernelRun.sl.r_14 c i f4, kernelRun.sl.r_18 c i f4, kernelRun.sl.r_22 c i f4, kernelRun.sl.r_26 c i f4, kernelRun.sl.r_29 c i f4, kernelRun.sl.r_32 c i f4, kernelRun.sl.r_35 c i f4, kernelRun.sl.r_38 c i f4, kernelRun.sl.r_42 c i f4, kernelRun.sl.r_46 c i f4, kernelRun.sl.r_49 c i f4, kernelRun.sl.r_52 c i f4, kernelRun.sl.r_55 c i f4, kernelRun.sl.r_58 c i f4, kernelRun.sl.r_61 c i f4, kernelRun.sl.r_65 c i f4, kernelRun.sl.r_69 c i f4, kernelRun.sl.r_72 c i f4, kernelRun.sl.r_75 c i f4, kernelRun.sl.r_78 c i f4, kernelRun.sl.r_81 c i f4, kernelRun.sl.r_85 c i f4, kernelRun.sl.r_89 c i f4, kernelRun.sl.r_93 c i f4, kernelRun.sl.r_96 c i f4, kernelRun.sl.r_99 c i f4, kernelRun.sl.r_102 c i f4, kernelRun.sl.r_105 c i f4, kernelRun.sl.r_109 c i f4, kernelRun.sl.r_113 c i f4, kernelRun.sl.r_116 c i f4, kernelRun.sl.r_119 c i f4, kernelRun.sl.r_122 c i f4, kernelRun.sl.r_125 c i f4, kernelRun.sl.r_128 c i f4, kernelRun.sl.r_132 c i f4, kernelRun.sl.r_136 c i f4, kernelRun.sl.r_139 c i f4, kernelRun.sl.r_142 c i f4, kernelRun.sl.r_145 c i f4, kernelRun.sl.r_148 c i f4, kernelRun.sl.r_152 c i f4, kernelRun.sl.r_156 c i f4, kernelRun.sl.r_160 c i f4, kernelRun.sl.r_163 c i f4, kernelRun.sl.r_166 c i f4, kernelRun.sl.r_169 c i f4, kernelRun.sl.r_172 c i f4, kernelRun.sl.r_176 c i f4, kernelRun.sl.r_180 c i f4, kernelRun.sl.r_183 c i f4, kernelRun.sl.r_186 c i f4, kernelRun.sl.r_189 c i f4, kernelRun.sl.r_192 c i f4, kernelRun.sl.r_195 c i f4, kernelRun.sl.r_199 c i f4, kernelRun.sl.r_203 c i f4, kernelRun.sl.r_206 c i f4, kernelRun.sl.r_209 c i f4, kernelRun.sl.r_212 c i f4]

theorem g11_64 (c : Dev nD) (i : grid0.Coords) (f4 : Buf (Elt F) (tb4.view.loc (c : Thread nD τ))) (g11 : Buf (Elt F) (sc11.view.loc (c : Thread nD τ))) :
    Good (kernelRun.sl.H11_64 c i f4 g11) 64 (W11 c i f4) := by
  iterate 32 (refine good_odd sc11.view _ _ _ _ _ (good_even _ _ _ _ _ ?_ rfl) rfl rfl)
  exact good_nil _

theorem v2567_rowW (c : Dev nD) (i : grid0.Coords) (f4 : Buf (Elt F) (tb4.view.loc (c : Thread nD τ))) (g11 : Buf (Elt F) (sc11.view.loc (c : Thread nD τ))) (k : Fin 64) (p : Fin 216) :
    kernelRun.sl.v2567 c i f4 g11 (ix2 k p) = sel (W11 c i f4 k) p :=
  load_row sc11.view (g11_64 c i f4 g11) k p

theorem v2567_indep (c : Dev nD) (i : grid0.Coords) (f4 : Buf (Elt F) (tb4.view.loc (c : Thread nD τ))) (g11 g11' : Buf (Elt F) (sc11.view.loc (c : Thread nD τ))) :
    kernelRun.sl.v2567 c i f4 g11 = kernelRun.sl.v2567 c i f4 g11' := by
  funext j
  obtain ⟨k, p, rfl⟩ : ∃ (k : Fin 64) (p : Fin 216), j = ix2 k p := ⟨j 0, j 1, eq_ix2 j⟩
  rw [v2567_rowW, v2567_rowW]

end Cert.KernelIdeal.Hand

end
-- ==== Proof.ClosedIdeal.lean ====
/- The piece a point writes is a function of the two selectors as loaded, and those do not depend on what the work buffers held before; so the run and the frame hold outright. -/
import proofs.«403558_j46694884442289_3_alg».proof.Proof.FrameIdeal
import proofs.«403558_j46694884442289_3_alg».proof.Proof.OneHotIdeal

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [∀ e, Nonempty (Elt F e)]

theorem pieces_indep (c : Dev nD) (i : grid0.Coords)
    (arg5 : Memref sig .tc .vmem S1x216x256 .bf16) (harg5 : arg5.IsWhole) (arg7 : Memref sig .tc .vmem S1x216x256 .bf16) (harg7 : arg7.IsWhole)
    (arg8 : Memref sig .tc .vmem S1x64x16 .f32) (harg8 : arg8.IsWhole) (x5 x7 : Vec F S1x216x256 .bf16)
    (f2 : Buf (Elt F) (tb2.view.loc (c : Thread nD τ))) (f3 : Buf (Elt F) (tb3.view.loc (c : Thread nD τ))) (f4 : Buf (Elt F) (tb4.view.loc (c : Thread nD τ)))
    (fh : Buf (Elt F) (hb6.view.loc (c : Thread nD τ)))
    (g9 g9' : Buf (Elt F) (sc9.view.loc (c : Thread nD τ))) (g10 g10' : Buf (Elt F) (sc10.view.loc (c : Thread nD τ))) (g11 g11' : Buf (Elt F) (sc11.view.loc (c : Thread nD τ)))
    (hlt : ∀ j, (f3 j : BitVec 32).toNat < 216) :
    (kernelRun c i arg5 harg5 arg7 harg7 arg8 harg8 x5 x7 f2 f3 f4 fh g9 g10 g11 hlt).1 = (kernelRun c i arg5 harg5 arg7 harg7 arg8 harg8 x5 x7 f2 f3 f4 fh g9' g10' g11' hlt).1 := by
  show ([⟨Rect.unit (s := S1x64x16) ![0, 0, 0] S1x64x16.size inb_S1x64x16_S1x64x16_0_0_0, k0_pay148 (kernelRun.sl.v2563 c i f2 g10) _ (kernelRun.sl.v2567 c i f4 g11) _ _⟩] : List (View.Piece (Elt F) S1x64x16 .f32))
      = [⟨Rect.unit (s := S1x64x16) ![0, 0, 0] S1x64x16.size inb_S1x64x16_S1x64x16_0_0_0, k0_pay148 (kernelRun.sl.v2563 c i f2 g10') _ (kernelRun.sl.v2567 c i f4 g11') _ _⟩]
  rw [v2563_indep c i f2 g10 g10', v2567_indep c i f4 g11 g11']

theorem run_out_closed (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v11) = (dats m 0 c).arrAt 2 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_out m ρ (fun c i arg5 harg5 arg7 harg7 arg8 harg8 x5 x7 f2 f3 f4 fh g9 g10 g11 g9' g10' g11' hlt => by
    rw [pieces_indep c i arg5 harg5 arg7 harg7 arg8 harg8 x5 x7 f2 f3 f4 fh g9 g9' g10 g10' g11 g11' hlt])

theorem frame_closed (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_out_closed m ρ)

end Cert.KernelIdeal.Hand

end
-- ==== Proof.LandIdeal.lean ====
/- What a copied block and a whole-buffer load hold, entry by entry. -/
import proofs.«403558_j46694884442289_3_alg».proof.Proof.OneHotIdeal
import Idealize.ShloMosaic.Lib.ValueIdx
import Idealize.ShloMosaic.Lib.Pipeline.Value
import Idealize.ShloMosaic.Lib.ValueLayout
import Idealize.ShloMosaic.Lib.WholeRead

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F]

theorem src_read (c : Dev nD) (a b : Nat)
    (hinb : ∀ x, (![a, b, 0, 0] : Fin 4 → Nat) x + S1x1x128x512.size x ≤ S2x216x128x512.size x)
    (fh : Buf (Elt F) (hb6.view.loc (c : Thread nD τ))) (r : Fin 128) (u : Fin 512) :
    (((hb6.slice (Rect.unit (s := S2x216x128x512) ![a, b, 0, 0] S1x1x128x512.size hinb) (fun _ => rfl)).squeeze S128x512
        squeezes_S1x1x128x512_S128x512).view.read (Elt F) fh) (ValueIdx.ix2 r u)
      = fh (ValueIdx.ix4 (⟨a, show a + 1 ≤ 2 from hinb 0⟩ : Fin 2) (⟨b, show b + 1 ≤ 216 from hinb 1⟩ : Fin 216) r u) := by
  refine (cast_eq _ _).trans ?_
  refine congrArg fh ?_
  have e : Shape.reshapeEquiv (s := ⟨4, ![1, 1, 128, 512]⟩) (s' := ⟨2, ![128, 512]⟩) (by decide) (ix2 r u)
      = ix4 (⟨0, Nat.one_pos⟩ : Fin 1) (⟨0, Nat.one_pos⟩ : Fin 1) r u := reshapeEquiv_ix2_11ab _ r u
  refine (congrArg (Rect.unit (s := S2x216x128x512) ![a, b, 0, 0] S1x1x128x512.size hinb).emb e).trans ?_
  funext x
  apply Fin.ext
  match x with
  | ⟨0, _⟩ => show a + 1 * 0 = a; omega
  | ⟨1, _⟩ => show b + 1 * 0 = b; omega
  | ⟨2, _⟩ => show 0 + 1 * r.val = r.val; omega
  | ⟨3, _⟩ => show 0 + 1 * u.val = u.val; omega

theorem sc9_load_whole (c : Dev nD) (g : Buf (Elt F) (sc9.view.loc (c : Thread nD τ))) (k : Fin 64) (r : Fin 128) (u : Fin 512) :
    (View.readAt (Elt F) sc9.view (Rect.unit (s := S64x128x512) ![0, 0, 0] S64x128x512.size inb_S64x128x512_S64x128x512_0_0_0).toLoadRect g)
        (ValueIdx.ix3 k r u)
      = g (ValueIdx.ix3 k r u) :=
  congrArg g (idx_unit_zero (S := S64x128x512) (by decide) inb_S64x128x512_S64x128x512_0_0_0 (ix3 k r u))

theorem load_whole_unread (M : Memref sig .tc .vmem S1x216x256 .bf16) (hM : M.IsWhole) (x : Vec F S1x216x256 .bf16) :
    View.readAt (Elt F) M.view (Rect.unit (s := S1x216x256) ![0, 0, 0] S1x216x256.size inb_S1x216x256_S1x216x256_0_0_0).toLoadRect
        (hM.unread x) = x := by
  funext j
  refine (hM.readAt_unread x _ j).trans ?_
  exact congrArg x (idx_unit_zero (S := S1x216x256) (by decide) inb_S1x216x256_S1x216x256_0_0_0 j)

end Cert.KernelIdeal.Hand

end
-- ==== Proof.BlockReadIdeal.lean ====
/- An input block at a grid point read back as entries of the argument arrays. -/
import proofs.«403558_j46694884442289_3_alg».proof.Proof.FrameIdeal
import proofs.«403558_j46694884442289_3_alg».proof.Proof.LandIdeal
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F] [∀ e, Nonempty (Elt F e)]
variable (m : (ℓ : Loc nD τ sig) → Buf (Elt F) ℓ)

theorem kernelRun_pieces (c : Dev nD) (i : grid0.Coords)
    (arg5 : Memref sig .tc .vmem S1x216x256 .bf16) (harg5 : arg5.IsWhole) (arg7 : Memref sig .tc .vmem S1x216x256 .bf16) (harg7 : arg7.IsWhole)
    (arg8 : Memref sig .tc .vmem S1x64x16 .f32) (harg8 : arg8.IsWhole)
    (x5 x7 : Vec F S1x216x256 .bf16)
    (f2 : Buf (Elt F) (tb2.view.loc (c : Thread nD τ))) (f3 : Buf (Elt F) (tb3.view.loc (c : Thread nD τ))) (f4 : Buf (Elt F) (tb4.view.loc (c : Thread nD τ)))
    (fh : Buf (Elt F) (hb6.view.loc (c : Thread nD τ)))
    (g9 : Buf (Elt F) (sc9.view.loc (c : Thread nD τ))) (g10 : Buf (Elt F) (sc10.view.loc (c : Thread nD τ))) (g11 : Buf (Elt F) (sc11.view.loc (c : Thread nD τ)))
    (hlt : ∀ j, (f3 j : BitVec 32).toNat < 216) :
    (kernelRun c i arg5 harg5 arg7 harg7 arg8 harg8 x5 x7 f2 f3 f4 fh g9 g10 g11 hlt).1
      = [⟨Rect.unit (s := S1x64x16) ![0, 0, 0] S1x64x16.size inb_S1x64x16_S1x64x16_0_0_0,
          k0_pay148 (kernelRun.sl.v2563 c i f2 g10)
            (View.readAt (Elt F) arg5.view (Rect.unit (s := S1x216x256) ![0, 0, 0] S1x216x256.size inb_S1x216x256_S1x216x256_0_0_0).toLoadRect (harg5.unread x5))
            (kernelRun.sl.v2567 c i f4 g11)
            (View.readAt (Elt F) arg7.view (Rect.unit (s := S1x216x256) ![0, 0, 0] S1x216x256.size inb_S1x216x256_S1x216x256_0_0_0).toLoadRect (harg7.unread x7))
            (kernelRun.sl.v2574 c i f3 fh hlt)⟩] := rfl

theorem outsAt_eq (c : Dev nD) (t : Fin (cfgA m).N) :
    outsAt m c t
      = k0_pay148 (kernelRun.sl.v2563 c (grid0.coords t) (V m c main_v4) (fun _ => Classical.arbitrary _)) (iblk m c 0 t)
          (kernelRun.sl.v2567 c (grid0.coords t) (V m c main_v6) (fun _ => Classical.arbitrary _)) (iblk m c 1 t)
          (kernelRun.sl.v2574 c (grid0.coords t) (V m c main_v5) (V m c main_v9) (V_main_v5_lt m c)) := by
  unfold outsAt
  refine (View.read_writes_eq_canon VO2 VO2.junk _ (kernelRun_cover c _ _ _ _ _ _ _ _ _ _ _ _ _ _ _ _ _)).trans ?_
  refine (congrArg View.canon (kernelRun_pieces c _ _ _ _ _ _ _ _ _ _ _ _ _ _ _ _ _)).trans ?_
  refine (View.canon_unit_zero (by decide) _ _).trans ?_
  have e5 := load_whole_unread (ms0_0 m t) (hs0_0 m t) (iblk m c 0 t : Vec F S1x216x256 .bf16)
  have e7 := load_whole_unread (ms0_1 m t) (hs0_1 m t) (iblk m c 1 t : Vec F S1x216x256 .bf16)
  exact (congrArg (fun a => k0_pay148 _ a _ _ _) e5).trans (congrArg (fun b => k0_pay148 _ _ _ b _) e7)

theorem in_index_facts : ∀ t : Fin grid0.N,
    (cc0_transform_0 (grid0.coords t) (0 : Fin 3) = (grid0.coords t 0).val
      ∧ cc0_transform_0 (grid0.coords t) (1 : Fin 3) = 0 ∧ cc0_transform_0 (grid0.coords t) (2 : Fin 3) = 0)
    ∧ (cc0_transform_2 (grid0.coords t) (0 : Fin 3) = (grid0.coords t 0).val
      ∧ cc0_transform_2 (grid0.coords t) (1 : Fin 3) = 0 ∧ cc0_transform_2 (grid0.coords t) (2 : Fin 3) = 0) := by decide +kernel

theorem iblk0_apply (c : Dev nD) (t : Fin (cfgA m).N) (p : Fin 216) (x : Fin 256) :
    iblk m c 0 t (ValueIdx.ix3 (0 : Fin 1) p x)
      = (V m c main_v7 : S2x216x256.Idx → Elt F .bf16) (ValueIdx.ix3 (⟨(grid0.coords t 0).val, (grid0.coords t 0).isLt⟩ : Fin 2) p x) := by
  obtain ⟨⟨e0, e1, e2⟩, -⟩ := in_index_facts t
  unfold iblk
  refine (cast_eq _ _).trans ?_
  refine congrArg (V m c main_v7 : S2x216x256.Idx → Elt F .bf16) ?_
  funext a
  apply Fin.ext
  match a with
  | ⟨0, _⟩ =>
    show cc0_transform_0 (grid0.coords t) (0 : Fin 3) * 1 + 1 * 0 = (grid0.coords t 0).val
    omega
  | ⟨1, _⟩ =>
    show cc0_transform_0 (grid0.coords t) (1 : Fin 3) * 216 + 1 * p.val = p.val
    omega
  | ⟨2, _⟩ =>
    show cc0_transform_0 (grid0.coords t) (2 : Fin 3) * 256 + 1 * x.val = x.val
    omega

theorem iblk1_apply (c : Dev nD) (t : Fin (cfgA m).N) (p : Fin 216) (x : Fin 256) :
    iblk m c 1 t (ValueIdx.ix3 (0 : Fin 1) p x)
      = (V m c main_v10 : S2x216x256.Idx → Elt F .bf16) (ValueIdx.ix3 (⟨(grid0.coords t 0).val, (grid0.coords t 0).isLt⟩ : Fin 2) p x) := by
  obtain ⟨-, e0, e1, e2⟩ := in_index_facts t
  unfold iblk
  refine (cast_eq _ _).trans ?_
  refine congrArg (V m c main_v10 : S2x216x256.Idx → Elt F .bf16) ?_
  funext a
  apply Fin.ext
  match a with
  | ⟨0, _⟩ =>
    show cc0_transform_2 (grid0.coords t) (0 : Fin 3) * 1 + 1 * 0 = (grid0.coords t 0).val
    omega
  | ⟨1, _⟩ =>
    show cc0_transform_2 (grid0.coords t) (1 : Fin 3) * 216 + 1 * p.val = p.val
    omega
  | ⟨2, _⟩ =>
    show cc0_transform_2 (grid0.coords t) (2 : Fin 3) * 256 + 1 * x.val = x.val
    omega

end Cert.KernelIdeal.Hand

end
-- ==== Proof.TailMathIdeal.lean ====
/- The body's arithmetic on one block, at the extended reals: two matrix products with one-hot selectors pick rows, and the remaining contractions are the sums of `Spec.tt`. -/
import proofs.«403558_j46694884442289_3_alg».proof.Proof.Gen.KernelIdeal
import proofs.«403558_j46694884442289_3_alg».proof.Proof.Gen.KernelIdeal.Skeleton
import proofs.«403558_j46694884442289_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

section Casts
variable {α : Type}

theorem cast_256_2x128 (v : (⟨2, ![64, 256]⟩ : Shape).Idx → α)
    (h : (⟨2, ![64, 256]⟩ : Shape).ShapeCasts ⟨3, ![64, 2, 128]⟩) (b : Fin 64) (q : Fin 2) (r : Fin 128) :
    shapeCast ⟨3, ![64, 2, 128]⟩ v h (ix3 b q r)
      = v (ix2 b ⟨q.val * 128 + r.val, by have := q.isLt; have := r.isLt; omega⟩) :=
  shapeCast_apply v h _ _ (by
    rw [Shape.rowMajor_val_two, Shape.rowMajor_val_three]
    show b.val * 256 + (q.val * 128 + r.val) = (b.val * 2 + q.val) * 128 + r.val
    omega)

theorem cast_256_128x2 (v : (⟨2, ![64, 256]⟩ : Shape).Idx → α)
    (h : (⟨2, ![64, 256]⟩ : Shape).ShapeCasts ⟨3, ![64, 128, 2]⟩) (b : Fin 64) (r : Fin 128) (s : Fin 2) :
    shapeCast ⟨3, ![64, 128, 2]⟩ v h (ix3 b r s)
      = v (ix2 b ⟨r.val * 2 + s.val, by have := r.isLt; have := s.isLt; omega⟩) :=
  shapeCast_apply v h _ _ (by
    rw [Shape.rowMajor_val_two, Shape.rowMajor_val_three]
    show b.val * 256 + (r.val * 2 + s.val) = (b.val * 128 + r.val) * 2 + s.val
    omega)

theorem cast_2x512_8x128 (v : (⟨3, ![64, 2, 512]⟩ : Shape).Idx → α)
    (h : (⟨3, ![64, 2, 512]⟩ : Shape).ShapeCasts ⟨3, ![64, 8, 128]⟩) (b : Fin 64) (q' : Fin 8) (r1 : Fin 128) :
    shapeCast ⟨3, ![64, 8, 128]⟩ v h (ix3 b q' r1)
      = v (ix3 b ⟨q'.val / 4, by have := q'.isLt; omega⟩
            ⟨(q'.val % 4) * 128 + r1.val, by have := r1.isLt; omega⟩) :=
  shapeCast_apply v h _ _ (by
    rw [Shape.rowMajor_val_three, Shape.rowMajor_val_three]
    show (b.val * 2 + q'.val / 4) * 512 + ((q'.val % 4) * 128 + r1.val) = (b.val * 8 + q'.val) * 128 + r1.val
    omega)

theorem cast_8x2_16 (v : (⟨3, ![64, 8, 2]⟩ : Shape).Idx → α)
    (h : (⟨3, ![64, 8, 2]⟩ : Shape).ShapeCasts ⟨3, ![1, 64, 16]⟩) (b : Fin 64) (o : Fin 16) :
    shapeCast ⟨3, ![1, 64, 16]⟩ v h (ix3 (0 : Fin 1) b o)
      = v (ix3 b ⟨o.val / 2, by have := o.isLt; omega⟩ ⟨o.val % 2, by omega⟩) :=
  shapeCast_apply v h _ _ (by
    rw [Shape.rowMajor_val_three, Shape.rowMajor_val_three]
    show (b.val * 8 + o.val / 2) * 2 + o.val % 2 = (0 * 64 + b.val) * 16 + o.val
    omega)

end Casts

theorem lhs_t_0 (i : S64x256.Idx) (q : dot_S64x216_S216x256_S64x256_1_0_0_1_n_n.contr.Idx) :
    (dot_S64x216_S216x256_S64x256_1_0_0_1_n_n.lhsIdx i q 0).val = (i 0).val := by
  unfold DotDims.lhsIdx
  rw [dif_neg (show ¬(0 : Fin S64x216.rank) ∈ dot_S64x216_S216x256_S64x256_1_0_0_1_n_n.lhsBatch by decide),
    dif_pos (show (0 : Fin S64x216.rank) ∈ dot_S64x216_S216x256_S64x256_1_0_0_1_n_n.lhsNonContracting by decide)]
  rfl
theorem lhs_t_1 (i : S64x256.Idx) (q : dot_S64x216_S216x256_S64x256_1_0_0_1_n_n.contr.Idx) :
    (dot_S64x216_S216x256_S64x256_1_0_0_1_n_n.lhsIdx i q 1).val = (q ⟨0, by decide⟩).val :=
  dot_S64x216_S216x256_S64x256_1_0_0_1_n_n.lhsIdx_val_of_single rfl i q
theorem rhs_t_0 (i : S64x256.Idx) (q : dot_S64x216_S216x256_S64x256_1_0_0_1_n_n.contr.Idx) :
    (dot_S64x216_S216x256_S64x256_1_0_0_1_n_n.rhsIdx i q 0).val = (q ⟨0, by decide⟩).val :=
  dot_S64x216_S216x256_S64x256_1_0_0_1_n_n.rhsIdx_val_of_single rfl i q
theorem rhs_t_1 (i : S64x256.Idx) (q : dot_S64x216_S216x256_S64x256_1_0_0_1_n_n.contr.Idx) :
    (dot_S64x216_S216x256_S64x256_1_0_0_1_n_n.rhsIdx i q 1).val = (i 1).val := by
  unfold DotDims.rhsIdx
  rw [dif_neg (show ¬(1 : Fin S216x256.rank) ∈ dot_S64x216_S216x256_S64x256_1_0_0_1_n_n.rhsBatch by decide),
    dif_pos (show (1 : Fin S216x256.rank) ∈ dot_S64x216_S216x256_S64x256_1_0_0_1_n_n.rhsNonContracting by decide)]
  rfl

theorem matmul_table_apply (A : FVec Ideal S64x216 .bf16) (B : FVec Ideal S216x256 .bf16) (b : Fin 64) (x : Fin 256) :
    matmul dot_S64x216_S216x256_S64x256_1_0_0_1_n_n none A B (constant (F := Ideal) S64x256 .f32 0x00000000#32) (ix2 b x)
      = ∑ p : Fin 216, A (ix2 b p) * B (ix2 p x) := by
  refine (Ideal.matmul_constant_zero_apply dot_S64x216_S216x256_S64x256_1_0_0_1_n_n none A B (ix2 b x)).trans ?_
  rw [← Equiv.sum_comp (contrEquiv1 dot_S64x216_S216x256_S64x256_1_0_0_1_n_n 216 rfl rfl).symm]
  refine Finset.sum_congr rfl fun p _ => ?_
  have hp := contrEquiv1_symm_val dot_S64x216_S216x256_S64x256_1_0_0_1_n_n 216 rfl rfl p
  have el : dot_S64x216_S216x256_S64x256_1_0_0_1_n_n.lhsIdx (ix2 b x) ((contrEquiv1 dot_S64x216_S216x256_S64x256_1_0_0_1_n_n 216 rfl rfl).symm p) = ix2 b p :=
    funext fun ax => Fin.ext (by
      match ax with
      | ⟨0, _⟩ => exact lhs_t_0 _ _
      | ⟨1, _⟩ => exact (lhs_t_1 _ _).trans hp)
  have er : dot_S64x216_S216x256_S64x256_1_0_0_1_n_n.rhsIdx (ix2 b x) ((contrEquiv1 dot_S64x216_S216x256_S64x256_1_0_0_1_n_n 216 rfl rfl).symm p) = ix2 p x :=
    funext fun ax => Fin.ext (by
      match ax with
      | ⟨0, _⟩ => exact (rhs_t_0 _ _).trans hp
      | ⟨1, _⟩ => exact rhs_t_1 _ _)
  rw [el, er]

theorem lhs_ab_0 (i : S64x2x512.Idx) (q : dot_S64x2x128_S64x128x512_S64x2x512_2_1_1_2_0_0.contr.Idx) :
    (dot_S64x2x128_S64x128x512_S64x2x512_2_1_1_2_0_0.lhsIdx i q 0).val = (i 0).val := by
  unfold DotDims.lhsIdx
  rw [dif_pos (show (0 : Fin S64x2x128.rank) ∈ dot_S64x2x128_S64x128x512_S64x2x512_2_1_1_2_0_0.lhsBatch by decide)]
  rfl
theorem lhs_ab_1 (i : S64x2x512.Idx) (q : dot_S64x2x128_S64x128x512_S64x2x512_2_1_1_2_0_0.contr.Idx) :
    (dot_S64x2x128_S64x128x512_S64x2x512_2_1_1_2_0_0.lhsIdx i q 1).val = (i 1).val := by
  unfold DotDims.lhsIdx
  rw [dif_neg (show ¬(1 : Fin S64x2x128.rank) ∈ dot_S64x2x128_S64x128x512_S64x2x512_2_1_1_2_0_0.lhsBatch by decide),
    dif_pos (show (1 : Fin S64x2x128.rank) ∈ dot_S64x2x128_S64x128x512_S64x2x512_2_1_1_2_0_0.lhsNonContracting by decide)]
  rfl
theorem lhs_ab_2 (i : S64x2x512.Idx) (q : dot_S64x2x128_S64x128x512_S64x2x512_2_1_1_2_0_0.contr.Idx) :
    (dot_S64x2x128_S64x128x512_S64x2x512_2_1_1_2_0_0.lhsIdx i q 2).val = (q ⟨0, by decide⟩).val :=
  dot_S64x2x128_S64x128x512_S64x2x512_2_1_1_2_0_0.lhsIdx_val_of_single rfl i q
theorem rhs_ab_0 (i : S64x2x512.Idx) (q : dot_S64x2x128_S64x128x512_S64x2x512_2_1_1_2_0_0.contr.Idx) :
    (dot_S64x2x128_S64x128x512_S64x2x512_2_1_1_2_0_0.rhsIdx i q 0).val = (i 0).val := by
  unfold DotDims.rhsIdx
  rw [dif_pos (show (0 : Fin S64x128x512.rank) ∈ dot_S64x2x128_S64x128x512_S64x2x512_2_1_1_2_0_0.rhsBatch by decide)]
  rfl
theorem rhs_ab_1 (i : S64x2x512.Idx) (q : dot_S64x2x128_S64x128x512_S64x2x512_2_1_1_2_0_0.contr.Idx) :
    (dot_S64x2x128_S64x128x512_S64x2x512_2_1_1_2_0_0.rhsIdx i q 1).val = (q ⟨0, by decide⟩).val :=
  dot_S64x2x128_S64x128x512_S64x2x512_2_1_1_2_0_0.rhsIdx_val_of_single rfl i q
theorem rhs_ab_2 (i : S64x2x512.Idx) (q : dot_S64x2x128_S64x128x512_S64x2x512_2_1_1_2_0_0.contr.Idx) :
    (dot_S64x2x128_S64x128x512_S64x2x512_2_1_1_2_0_0.rhsIdx i q 2).val = (i 2).val := by
  unfold DotDims.rhsIdx
  rw [dif_neg (show ¬(2 : Fin S64x128x512.rank) ∈ dot_S64x2x128_S64x128x512_S64x2x512_2_1_1_2_0_0.rhsBatch by decide),
    dif_pos (show (2 : Fin S64x128x512.rank) ∈ dot_S64x2x128_S64x128x512_S64x2x512_2_1_1_2_0_0.rhsNonContracting by decide)]
  rfl

theorem matmul_ab_apply (A : FVec Ideal S64x2x128 .bf16) (B : FVec Ideal S64x128x512 .bf16) (g : Fin 64) (a : Fin 2) (c : Fin 512) :
    matmul dot_S64x2x128_S64x128x512_S64x2x512_2_1_1_2_0_0 none A B (constant (F := Ideal) S64x2x512 .f32 0x00000000#32) (ix3 g a c)
      = ∑ t : Fin 128, A (ix3 g a t) * B (ix3 g t c) := by
  refine (Ideal.matmul_constant_zero_apply dot_S64x2x128_S64x128x512_S64x2x512_2_1_1_2_0_0 none A B (ix3 g a c)).trans ?_
  rw [← Equiv.sum_comp (contrEquiv1 dot_S64x2x128_S64x128x512_S64x2x512_2_1_1_2_0_0 128 rfl rfl).symm]
  refine Finset.sum_congr rfl fun t _ => ?_
  have ht := contrEquiv1_symm_val dot_S64x2x128_S64x128x512_S64x2x512_2_1_1_2_0_0 128 rfl rfl t
  have el : dot_S64x2x128_S64x128x512_S64x2x512_2_1_1_2_0_0.lhsIdx (ix3 g a c) ((contrEquiv1 dot_S64x2x128_S64x128x512_S64x2x512_2_1_1_2_0_0 128 rfl rfl).symm t) = ix3 g a t :=
    funext fun ax => Fin.ext (by
      match ax with
      | ⟨0, _⟩ => exact lhs_ab_0 _ _
      | ⟨1, _⟩ => exact lhs_ab_1 _ _
      | ⟨2, _⟩ => exact (lhs_ab_2 _ _).trans ht)
  have er : dot_S64x2x128_S64x128x512_S64x2x512_2_1_1_2_0_0.rhsIdx (ix3 g a c) ((contrEquiv1 dot_S64x2x128_S64x128x512_S64x2x512_2_1_1_2_0_0 128 rfl rfl).symm t) = ix3 g t c :=
    funext fun ax => Fin.ext (by
      match ax with
      | ⟨0, _⟩ => exact rhs_ab_0 _ _
      | ⟨1, _⟩ => exact (rhs_ab_1 _ _).trans ht
      | ⟨2, _⟩ => exact rhs_ab_2 _ _)
  rw [el, er]

theorem lhs_out_0 (i : S64x8x2.Idx) (q : dot_S64x8x128_S64x128x2_S64x8x2_2_1_1_2_0_0.contr.Idx) :
    (dot_S64x8x128_S64x128x2_S64x8x2_2_1_1_2_0_0.lhsIdx i q 0).val = (i 0).val := by
  unfold DotDims.lhsIdx
  rw [dif_pos (show (0 : Fin S64x8x128.rank) ∈ dot_S64x8x128_S64x128x2_S64x8x2_2_1_1_2_0_0.lhsBatch by decide)]
  rfl
theorem lhs_out_1 (i : S64x8x2.Idx) (q : dot_S64x8x128_S64x128x2_S64x8x2_2_1_1_2_0_0.contr.Idx) :
    (dot_S64x8x128_S64x128x2_S64x8x2_2_1_1_2_0_0.lhsIdx i q 1).val = (i 1).val := by
  unfold DotDims.lhsIdx
  rw [dif_neg (show ¬(1 : Fin S64x8x128.rank) ∈ dot_S64x8x128_S64x128x2_S64x8x2_2_1_1_2_0_0.lhsBatch by decide),
    dif_pos (show (1 : Fin S64x8x128.rank) ∈ dot_S64x8x128_S64x128x2_S64x8x2_2_1_1_2_0_0.lhsNonContracting by decide)]
  rfl
theorem lhs_out_2 (i : S64x8x2.Idx) (q : dot_S64x8x128_S64x128x2_S64x8x2_2_1_1_2_0_0.contr.Idx) :
    (dot_S64x8x128_S64x128x2_S64x8x2_2_1_1_2_0_0.lhsIdx i q 2).val = (q ⟨0, by decide⟩).val :=
  dot_S64x8x128_S64x128x2_S64x8x2_2_1_1_2_0_0.lhsIdx_val_of_single rfl i q
theorem rhs_out_0 (i : S64x8x2.Idx) (q : dot_S64x8x128_S64x128x2_S64x8x2_2_1_1_2_0_0.contr.Idx) :
    (dot_S64x8x128_S64x128x2_S64x8x2_2_1_1_2_0_0.rhsIdx i q 0).val = (i 0).val := by
  unfold DotDims.rhsIdx
  rw [dif_pos (show (0 : Fin S64x128x2.rank) ∈ dot_S64x8x128_S64x128x2_S64x8x2_2_1_1_2_0_0.rhsBatch by decide)]
  rfl
theorem rhs_out_1 (i : S64x8x2.Idx) (q : dot_S64x8x128_S64x128x2_S64x8x2_2_1_1_2_0_0.contr.Idx) :
    (dot_S64x8x128_S64x128x2_S64x8x2_2_1_1_2_0_0.rhsIdx i q 1).val = (q ⟨0, by decide⟩).val :=
  dot_S64x8x128_S64x128x2_S64x8x2_2_1_1_2_0_0.rhsIdx_val_of_single rfl i q
theorem rhs_out_2 (i : S64x8x2.Idx) (q : dot_S64x8x128_S64x128x2_S64x8x2_2_1_1_2_0_0.contr.Idx) :
    (dot_S64x8x128_S64x128x2_S64x8x2_2_1_1_2_0_0.rhsIdx i q 2).val = (i 2).val := by
  unfold DotDims.rhsIdx
  rw [dif_neg (show ¬(2 : Fin S64x128x2.rank) ∈ dot_S64x8x128_S64x128x2_S64x8x2_2_1_1_2_0_0.rhsBatch by decide),
    dif_pos (show (2 : Fin S64x128x2.rank) ∈ dot_S64x8x128_S64x128x2_S64x8x2_2_1_1_2_0_0.rhsNonContracting by decide)]
  rfl

theorem matmul_out_apply (A : FVec Ideal S64x8x128 .f32) (B : FVec Ideal S64x128x2 .f32) (g : Fin 64) (a : Fin 8) (c : Fin 2) :
    matmul dot_S64x8x128_S64x128x2_S64x8x2_2_1_1_2_0_0 none A B (constant (F := Ideal) S64x8x2 .f32 0x00000000#32) (ix3 g a c)
      = ∑ t : Fin 128, A (ix3 g a t) * B (ix3 g t c) := by
  refine (Ideal.matmul_constant_zero_apply dot_S64x8x128_S64x128x2_S64x8x2_2_1_1_2_0_0 none A B (ix3 g a c)).trans ?_
  rw [← Equiv.sum_comp (contrEquiv1 dot_S64x8x128_S64x128x2_S64x8x2_2_1_1_2_0_0 128 rfl rfl).symm]
  refine Finset.sum_congr rfl fun t _ => ?_
  have ht := contrEquiv1_symm_val dot_S64x8x128_S64x128x2_S64x8x2_2_1_1_2_0_0 128 rfl rfl t
  have el : dot_S64x8x128_S64x128x2_S64x8x2_2_1_1_2_0_0.lhsIdx (ix3 g a c) ((contrEquiv1 dot_S64x8x128_S64x128x2_S64x8x2_2_1_1_2_0_0 128 rfl rfl).symm t) = ix3 g a t :=
    funext fun ax => Fin.ext (by
      match ax with
      | ⟨0, _⟩ => exact lhs_out_0 _ _
      | ⟨1, _⟩ => exact lhs_out_1 _ _
      | ⟨2, _⟩ => exact (lhs_out_2 _ _).trans ht)
  have er : dot_S64x8x128_S64x128x2_S64x8x2_2_1_1_2_0_0.rhsIdx (ix3 g a c) ((contrEquiv1 dot_S64x8x128_S64x128x2_S64x8x2_2_1_1_2_0_0 128 rfl rfl).symm t) = ix3 g t c :=
    funext fun ax => Fin.ext (by
      match ax with
      | ⟨0, _⟩ => exact rhs_out_0 _ _
      | ⟨1, _⟩ => exact (rhs_out_1 _ _).trans ht
      | ⟨2, _⟩ => exact rhs_out_2 _ _)
  rw [el, er]

def onehot (r : Fin 216) : Fin 216 → EReal := fun p => if p = r then 1 else 0

theorem onehot_matmul (oh : FVec Ideal S64x216 .bf16) (tbl : FVec Ideal S216x256 .bf16) (row : Fin 64 → Fin 216)
    (hoh : ∀ (b : Fin 64) (p : Fin 216), oh (ValueIdx.ix2 b p) = onehot (row b) p) (b : Fin 64) (x : Fin 256) :
    (matmul dot_S64x216_S216x256_S64x256_1_0_0_1_n_n none oh tbl (constant (F := Ideal) S64x256 .f32 0x00000000#32)) (ValueIdx.ix2 b x)
      = tbl (ValueIdx.ix2 (row b) x) := by
  rw [matmul_table_apply, Finset.sum_eq_single (row b)]
  · rw [hoh, onehot, if_pos rfl, one_mul]
  · intro p _ hp
    rw [hoh, onehot, if_neg hp, zero_mul]
  · intro h
    exact absurd (Finset.mem_univ _) h

theorem factorA_apply (oh0 : FVec Ideal S64x216 .bf16) (c0 : Vec Ideal S1x216x256 .bf16) (r0 : Fin 64 → Fin 216)
    (h0 : ∀ b p, oh0 (ix2 b p) = onehot (r0 b) p)
    (hc : S1x216x256.ShapeCasts S216x256) (hb : FTy.bits .bf16 < FTy.bits .f32) (hs : S64x256.ShapeCasts S64x2x128)
    (b : Fin 64) (q : Fin 2) (r : Fin 128) :
    shapeCast S64x2x128 (truncf .bf16 (matmul dot_S64x216_S216x256_S64x256_1_0_0_1_n_n none oh0
        (shapeCast S216x256 c0 hc : FVec Ideal S216x256 .bf16) (constant (F := Ideal) S64x256 .f32 0x00000000#32)) hb) hs (ix3 b q r)
      = c0 (ix3 (0 : Fin 1) (r0 b) ⟨q.val * 128 + r.val, by have := q.isLt; have := r.isLt; omega⟩) := by
  refine (cast_256_2x128 _ hs b q r).trans ?_
  refine (truncf_apply _ hb _).trans ?_
  refine (onehot_matmul oh0 _ r0 h0 b _).trans ?_
  exact shapeCast_1ab_ab_apply c0 hc (r0 b) _

theorem factorC_apply (oh2 : FVec Ideal S64x216 .bf16) (c2 : Vec Ideal S1x216x256 .bf16) (r2 : Fin 64 → Fin 216)
    (h2 : ∀ b p, oh2 (ix2 b p) = onehot (r2 b) p)
    (hc : S1x216x256.ShapeCasts S216x256) (hs : S64x256.ShapeCasts S64x128x2)
    (b : Fin 64) (r : Fin 128) (s : Fin 2) :
    shapeCast S64x128x2 (matmul dot_S64x216_S216x256_S64x256_1_0_0_1_n_n none oh2
        (shapeCast S216x256 c2 hc : FVec Ideal S216x256 .bf16) (constant (F := Ideal) S64x256 .f32 0x00000000#32)) hs (ix3 b r s)
      = c2 (ix3 (0 : Fin 1) (r2 b) ⟨r.val * 2 + s.val, by have := r.isLt; have := s.isLt; omega⟩) := by
  refine (cast_256_128x2 _ hs b r s).trans ?_
  refine (onehot_matmul oh2 _ r2 h2 b _).trans ?_
  exact shapeCast_1ab_ab_apply c2 hc (r2 b) _

theorem ix3_congr {n0 n1 n2 : Nat} {a a' : Fin n0} {b b' : Fin n1} {c c' : Fin n2}
    (ha : a = a') (hb : b = b') (hc : c = c') : ix3 a b c = ix3 a' b' c' := by
  subst ha; subst hb; subst hc; rfl

theorem tail_apply (oh0 oh2 : FVec Ideal S64x216 .bf16) (c0 c2 : Vec Ideal S1x216x256 .bf16)
    (buf : Vec Ideal S64x128x512 .bf16) (r0 r2 : Fin 64 → Fin 216)
    (h0 : ∀ b p, oh0 (ix2 b p) = onehot (r0 b) p) (h2 : ∀ b p, oh2 (ix2 b p) = onehot (r2 b) p)
    (b : Fin 64) (o : Fin 16) :
    (k0_pay148 (F := Ideal) oh0 c0 oh2 c2 buf) (ValueIdx.ix3 (0 : Fin 1) b o)
      = Cert.Proof.Spec.tt (fun x => c0 (ix3 (0 : Fin 1) (r0 b) x))
          (fun y => buf (ix3 b ⟨y.val / 512, by have := y.isLt; omega⟩ ⟨y.val % 512, Nat.mod_lt _ (by decide)⟩))
          (fun x => c2 (ix3 (0 : Fin 1) (r2 b) x)) o := by
  unfold k0_pay148
  refine (cast_8x2_16 _ _ b o).trans ?_
  refine (matmul_out_apply _ _ b _ _).trans ?_
  unfold Cert.Proof.Spec.tt
  refine Finset.sum_congr rfl fun r1 _ => ?_
  refine congrArg₂ (· * ·) ?_ ?_
  ·
    refine (cast_2x512_8x128 _ _ b _ r1).trans ?_
    refine (matmul_ab_apply _ _ b _ _).trans ?_
    refine Finset.sum_congr rfl fun t _ => ?_
    refine congrArg₂ (· * ·) ?_ ?_
    · refine (factorA_apply oh0 c0 r0 h0 _ _ _ b _ t).trans ?_
      refine congrArg (fun x => c0 (ix3 (0 : Fin 1) (r0 b) x)) (Fin.ext ?_)
      show o.val / 2 / 4 * 128 + t.val = o.val / 8 * 128 + t.val
      omega
    · refine congrArg buf (ix3_congr rfl (Fin.ext ?_) (Fin.ext ?_))
      · show t.val = (t.val * 512 + o.val / 2 % 4 * 128 + r1.val) / 512
        have := r1.isLt
        omega
      · show o.val / 2 % 4 * 128 + r1.val = (t.val * 512 + o.val / 2 % 4 * 128 + r1.val) % 512
        have := r1.isLt
        omega
  · refine (factorC_apply oh2 c2 r2 h2 _ _ b r1 _).trans ?_
    rfl

end Cert.KernelIdeal.Hand

end
-- ==== Proof.WordsIdeal.lean ====
/- The selector rows in terms of the digit tables. A read through the one-cell window at offsets (a, b) of a [2, 1024] table is the table's entry (a, b), and the offsets computed in 32-bit words, i0 and 64 i1 + k, do not wrap; so row k of a selector is the one-hot row of the table's entry at row i0, column 64 i1 + k. -/
import proofs.«403558_j46694884442289_3_alg».proof.Proof.OneHotIdeal
import Mathlib.Tactic.FinCases
import Idealize.ShloMosaic.Lib.ValueIdx
import Idealize.ShloMosaic.Lib.Pipeline.Value

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F] [∀ e, Nonempty (Elt F e)]

abbrev cellOf (i : grid0.Coords) (k : Fin 64) : S2x1024.Idx :=
  ValueIdx.ix2 (⟨(i 0).val, (i 0).isLt⟩ : Fin 2)
    (⟨(i 1).val * 64 + k.val, by have h : (i 1).val < 16 := (i 1).isLt; have := k.isLt; omega⟩ : Fin 1024)

theorem cell_read {κ : Kind} {sp : Space} (v : View sig κ sp S2x1024 .i32) (off : Fin 2 → Nat)
    (inb : ∀ x, off x + S1x1.size x ≤ S2x1024.size x) (f : v.ty.Contents (Elt F))
    (h : 0 < (Rect.unit (s := S2x1024) off S1x1.size inb).toLoadRect.shape.numel)
    (a : Fin 2) (b : Fin 1024) (ha : off 0 = a.val) (hb : off 1 = b.val) :
    v.readAt (Elt F) (Rect.unit (s := S2x1024) off S1x1.size inb).toLoadRect f (Shape.Idx.first h)
      = v.read (Elt F) f (ValueIdx.ix2 a b) := by
  rw [View.readAt_apply]
  refine congrArg (v.read (Elt F) f) (funext fun x => Fin.ext ?_)
  match x with
  | ⟨0, _⟩ => show off 0 + 1 * 0 = a.val; omega
  | ⟨1, _⟩ => show off 1 + 1 * 0 = b.val; omega

theorem row_word (i : grid0.Coords) : (Scalar.indexCast (BitVec.ofNat 32 (i 0).val)).toNat = (i 0).val := by
  have h : (i 0).val < 2 := (i 0).isLt
  show (BitVec.ofNat 32 (i 0).val).toNat = (i 0).val
  rw [BitVec.toNat_ofNat]
  exact Nat.mod_eq_of_lt (by omega)

theorem col_word (i : grid0.Coords) (k : Nat) (hk : k < 64) :
    (Scalar.indexCast (Scalar.addi (Scalar.muli (BitVec.ofNat 32 (i 1).val) 64#32) (BitVec.ofNat 32 k))).toNat
      = (i 1).val * 64 + k := by
  have h : (i 1).val < 16 := (i 1).isLt
  show (BitVec.ofNat 32 (i 1).val * 64#32 + BitVec.ofNat 32 k).toNat = (i 1).val * 64 + k
  rw [BitVec.toNat_add, BitVec.toNat_mul, BitVec.toNat_ofNat, BitVec.toNat_ofNat, BitVec.toNat_ofNat]
  omega

-- Word k is the table's entry at row i0, column 64 i1 + k.
theorem W10_cell (c : Dev nD) (i : grid0.Coords) (f2 : Buf (Elt F) (tb2.view.loc (c : Thread nD τ))) (k : Fin 64) : W10 c i f2 k = f2 (cellOf i k) := by
  fin_cases k <;> exact cell_read tb2.view _ _ f2 _ _ _ (row_word i) (col_word i _ (by decide))

theorem v2563_row (c : Dev nD) (i : grid0.Coords) (f2 : Buf (Elt F) (tb2.view.loc (c : Thread nD τ))) (g10 : Buf (Elt F) (sc10.view.loc (c : Thread nD τ))) (k : Fin 64) (p : Fin 216) :
    kernelRun.sl.v2563 c i f2 g10 (ix2 k p) = sel (f2 (cellOf i k)) p := by
  rw [v2563_rowW, W10_cell]

theorem W11_cell (c : Dev nD) (i : grid0.Coords) (f4 : Buf (Elt F) (tb4.view.loc (c : Thread nD τ))) (k : Fin 64) : W11 c i f4 k = f4 (cellOf i k) := by
  fin_cases k <;> exact cell_read tb4.view _ _ f4 _ _ _ (row_word i) (col_word i _ (by decide))

theorem v2567_row (c : Dev nD) (i : grid0.Coords) (f4 : Buf (Elt F) (tb4.view.loc (c : Thread nD τ))) (g11 : Buf (Elt F) (sc11.view.loc (c : Thread nD τ))) (k : Fin 64) (p : Fin 216) :
    kernelRun.sl.v2567 c i f4 g11 (ix2 k p) = sel (f4 (cellOf i k)) p := by
  rw [v2567_rowW, W11_cell]

theorem k0_pay1_apply (p : Fin 216) : k0_pay1 (ix1 p) = BitVec.ofNat 32 p.val := by
  show shapeCast S216 (iota .tc S1x216 32 [1] iota_S1x216_d1_w32) shapeCasts_S1x216_S216 (ix1 p) = _
  rw [shapeCast_1a_a_apply]
  show BitVec.ofNat 32 (0 * 216 + p.val) = _
  rw [Nat.zero_mul, Nat.zero_add]

-- At the extended reals lane p is 1 where p is the word and 0 elsewhere.
theorem sel_ideal (w : BitVec 32) (p : Fin 216) :
    sel (F := Ideal) w p = if BitVec.ofNat 32 p.val = w then (1 : EReal) else 0 := by
  show ((((IntOp.cmpi .eq (k0_pay1 (ix1 p)) w).setWidth 32).toInt : ℝ) : EReal) = _
  rw [k0_pay1_apply]
  by_cases h : BitVec.ofNat 32 p.val = w
  · rw [if_pos h]; subst h; simp [IntOp.cmpi]
  · rw [if_neg h]
    have hb : (BitVec.ofNat 32 p.val == w) = false := beq_eq_false_iff_ne.mpr h
    simp [IntOp.cmpi, hb]

end Cert.KernelIdeal.Hand

end
-- ==== Proof.BlockValueIdeal.lean ====
/- The output block a point writes is `Spec.out` restricted to the block. -/
import proofs.«403558_j46694884442289_3_alg».proof.Proof.BlockReadIdeal
import proofs.«403558_j46694884442289_3_alg».proof.Proof.BodyIdeal
import proofs.«403558_j46694884442289_3_alg».proof.Proof.LandIdeal
import proofs.«403558_j46694884442289_3_alg».proof.Proof.BlocksIdeal
import proofs.«403558_j46694884442289_3_alg».proof.Proof.HostValIdeal
import proofs.«403558_j46694884442289_3_alg».proof.Proof.TailMathIdeal
import proofs.«403558_j46694884442289_3_alg».proof.Proof.OneHotIdeal
import proofs.«403558_j46694884442289_3_alg».proof.Proof.WordsIdeal
import proofs.«403558_j46694884442289_3_alg».proof.Proof.Digits
import proofs.«403558_j46694884442289_3_alg».proof.Proof.Spec
import Idealize.ShloMosaic.Lib.ValueIdx
import Idealize.ShloMosaic.Lib.Pipeline.Value

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F] [∀ e, Nonempty (Elt F e)]

theorem ix4_congr_val {n0 n1 n2 n3 : Nat} {a a' : Fin n0} {b b' : Fin n1} (x : Fin n2) (y : Fin n3)
    (ha : a.val = a'.val) (hb : b.val = b'.val) : ix4 a b x y = ix4 a' b' x y := by
  obtain rfl := Fin.ext ha
  obtain rfl := Fin.ext hb
  rfl

theorem coord0_toNat (i : grid0.Coords) : (BitVec.ofNat 32 (i 0).val).toNat = (i 0).val := by
  have h : (i 0).val < 2 := (i 0).isLt
  rw [BitVec.toNat_ofNat]
  exact Nat.mod_eq_of_lt (by omega)

theorem row_toNat (i : grid0.Coords) (kw : BitVec 32) (hk : kw.toNat < 64) :
    (Scalar.indexCast (Scalar.addi (Scalar.muli (BitVec.ofNat 32 (i 1).val) 64#32) kw)).toNat
      = (i 1).val * 64 + kw.toNat := by
  have h : (i 1).val < 16 := (i 1).isLt
  have e64 : (64#32 : BitVec 32).toNat = 64 := by decide
  show (BitVec.ofNat 32 (i 1).val * 64#32 + kw).toNat = _
  rw [BitVec.toNat_add, BitVec.toNat_mul, BitVec.toNat_ofNat, e64]
  omega

theorem tb3_word (c : Dev nD) (i : grid0.Coords) (f3 : Buf (Elt F) (tb3.view.loc (c : Thread nD τ))) (kw : BitVec 32)
    (hk : kw.toNat < 64)
    (inb : ∀ a, (![(Scalar.indexCast (BitVec.ofNat 32 (i 0).val)).toNat,
        (Scalar.indexCast (Scalar.addi (Scalar.muli (BitVec.ofNat 32 (i 1).val) 64#32) kw)).toNat] : Fin 2 → Nat) a
          + S1x1.size a ≤ S2x1024.size a)
    (y : (Rect.unit (s := S2x1024) ![(Scalar.indexCast (BitVec.ofNat 32 (i 0).val)).toNat,
        (Scalar.indexCast (Scalar.addi (Scalar.muli (BitVec.ofNat 32 (i 1).val) 64#32) kw)).toNat] S1x1.size inb).toLoadRect.shape.Idx) :
    (View.readAt (Elt F) tb3.view (Rect.unit (s := S2x1024) ![(Scalar.indexCast (BitVec.ofNat 32 (i 0).val)).toNat,
        (Scalar.indexCast (Scalar.addi (Scalar.muli (BitVec.ofNat 32 (i 1).val) 64#32) kw)).toNat] S1x1.size inb).toLoadRect f3 y : Elt F .i32)
      = f3 (ix2 (⟨(i 0).val, (i 0).isLt⟩ : Fin 2)
          (⟨(i 1).val * 64 + kw.toNat, by have h : (i 1).val < 16 := (i 1).isLt; omega⟩ : Fin 1024)) := by
  refine congrArg f3 ?_
  let y' : (⟨2, ![1, 1]⟩ : Shape).Idx := y
  have hy0 : (y' 0).val < 1 := (y' 0).isLt
  have hy1 : (y' 1).val < 1 := (y' 1).isLt
  funext a
  apply Fin.ext
  match a with
  | ⟨0, _⟩ =>
    show (BitVec.ofNat 32 (i 0).val).toNat + 1 * (y' 0).val = (i 0).val
    rw [coord0_toNat]; omega
  | ⟨1, _⟩ =>
    show (Scalar.indexCast (Scalar.addi (Scalar.muli (BitVec.ofNat 32 (i 1).val) 64#32) kw)).toNat + 1 * (y' 1).val
        = (i 1).val * 64 + kw.toNat
    rw [row_toNat i kw hk]; omega

set_option maxHeartbeats 4000000 in

theorem v2574_apply (c : Dev nD) (i : grid0.Coords) (f3 : Buf (Elt F) (tb3.view.loc (c : Thread nD τ)))
    (fh : Buf (Elt F) (hb6.view.loc (c : Thread nD τ))) (hlt : ∀ j, (f3 j : BitVec 32).toNat < 216)
    (k : Fin 64) (r : Fin 128) (u : Fin 512) :
    kernelRun.sl.v2574 c i f3 fh hlt (ix3 k r u)
      = fh (ix4 (⟨(i 0).val, (i 0).isLt⟩ : Fin 2)
          (⟨((f3 (ix2 (⟨(i 0).val, (i 0).isLt⟩ : Fin 2)
                (⟨(i 1).val * 64 + k.val, by have h : (i 1).val < 16 := (i 1).isLt; have := k.isLt; omega⟩ : Fin 1024)) : Elt F .i32) : BitVec 32).toNat,
            hlt _⟩ : Fin 216) r u) := by
  unfold kernelRun.sl.v2574
  rw [sc9_load_whole c, glue64_apply]
  revert k
  simp only [Fin.forall_fin_succ, Matrix.cons_val_zero, Matrix.cons_val_succ]
  repeat' apply And.intro
  all_goals first
    | exact fun j => j.elim0
    | (refine (src_read c _ _ _ fh r u).trans ?_
       refine congrArg fh (ix4_congr_val r u (coord0_toNat i) (congrArg BitVec.toNat ?_))
       refine tb3_word c i f3 _ ?_ _ _
       decide)

theorem out_at (r0 r1 r2 : Fin 2 → Fin 1024 → Fin 216)
    (c0 : Cert.Proof.Spec.SC0.Idx → EReal) (c1 : Cert.Proof.Spec.SC1.Idx → EReal) (c2 : Cert.Proof.Spec.SC0.Idx → EReal)
    (t0 : Fin 2) (b' : Fin 1024) (o : Fin 16) :
    Cert.Proof.Spec.out r0 r1 r2 c0 c1 c2 (ix3 t0 b' o)
      = Cert.Proof.Spec.tt (fun x => c0 (ix3 t0 (r0 t0 b') x)) (fun x => c1 (ix3 t0 (r1 t0 b') x))
          (fun x => c2 (ix3 t0 (r2 t0 b') x)) o := rfl

theorem cast_core1 {α : Type} (v : S2x216x65536.Idx → α) (h : S2x216x65536.ShapeCasts S2x216x128x512)
    (t0 : Fin 2) (p : Fin 216) (r : Fin 128) (u : Fin 512) :
    shapeCast S2x216x128x512 v h (ix4 t0 p r u)
      = v (ix3 t0 p ⟨r.val * 512 + u.val, by have := r.isLt; have := u.isLt; omega⟩) :=
  shapeCast_apply v h _ _ (by
    rw [Shape.rowMajor_val_three, Shape.rowMajor_val_four]
    show (t0.val * 216 + p.val) * 65536 + (r.val * 512 + u.val) = ((t0.val * 216 + p.val) * 128 + r.val) * 512 + u.val
    omega)

theorem sel_onehot (p : Fin 216) (w : BitVec 32) :
    (if BitVec.ofNat 32 p.val = Cert.Proof.Digits.clip215 w then (1 : EReal) else 0)
      = onehot (Cert.Proof.Digits.row w) p :=
  if_congr (Cert.Proof.Digits.ofNat_eq_clip215_iff p w) rfl rfl

theorem pay_apply
    (c : Dev nD) (i : grid0.Coords) (idx : Cert.Proof.Spec.SIdx.Idx → BitVec 32)
    (a1 : S2x216x256.Idx → Elt Ideal .f32) (a2 : S2x216x65536.Idx → Elt Ideal .f32) (a3 : S2x216x256.Idx → Elt Ideal .f32)
    (f2 : Buf (Elt Ideal) (tb2.view.loc (c : Thread nD τ))) (f3 : Buf (Elt Ideal) (tb3.view.loc (c : Thread nD τ)))
    (f4 : Buf (Elt Ideal) (tb4.view.loc (c : Thread nD τ))) (fh : Buf (Elt Ideal) (hb6.view.loc (c : Thread nD τ)))
    (g10 : Buf (Elt Ideal) (sc10.view.loc (c : Thread nD τ))) (g11 : Buf (Elt Ideal) (sc11.view.loc (c : Thread nD τ)))
    (x5 x7 : Vec Ideal S1x216x256 .bf16) (hlt : ∀ j, (f3 j : BitVec 32).toNat < 216)
    (e2 : (f2 : S2x1024.Idx → BitVec 32) = fun j => Cert.Proof.Digits.clip215 (Cert.Proof.Digits.d0 (idx j)))
    (e3 : (f3 : S2x1024.Idx → BitVec 32) = fun j => Cert.Proof.Digits.clip215 (Cert.Proof.Digits.d1 (idx j)))
    (e4 : (f4 : S2x1024.Idx → BitVec 32) = fun j => Cert.Proof.Digits.clip215 (Cert.Proof.Digits.d2 (idx j)))
    (eh : (fh : S2x216x128x512.Idx → Elt Ideal .bf16)
        = shapeCast S2x216x128x512 (truncf (F := Ideal) .bf16 a2 bitsLt_bf16_f32) shapeCasts_S2x216x65536_S2x216x128x512)
    (e5 : ∀ (p : Fin 216) (x : Fin 256), x5 (ix3 (0 : Fin 1) p x) = a1 (ix3 (⟨(i 0).val, (i 0).isLt⟩ : Fin 2) p x))
    (e7 : ∀ (p : Fin 216) (x : Fin 256), x7 (ix3 (0 : Fin 1) p x) = a3 (ix3 (⟨(i 0).val, (i 0).isLt⟩ : Fin 2) p x))
    (b : Fin 64) (o : Fin 16) :
    k0_pay148 (F := Ideal) (kernelRun.sl.v2563 c i f2 g10) x5 (kernelRun.sl.v2567 c i f4 g11) x7
        (kernelRun.sl.v2574 c i f3 fh hlt) (ix3 (0 : Fin 1) b o)
      = Cert.Proof.Spec.out (Cert.Proof.Digits.rows0 idx) (Cert.Proof.Digits.rows1 idx) (Cert.Proof.Digits.rows2 idx) a1 a2 a3
          (ix3 (⟨(i 0).val, (i 0).isLt⟩ : Fin 2)
            (⟨(i 1).val * 64 + b.val, by have h : (i 1).val < 16 := (i 1).isLt; have := b.isLt; omega⟩ : Fin 1024) o) := by
  have h0 : ∀ (b : Fin 64) (p : Fin 216), kernelRun.sl.v2563 c i f2 g10 (ix2 b p)
      = onehot (Cert.Proof.Digits.rows0 idx (⟨(i 0).val, (i 0).isLt⟩ : Fin 2)
          (⟨(i 1).val * 64 + b.val, by have h : (i 1).val < 16 := (i 1).isLt; have := b.isLt; omega⟩ : Fin 1024)) p := fun b p => by
    refine ((v2563_row c i f2 g10 b p).trans (sel_ideal _ p)).trans ?_
    rw [congrFun e2 _]
    exact sel_onehot p _
  have h2 : ∀ (b : Fin 64) (p : Fin 216), kernelRun.sl.v2567 c i f4 g11 (ix2 b p)
      = onehot (Cert.Proof.Digits.rows2 idx (⟨(i 0).val, (i 0).isLt⟩ : Fin 2)
          (⟨(i 1).val * 64 + b.val, by have h : (i 1).val < 16 := (i 1).isLt; have := b.isLt; omega⟩ : Fin 1024)) p := fun b p => by
    refine ((v2567_row c i f4 g11 b p).trans (sel_ideal _ p)).trans ?_
    rw [congrFun e4 _]
    exact sel_onehot p _
  refine (tail_apply _ _ _ _ _ _ _ h0 h2 b o).trans ?_
  refine Eq.trans ?_ (out_at _ _ _ _ _ _ _ _ o).symm
  refine congrFun (congr (congr (congrArg Cert.Proof.Spec.tt (funext fun x => ?_)) (funext fun y => ?_)) (funext fun x => ?_)) o
  ·
    exact e5 _ x
  ·
    refine (v2574_apply c i f3 fh hlt b _ _).trans ?_
    refine (congrFun eh _).trans ?_
    refine (cast_core1 _ _ _ _ _ _).trans ?_
    refine congrArg a2 (ix3_congr rfl (Fin.ext ?_) (Fin.ext ?_))
    · exact (congrArg BitVec.toNat (congrFun e3 _)).trans (Cert.Proof.Digits.clip215_toNat _)
    · show y.val / 512 * 512 + y.val % 512 = y.val
      omega
  ·
    exact e7 _ x

section Ideal

variable (m : (ℓ : Loc nD τ sig) → Buf (Elt Ideal) ℓ)

theorem outsAt_apply
    (c : Dev nD) (t : Fin (cfgA m).N) (b : Fin 64) (o : Fin 16) :
    outsAt m c t (ValueIdx.ix3 (0 : Fin 1) b o)
      = Cert.Proof.Spec.out (Cert.Proof.Digits.rows0 (m ((c : Thread nD τ).loc main_arg0)))
          (Cert.Proof.Digits.rows1 (m ((c : Thread nD τ).loc main_arg0)))
          (Cert.Proof.Digits.rows2 (m ((c : Thread nD τ).loc main_arg0)))
          (m ((c : Thread nD τ).loc main_arg1)) (m ((c : Thread nD τ).loc main_arg2)) (m ((c : Thread nD τ).loc main_arg3))
          (ValueIdx.ix3 (⟨(grid0.coords t 0).val, (grid0.coords t 0).isLt⟩ : Fin 2)
            (⟨(grid0.coords t 1).val * 64 + b.val, by
              have h : (grid0.coords t 1).val < 16 := (grid0.coords t 1).isLt
              have := b.isLt; omega⟩ : Fin 1024) o) :=
  (congrFun (outsAt_eq m c t) _).trans
    (pay_apply c (grid0.coords t) (m ((c : Thread nD τ).loc main_arg0))
      (m ((c : Thread nD τ).loc main_arg1)) (m ((c : Thread nD τ).loc main_arg2)) (m ((c : Thread nD τ).loc main_arg3))
      (V m c main_v4) (V m c main_v5) (V m c main_v6) (V m c main_v9) _ _ (iblk m c 0 t) (iblk m c 1 t) (V_main_v5_lt m c)
      (V_main_v4 m c) (V_main_v5 m c) (V_main_v6 m c) (V_main_v9 m c)
      (fun p x => (iblk0_apply m c t p x).trans (congrFun (V_main_v7 m c) _))
      (fun p x => (iblk1_apply m c t p x).trans (congrFun (V_main_v10 m c) _)) b o)

end Ideal

end Cert.KernelIdeal.Hand

end
-- ==== Proof.FinalIdeal.lean ====
/- The blocks tile the output array: the array after the run is the function whose restriction to each block the points wrote. -/
import proofs.«403558_j46694884442289_3_alg».proof.Proof.Gen.KernelIdeal
import proofs.«403558_j46694884442289_3_alg».proof.Proof.Gen.KernelIdeal.Launch
import Idealize.ShloMosaic.Lib.Pipeline.Value
import Idealize.ShloMosaic.Lib.Pipeline.Frame
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

theorem out_index_facts : ∀ t : Fin grid0.N,
    cc0_transform_3 (grid0.coords t) (0 : Fin 3) = (grid0.coords t 0).val
    ∧ cc0_transform_3 (grid0.coords t) (1 : Fin 3) = (grid0.coords t 1).val
    ∧ cc0_transform_3 (grid0.coords t) (2 : Fin 3) = 0 := by decide +kernel

theorem out_index_onto : ∀ (q0 : Fin 2) (q1 : Fin 16), ∃ t : Fin grid0.N,
    cc0_transform_3 (grid0.coords t) = ![q0.val, q1.val, 0] := by decide +kernel

theorem out_index_moves : ∀ t : Fin grid0.N, t.val + 1 = grid0.N ∨
    ∃ h : t.val + 1 < grid0.N, cc0_transform_3 (grid0.coords ⟨t.val + 1, h⟩) ≠ cc0_transform_3 (grid0.coords t) := by
  decide +kernel

abbrev pinned (a : (p : Fin 1) → (pcfgs (F := F) p).Adm) : Pipeline.Cfg sig Λ₀ := Pipeline.pin (pcfgs (F := F)) a 0

theorem out_flush (a : (p : Fin 1) → (pcfgs (F := F) p).Adm) (t : Fin (pinned a).N) :
    ((pinned a).win 2).flush t = true := by
  have h := out_index_moves t
  unfold Pipeline.Window.flush
  simp only [Bool.and_eq_true, Bool.or_eq_true, decide_eq_true_eq]
  exact ⟨rfl, h⟩

theorem mem_out_blk (a : (p : Fin 1) → (pcfgs (F := F) p).Adm) (t : Fin (pinned a).N) (i : S2x1024x16.Idx) :
    i ∈ (((pinned a).win 2).blk t).view.set ↔ ∀ x : Fin 3,
      cc0_transform_3 (grid0.coords t) x * S1x64x16.size x ≤ (i x).val
      ∧ (i x).val < cc0_transform_3 (grid0.coords t) x * S1x64x16.size x + S1x64x16.size x := by
  have e : (((pinned a).win 2).blk t).view.set = (((pinned a).win 2).rect t).set :=
    View.set_slice_whole main_v11 (((pinned a).win 2).rect t)
  refine Iff.trans (Eq.to_iff (congrArg (fun s => i ∈ s) e)) ?_
  exact Rect.mem_set_unit

theorem out_flushed_eq (a : (p : Fin 1) → (pcfgs (F := F) p).Adm) (c : Dev nD)
    (dat : Pipeline.Dat τ (Elt F) Unit ℕ (Pipeline.UD sig nD τ) ℕ (Pipeline.pin (pcfgs (F := F)) a 0) c)
    (G : S2x1024x16.Idx → Elt F .f32)
    (hblk : ∀ (t : Fin (Pipeline.pin (pcfgs (F := F)) a 0).N) (b : Fin 64) (o : Fin 16),
        dat.after 2 t (ValueIdx.ix3 (0 : Fin 1) b o)
          = G (ValueIdx.ix3 (⟨(grid0.coords t 0).val, (grid0.coords t 0).isLt⟩ : Fin 2)
                (⟨(grid0.coords t 1).val * 64 + b.val, by
                    have h : (grid0.coords t 1).val < 16 := (grid0.coords t 1).isLt
                    have := b.isLt; omega⟩ : Fin 1024) o))
    (t : Fin (Pipeline.pin (pcfgs (F := F)) a 0).N) :
    dat.flushed 2 t = (((Pipeline.pin (pcfgs (F := F)) a 0).win 2).blk t).view.read (Elt F) G := by
  funext j
  obtain ⟨u, b, o, rfl⟩ : ∃ (u : Fin 1) (b : Fin 64) (o : Fin 16), j = ix3 u b o :=
    let j' : (⟨3, ![1, 64, 16]⟩ : Shape).Idx := j
    ⟨j' 0, j' 1, j' 2, eq_ix3 j'⟩
  obtain rfl : u = 0 := Subsingleton.elim _ _
  obtain ⟨e0, e1, e2⟩ := out_index_facts t
  refine (hblk t b o).trans ?_
  refine Eq.trans ?_ (cast_eq _ _).symm
  refine congrArg G ?_
  funext x
  apply Fin.ext
  match x with
  | ⟨0, _⟩ =>
    show (grid0.coords t 0).val = cc0_transform_3 (grid0.coords t) (0 : Fin 3) * 1 + 1 * 0
    omega
  | ⟨1, _⟩ =>
    show (grid0.coords t 1).val * 64 + b.val = cc0_transform_3 (grid0.coords t) (1 : Fin 3) * 64 + 1 * b.val
    omega
  | ⟨2, _⟩ =>
    show o.val = cc0_transform_3 (grid0.coords t) (2 : Fin 3) * 16 + 1 * o.val
    omega

theorem out_cover (a : (p : Fin 1) → (pcfgs (F := F) p).Adm) (i : S2x1024x16.Idx) :
    ∃ t : Fin (pinned a).N, ((pinned a).win 2).flush t = true ∧ i ∈ (((pinned a).win 2).blk t).view.set := by
  have h0 : (i 0).val < 2 := (i 0).isLt
  have h1 : (i 1).val < 1024 := (i 1).isLt
  have h2 : (i 2).val < 16 := (i 2).isLt
  obtain ⟨t, ht⟩ := out_index_onto ⟨(i 0).val, h0⟩ ⟨(i 1).val / 64, by omega⟩
  have q0 : cc0_transform_3 (grid0.coords t) (0 : Fin 3) = (i 0).val := congrFun ht 0
  have q1 : cc0_transform_3 (grid0.coords t) (1 : Fin 3) = (i 1).val / 64 := congrFun ht 1
  have q2 : cc0_transform_3 (grid0.coords t) (2 : Fin 3) = 0 := congrFun ht 2
  refine ⟨t, out_flush a t, ?_⟩
  rw [mem_out_blk]
  intro x
  match x with
  | ⟨0, _⟩ =>
    show cc0_transform_3 (grid0.coords t) (0 : Fin 3) * 1 ≤ (i 0).val ∧ (i 0).val < cc0_transform_3 (grid0.coords t) (0 : Fin 3) * 1 + 1
    omega
  | ⟨1, _⟩ =>
    show cc0_transform_3 (grid0.coords t) (1 : Fin 3) * 64 ≤ (i 1).val ∧ (i 1).val < cc0_transform_3 (grid0.coords t) (1 : Fin 3) * 64 + 64
    omega
  | ⟨2, _⟩ =>
    show cc0_transform_3 (grid0.coords t) (2 : Fin 3) * 16 ≤ (i 2).val ∧ (i 2).val < cc0_transform_3 (grid0.coords t) (2 : Fin 3) * 16 + 16
    omega

theorem final_of_blocks (a : (p : Fin 1) → (pcfgs (F := F) p).Adm) (c : Dev nD)
    (dat : Pipeline.Dat τ (Elt F) Unit ℕ (Pipeline.UD sig nD τ) ℕ (Pipeline.pin (pcfgs (F := F)) a 0) c)
    (G : S2x1024x16.Idx → Elt F .f32)
    (hblk : ∀ (t : Fin (Pipeline.pin (pcfgs (F := F)) a 0).N) (b : Fin 64) (o : Fin 16),
        dat.after 2 t (ValueIdx.ix3 (0 : Fin 1) b o)
          = G (ValueIdx.ix3 (⟨(grid0.coords t 0).val, (grid0.coords t 0).isLt⟩ : Fin 2)
                (⟨(grid0.coords t 1).val * 64 + b.val, by
                    have h : (grid0.coords t 1).val < 16 := (grid0.coords t 1).isLt
                    have := b.isLt; omega⟩ : Fin 1024) o)) :
    dat.arrAt 2 (Pipeline.pin (pcfgs (F := F)) a 0).N = G :=
  dat.arrAt_eq_of_cover 2 G (fun t _ => out_flushed_eq a c dat G hblk t) (out_cover a)

end Cert.KernelIdeal.Hand

end
-- ==== Proof.KernelValueIdeal.lean ====
/- The run of the idealized kernel ends with the output array at `Spec.out` of the rows the clamped digits pick. -/
import proofs.«403558_j46694884442289_3_alg».proof.Proof.ClosedIdeal
import proofs.«403558_j46694884442289_3_alg».proof.Proof.BlockValueIdeal
import proofs.«403558_j46694884442289_3_alg».proof.Proof.FinalIdeal

noncomputable section

namespace Cert.KernelIdeal.Hand

open Cert.KernelIdeal Cert.KernelIdeal.Gen
open Idealize.ShloMosaic Idealize.ShloMosaic.TcCoe
open Idealize.SL Idealize.SL.Sem

theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = Cert.Proof.Spec.out (Cert.Proof.Digits.rows0 (m ((c.tc : Thread nD τ).loc main_arg0))) (Cert.Proof.Digits.rows1 (m ((c.tc : Thread nD τ).loc main_arg0))) (Cert.Proof.Digits.rows2 (m ((c.tc : Thread nD τ).loc main_arg0)))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c =>
    ⟨(h c).1.trans (final_of_blocks (adm m) c (dats m 0 c) _ (fun t b o => by
        rw [after0_2 m c t]; exact outsAt_apply m c t b o)), (h c).2⟩)
    (run_out_closed (F := Ideal) m ρ)

end Cert.KernelIdeal.Hand

end
-- ==== Proof.KitKernel.lean ====
/- The program up to its one call: the arrays the call finds and the three digit tables it reads. -/
import proofs.«403558_j46694884442289_3_alg».proof.Proof.Gen.Kernel
import proofs.«403558_j46694884442289_3_alg».proof.Proof.Gen.Kernel.Launch
import Idealize.ShloMosaic.Lib.Pipeline.Frame
import Idealize.ShloMosaic.Lib.Transfers

noncomputable section

namespace Cert.Kernel.Hand

open Idealize.ShloMosaic Idealize.ShloMosaic.TcCoe
open Idealize.SL Idealize.SL.RA Idealize.SL.BI Idealize.SL.Sem
open scoped Idealize.SL.BI
open Idealize.SL.BI.BIBase
open Cert.Kernel Cert.Kernel.Gen

variable {F : FTy → Type} [FloatOps F]
variable (m : (ℓ : Loc nD τ sig) → Buf (Elt F) ℓ)

abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14]

abbrev V (c : Dev nD) (b : Ref sig .tc) : Buf (Elt F) ((c : Thread nD τ).loc b) :=
  StableHlo.after (List.flatten (prefixOps (F := F))) (fun b => m (c, b)) b

theorem hmain (𝒱₀ : Variants) :
    Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main (prefixOps (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; repeat' constructor)
    (fun c => (main_chain c).trans rfl)

-- No operation before the call writes an argument, so the call finds each argument as the program was given it.
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

section Held

local notation "𝕄" => MT nD τ sig Unit (Elt F) ℕ (Pipeline.UD sig nD τ) ℕ

abbrev pt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦{q} f

abbrev own (c : Dev nD) {sp : Space} {S : Shape} {e : EltTy} (M : Memref sig .tc sp S e)
    (f : Buf (Elt F) (M.view.loc (c : Thread nD τ))) : sProp 𝕄 :=
  M.view.loc (c : Thread nD τ) ↦[M.view.set]{fullShare} f

end Held

abbrev tb2 : Memref sig .tc .smem S2x1024 .i32 := Memref.whole main_v4
abbrev tb3 : Memref sig .tc .smem S2x1024 .i32 := Memref.whole main_v5
abbrev tb4 : Memref sig .tc .smem S2x1024 .i32 := Memref.whole main_v6
abbrev hb6 : Memref sig .tc .hbm S2x216x128x512 .bf16 := Memref.whole main_v9
abbrev sc9 : Memref sig .tc .vmem S64x128x512 .bf16 := Memref.whole cc0_scratch0
abbrev sc10 : Memref sig .tc .vmem S64x216 .bf16 := Memref.whole cc0_scratch1
abbrev sc11 : Memref sig .tc .vmem S64x216 .bf16 := Memref.whole cc0_scratch2

abbrev dst (k : Nat) (hk : ∀ a, (![k, 0, 0] : Fin 3 → Nat) a + S1x128x512.size a ≤ S64x128x512.size a) :
    Memref sig .tc .vmem S128x512 .bf16 :=
  (sc9.slice (Rect.unit (s := S64x128x512) ![k, 0, 0] S1x128x512.size hk) (fun _ => rfl)).squeeze S128x512 squeezes_S1x128x512_S128x512

end Cert.Kernel.Hand

end
-- ==== Proof.BlocksKernel.lean ====
/- The 64 x 128 x 512 work buffer as the disjoint union of its 64 leading-axis blocks, and the middle core as one cell per row: holding the whole is holding the parts, in both directions. -/
import proofs.«403558_j46694884442289_3_alg».proof.Proof.KitKernel
import Idealize.ShloMosaic.Lib.Ring
import Idealize.ShloMosaic.Lib.Transfers
import Idealize.ShloMosaic.Lib.ValueIdx
import Idealize.ShloMosaic.Lib.ValueLayout

noncomputable section

namespace Cert.Kernel.Hand

open Idealize.ShloMosaic Idealize.ShloMosaic.TcCoe
open Idealize.SL Idealize.SL.RA Idealize.SL.BI Idealize.SL.Sem
open scoped Idealize.SL.BI
open Idealize.SL.BI.BIBase
open Idealize.SL.ProofMode
open Idealize.ShloMosaic.ValueIdx
open Cert.Kernel Cert.Kernel.Gen

variable {F : FTy → Type} [FloatOps F] [∀ e, Nonempty (Elt F e)]

local notation "𝕄" => MT nD τ sig Unit (Elt F) ℕ (Pipeline.UD sig nD τ) ℕ

theorem blk_inb (k : Fin 64) : ∀ a, (![k.val, 0, 0] : Fin 3 → Nat) a + S1x128x512.size a ≤ S64x128x512.size a := by
  intro a
  have hk := k.isLt
  match a with
  | ⟨0, _⟩ => show k.val + 1 ≤ 64; omega
  | ⟨1, _⟩ => show 0 + 128 ≤ 128; omega
  | ⟨2, _⟩ => show 0 + 512 ≤ 512; omega

abbrev blk (k : Fin 64) : Memref sig .tc .vmem S128x512 .bf16 := dst k.val (blk_inb k)

abbrev rset (k : Fin 64) : Finset S64x128x512.Idx :=
  (Rect.unit (s := S64x128x512) ![k.val, 0, 0] S1x128x512.size (blk_inb k)).set

theorem blk_set (k : Fin 64) : (blk k).view.set = rset k := by
  simp only [Memref.view_squeeze, Memref.view_slice, Memref.view_whole, View.set_reshape, View.set_slice_whole]

theorem rset_disjoint (b b' : Fin 64) (h : b ≠ b') : Disjoint (rset b) (rset b') :=
  Ring.lead_disjoint (s := S64x128x512) (NB := 64) 0 1 (fun b => ![b.val, 0, 0]) S1x128x512.size blk_inb
    (fun b => (Nat.one_mul _).symm) rfl b b' h

theorem rset_cover : Finset.univ.biUnion rset = Finset.univ :=
  Ring.lead_cover (s := S64x128x512) (NB := 64) 0 1 (fun b => ![b.val, 0, 0]) S1x128x512.size blk_inb
    (fun b => (Nat.one_mul _).symm)
    (fun b a ha => by match a with | ⟨0, _⟩ => exact absurd rfl ha | ⟨1, _⟩ => rfl | ⟨2, _⟩ => rfl)
    rfl
    (fun a ha => by match a with | ⟨0, _⟩ => exact absurd rfl ha | ⟨1, _⟩ => rfl | ⟨2, _⟩ => rfl)
    rfl

theorem own_blk (c : Dev nD) (k : Fin 64) (f : Buf (Elt F) (sc9.view.loc (c : Thread nD τ))) :
    (own c (blk k) f : sProp 𝕄) = (sc9.view.loc (c : Thread nD τ) ↦[rset k]{fullShare} f) := by
  show ((blk k).view.loc (c : Thread nD τ) ↦[(blk k).view.set]{fullShare} f) = _
  rw [blk_set]

theorem sc9_blocks (c : Dev nD) (g9 : Buf (Elt F) (sc9.view.loc (c : Thread nD τ))) :
    (pt c sc9 fullShare g9 : sProp 𝕄) = bigSep Finset.univ fun k : Fin 64 => own c (blk k) g9 := by
  simp only [own_blk]
  exact Ring.pointsTo_blocks (ℓ := sc9.view.loc (c : Thread nD τ)) rset rset_disjoint rset_cover g9

theorem univ64 : (Finset.univ : Finset (Fin 64)) = ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] : List (Fin 64)).toFinset := by decide
theorem nodup64 : ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] : List (Fin 64)).Nodup := by decide

set_option maxHeartbeats 4000000 in

theorem sc9_split (c : Dev nD) (g9 : Buf (Elt F) (sc9.view.loc (c : Thread nD τ))) :
    pt c sc9 fullShare g9 ⊢ (iprop(own c (dst 0 inb_S64x128x512_S1x128x512_0_0_0) g9 ∗ own c (dst 1 inb_S64x128x512_S1x128x512_1_0_0) g9 ∗ own c (dst 2 inb_S64x128x512_S1x128x512_2_0_0) g9 ∗ own c (dst 3 inb_S64x128x512_S1x128x512_3_0_0) g9 ∗ own c (dst 4 inb_S64x128x512_S1x128x512_4_0_0) g9 ∗ own c (dst 5 inb_S64x128x512_S1x128x512_5_0_0) g9 ∗ own c (dst 6 inb_S64x128x512_S1x128x512_6_0_0) g9 ∗ own c (dst 7 inb_S64x128x512_S1x128x512_7_0_0) g9 ∗ own c (dst 8 inb_S64x128x512_S1x128x512_8_0_0) g9 ∗ own c (dst 9 inb_S64x128x512_S1x128x512_9_0_0) g9 ∗ own c (dst 10 inb_S64x128x512_S1x128x512_10_0_0) g9 ∗ own c (dst 11 inb_S64x128x512_S1x128x512_11_0_0) g9 ∗ own c (dst 12 inb_S64x128x512_S1x128x512_12_0_0) g9 ∗ own c (dst 13 inb_S64x128x512_S1x128x512_13_0_0) g9 ∗ own c (dst 14 inb_S64x128x512_S1x128x512_14_0_0) g9 ∗ own c (dst 15 inb_S64x128x512_S1x128x512_15_0_0) g9 ∗ own c (dst 16 inb_S64x128x512_S1x128x512_16_0_0) g9 ∗ own c (dst 17 inb_S64x128x512_S1x128x512_17_0_0) g9 ∗ own c (dst 18 inb_S64x128x512_S1x128x512_18_0_0) g9 ∗ own c (dst 19 inb_S64x128x512_S1x128x512_19_0_0) g9 ∗ own c (dst 20 inb_S64x128x512_S1x128x512_20_0_0) g9 ∗ own c (dst 21 inb_S64x128x512_S1x128x512_21_0_0) g9 ∗ own c (dst 22 inb_S64x128x512_S1x128x512_22_0_0) g9 ∗ own c (dst 23 inb_S64x128x512_S1x128x512_23_0_0) g9 ∗ own c (dst 24 inb_S64x128x512_S1x128x512_24_0_0) g9 ∗ own c (dst 25 inb_S64x128x512_S1x128x512_25_0_0) g9 ∗ own c (dst 26 inb_S64x128x512_S1x128x512_26_0_0) g9 ∗ own c (dst 27 inb_S64x128x512_S1x128x512_27_0_0) g9 ∗ own c (dst 28 inb_S64x128x512_S1x128x512_28_0_0) g9 ∗ own c (dst 29 inb_S64x128x512_S1x128x512_29_0_0) g9 ∗ own c (dst 30 inb_S64x128x512_S1x128x512_30_0_0) g9 ∗ own c (dst 31 inb_S64x128x512_S1x128x512_31_0_0) g9 ∗ own c (dst 32 inb_S64x128x512_S1x128x512_32_0_0) g9 ∗ own c (dst 33 inb_S64x128x512_S1x128x512_33_0_0) g9 ∗ own c (dst 34 inb_S64x128x512_S1x128x512_34_0_0) g9 ∗ own c (dst 35 inb_S64x128x512_S1x128x512_35_0_0) g9 ∗ own c (dst 36 inb_S64x128x512_S1x128x512_36_0_0) g9 ∗ own c (dst 37 inb_S64x128x512_S1x128x512_37_0_0) g9 ∗ own c (dst 38 inb_S64x128x512_S1x128x512_38_0_0) g9 ∗ own c (dst 39 inb_S64x128x512_S1x128x512_39_0_0) g9 ∗ own c (dst 40 inb_S64x128x512_S1x128x512_40_0_0) g9 ∗ own c (dst 41 inb_S64x128x512_S1x128x512_41_0_0) g9 ∗ own c (dst 42 inb_S64x128x512_S1x128x512_42_0_0) g9 ∗ own c (dst 43 inb_S64x128x512_S1x128x512_43_0_0) g9 ∗ own c (dst 44 inb_S64x128x512_S1x128x512_44_0_0) g9 ∗ own c (dst 45 inb_S64x128x512_S1x128x512_45_0_0) g9 ∗ own c (dst 46 inb_S64x128x512_S1x128x512_46_0_0) g9 ∗ own c (dst 47 inb_S64x128x512_S1x128x512_47_0_0) g9 ∗ own c (dst 48 inb_S64x128x512_S1x128x512_48_0_0) g9 ∗ own c (dst 49 inb_S64x128x512_S1x128x512_49_0_0) g9 ∗ own c (dst 50 inb_S64x128x512_S1x128x512_50_0_0) g9 ∗ own c (dst 51 inb_S64x128x512_S1x128x512_51_0_0) g9 ∗ own c (dst 52 inb_S64x128x512_S1x128x512_52_0_0) g9 ∗ own c (dst 53 inb_S64x128x512_S1x128x512_53_0_0) g9 ∗ own c (dst 54 inb_S64x128x512_S1x128x512_54_0_0) g9 ∗ own c (dst 55 inb_S64x128x512_S1x128x512_55_0_0) g9 ∗ own c (dst 56 inb_S64x128x512_S1x128x512_56_0_0) g9 ∗ own c (dst 57 inb_S64x128x512_S1x128x512_57_0_0) g9 ∗ own c (dst 58 inb_S64x128x512_S1x128x512_58_0_0) g9 ∗ own c (dst 59 inb_S64x128x512_S1x128x512_59_0_0) g9 ∗ own c (dst 60 inb_S64x128x512_S1x128x512_60_0_0) g9 ∗ own c (dst 61 inb_S64x128x512_S1x128x512_61_0_0) g9 ∗ own c (dst 62 inb_S64x128x512_S1x128x512_62_0_0) g9 ∗ own c (dst 63 inb_S64x128x512_S1x128x512_63_0_0) g9) : sProp 𝕄) := by
  have h := sc9_blocks c g9
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] univ64 nodup64] at h
  exact Entails.of_eq h

theorem blk_emb (k : Fin 64) (r : Fin 128) (u : Fin 512) :
    (blk k).view.emb (ix2 r u) = (ix3 k r u : S64x128x512.Idx) := by
  have hsq : (blk k).view.emb (ix2 r u)
      = (Rect.unit (s := S64x128x512) ![k.val, 0, 0] S1x128x512.size (blk_inb k)).emb
          (Shape.reshapeEquiv squeezes_S1x128x512_S128x512.numel_eq (ix2 r u)) := rfl
  rw [hsq, reshapeEquiv_ix2_1ab]
  funext a
  apply Fin.ext
  rw [Rect.emb_apply]
  match a with
  | ⟨0, _⟩ => show k.val + 1 * 0 = k.val; omega
  | ⟨1, _⟩ => show 0 + 1 * r.val = r.val; omega
  | ⟨2, _⟩ => show 0 + 1 * u.val = u.val; omega

theorem blk_writes_apply (c : Dev nD) (g9 : Buf (Elt F) (sc9.view.loc (c : Thread nD τ))) (k : Fin 64)
    (p : S128x512.Idx → Elt F .bf16) (r : Fin 128) (u : Fin 512) :
    (blk k).view.writes (Elt F) g9 [⟨Rect.whole S128x512, p⟩] (ix3 k r u) = p (ix2 r u) := by
  rw [← blk_emb, ← View.write_univ_eq_writes_whole, View.writes_nil, View.write_emb_of_mem _ _ (Finset.mem_univ _)]
  rfl

theorem ix3_mem_rset (k : Fin 64) (r : Fin 128) (u : Fin 512) : (ix3 k r u : S64x128x512.Idx) ∈ rset k := by
  refine Rect.mem_set_unit.mpr fun a => ?_
  have hr := r.isLt
  have hu := u.isLt
  match a with
  | ⟨0, _⟩ => show k.val ≤ k.val ∧ k.val < k.val + 1; omega
  | ⟨1, _⟩ => show 0 ≤ r.val ∧ r.val < 0 + 128; omega
  | ⟨2, _⟩ => show 0 ≤ u.val ∧ u.val < 0 + 512; omega

def glue (P : Fin 64 → S128x512.Idx → Elt F .bf16) : S64x128x512.Idx → Elt F .bf16 :=
  fun i => P ⟨(i 0).val, (i 0).isLt⟩ (ix2 (n0 := 128) (n1 := 512) (i 1) (i 2))

theorem glue_apply (P : Fin 64 → S128x512.Idx → Elt F .bf16) (k : Fin 64) (r : Fin 128) (u : Fin 512) :
    glue P (ix3 k r u) = P k (ix2 r u) := rfl

theorem sc9_glue (c : Dev nD) (g9 : Buf (Elt F) (sc9.view.loc (c : Thread nD τ))) (P : Fin 64 → S128x512.Idx → Elt F .bf16) :
    bigSep Finset.univ (fun k : Fin 64 => own c (blk k) ((blk k).view.writes (Elt F) g9 [⟨Rect.whole S128x512, P k⟩]))
      ⊢ (pt c sc9 fullShare (glue P) : sProp 𝕄) := by
  simp only [own_blk]
  refine (pointsTo_biUnion_join (ℓ := sc9.view.loc (c : Thread nD τ)) Finset.univ rset
    (fun k => (blk k).view.writes (Elt F) g9 [⟨Rect.whole S128x512, P k⟩]) g9
    (fun b _ b' _ h => rset_disjoint b b' h)).trans ?_
  rw [rset_cover]
  iintro ⟨%g, %hg, H⟩
  have e : (sc9.view.loc (c : Thread nD τ) ↦[Finset.univ]{fullShare} g : sProp 𝕄)
      = (sc9.view.loc (c : Thread nD τ) ↦[Finset.univ]{fullShare} glue P) :=
    pointsTo_congr fun i _ => by
      obtain ⟨k, r, u, rfl⟩ : ∃ (k : Fin 64) (r : Fin 128) (u : Fin 512), i = ix3 k r u := ⟨i 0, i 1, i 2, eq_ix3 i⟩
      rw [hg k (Finset.mem_univ k) _ (ix3_mem_rset k r u), glue_apply]
      exact blk_writes_apply c g9 k (P k) r u
  iapply (Entails.of_eq e)
  iexact H

-- Block k of the work buffer holding g9 overwritten whole by p.
abbrev wrote (c : Dev nD) (g9 : Buf (Elt F) (sc9.view.loc (c : Thread nD τ))) (k : Nat)
    (hk : ∀ a, (![k, 0, 0] : Fin 3 → Nat) a + S1x128x512.size a ≤ S64x128x512.size a) (p : S128x512.Idx → Elt F .bf16) : sProp 𝕄 :=
  own c (dst k hk) ((dst k hk).view.writes (Elt F) g9 [⟨Rect.whole S128x512, p⟩])

def glue64 (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 : S128x512.Idx → Elt F .bf16) : S64x128x512.Idx → Elt F .bf16 :=
  glue ![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63]

theorem glue64_apply (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 : S128x512.Idx → Elt F .bf16) (k : Fin 64) (r : Fin 128) (u : Fin 512) :
    glue64 p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 (ix3 k r u)
      = (![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63] : Fin 64 → S128x512.Idx → Elt F .bf16) k (ix2 r u) := rfl

set_option maxHeartbeats 4000000 in

theorem sc9_join (c : Dev nD) (g9 : Buf (Elt F) (sc9.view.loc (c : Thread nD τ)))
    (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 : S128x512.Idx → Elt F .bf16) :
    (iprop(wrote c g9 0 inb_S64x128x512_S1x128x512_0_0_0 p0 ∗ wrote c g9 1 inb_S64x128x512_S1x128x512_1_0_0 p1 ∗ wrote c g9 2 inb_S64x128x512_S1x128x512_2_0_0 p2 ∗ wrote c g9 3 inb_S64x128x512_S1x128x512_3_0_0 p3 ∗ wrote c g9 4 inb_S64x128x512_S1x128x512_4_0_0 p4 ∗ wrote c g9 5 inb_S64x128x512_S1x128x512_5_0_0 p5 ∗ wrote c g9 6 inb_S64x128x512_S1x128x512_6_0_0 p6 ∗ wrote c g9 7 inb_S64x128x512_S1x128x512_7_0_0 p7 ∗ wrote c g9 8 inb_S64x128x512_S1x128x512_8_0_0 p8 ∗ wrote c g9 9 inb_S64x128x512_S1x128x512_9_0_0 p9 ∗ wrote c g9 10 inb_S64x128x512_S1x128x512_10_0_0 p10 ∗ wrote c g9 11 inb_S64x128x512_S1x128x512_11_0_0 p11 ∗ wrote c g9 12 inb_S64x128x512_S1x128x512_12_0_0 p12 ∗ wrote c g9 13 inb_S64x128x512_S1x128x512_13_0_0 p13 ∗ wrote c g9 14 inb_S64x128x512_S1x128x512_14_0_0 p14 ∗ wrote c g9 15 inb_S64x128x512_S1x128x512_15_0_0 p15 ∗ wrote c g9 16 inb_S64x128x512_S1x128x512_16_0_0 p16 ∗ wrote c g9 17 inb_S64x128x512_S1x128x512_17_0_0 p17 ∗ wrote c g9 18 inb_S64x128x512_S1x128x512_18_0_0 p18 ∗ wrote c g9 19 inb_S64x128x512_S1x128x512_19_0_0 p19 ∗ wrote c g9 20 inb_S64x128x512_S1x128x512_20_0_0 p20 ∗ wrote c g9 21 inb_S64x128x512_S1x128x512_21_0_0 p21 ∗ wrote c g9 22 inb_S64x128x512_S1x128x512_22_0_0 p22 ∗ wrote c g9 23 inb_S64x128x512_S1x128x512_23_0_0 p23 ∗ wrote c g9 24 inb_S64x128x512_S1x128x512_24_0_0 p24 ∗ wrote c g9 25 inb_S64x128x512_S1x128x512_25_0_0 p25 ∗ wrote c g9 26 inb_S64x128x512_S1x128x512_26_0_0 p26 ∗ wrote c g9 27 inb_S64x128x512_S1x128x512_27_0_0 p27 ∗ wrote c g9 28 inb_S64x128x512_S1x128x512_28_0_0 p28 ∗ wrote c g9 29 inb_S64x128x512_S1x128x512_29_0_0 p29 ∗ wrote c g9 30 inb_S64x128x512_S1x128x512_30_0_0 p30 ∗ wrote c g9 31 inb_S64x128x512_S1x128x512_31_0_0 p31 ∗ wrote c g9 32 inb_S64x128x512_S1x128x512_32_0_0 p32 ∗ wrote c g9 33 inb_S64x128x512_S1x128x512_33_0_0 p33 ∗ wrote c g9 34 inb_S64x128x512_S1x128x512_34_0_0 p34 ∗ wrote c g9 35 inb_S64x128x512_S1x128x512_35_0_0 p35 ∗ wrote c g9 36 inb_S64x128x512_S1x128x512_36_0_0 p36 ∗ wrote c g9 37 inb_S64x128x512_S1x128x512_37_0_0 p37 ∗ wrote c g9 38 inb_S64x128x512_S1x128x512_38_0_0 p38 ∗ wrote c g9 39 inb_S64x128x512_S1x128x512_39_0_0 p39 ∗ wrote c g9 40 inb_S64x128x512_S1x128x512_40_0_0 p40 ∗ wrote c g9 41 inb_S64x128x512_S1x128x512_41_0_0 p41 ∗ wrote c g9 42 inb_S64x128x512_S1x128x512_42_0_0 p42 ∗ wrote c g9 43 inb_S64x128x512_S1x128x512_43_0_0 p43 ∗ wrote c g9 44 inb_S64x128x512_S1x128x512_44_0_0 p44 ∗ wrote c g9 45 inb_S64x128x512_S1x128x512_45_0_0 p45 ∗ wrote c g9 46 inb_S64x128x512_S1x128x512_46_0_0 p46 ∗ wrote c g9 47 inb_S64x128x512_S1x128x512_47_0_0 p47 ∗ wrote c g9 48 inb_S64x128x512_S1x128x512_48_0_0 p48 ∗ wrote c g9 49 inb_S64x128x512_S1x128x512_49_0_0 p49 ∗ wrote c g9 50 inb_S64x128x512_S1x128x512_50_0_0 p50 ∗ wrote c g9 51 inb_S64x128x512_S1x128x512_51_0_0 p51 ∗ wrote c g9 52 inb_S64x128x512_S1x128x512_52_0_0 p52 ∗ wrote c g9 53 inb_S64x128x512_S1x128x512_53_0_0 p53 ∗ wrote c g9 54 inb_S64x128x512_S1x128x512_54_0_0 p54 ∗ wrote c g9 55 inb_S64x128x512_S1x128x512_55_0_0 p55 ∗ wrote c g9 56 inb_S64x128x512_S1x128x512_56_0_0 p56 ∗ wrote c g9 57 inb_S64x128x512_S1x128x512_57_0_0 p57 ∗ wrote c g9 58 inb_S64x128x512_S1x128x512_58_0_0 p58 ∗ wrote c g9 59 inb_S64x128x512_S1x128x512_59_0_0 p59 ∗ wrote c g9 60 inb_S64x128x512_S1x128x512_60_0_0 p60 ∗ wrote c g9 61 inb_S64x128x512_S1x128x512_61_0_0 p61 ∗ wrote c g9 62 inb_S64x128x512_S1x128x512_62_0_0 p62 ∗ wrote c g9 63 inb_S64x128x512_S1x128x512_63_0_0 p63) : sProp 𝕄)
      ⊢ pt c sc9 fullShare (glue64 p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63) := by
  have h := sc9_glue c g9 ![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63]
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] univ64 nodup64] at h
  exact h

theorem univ70 : (Finset.univ : Finset (Fin 70)) = ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69] : List (Fin 70)).toFinset := by decide
theorem nodup70 : ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69] : List (Fin 70)).Nodup := by decide

set_option maxHeartbeats 4000000 in

theorem hb6_split (c : Dev nD) (fh : Buf (Elt F) (hb6.view.loc (c : Thread nD τ))) :
    pt c hb6 fullShare fh
      ⊢ (iprop(pt c hb6 (Transfers.shareDrop fullShare 70) fh ∗ pt c hb6 (Transfers.shareTokN fullShare 0) fh ∗ pt c hb6 (Transfers.shareTokN fullShare 1) fh ∗ pt c hb6 (Transfers.shareTokN fullShare 2) fh ∗ pt c hb6 (Transfers.shareTokN fullShare 3) fh ∗ pt c hb6 (Transfers.shareTokN fullShare 4) fh ∗ pt c hb6 (Transfers.shareTokN fullShare 5) fh ∗ pt c hb6 (Transfers.shareTokN fullShare 6) fh ∗ pt c hb6 (Transfers.shareTokN fullShare 7) fh ∗ pt c hb6 (Transfers.shareTokN fullShare 8) fh ∗ pt c hb6 (Transfers.shareTokN fullShare 9) fh ∗ pt c hb6 (Transfers.shareTokN fullShare 10) fh ∗ pt c hb6 (Transfers.shareTokN fullShare 11) fh ∗ pt c hb6 (Transfers.shareTokN fullShare 12) fh ∗ pt c hb6 (Transfers.shareTokN fullShare 13) fh ∗ pt c hb6 (Transfers.shareTokN fullShare 14) fh ∗ pt c hb6 (Transfers.shareTokN fullShare 15) fh ∗ pt c hb6 (Transfers.shareTokN fullShare 16) fh ∗ pt c hb6 (Transfers.shareTokN fullShare 17) fh ∗ pt c hb6 (Transfers.shareTokN fullShare 18) fh ∗ pt c hb6 (Transfers.shareTokN fullShare 19) fh ∗ pt c hb6 (Transfers.shareTokN fullShare 20) fh ∗ pt c hb6 (Transfers.shareTokN fullShare 21) fh ∗ pt c hb6 (Transfers.shareTokN fullShare 22) fh ∗ pt c hb6 (Transfers.shareTokN fullShare 23) fh ∗ pt c hb6 (Transfers.shareTokN fullShare 24) fh ∗ pt c hb6 (Transfers.shareTokN fullShare 25) fh ∗ pt c hb6 (Transfers.shareTokN fullShare 26) fh ∗ pt c hb6 (Transfers.shareTokN fullShare 27) fh ∗ pt c hb6 (Transfers.shareTokN fullShare 28) fh ∗ pt c hb6 (Transfers.shareTokN fullShare 29) fh ∗ pt c hb6 (Transfers.shareTokN fullShare 30) fh ∗ pt c hb6 (Transfers.shareTokN fullShare 31) fh ∗ pt c hb6 (Transfers.shareTokN fullShare 32) fh ∗ pt c hb6 (Transfers.shareTokN fullShare 33) fh ∗ pt c hb6 (Transfers.shareTokN fullShare 34) fh ∗ pt c hb6 (Transfers.shareTokN fullShare 35) fh ∗ pt c hb6 (Transfers.shareTokN fullShare 36) fh ∗ pt c hb6 (Transfers.shareTokN fullShare 37) fh ∗ pt c hb6 (Transfers.shareTokN fullShare 38) fh ∗ pt c hb6 (Transfers.shareTokN fullShare 39) fh ∗ pt c hb6 (Transfers.shareTokN fullShare 40) fh ∗ pt c hb6 (Transfers.shareTokN fullShare 41) fh ∗ pt c hb6 (Transfers.shareTokN fullShare 42) fh ∗ pt c hb6 (Transfers.shareTokN fullShare 43) fh ∗ pt c hb6 (Transfers.shareTokN fullShare 44) fh ∗ pt c hb6 (Transfers.shareTokN fullShare 45) fh ∗ pt c hb6 (Transfers.shareTokN fullShare 46) fh ∗ pt c hb6 (Transfers.shareTokN fullShare 47) fh ∗ pt c hb6 (Transfers.shareTokN fullShare 48) fh ∗ pt c hb6 (Transfers.shareTokN fullShare 49) fh ∗ pt c hb6 (Transfers.shareTokN fullShare 50) fh ∗ pt c hb6 (Transfers.shareTokN fullShare 51) fh ∗ pt c hb6 (Transfers.shareTokN fullShare 52) fh ∗ pt c hb6 (Transfers.shareTokN fullShare 53) fh ∗ pt c hb6 (Transfers.shareTokN fullShare 54) fh ∗ pt c hb6 (Transfers.shareTokN fullShare 55) fh ∗ pt c hb6 (Transfers.shareTokN fullShare 56) fh ∗ pt c hb6 (Transfers.shareTokN fullShare 57) fh ∗ pt c hb6 (Transfers.shareTokN fullShare 58) fh ∗ pt c hb6 (Transfers.shareTokN fullShare 59) fh ∗ pt c hb6 (Transfers.shareTokN fullShare 60) fh ∗ pt c hb6 (Transfers.shareTokN fullShare 61) fh ∗ pt c hb6 (Transfers.shareTokN fullShare 62) fh ∗ pt c hb6 (Transfers.shareTokN fullShare 63) fh ∗ pt c hb6 (Transfers.shareTokN fullShare 64) fh ∗ pt c hb6 (Transfers.shareTokN fullShare 65) fh ∗ pt c hb6 (Transfers.shareTokN fullShare 66) fh ∗ pt c hb6 (Transfers.shareTokN fullShare 67) fh ∗ pt c hb6 (Transfers.shareTokN fullShare 68) fh ∗ pt c hb6 (Transfers.shareTokN fullShare 69) fh) : sProp 𝕄) := by
  have h := Transfers.pointsTo_toks_split (Ix := Unit) (Name := ℕ) (U := Pipeline.UD sig nD τ) (Lvl := ℕ)
    (ℓ := hb6.view.loc (c : Thread nD τ)) (S := Finset.univ) (f := fh) fullShare 70
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69] univ70 nodup70] at h
  exact h

set_option maxHeartbeats 4000000 in

theorem hb6_join (c : Dev nD) (fh : Buf (Elt F) (hb6.view.loc (c : Thread nD τ))) :
    (iprop(pt c hb6 (Transfers.shareDrop fullShare 70) fh ∗ pt c hb6 (Transfers.shareTokN fullShare 0) fh ∗ pt c hb6 (Transfers.shareTokN fullShare 1) fh ∗ pt c hb6 (Transfers.shareTokN fullShare 2) fh ∗ pt c hb6 (Transfers.shareTokN fullShare 3) fh ∗ pt c hb6 (Transfers.shareTokN fullShare 4) fh ∗ pt c hb6 (Transfers.shareTokN fullShare 5) fh ∗ pt c hb6 (Transfers.shareTokN fullShare 6) fh ∗ pt c hb6 (Transfers.shareTokN fullShare 7) fh ∗ pt c hb6 (Transfers.shareTokN fullShare 8) fh ∗ pt c hb6 (Transfers.shareTokN fullShare 9) fh ∗ pt c hb6 (Transfers.shareTokN fullShare 10) fh ∗ pt c hb6 (Transfers.shareTokN fullShare 11) fh ∗ pt c hb6 (Transfers.shareTokN fullShare 12) fh ∗ pt c hb6 (Transfers.shareTokN fullShare 13) fh ∗ pt c hb6 (Transfers.shareTokN fullShare 14) fh ∗ pt c hb6 (Transfers.shareTokN fullShare 15) fh ∗ pt c hb6 (Transfers.shareTokN fullShare 16) fh ∗ pt c hb6 (Transfers.shareTokN fullShare 17) fh ∗ pt c hb6 (Transfers.shareTokN fullShare 18) fh ∗ pt c hb6 (Transfers.shareTokN fullShare 19) fh ∗ pt c hb6 (Transfers.shareTokN fullShare 20) fh ∗ pt c hb6 (Transfers.shareTokN fullShare 21) fh ∗ pt c hb6 (Transfers.shareTokN fullShare 22) fh ∗ pt c hb6 (Transfers.shareTokN fullShare 23) fh ∗ pt c hb6 (Transfers.shareTokN fullShare 24) fh ∗ pt c hb6 (Transfers.shareTokN fullShare 25) fh ∗ pt c hb6 (Transfers.shareTokN fullShare 26) fh ∗ pt c hb6 (Transfers.shareTokN fullShare 27) fh ∗ pt c hb6 (Transfers.shareTokN fullShare 28) fh ∗ pt c hb6 (Transfers.shareTokN fullShare 29) fh ∗ pt c hb6 (Transfers.shareTokN fullShare 30) fh ∗ pt c hb6 (Transfers.shareTokN fullShare 31) fh ∗ pt c hb6 (Transfers.shareTokN fullShare 32) fh ∗ pt c hb6 (Transfers.shareTokN fullShare 33) fh ∗ pt c hb6 (Transfers.shareTokN fullShare 34) fh ∗ pt c hb6 (Transfers.shareTokN fullShare 35) fh ∗ pt c hb6 (Transfers.shareTokN fullShare 36) fh ∗ pt c hb6 (Transfers.shareTokN fullShare 37) fh ∗ pt c hb6 (Transfers.shareTokN fullShare 38) fh ∗ pt c hb6 (Transfers.shareTokN fullShare 39) fh ∗ pt c hb6 (Transfers.shareTokN fullShare 40) fh ∗ pt c hb6 (Transfers.shareTokN fullShare 41) fh ∗ pt c hb6 (Transfers.shareTokN fullShare 42) fh ∗ pt c hb6 (Transfers.shareTokN fullShare 43) fh ∗ pt c hb6 (Transfers.shareTokN fullShare 44) fh ∗ pt c hb6 (Transfers.shareTokN fullShare 45) fh ∗ pt c hb6 (Transfers.shareTokN fullShare 46) fh ∗ pt c hb6 (Transfers.shareTokN fullShare 47) fh ∗ pt c hb6 (Transfers.shareTokN fullShare 48) fh ∗ pt c hb6 (Transfers.shareTokN fullShare 49) fh ∗ pt c hb6 (Transfers.shareTokN fullShare 50) fh ∗ pt c hb6 (Transfers.shareTokN fullShare 51) fh ∗ pt c hb6 (Transfers.shareTokN fullShare 52) fh ∗ pt c hb6 (Transfers.shareTokN fullShare 53) fh ∗ pt c hb6 (Transfers.shareTokN fullShare 54) fh ∗ pt c hb6 (Transfers.shareTokN fullShare 55) fh ∗ pt c hb6 (Transfers.shareTokN fullShare 56) fh ∗ pt c hb6 (Transfers.shareTokN fullShare 57) fh ∗ pt c hb6 (Transfers.shareTokN fullShare 58) fh ∗ pt c hb6 (Transfers.shareTokN fullShare 59) fh ∗ pt c hb6 (Transfers.shareTokN fullShare 60) fh ∗ pt c hb6 (Transfers.shareTokN fullShare 61) fh ∗ pt c hb6 (Transfers.shareTokN fullShare 62) fh ∗ pt c hb6 (Transfers.shareTokN fullShare 63) fh ∗ pt c hb6 (Transfers.shareTokN fullShare 64) fh ∗ pt c hb6 (Transfers.shareTokN fullShare 65) fh ∗ pt c hb6 (Transfers.shareTokN fullShare 66) fh ∗ pt c hb6 (Transfers.shareTokN fullShare 67) fh ∗ pt c hb6 (Transfers.shareTokN fullShare 68) fh ∗ pt c hb6 (Transfers.shareTokN fullShare 69) fh) : sProp 𝕄)
      ⊢ pt c hb6 fullShare fh := by
  have h := Transfers.pointsTo_toks_join (Ix := Unit) (Name := ℕ) (U := Pipeline.UD sig nD τ) (Lvl := ℕ)
    (ℓ := hb6.view.loc (c : Thread nD τ)) (S := Finset.univ) (f := fh) fullShare 70
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69] univ70 nodup70] at h
  exact h

end Cert.Kernel.Hand

end
-- ==== Proof.ChkKernel.lean ====
/- A [1, 1, 128, 512] slab at table a < 2 and row b < 216 lies inside the [2, 216, 128, 512] array and is made of whole words. -/
import proofs.«403558_j46694884442289_3_alg».proof.Proof.Gen.Kernel
import Idealize.ShloMosaic.Lib.Affine

namespace Cert.Kernel.Hand

open Idealize.ShloMosaic
open Cert.Kernel

theorem slab_inb (a b : Nat) (ha : a < 2) (hb : b < 216) :
    ∀ x, (![a, b, 0, 0] : Fin 4 → Nat) x + S1x1x128x512.size x ≤ S2x216x128x512.size x := by
  intro x
  match x with
  | ⟨0, _⟩ => show a + 1 ≤ 2; omega
  | ⟨1, _⟩ => show b + 1 ≤ 216; omega
  | ⟨2, _⟩ => show 0 + 128 ≤ 128; omega
  | ⟨3, _⟩ => show 0 + 512 ≤ 512; omega

theorem slab_words (a b : Nat)
    (hinb : ∀ x, (![a, b, 0, 0] : Fin 4 → Nat) x + S1x1x128x512.size x ≤ S2x216x128x512.size x) :
    (Rect.unit (s := S2x216x128x512) ![a, b, 0, 0] S1x1x128x512.size hinb).WholeWords (EltTy.packing .bf16) :=
  Affine.words_rows (by decide) rfl rfl

theorem coord0_lt (i : grid0.Coords) : (BitVec.ofNat 32 (i 0).val).toNat < 2 := by
  have h : (i 0).val < 2 := (i 0).isLt
  rw [BitVec.toNat_ofNat]
  exact Nat.lt_of_le_of_lt (Nat.mod_le _ _) h

theorem chk1_of (i : grid0.Coords) (v : BitVec 32) (h : v.toNat < 216) : k0_chk1 i v := by
  unfold k0_chk1
  exact ⟨slab_inb _ _ (coord0_lt i) h,
    fun hinb => slab_words _ _ hinb,
    slab_inb _ _ (coord0_lt i) h,
    fun hinb => slab_words _ _ hinb⟩

theorem chk64_of (i : grid0.Coords) (v : BitVec 32) (h : v.toNat < 216) : k0_chk64 i v := by
  unfold k0_chk64
  exact ⟨slab_inb _ _ (coord0_lt i) h,
    fun hinb => slab_words _ _ hinb⟩

end Cert.Kernel.Hand
-- ==== Proof.BodyKernel.lean ====
/- The body at one grid point as a triple: holding its operands it runs to holding them again, the output block written with the pieces the run finds. -/
import proofs.«403558_j46694884442289_3_alg».proof.Proof.KitKernel
import proofs.«403558_j46694884442289_3_alg».proof.Proof.BlocksKernel
import proofs.«403558_j46694884442289_3_alg».proof.Proof.ChkKernel
import proofs.«403558_j46694884442289_3_alg».proof.Proof.Gen.Kernel.Skeleton
import Idealize.ShloMosaic.Lib.Pipeline.FrameBody
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (Pipeline.UD sig nD τ) ℕ

theorem word_lt (c : Dev nD) (f3 : Buf (Elt F) (tb3.view.loc (c : Thread nD τ))) (hlt : ∀ j, (f3 j : BitVec 32).toNat < 216)
    (r : LoadRect S2x1024) (y : r.shape.Idx) : ((View.readAt (Elt F) tb3.view r f3 y : Elt F .i32) : BitVec 32).toNat < 216 := by
  rw [View.readAt_apply]; exact hlt _

abbrev cells0 (c : Dev nD) : sProp 𝕄 :=
  iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0)

set_option maxHeartbeats 40000000 in

noncomputable def kernelRun (c : Dev nD) (i : grid0.Coords)
    (arg5 : Memref sig .tc .vmem S1x216x256 .bf16) (harg5 : arg5.IsWhole) (arg7 : Memref sig .tc .vmem S1x216x256 .bf16) (harg7 : arg7.IsWhole)
    (arg8 : Memref sig .tc .vmem S1x64x16 .f32) (harg8 : arg8.IsWhole)
    (x5 x7 : Vec F S1x216x256 .bf16)
    (f2 : Buf (Elt F) (tb2.view.loc (c : Thread nD τ))) (f3 : Buf (Elt F) (tb3.view.loc (c : Thread nD τ))) (f4 : Buf (Elt F) (tb4.view.loc (c : Thread nD τ)))
    (fh : Buf (Elt F) (hb6.view.loc (c : Thread nD τ)))
    (g9 : Buf (Elt F) (sc9.view.loc (c : Thread nD τ))) (g10 : Buf (Elt F) (sc10.view.loc (c : Thread nD τ))) (g11 : Buf (Elt F) (sc11.view.loc (c : Thread nD τ)))
    (hlt : ∀ j, (f3 j : BitVec 32).toNat < 216) :
    { L : List (View.Piece (Elt F) S1x64x16 .f32) //
      ∀ (W : Waits sig Unit) (K : PUnit → sProp 𝕄),
        iprop(pt c tb2 fullShare.right f2 ∗ pt c tb3 fullShare.right f3 ∗ pt c tb4 fullShare.right f4
            ∗ owns (c : Thread nD τ) arg5 fullShare x5 ∗ owns (c : Thread nD τ) arg7 fullShare x7 ∗ (∃ d, owns (c : Thread nD τ) arg8 fullShare d)
            ∗ pt c sc9 fullShare g9 ∗ pt c sc10 fullShare g10 ∗ pt c sc11 fullShare g11
            ∗ cells0 c ∗ pt c hb6 fullShare fh ∗ owes (c : Thread nD τ) 0 W
            ∗ (iprop(pt c tb2 fullShare.right f2 ∗ pt c tb3 fullShare.right f3 ∗ pt c tb4 fullShare.right f4
                ∗ owns (c : Thread nD τ) arg5 fullShare x5 ∗ owns (c : Thread nD τ) arg7 fullShare x7
                ∗ (∃ f, arg8.view.loc (c : Thread nD τ) ↦[arg8.view.set]{fullShare} arg8.view.writes (Elt F) f L)
                ∗ (∃ g, pt c sc9 fullShare g) ∗ (∃ g, pt c sc10 fullShare g) ∗ (∃ g, pt c sc11 fullShare g)
                ∗ cells0 c ∗ pt c hb6 fullShare fh ∗ (∃ W', owes (c : Thread nD τ) 0 W')) -∗ K ⟨⟩))
          ⊢ wp frame (wpE (defs₀ (F := F)) Variants.none c none) Set.univ
              (cc0__tt_kernel i tb2 (Memref.isWhole_whole _) tb3 (Memref.isWhole_whole _) tb4 (Memref.isWhole_whole _) arg5 harg5 hb6 (Memref.isWhole_whole _) arg7 harg7 arg8 harg8
                sc9 (Memref.isWhole_whole _) sc10 (Memref.isWhole_whole _) sc11 (Memref.isWhole_whole _) cc0_scratch3) K } := by
  refine ⟨?_, fun W K => ?run⟩
  case run =>
    simp only [cc0__tt_kernel_eq_skeleton]; unfold cc0__tt_kernel_skel
    unfold owns cells0
    iintro ⟨H2, H3, H4, ⟨%f5, %hf5, H5⟩, ⟨%f7, %hf7, H7⟩, ⟨%d8, %f8, -, H8⟩, H9, H10, H11, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63⟩, Hh, HW, Hk⟩
    obtain rfl := harg5.eq_unread hf5
    obtain rfl := harg7.eq_unread hf7
    ihave HD := (sc9_split c g9) $$ H9
    icases HD with ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31, Hd32, Hd33, Hd34, Hd35, Hd36, Hd37, Hd38, Hd39, Hd40, Hd41, Hd42, Hd43, Hd44, Hd45, Hd46, Hd47, Hd48, Hd49, Hd50, Hd51, Hd52, Hd53, Hd54, Hd55, Hd56, Hd57, Hd58, Hd59, Hd60, Hd61, Hd62, Hd63⟩
    ihave HT := (hb6_split c fh) $$ Hh
    icases HT with ⟨Hr, Hx0, Hx1, Hx2, Hx3, Hx4, Hx5, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Ht45, Ht46, Ht47, Ht48, Ht49, Ht50, Ht51, Ht52, Ht53, Ht54, Ht55, Ht56, Ht57, Ht58, Ht59, Ht60, Ht61, Ht62, Ht63⟩
    sl_exec_parts (disch := (first | (refine chk64_of i _ ?_; exact word_lt c f3 hlt _ _) | (refine chk1_of i _ ?_; exact word_lt c f3 hlt _ _)))
    ihave HJ := (sc9_join c g9 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31 Hd32 Hd33 Hd34 Hd35 Hd36 Hd37 Hd38 Hd39 Hd40 Hd41 Hd42 Hd43 Hd44 Hd45 Hd46 Hd47 Hd48 Hd49 Hd50 Hd51 Hd52 Hd53 Hd54 Hd55 Hd56 Hd57 Hd58 Hd59 Hd60 Hd61 Hd62 Hd63]
    · isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      isplitl [Hd11]; · iexact Hd11
      isplitl [Hd12]; · iexact Hd12
      isplitl [Hd13]; · iexact Hd13
      isplitl [Hd14]; · iexact Hd14
      isplitl [Hd15]; · iexact Hd15
      isplitl [Hd16]; · iexact Hd16
      isplitl [Hd17]; · iexact Hd17
      isplitl [Hd18]; · iexact Hd18
      isplitl [Hd19]; · iexact Hd19
      isplitl [Hd20]; · iexact Hd20
      isplitl [Hd21]; · iexact Hd21
      isplitl [Hd22]; · iexact Hd22
      isplitl [Hd23]; · iexact Hd23
      isplitl [Hd24]; · iexact Hd24
      isplitl [Hd25]; · iexact Hd25
      isplitl [Hd26]; · iexact Hd26
      isplitl [Hd27]; · iexact Hd27
      isplitl [Hd28]; · iexact Hd28
      isplitl [Hd29]; · iexact Hd29
      isplitl [Hd30]; · iexact Hd30
      isplitl [Hd31]; · iexact Hd31
      isplitl [Hd32]; · iexact Hd32
      isplitl [Hd33]; · iexact Hd33
      isplitl [Hd34]; · iexact Hd34
      isplitl [Hd35]; · iexact Hd35
      isplitl [Hd36]; · iexact Hd36
      isplitl [Hd37]; · iexact Hd37
      isplitl [Hd38]; · iexact Hd38
      isplitl [Hd39]; · iexact Hd39
      isplitl [Hd40]; · iexact Hd40
      isplitl [Hd41]; · iexact Hd41
      isplitl [Hd42]; · iexact Hd42
      isplitl [Hd43]; · iexact Hd43
      isplitl [Hd44]; · iexact Hd44
      isplitl [Hd45]; · iexact Hd45
      isplitl [Hd46]; · iexact Hd46
      isplitl [Hd47]; · iexact Hd47
      isplitl [Hd48]; · iexact Hd48
      isplitl [Hd49]; · iexact Hd49
      isplitl [Hd50]; · iexact Hd50
      isplitl [Hd51]; · iexact Hd51
      isplitl [Hd52]; · iexact Hd52
      isplitl [Hd53]; · iexact Hd53
      isplitl [Hd54]; · iexact Hd54
      isplitl [Hd55]; · iexact Hd55
      isplitl [Hd56]; · iexact Hd56
      isplitl [Hd57]; · iexact Hd57
      isplitl [Hd58]; · iexact Hd58
      isplitl [Hd59]; · iexact Hd59
      isplitl [Hd60]; · iexact Hd60
      isplitl [Hd61]; · iexact Hd61
      isplitl [Hd62]; · iexact Hd62
      iexact Hd63
    sl_exec
    sl_step
    ihave Hh := (hb6_join c fh) $$ [Hr Hx0 Hx1 Hx2 Hx3 Hx4 Hx5 Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Ht40 Ht41 Ht42 Ht43 Ht44 Ht45 Ht46 Ht47 Ht48 Ht49 Ht50 Ht51 Ht52 Ht53 Ht54 Ht55 Ht56 Ht57 Ht58 Ht59 Ht60 Ht61 Ht62 Ht63]
    · isplitl [Hr]; · iexact Hr
      isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      isplitl [Ht19]; · iexact Ht19
      isplitl [Ht20]; · iexact Ht20
      isplitl [Ht21]; · iexact Ht21
      isplitl [Ht22]; · iexact Ht22
      isplitl [Ht23]; · iexact Ht23
      isplitl [Ht24]; · iexact Ht24
      isplitl [Ht25]; · iexact Ht25
      isplitl [Ht26]; · iexact Ht26
      isplitl [Ht27]; · iexact Ht27
      isplitl [Ht28]; · iexact Ht28
      isplitl [Ht29]; · iexact Ht29
      isplitl [Ht30]; · iexact Ht30
      isplitl [Ht31]; · iexact Ht31
      isplitl [Ht32]; · iexact Ht32
      isplitl [Ht33]; · iexact Ht33
      isplitl [Ht34]; · iexact Ht34
      isplitl [Ht35]; · iexact Ht35
      isplitl [Ht36]; · iexact Ht36
      isplitl [Ht37]; · iexact Ht37
      isplitl [Ht38]; · iexact Ht38
      isplitl [Ht39]; · iexact Ht39
      isplitl [Ht40]; · iexact Ht40
      isplitl [Ht41]; · iexact Ht41
      isplitl [Ht42]; · iexact Ht42
      isplitl [Ht43]; · iexact Ht43
      isplitl [Ht44]; · iexact Ht44
      isplitl [Ht45]; · iexact Ht45
      isplitl [Ht46]; · iexact Ht46
      isplitl [Ht47]; · iexact Ht47
      isplitl [Ht48]; · iexact Ht48
      isplitl [Ht49]; · iexact Ht49
      isplitl [Ht50]; · iexact Ht50
      isplitl [Ht51]; · iexact Ht51
      isplitl [Ht52]; · iexact Ht52
      isplitl [Ht53]; · iexact Ht53
      isplitl [Ht54]; · iexact Ht54
      isplitl [Ht55]; · iexact Ht55
      isplitl [Ht56]; · iexact Ht56
      isplitl [Ht57]; · iexact Ht57
      isplitl [Ht58]; · iexact Ht58
      isplitl [Ht59]; · iexact Ht59
      isplitl [Ht60]; · iexact Ht60
      isplitl [Ht61]; · iexact Ht61
      isplitl [Ht62]; · iexact Ht62
      iexact Ht63
    iapply Hk
    isplitl [H2]; · iexact H2
    isplitl [H3]; · iexact H3
    isplitl [H4]; · iexact H4
    isplitl [H5]
    · iexists _; isplitr; · ipureintro; exact harg5.read_unread _
      iexact H5
    isplitl [H7]
    · iexists _; isplitr; · ipureintro; exact harg7.read_unread _
      iexact H7
    isplitl [H8]; · iexists _; iexact H8
    isplitl [HJ]; · iexists _; iexact HJ
    isplitl [H10]; · iexists _; iexact H10
    isplitl [H11]; · iexists _; iexact H11
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 Hq50 Hq51 Hq52 Hq53 Hq54 Hq55 Hq56 Hq57 Hq58 Hq59 Hq60 Hq61 Hq62 Hq63]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      isplitl [Hq40]; · iexact Hq40
      isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      isplitl [Hq49]; · iexact Hq49
      isplitl [Hq50]; · iexact Hq50
      isplitl [Hq51]; · iexact Hq51
      isplitl [Hq52]; · iexact Hq52
      isplitl [Hq53]; · iexact Hq53
      isplitl [Hq54]; · iexact Hq54
      isplitl [Hq55]; · iexact Hq55
      isplitl [Hq56]; · iexact Hq56
      isplitl [Hq57]; · iexact Hq57
      isplitl [Hq58]; · iexact Hq58
      isplitl [Hq59]; · iexact Hq59
      isplitl [Hq60]; · iexact Hq60
      isplitl [Hq61]; · iexact Hq61
      isplitl [Hq62]; · iexact Hq62
      iexact Hq63
    isplitl [Hh]; · iexact Hh
    iexists _; iexact HW

theorem kernelRun_cover (c : Dev nD) (i : grid0.Coords)
    (arg5 : Memref sig .tc .vmem S1x216x256 .bf16) (harg5 : arg5.IsWhole) (arg7 : Memref sig .tc .vmem S1x216x256 .bf16) (harg7 : arg7.IsWhole)
    (arg8 : Memref sig .tc .vmem S1x64x16 .f32) (harg8 : arg8.IsWhole)
    (x5 x7 : Vec F S1x216x256 .bf16)
    (f2 : Buf (Elt F) (tb2.view.loc (c : Thread nD τ))) (f3 : Buf (Elt F) (tb3.view.loc (c : Thread nD τ))) (f4 : Buf (Elt F) (tb4.view.loc (c : Thread nD τ)))
    (fh : Buf (Elt F) (hb6.view.loc (c : Thread nD τ)))
    (g9 : Buf (Elt F) (sc9.view.loc (c : Thread nD τ))) (g10 : Buf (Elt F) (sc10.view.loc (c : Thread nD τ))) (g11 : Buf (Elt F) (sc11.view.loc (c : Thread nD τ)))
    (hlt : ∀ j, (f3 j : BitVec 32).toNat < 216) (y : S1x64x16.Idx) :
    ∃ pc ∈ (kernelRun c i arg5 harg5 arg7 harg7 arg8 harg8 x5 x7 f2 f3 f4 fh g9 g10 g11 hlt).1, y ∈ pc.1.set :=
  View.cover_of_tiledL (kernelRun c i arg5 harg5 arg7 harg7 arg8 harg8 x5 x7 f2 f3 f4 fh g9 g10 g11 hlt).1 S1x64x16.size (by sl_kernel_rfl) y

end Cert.Kernel.Hand

end
-- ==== Proof.HostValKernel.lean ====
/- What the operations before the call leave in the arrays the call reads: the clamped digits and the three cores. -/
import proofs.«403558_j46694884442289_3_alg».proof.Proof.KitKernel
import proofs.«403558_j46694884442289_3_alg».proof.Proof.Digits
import Idealize.ShloMosaic.Lib.StableHlo.Run
import Idealize.ShloMosaic.Lib.ValueIdx

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

theorem V_main_v4 (c : Dev nD) :
    (V m c main_v4 : S2x1024.Idx → BitVec 32)
      = fun j => Cert.Proof.Digits.clip215 (Cert.Proof.Digits.d0 (m ((c : Thread nD τ).loc main_arg0) j)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf, StableHlo.TRef.toBuf, cast_eq]
  funext j
  rfl

theorem V_main_v5 (c : Dev nD) :
    (V m c main_v5 : S2x1024.Idx → BitVec 32)
      = fun j => Cert.Proof.Digits.clip215 (Cert.Proof.Digits.d1 (m ((c : Thread nD τ).loc main_arg0) j)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf, StableHlo.TRef.toBuf, cast_eq]
  funext j
  rfl

theorem V_main_v6 (c : Dev nD) :
    (V m c main_v6 : S2x1024.Idx → BitVec 32)
      = fun j => Cert.Proof.Digits.clip215 (Cert.Proof.Digits.d2 (m ((c : Thread nD τ).loc main_arg0) j)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf, StableHlo.TRef.toBuf, cast_eq]
  funext j
  rfl

theorem V_main_v5_lt (c : Dev nD) (j : S2x1024.Idx) :
    ((V m c main_v5 : S2x1024.Idx → BitVec 32) j).toNat < 216 := by
  rw [congrFun (V_main_v5 m c) j, Cert.Proof.Digits.clip215_toNat]
  exact (Cert.Proof.Digits.row _).isLt

theorem V_main_v7 (c : Dev nD) :
    (V m c main_v7 : S2x216x256.Idx → Elt F .bf16)
      = truncf .bf16 (m ((c : Thread nD τ).loc main_arg1)) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp

theorem V_main_v9 (c : Dev nD) :
    (V m c main_v9 : S2x216x128x512.Idx → Elt F .bf16)
      = shapeCast S2x216x128x512 (truncf .bf16 (m ((c : Thread nD τ).loc main_arg2)) bitsLt_bf16_f32)
          shapeCasts_S2x216x65536_S2x216x128x512 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

theorem V_main_v10 (c : Dev nD) :
    (V m c main_v10 : S2x216x256.Idx → Elt F .bf16)
      = truncf .bf16 (m ((c : Thread nD τ).loc main_arg3)) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp

end Cert.Kernel.Hand

end
-- ==== Proof.FrameKernel.lean ====
/- The run of the program from the launch theorem: at every grid point the body runs by its triple, under the hypothesis that the piece it writes does not depend on what the three work buffers held before. -/
import proofs.«403558_j46694884442289_3_alg».proof.Proof.KitKernel
import proofs.«403558_j46694884442289_3_alg».proof.Proof.BodyKernel
import proofs.«403558_j46694884442289_3_alg».proof.Proof.HostValKernel
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

abbrev VO2 : View sig .tc .vmem S1x64x16 .f32 := (Memref.whole cc0_stg2_0 : Memref sig .tc .vmem S1x64x16 .f32).view

variable
  (hind : ∀ c i arg5 harg5 arg7 harg7 arg8 harg8 x5 x7 f2 f3 f4 fh g9 g10 g11 g9' g10' g11' hlt,
    VO2.read (Elt F) (VO2.writes (Elt F) VO2.junk (kernelRun (F := F) c i arg5 harg5 arg7 harg7 arg8 harg8 x5 x7 f2 f3 f4 fh g9 g10 g11 hlt).1)
      = VO2.read (Elt F) (VO2.writes (Elt F) VO2.junk (kernelRun (F := F) c i arg5 harg5 arg7 harg7 arg8 harg8 x5 x7 f2 f3 f4 fh g9' g10' g11' hlt).1))

def adm : (p : Fin 1) → (pcfgs (F := F) p).Adm := fun _ => ⟨fun k => V m 0 (pre0.ref k), trivial⟩

theorem hpf (c : Dev nD) (k : Fin pre0.K) : V m c (pre0.ref k) = (adm m 0).1 k := by
  obtain rfl : c = 0 := Subsingleton.elim _ _
  rfl
theorem adm_fun (c : Dev nD) : (adm m 0).1 = fun k => V m c (pre0.ref k) := funext fun k => (hpf m c k).symm

abbrev cfgA : Cfg sig Λ₀ := Pipeline.pin (pcfgs (F := F)) (adm m) 0

def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

abbrev ms0_0 (t : Fin (cfgA m).N) : Memref sig .tc .vmem S1x216x256 .bf16 := spec0_0.stage ((cfgA m).slots t 0)
abbrev hs0_0 (t : Fin (cfgA m).N) : (ms0_0 m t).IsWhole := hstage0_0 (((cfgA m).slots t 0).cast nbuf0_0)
abbrev ms0_1 (t : Fin (cfgA m).N) : Memref sig .tc .vmem S1x216x256 .bf16 := spec0_1.stage ((cfgA m).slots t 1)
abbrev hs0_1 (t : Fin (cfgA m).N) : (ms0_1 m t).IsWhole := hstage0_1 (((cfgA m).slots t 1).cast nbuf0_1)
abbrev ms0_2 (t : Fin (cfgA m).N) : Memref sig .tc .vmem S1x64x16 .f32 := spec0_2.stage ((cfgA m).slots t 2)
abbrev hs0_2 (t : Fin (cfgA m).N) : (ms0_2 m t).IsWhole := hstage0_2 (((cfgA m).slots t 2).cast nbuf0_2)

abbrev bodyAt (t : Fin (cfgA m).N) : Prog (TpuEff nD τ sig (Elt F) Λ₀ .tc) PUnit :=
  cc0__tt_kernel (grid0.coords t) tb2 (Memref.isWhole_whole _) tb3 (Memref.isWhole_whole _) tb4 (Memref.isWhole_whole _)
    (ms0_0 m t) (hs0_0 m t) hb6 (Memref.isWhole_whole _) (ms0_1 m t) (hs0_1 m t) (ms0_2 m t) (hs0_2 m t)
    sc9 (Memref.isWhole_whole _) sc10 (Memref.isWhole_whole _) sc11 (Memref.isWhole_whole _) cc0_scratch3

abbrev osem0 : Fin 64 → SemLoc sig := fun j => (![SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69] : Fin 64 → SemLoc sig) j
theorem ownSemFacts0 : Pipeline.OwnSemFacts spec0 osem0 := by decide

theorem ownSems0_eq (c : Dev nD) :
    (Pipeline.ownSems0 (Ix := Unit) (Name := ℕ) (U := Pipeline.UD sig nD τ) (Lvl := ℕ) (Val := Elt F) (τ := τ) osem0 c : sProp 𝕄)
      = cells0 c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide)]; rfl

def H0 : Finset (Ref sig .tc) := {main_v9}
theorem H0_sub : H0 ⊆ Pipeline.restRefsP sig pre0 spec0 := by decide

theorem hbmPts0_eq (c : Dev nD) :
    (bigSep H0 (fun b => ((c : Thread nD τ).loc b) ↦{fullShare} V m c b) : sProp 𝕄) = pt c hb6 fullShare (V m c main_v9) := by
  rw [BI.bigSep_eq_bigSepL_of_eq [main_v9] (by decide) (by decide)]; rfl

theorem PhiD0_eq (c : Dev nD) :
    (Pipeline.ΦD osem0 spec0 H0 (V m) c : sProp 𝕄)
      = iprop(iprop((∃ g, pt c sc9 fullShare g) ∗ (∃ g, pt c sc10 fullShare g) ∗ (∃ g, pt c sc11 fullShare g))
          ∗ (∃ r, prngReg c r) ∗ cells0 c ∗ pt c hb6 fullShare (V m c main_v9)) := by
  rw [Pipeline.ΦD_eq, scopedRest0_eq, ownSems0_eq, hbmPts0_eq]; try rfl

theorem PhiT0_eq (c : Dev nD) :
    (Pipeline.ΦT (U := Pipeline.UD sig nD τ) pre0 (adm m 0).1 c : sProp 𝕄)
      = iprop(pt c tb2 fullShare.right (V m c main_v4) ∗ pt c tb3 fullShare.right (V m c main_v5) ∗ pt c tb4 fullShare.right (V m c main_v6)) := by
  unfold Pipeline.ΦT Pipeline.prefHeld
  rw [adm_fun m c, bigSep_W0]
  rfl

def outsAt (c : Dev nD) (t : Fin (cfgA m).N) : Vec F S1x64x16 .f32 :=
  VO2.read (Elt F) (VO2.writes (Elt F) VO2.junk
    (kernelRun c (grid0.coords t) (ms0_0 m t) (hs0_0 m t) (ms0_1 m t) (hs0_1 m t) (ms0_2 m t) (hs0_2 m t)
      (iblk m c 0 t) (iblk m c 1 t) (V m c main_v4) (V m c main_v5) (V m c main_v6) (V m c main_v9)
      (fun _ => Classical.arbitrary _) (fun _ => Classical.arbitrary _) (fun _ => Classical.arbitrary _) (V_main_v5_lt m c)).1)

def dats (p : Fin 1) (c : Dev nD) :
    Dat τ (Elt F) Unit ℕ (Pipeline.UD sig nD τ) ℕ (Pipeline.pin (pcfgs (F := F)) (adm m) p) c where
  A w := V m c (Pipeline.arrRef spec0 w)
  after w t := match w with
    | ⟨0, _⟩ => iblk m c 0 t
    | ⟨1, _⟩ => iblk m c 1 t
    | ⟨2, _⟩ => outsAt m c t
  Φ _ := iprop(Pipeline.ΦD osem0 spec0 H0 (V m) c ∗ Pipeline.ΦT pre0 (adm m 0).1 c)
  q _ := fullShare
  owed _ := 0

theorem A_eq (c : Dev nD) (w : Fin (cfgA m).W) : (dats m 0 c).A w = V m c (Pipeline.arrRef spec0 w) := by
  dsimp only [dats]

theorem after0_0 (c : Dev nD) (t : Fin (cfgA m).N) : (dats m 0 c).after 0 t = iblk m c 0 t := by dsimp only [dats]; rfl
theorem after0_1 (c : Dev nD) (t : Fin (cfgA m).N) : (dats m 0 c).after 1 t = iblk m c 1 t := by dsimp only [dats]; rfl
theorem after0_2 (c : Dev nD) (t : Fin (cfgA m).N) : (dats m 0 c).after 2 t = outsAt m c t := by dsimp only [dats]; rfl

theorem before0_0_of {c : Dev nD} (dat : Dat τ (Elt F) Unit ℕ (Pipeline.UD sig nD τ) ℕ (cfgA m) c)
    (hA : dat.A 0 = V m c (Pipeline.arrRef spec0 0)) (hafter : ∀ t, dat.after 0 t = iblk m c 0 t) (t : Fin (cfgA m).N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (Pipeline.UD sig nD τ) ℕ (cfgA m) c)
    (hA : dat.A 1 = V m c (Pipeline.arrRef spec0 1)) (hafter : ∀ t, dat.after 1 t = iblk m c 1 t) (t : Fin (cfgA m).N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin (cfgA m).N) (d) : (dats m 0 c).before 0 t d = iblk m c 0 t :=
  before0_0_of m (dats m 0 c) (A_eq m c 0) (after0_0 m c) t d
theorem before0_1 (c : Dev nD) (t : Fin (cfgA m).N) (d) : (dats m 0 c).before 1 t d = iblk m c 1 t :=
  before0_1_of m (dats m 0 c) (A_eq m c 1) (after0_1 m c) t d

def bodyPre (c : Dev nD) (t : Fin (cfgA m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d)))

def bodyPost (c : Dev nD) (t : Fin (cfgA m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t))

include hind in

theorem sound_body (c : Dev nD) (t : Fin (cfgA m).N) :
    bodyPre m c t ⊢ wp frame (wpE (defs₀ (F := F)) Variants.none c none) Set.univ (bodyAt m t) (fun _ => bodyPost m c t) := by
  unfold bodyPre bodyPost bodyAt
  simp only [before0_0 m, before0_1 m]
  rw [show (dats m 0 c).Φ t.succ = (dats m 0 c).Φ t.castSucc from rfl,
    after0_0, after0_1, after0_2]
  rw [show (dats m 0 c).Φ t.castSucc
      = iprop(Pipeline.ΦD osem0 spec0 H0 (V m) c ∗ Pipeline.ΦT pre0 (adm m 0).1 c) from rfl, PhiD0_eq, PhiT0_eq]
  unfold Dat.owesAt Pipeline.owesWithin
  rw [show (dats m 0 c).owed t.castSucc = 0 from rfl, show (dats m 0 c).owed t.succ = 0 from rfl]
  unfold outsAt
  iintro ⟨⟨⟨⟨⟨%g9, HS9⟩, ⟨%g10, HS10⟩, ⟨%g11, HS11⟩⟩, Hg, Hcells, Hh⟩, ⟨Ht2, Ht3, Ht4⟩⟩, ⟨%W, -, HW⟩, ⟨%d0, H0⟩, ⟨%d1, H1⟩, ⟨%d2, H2⟩⟩
  iapply ((kernelRun c (grid0.coords t) _ _ _ _ _ _ (iblk m c 0 t) (iblk m c 1 t) (V m c main_v4) (V m c main_v5) (V m c main_v6) (V m c main_v9)
    g9 g10 g11 (V_main_v5_lt m c)).2 W _)
  isplitl [Ht2]; · iexact Ht2
  isplitl [Ht3]; · iexact Ht3
  isplitl [Ht4]; · iexact Ht4
  isplitl [H0]; · iexact H0
  isplitl [H1]; · iexact H1
  isplitl [H2]; · iexists _; iexact H2
  isplitl [HS9]; · iexact HS9
  isplitl [HS10]; · iexact HS10
  isplitl [HS11]; · iexact HS11
  isplitl [Hcells]; · iexact Hcells
  isplitl [Hh]; · iexact Hh
  isplitl [HW]; · iexact HW
  iintro ⟨Ht2, Ht3, Ht4, H0, H1, ⟨%e2, H2⟩, HS9, HS10, HS11, Hcells, Hh, ⟨%W', HW'⟩⟩
  isplitl [HS9 HS10 HS11 Hg Hcells Hh Ht2 Ht3 Ht4]
  · isplitr [Ht2 Ht3 Ht4]
    · isplitl [HS9 HS10 HS11]
      · isplitl [HS9]; · iexact HS9
        isplitl [HS10]; · iexact HS10
        iexact HS11
      isplitl [Hg]; · iexact Hg
      isplitl [Hcells]; · iexact Hcells
      iexact Hh
    · isplitl [Ht2]; · iexact Ht2
      isplitl [Ht3]; · iexact Ht3
      iexact Ht4
  isplitl [HW']
  · iexists W'; isplitr; · ipureintro; exact fun _ _ => Or.inl trivial
    iexact HW'
  isplitl [H0]; · iexact H0
  isplitl [H1]; · iexact H1
  unfold owns; iexists _; isplitr
  swap; · iexact H2
  ipureintro
  exact (View.read_writes_of_cover _ _ _ _ _ (kernelRun_cover c _ _ _ _ _ _ _ _ _ _ _ _ _ _ _ _ _)).trans
    (hind c _ _ _ _ _ _ _ _ _ _ _ _ _ _ _ _ _ _ _ _)

include hind in
set_option maxRecDepth 1000000 in

theorem body_obligation (c : Dev nD) : BodyObligation (dats m 0 c) (defs₀ (F := F)) Variants.none () Set.univ := fun t => by
  rw [bigSep_W0, bigSep_W0]
  exact sound_body m hind c t

include hind in
set_option backward.isDefEq.respectTransparency.types false in

theorem run_main : θ_run defs (onTc (τ := τ) (main (F := F))) (s₀ m ρ)
    (Pipeline.FramePost (Pipeline.pin (pcfgs (F := F)) (adm m)) (dats m) 0 (V m)) :=
  Pipeline.θ_run_frameP_dma (pcfgs (F := F)) (adm m) (dats m) (0 : Fin 1) launch0 osem0 defs₀ Variants.none ownSemFacts0 H0 H0_sub m ρ main
    (hbody := fun c => (body_obligation m hind c).loose)
    (hshare := fun c => (dats m 0 c).share_full fun _ => rfl)
    (howed := fun _ _ => rfl) (V := V m) (hmain := hmain m Variants.none) (hA := A_eq m)
    (hpf := hpf m) (hin := fun _ => .rfl)
    (hout := fun c => (show iprop(Pipeline.ΦD osem0 spec0 H0 (V m) c ∗ Pipeline.ΦT pre0 (adm m 0).1 c) ⊢ (Pipeline.ΦD osem0 spec0 H0 (V m) c : sProp 𝕄) from by
      iintro ⟨H, -⟩; iexact H))

include hind in

theorem run_out : θ_run defs (onTc (τ := τ) (main (F := F))) ⟨m, fun _ => 0, ρ⟩ (fun r => ∀ c : Dev nD,
      r.2.mem ((c.tc : Thread nD τ).loc main_v11) = (dats m 0 c).arrAt 2 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 2,
     ((h c).2 main_arg0 (Pipeline.mem_restRefs_of (win := spec0) main_arg0 (by decide) (by decide))).trans (V_main_arg0 m c),
     ((h c).2 main_arg1 (Pipeline.mem_restRefs_of (win := spec0) main_arg1 (by decide) (by decide))).trans (V_main_arg1 m c),
     ((h c).2 main_arg2 (Pipeline.mem_restRefs_of (win := spec0) main_arg2 (by decide) (by decide))).trans (V_main_arg2 m c),
     ((h c).2 main_arg3 (Pipeline.mem_restRefs_of (win := spec0) main_arg3 (by decide) (by decide))).trans (V_main_arg3 m c)⟩)
    (run_main m ρ hind)

end Cert.Kernel.Hand

end
-- ==== Proof.OneHotKernel.lean ====
/- The two 64 x 216 selectors. Store k rewrites the pair of rows {2⌊k/2⌋, 2⌊k/2⌋+1} with row k replaced by the one-hot row of its word; by induction over the stores, after all 64 every row k is the one-hot row of word k, whatever the buffer held before. -/
import proofs.«403558_j46694884442289_3_alg».proof.Proof.BodyKernel
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.WholeRead
import Idealize.ShloMosaic.PureOps.Ideal.Laws

noncomputable section

namespace Cert.Kernel.Hand

open Idealize.ShloMosaic Idealize.ShloMosaic.TcCoe Idealize.ShloMosaic.ValueIdx
open Cert.Kernel Cert.Kernel.Gen

variable {F : FTy → Type} [FloatOps F] [∀ e, Nonempty (Elt F e)]

def onehotRow (w : BitVec 32) : FVec F S1x216 .bf16 :=
  shapeCast S1x216
    (truncf .bf16 (sitofp .f32 (extui 32 (cmpi .eq k0_pay1 (broadcast S216 w)) natLt_1_32) : FVec F S216 .f32) bitsLt_bf16_f32 : FVec F S216 .bf16)
    shapeCasts_S216_S1x216

def sel (w : BitVec 32) (p : Fin 216) : Elt F .bf16 :=
  (truncf .bf16 (sitofp .f32 (extui 32 (cmpi .eq k0_pay1 (broadcast S216 w)) natLt_1_32) : FVec F S216 .f32) bitsLt_bf16_f32 : FVec F S216 .bf16)
    (ix1 p)

theorem onehotRow_apply (w : BitVec 32) (u : Fin 1) (p : Fin 216) : (onehotRow w : FVec F S1x216 .bf16) (ix2 u p) = sel w p :=
  shapeCast_a_1a_apply _ shapeCasts_S216_S1x216 u p

section Pair

variable {α : Type}

theorem updateSlice_row_hit (old : S2x216.Idx → α) (v : S1x216.Idx → α) (t : ℕ) (h : S2x216.Slices ![t, 0] S1x216)
    (a : Fin 2) (p : Fin 216) (hat : a.val = t) :
    updateSlice old v ![t, 0] h (ix2 a p) = v (ix2 (0 : Fin 1) p) := by
  unfold updateSlice
  have hin : ∀ x : Fin S2x216.rank, (![t, 0] : Fin 2 → ℕ) x ≤ ((ix2 a p : S2x216.Idx) x).val
      ∧ ((ix2 a p : S2x216.Idx) x).val < (![t, 0] : Fin 2 → ℕ) x + S1x216.size (x.cast h.1.symm) := by
    intro x
    have hp := p.isLt
    match x with
    | ⟨0, _⟩ => show t ≤ a.val ∧ a.val < t + 1; omega
    | ⟨1, _⟩ => show 0 ≤ p.val ∧ p.val < 0 + 216; omega
  rw [dif_pos hin]
  congr 1
  funext x
  apply Fin.ext
  match x with
  | ⟨0, _⟩ => show a.val - t = 0; omega
  | ⟨1, _⟩ => show p.val - 0 = p.val; omega

theorem updateSlice_row_miss (old : S2x216.Idx → α) (v : S1x216.Idx → α) (t : ℕ) (h : S2x216.Slices ![t, 0] S1x216)
    (a : Fin 2) (p : Fin 216) (hat : a.val ≠ t) :
    updateSlice old v ![t, 0] h (ix2 a p) = old (ix2 a p) := by
  unfold updateSlice
  rw [dif_neg]
  intro hin
  have := hin ⟨0, by decide⟩
  change t ≤ a.val ∧ a.val < t + 1 at this
  omega

end Pair

theorem lt_of_pair_inb {a : ℕ} (ha : ∀ x, (![a, 0] : Fin 2 → ℕ) x + S2x216.size x ≤ S64x216.size x) : a + 2 ≤ 64 := ha 0
theorem pair_lt0 {a : ℕ} (ha : ∀ x, (![a, 0] : Fin 2 → ℕ) x + S2x216.size x ≤ S64x216.size x) : a < 64 := by
  have := lt_of_pair_inb ha; omega
theorem pair_lt1 {a : ℕ} (ha : ∀ x, (![a, 0] : Fin 2 → ℕ) x + S2x216.size x ≤ S64x216.size x) : a + 1 < 64 := by
  have := lt_of_pair_inb ha; omega

theorem pair_emb (a : ℕ) (ha : ∀ x, (![a, 0] : Fin 2 → ℕ) x + S2x216.size x ≤ S64x216.size x) (t : Fin 2) (p : Fin 216)
    (k : Fin 64) (hk : k.val = a + t.val) :
    (Rect.unit (s := S64x216) ![a, 0] S2x216.size ha).emb (ix2 t p) = (ix2 k p : S64x216.Idx) := by
  funext x
  apply Fin.ext
  rw [Rect.emb_apply]
  match x with
  | ⟨0, _⟩ => show a + 1 * t.val = k.val; omega
  | ⟨1, _⟩ => show 0 + 1 * p.val = p.val; omega

theorem canon_pair_hit (L : List (View.Piece (Elt F) S64x216 .bf16)) (a : ℕ)
    (ha : ∀ x, (![a, 0] : Fin 2 → ℕ) x + S2x216.size x ≤ S64x216.size x) (w : S2x216.Idx → Elt F .bf16)
    (t : Fin 2) (p : Fin 216) (k : Fin 64) (hk : k.val = a + t.val) :
    View.canon (⟨Rect.unit (s := S64x216) ![a, 0] S2x216.size ha, w⟩ :: L) (ix2 k p) = w (ix2 t p) := by
  rw [← pair_emb a ha t p k hk]
  exact View.canon_cons_emb (Rect.unit (s := S64x216) ![a, 0] S2x216.size ha) w L (ix2 t p)

theorem canon_pair_off (L : List (View.Piece (Elt F) S64x216 .bf16)) (a : ℕ)
    (ha : ∀ x, (![a, 0] : Fin 2 → ℕ) x + S2x216.size x ≤ S64x216.size x) (w : S2x216.Idx → Elt F .bf16)
    (k : Fin 64) (p : Fin 216) (hk : k.val < a ∨ a + 2 ≤ k.val) :
    View.canon (⟨Rect.unit (s := S64x216) ![a, 0] S2x216.size ha, w⟩ :: L) (ix2 k p) = View.canon L (ix2 k p) :=
  View.canon_cons_of_not_mem _ L (by
    rw [Rect.mem_set_unit]
    intro h
    have := h ⟨0, by decide⟩
    change a ≤ k.val ∧ k.val < a + 2 at this
    omega)

theorem readCov_pair {sp : Space} (v : View sig .tc sp S64x216 .bf16) (L : List (View.Piece (Elt F) S64x216 .bf16)) (a : ℕ)
    (ha : ∀ x, (![a, 0] : Fin 2 → ℕ) x + S2x216.size x ≤ S64x216.size x) (t : Fin 2) (p : Fin 216)
    (k : Fin 64) (hk : k.val = a + t.val) :
    v.readCov L (Rect.unit (s := S64x216) ![a, 0] S2x216.size ha).toLoadRect (ix2 t p) = View.canon L (ix2 k p) := by
  rw [View.readCov_eq_canon']
  exact congrArg (View.canon L) (pair_emb a ha t p k hk)

def Good (L : List (View.Piece (Elt F) S64x216 .bf16)) (n : ℕ) (W : Fin 64 → BitVec 32) : Prop :=
  ∀ k : Fin 64, k.val < n → ∀ p : Fin 216, View.canon L (ix2 k p) = sel (F := F) (W k) p

theorem good_nil (W : Fin 64 → BitVec 32) : Good (F := F) [] 0 W := fun k hk => absurd hk (Nat.not_lt_zero _)

-- First row of a pair: earlier rows lie in earlier pairs, and the new row is the update.
theorem good_even {L : List (View.Piece (Elt F) S64x216 .bf16)} {W : Fin 64 → BitVec 32} (a : ℕ)
    (ha : ∀ x, (![a, 0] : Fin 2 → ℕ) x + S2x216.size x ≤ S64x216.size x) (hs : S2x216.Slices ![0, 0] S1x216)
    (old : S2x216.Idx → Elt F .bf16) (V : FVec F S1x216 .bf16) (hL : Good L a W)
    (hV : V = onehotRow (W ⟨a, pair_lt0 ha⟩)) :
    Good (⟨Rect.unit (s := S64x216) ![a, 0] S2x216.size ha, updateSlice old V ![0, 0] hs⟩ :: L) (a + 1) W := by
  intro k hk p
  by_cases h : k.val = a
  · obtain rfl : k = ⟨a, pair_lt0 ha⟩ := Fin.ext h
    rw [canon_pair_hit L a ha _ (0 : Fin 2) p _ rfl, updateSlice_row_hit _ _ 0 hs (0 : Fin 2) p rfl, hV, onehotRow_apply]
  · rw [canon_pair_off L a ha _ k p (Or.inl (by omega))]
    exact hL k (by omega) p

-- Second row of a pair: the pair's first row is what the load read back, which the earlier stores left good.
theorem good_odd {sp : Space} (v : View sig .tc sp S64x216 .bf16) {L : List (View.Piece (Elt F) S64x216 .bf16)}
    {W : Fin 64 → BitVec 32} (a : ℕ)
    (ha : ∀ x, (![a, 0] : Fin 2 → ℕ) x + S2x216.size x ≤ S64x216.size x) (hs : S2x216.Slices ![1, 0] S1x216)
    (old : S2x216.Idx → Elt F .bf16) (V : FVec F S1x216 .bf16) (hL : Good L (a + 1) W)
    (hV : V = onehotRow (W ⟨a + 1, pair_lt1 ha⟩))
    (hold : old = v.readCov L (Rect.unit (s := S64x216) ![a, 0] S2x216.size ha).toLoadRect) :
    Good (⟨Rect.unit (s := S64x216) ![a, 0] S2x216.size ha, updateSlice old V ![1, 0] hs⟩ :: L) (a + 2) W := by
  intro k hk p
  by_cases h : k.val = a + 1
  · obtain rfl : k = ⟨a + 1, pair_lt1 ha⟩ := Fin.ext h
    rw [canon_pair_hit L a ha _ (1 : Fin 2) p _ rfl, updateSlice_row_hit _ _ 1 hs (1 : Fin 2) p rfl, hV, onehotRow_apply]
  · by_cases h' : k.val = a
    · rw [canon_pair_hit L a ha _ (0 : Fin 2) p k (by simpa using h'),
        updateSlice_row_miss _ _ 1 hs (0 : Fin 2) p (by decide), hold, readCov_pair v L a ha (0 : Fin 2) p k (by simpa using h')]
      exact hL k (by omega) p
    · rw [canon_pair_off L a ha _ k p (Or.inl (by omega))]
      exact hL k (by omega) p

theorem idx_unit_zero {S : Shape} {off : Fin S.rank → Nat} (h : off = fun _ => 0)
    (inb : ∀ a, off a + S.size a ≤ S.size a) (x : S.Idx) :
    (Rect.unit off S.size inb).toLoadRect.idx x = x := by
  subst h
  exact Rect.emb_whole_apply S x

-- A whole-buffer load after 64 good stores reads, at row k, the one-hot row of word k.
theorem load_row {sp : Space} (v : View sig .tc sp S64x216 .bf16) {L : List (View.Piece (Elt F) S64x216 .bf16)} {W : Fin 64 → BitVec 32}
    (hL : Good L 64 W) (k : Fin 64) (p : Fin 216) :
    v.readCov L (Rect.unit (s := S64x216) ![0, 0] S64x216.size inb_S64x216_S64x216_0_0).toLoadRect (ix2 k p) = sel (F := F) (W k) p := by
  refine (congrFun (View.readCov_eq_canon' v L
    (Rect.unit (s := S64x216) ![0, 0] S64x216.size inb_S64x216_S64x216_0_0).toLoadRect) (ix2 k p)).trans ?_
  show View.canon _ ((Rect.unit (s := S64x216) ![0, 0] S64x216.size inb_S64x216_S64x216_0_0).toLoadRect.idx (ix2 k p)) = _
  rw [idx_unit_zero (S := S64x216) (by decide) inb_S64x216_S64x216_0_0 (ix2 k p)]
  exact hL k k.isLt p

def W10 (c : Dev nD) (i : grid0.Coords) (f2 : Buf (Elt F) (tb2.view.loc (c : Thread nD τ))) : Fin 64 → BitVec 32 :=
  ![kernelRun.sl.r c i f2, kernelRun.sl.r_3 c i f2, kernelRun.sl.r_6 c i f2, kernelRun.sl.r_9 c i f2, kernelRun.sl.r_12 c i f2, kernelRun.sl.r_16 c i f2, kernelRun.sl.r_20 c i f2, kernelRun.sl.r_24 c i f2, kernelRun.sl.r_27 c i f2, kernelRun.sl.r_30 c i f2, kernelRun.sl.r_33 c i f2, kernelRun.sl.r_36 c i f2, kernelRun.sl.r_40 c i f2, kernelRun.sl.r_44 c i f2, kernelRun.sl.r_47 c i f2, kernelRun.sl.r_50 c i f2, kernelRun.sl.r_53 c i f2, kernelRun.sl.r_56 c i f2, kernelRun.sl.r_59 c i f2, kernelRun.sl.r_63 c i f2, kernelRun.sl.r_67 c i f2, kernelRun.sl.r_70 c i f2, kernelRun.sl.r_73 c i f2, kernelRun.sl.r_76 c i f2, kernelRun.sl.r_79 c i f2, kernelRun.sl.r_83 c i f2, kernelRun.sl.r_87 c i f2, kernelRun.sl.r_91 c i f2, kernelRun.sl.r_94 c i f2, kernelRun.sl.r_97 c i f2, kernelRun.sl.r_100 c i f2, kernelRun.sl.r_103 c i f2, kernelRun.sl.r_107 c i f2, kernelRun.sl.r_111 c i f2, kernelRun.sl.r_114 c i f2, kernelRun.sl.r_117 c i f2, kernelRun.sl.r_120 c i f2, kernelRun.sl.r_123 c i f2, kernelRun.sl.r_126 c i f2, kernelRun.sl.r_130 c i f2, kernelRun.sl.r_134 c i f2, kernelRun.sl.r_137 c i f2, kernelRun.sl.r_140 c i f2, kernelRun.sl.r_143 c i f2, kernelRun.sl.r_146 c i f2, kernelRun.sl.r_150 c i f2, kernelRun.sl.r_154 c i f2, kernelRun.sl.r_158 c i f2, kernelRun.sl.r_161 c i f2, kernelRun.sl.r_164 c i f2, kernelRun.sl.r_167 c i f2, kernelRun.sl.r_170 c i f2, kernelRun.sl.r_174 c i f2, kernelRun.sl.r_178 c i f2, kernelRun.sl.r_181 c i f2, kernelRun.sl.r_184 c i f2, kernelRun.sl.r_187 c i f2, kernelRun.sl.r_190 c i f2, kernelRun.sl.r_193 c i f2, kernelRun.sl.r_197 c i f2, kernelRun.sl.r_201 c i f2, kernelRun.sl.r_204 c i f2, kernelRun.sl.r_207 c i f2, kernelRun.sl.r_210 c i f2]

-- The 64 stores alternate first and second row of the 32 pairs.
theorem g10_64 (c : Dev nD) (i : grid0.Coords) (f2 : Buf (Elt F) (tb2.view.loc (c : Thread nD τ))) (g10 : Buf (Elt F) (sc10.view.loc (c : Thread nD τ))) :
    Good (kernelRun.sl.H10_64 c i f2 g10) 64 (W10 c i f2) := by
  iterate 32 (refine good_odd sc10.view _ _ _ _ _ (good_even _ _ _ _ _ ?_ rfl) rfl rfl)
  exact good_nil _

theorem v2563_rowW (c : Dev nD) (i : grid0.Coords) (f2 : Buf (Elt F) (tb2.view.loc (c : Thread nD τ))) (g10 : Buf (Elt F) (sc10.view.loc (c : Thread nD τ))) (k : Fin 64) (p : Fin 216) :
    kernelRun.sl.v2563 c i f2 g10 (ix2 k p) = sel (W10 c i f2 k) p :=
  load_row sc10.view (g10_64 c i f2 g10) k p

theorem v2563_indep (c : Dev nD) (i : grid0.Coords) (f2 : Buf (Elt F) (tb2.view.loc (c : Thread nD τ))) (g10 g10' : Buf (Elt F) (sc10.view.loc (c : Thread nD τ))) :
    kernelRun.sl.v2563 c i f2 g10 = kernelRun.sl.v2563 c i f2 g10' := by
  funext j
  obtain ⟨k, p, rfl⟩ : ∃ (k : Fin 64) (p : Fin 216), j = ix2 k p := ⟨j 0, j 1, eq_ix2 j⟩
  rw [v2563_rowW, v2563_rowW]

def W11 (c : Dev nD) (i : grid0.Coords) (f4 : Buf (Elt F) (tb4.view.loc (c : Thread nD τ))) : Fin 64 → BitVec 32 :=
  ![kernelRun.sl.r_2 c i f4, kernelRun.sl.r_5 c i f4, kernelRun.sl.r_8 c i f4, kernelRun.sl.r_11 c i f4, kernelRun.sl.r_14 c i f4, kernelRun.sl.r_18 c i f4, kernelRun.sl.r_22 c i f4, kernelRun.sl.r_26 c i f4, kernelRun.sl.r_29 c i f4, kernelRun.sl.r_32 c i f4, kernelRun.sl.r_35 c i f4, kernelRun.sl.r_38 c i f4, kernelRun.sl.r_42 c i f4, kernelRun.sl.r_46 c i f4, kernelRun.sl.r_49 c i f4, kernelRun.sl.r_52 c i f4, kernelRun.sl.r_55 c i f4, kernelRun.sl.r_58 c i f4, kernelRun.sl.r_61 c i f4, kernelRun.sl.r_65 c i f4, kernelRun.sl.r_69 c i f4, kernelRun.sl.r_72 c i f4, kernelRun.sl.r_75 c i f4, kernelRun.sl.r_78 c i f4, kernelRun.sl.r_81 c i f4, kernelRun.sl.r_85 c i f4, kernelRun.sl.r_89 c i f4, kernelRun.sl.r_93 c i f4, kernelRun.sl.r_96 c i f4, kernelRun.sl.r_99 c i f4, kernelRun.sl.r_102 c i f4, kernelRun.sl.r_105 c i f4, kernelRun.sl.r_109 c i f4, kernelRun.sl.r_113 c i f4, kernelRun.sl.r_116 c i f4, kernelRun.sl.r_119 c i f4, kernelRun.sl.r_122 c i f4, kernelRun.sl.r_125 c i f4, kernelRun.sl.r_128 c i f4, kernelRun.sl.r_132 c i f4, kernelRun.sl.r_136 c i f4, kernelRun.sl.r_139 c i f4, kernelRun.sl.r_142 c i f4, kernelRun.sl.r_145 c i f4, kernelRun.sl.r_148 c i f4, kernelRun.sl.r_152 c i f4, kernelRun.sl.r_156 c i f4, kernelRun.sl.r_160 c i f4, kernelRun.sl.r_163 c i f4, kernelRun.sl.r_166 c i f4, kernelRun.sl.r_169 c i f4, kernelRun.sl.r_172 c i f4, kernelRun.sl.r_176 c i f4, kernelRun.sl.r_180 c i f4, kernelRun.sl.r_183 c i f4, kernelRun.sl.r_186 c i f4, kernelRun.sl.r_189 c i f4, kernelRun.sl.r_192 c i f4, kernelRun.sl.r_195 c i f4, kernelRun.sl.r_199 c i f4, kernelRun.sl.r_203 c i f4, kernelRun.sl.r_206 c i f4, kernelRun.sl.r_209 c i f4, kernelRun.sl.r_212 c i f4]

theorem g11_64 (c : Dev nD) (i : grid0.Coords) (f4 : Buf (Elt F) (tb4.view.loc (c : Thread nD τ))) (g11 : Buf (Elt F) (sc11.view.loc (c : Thread nD τ))) :
    Good (kernelRun.sl.H11_64 c i f4 g11) 64 (W11 c i f4) := by
  iterate 32 (refine good_odd sc11.view _ _ _ _ _ (good_even _ _ _ _ _ ?_ rfl) rfl rfl)
  exact good_nil _

theorem v2567_rowW (c : Dev nD) (i : grid0.Coords) (f4 : Buf (Elt F) (tb4.view.loc (c : Thread nD τ))) (g11 : Buf (Elt F) (sc11.view.loc (c : Thread nD τ))) (k : Fin 64) (p : Fin 216) :
    kernelRun.sl.v2567 c i f4 g11 (ix2 k p) = sel (W11 c i f4 k) p :=
  load_row sc11.view (g11_64 c i f4 g11) k p

theorem v2567_indep (c : Dev nD) (i : grid0.Coords) (f4 : Buf (Elt F) (tb4.view.loc (c : Thread nD τ))) (g11 g11' : Buf (Elt F) (sc11.view.loc (c : Thread nD τ))) :
    kernelRun.sl.v2567 c i f4 g11 = kernelRun.sl.v2567 c i f4 g11' := by
  funext j
  obtain ⟨k, p, rfl⟩ : ∃ (k : Fin 64) (p : Fin 216), j = ix2 k p := ⟨j 0, j 1, eq_ix2 j⟩
  rw [v2567_rowW, v2567_rowW]

end Cert.Kernel.Hand

end
-- ==== Proof.ClosedKernel.lean ====
/- The piece a point writes is a function of the two selectors as loaded, and those do not depend on what the work buffers held before; so the run and the frame hold outright. -/
import proofs.«403558_j46694884442289_3_alg».proof.Proof.FrameKernel
import proofs.«403558_j46694884442289_3_alg».proof.Proof.OneHotKernel

noncomputable section

namespace Cert.Kernel.Hand

open Cert.Kernel Cert.Kernel.Gen
open Idealize.ShloMosaic Idealize.ShloMosaic.TcCoe
open Idealize.SL Idealize.SL.Sem

variable {F : FTy → Type} [FloatOps F] [∀ e, Nonempty (Elt F e)]

theorem pieces_indep (c : Dev nD) (i : grid0.Coords)
    (arg5 : Memref sig .tc .vmem S1x216x256 .bf16) (harg5 : arg5.IsWhole) (arg7 : Memref sig .tc .vmem S1x216x256 .bf16) (harg7 : arg7.IsWhole)
    (arg8 : Memref sig .tc .vmem S1x64x16 .f32) (harg8 : arg8.IsWhole) (x5 x7 : Vec F S1x216x256 .bf16)
    (f2 : Buf (Elt F) (tb2.view.loc (c : Thread nD τ))) (f3 : Buf (Elt F) (tb3.view.loc (c : Thread nD τ))) (f4 : Buf (Elt F) (tb4.view.loc (c : Thread nD τ)))
    (fh : Buf (Elt F) (hb6.view.loc (c : Thread nD τ)))
    (g9 g9' : Buf (Elt F) (sc9.view.loc (c : Thread nD τ))) (g10 g10' : Buf (Elt F) (sc10.view.loc (c : Thread nD τ))) (g11 g11' : Buf (Elt F) (sc11.view.loc (c : Thread nD τ)))
    (hlt : ∀ j, (f3 j : BitVec 32).toNat < 216) :
    (kernelRun c i arg5 harg5 arg7 harg7 arg8 harg8 x5 x7 f2 f3 f4 fh g9 g10 g11 hlt).1 = (kernelRun c i arg5 harg5 arg7 harg7 arg8 harg8 x5 x7 f2 f3 f4 fh g9' g10' g11' hlt).1 := by
  show ([⟨Rect.unit (s := S1x64x16) ![0, 0, 0] S1x64x16.size inb_S1x64x16_S1x64x16_0_0_0, k0_pay148 (kernelRun.sl.v2563 c i f2 g10) _ (kernelRun.sl.v2567 c i f4 g11) _ _⟩] : List (View.Piece (Elt F) S1x64x16 .f32))
      = [⟨Rect.unit (s := S1x64x16) ![0, 0, 0] S1x64x16.size inb_S1x64x16_S1x64x16_0_0_0, k0_pay148 (kernelRun.sl.v2563 c i f2 g10') _ (kernelRun.sl.v2567 c i f4 g11') _ _⟩]
  rw [v2563_indep c i f2 g10 g10', v2567_indep c i f4 g11 g11']

theorem run_out_closed (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v11) = (dats m 0 c).arrAt 2 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_out m ρ (fun c i arg5 harg5 arg7 harg7 arg8 harg8 x5 x7 f2 f3 f4 fh g9 g10 g11 g9' g10' g11' hlt => by
    rw [pieces_indep c i arg5 harg5 arg7 harg7 arg8 harg8 x5 x7 f2 f3 f4 fh g9 g9' g10 g10' g11 g11' hlt])

theorem frame_closed (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_out_closed m ρ)

end Cert.Kernel.Hand

end
-- ==== Proof.lean ====
/- A tensor-train embedding lookup by a kernel and by a reference. Both split a flat index into three base-216 digits and contract the three core rows the digits pick (Spec). The kernel clamps a digit, the reference wraps a negative one; for a non-negative index, which the precondition gives, they pick the same rows, and both runs end at Spec.out. -/
import proofs.«403558_j46694884442289_3_alg».proof.Defs
import proofs.«403558_j46694884442289_3_alg».proof.Proof.Gen.Kernel
import proofs.«403558_j46694884442289_3_alg».proof.Proof.Gen.KernelIdeal
import proofs.«403558_j46694884442289_3_alg».proof.Proof.Gen.ReferenceIdeal
import proofs.«403558_j46694884442289_3_alg».proof.Proof.Gen.Pre_finite_inputs
import proofs.«403558_j46694884442289_3_alg».proof.Proof.PreDecode
import proofs.«403558_j46694884442289_3_alg».proof.Proof.RefValue
import proofs.«403558_j46694884442289_3_alg».proof.Proof.KernelValueIdeal
import proofs.«403558_j46694884442289_3_alg».proof.Proof.ClosedKernel
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame_closed (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame_closed (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Proof.Ref.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hnn : ∀ (c : Dev Cert.KernelIdeal.nD) j, 0 ≤ BitVec.toInt ((m ((c.tc : Thread _ _).loc Cert.KernelIdeal.main_arg0) : IVec Cert.Pre_finite_inputs.S2x1024 32) j) :=
    fun c => Cert.Proof.PreDecode.nonneg_of_pre (F := Ideal) _ _ _ _ (hpre c)
  refine ⟨_, Cert.KernelIdeal.Hand.run_spec m ρ, ?_⟩
  refine (θ_run Cert.ReferenceIdeal.defs _ _).mono (fun _ h c => ⟨(h c).1.trans ?_, (h c).2⟩)
    (Cert.Proof.Ref.run_spec m' ρ' (fun c j => by rw [(hagree c).1]; exact hnn c j))
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
